-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576 : Shape := ⟨1, ![1048576]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S1048576x64 .f32) (main_arg1 : IVec S1048576 32) (main_arg2 : IVec S1048576 32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_c_0 : IVec S_ 32 := constantI S_ 32 0#32
  let main_v4 : IVec S1048576 32 := broadcastInDim S1048576 ![] bcast_S_S1048576 main_c_0
  let main_v5 : IVec S1048576 1 := cmpi .sge main_arg2 main_v4
  let main_c_1 : IVec S_ 32 := constantI S_ 32 1048576#32
  let main_v6 : IVec S1048576 32 := broadcastInDim S1048576 ![] bcast_S_S1048576 main_c_1
  let main_v7 : IVec S1048576 1 := cmpi .slt main_arg2 main_v6
  let main_v8 : IVec S1048576 1 := andi main_v5 main_v7
  let main_c_2 : IVec S_ 1 := constantI S_ 1 1#1
  let main_v9 : IVec S_ 1 := (fun x v => Host.reduce IntOp.andi x v reducesTo_S1048576_S_d0 h_S_) main_v8 main_c_2
  let main_v10 : IVec S_ 1 := andi main_v3 main_v9
  main_v10
-- ==== Kernel.lean ====
abbrev S1048576x64 : Shape := ⟨2, ![1048576, 64]⟩
abbrev S1048576 : Shape := ⟨1, ![1048576]⟩
abbrev S1048576x1 : Shape := ⟨2, ![1048576, 1]⟩
abbrev S_ : Shape := ⟨0, ![]⟩
abbrev S1048576x128 : Shape := ⟨2, ![1048576, 128]⟩
abbrev S1048576x1x128 : Shape := ⟨3, ![1048576, 1, 128]⟩
abbrev S2x2048x128 : Shape := ⟨3, ![2, 2048, 128]⟩
abbrev S2x2048x1 : Shape := ⟨3, ![2, 2048, 1]⟩
abbrev S256 : Shape := ⟨1, ![256]⟩
abbrev S256x1 : Shape := ⟨2, ![256, 1]⟩
abbrev S1x2048x128 : Shape := ⟨3, ![1, 2048, 128]⟩
abbrev S1x2048x1 : Shape := ⟨3, ![1, 2048, 1]⟩
abbrev S256x128 : Shape := ⟨2, ![256, 128]⟩
abbrev S16x1x128 : Shape := ⟨3, ![16, 1, 128]⟩
abbrev S16 : Shape := ⟨1, ![16]⟩
abbrev S2048x128 : Shape := ⟨2, ![2048, 128]⟩
abbrev S2048x1 : Shape := ⟨2, ![2048, 1]⟩
abbrev S1 : Shape := ⟨1, ![1]⟩
abbrev S1x1x128 : Shape := ⟨3, ![1, 1, 128]⟩
abbrev S1x128 : Shape := ⟨2, ![1, 128]⟩
abbrev S128 : Shape := ⟨1, ![128]⟩
abbrev S2x128 : Shape := ⟨2, ![2, 128]⟩
abbrev S256x2048 : Shape := ⟨2, ![256, 2048]⟩
abbrev S1x2048x64 : Shape := ⟨3, ![1, 2048, 64]⟩
abbrev S2048x64 : Shape := ⟨2, ![2048, 64]⟩

abbrev nBuf : Space → Nat
  | .hbm => 25
  | .vmem => 8
  | .smem => 2
  | _ => 0

abbrev bufTy : (tb : Table) → Fin (tcTables nBuf tb) → BufTy
  | .hbm, ⟨0, _⟩ => ⟨S1048576x64, .f32⟩
  | .hbm, ⟨1, _⟩ => ⟨S1048576, .i32⟩
  | .hbm, ⟨2, _⟩ => ⟨S1048576, .i32⟩
  | .hbm, ⟨3, _⟩ => ⟨S1048576x1, .i32⟩
  | .hbm, ⟨4, _⟩ => ⟨S_, .i32⟩
  | .hbm, ⟨5, _⟩ => ⟨S_, .f32⟩
  | .hbm, ⟨6, _⟩ => ⟨S1048576x128, .f32⟩
  | .hbm, ⟨7, _⟩ => ⟨S1048576x1x128, .f32⟩
  | .hbm, ⟨8, _⟩ => ⟨S2x2048x128, .f32⟩
  | .hbm, ⟨9, _⟩ => ⟨S2x2048x1, .f32⟩
  | .hbm, ⟨10, _⟩ => ⟨S1x2048x64, .f32⟩
  | .hbm, ⟨11, _⟩ => ⟨S2048x64, .f32⟩
  | .hbm, ⟨12, _⟩ => ⟨S1x2048x64, .f32⟩
  | .hbm, ⟨13, _⟩ => ⟨S2048x64, .f32⟩
  | .hbm, ⟨14, _⟩ => ⟨S2048x64, .f32⟩
  | .hbm, ⟨15, _⟩ => ⟨S1x2048x1, .f32⟩
  | .hbm, ⟨16, _⟩ => ⟨S2048x1, .f32⟩
  | .hbm, ⟨17, _⟩ => ⟨S1x2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x64, .f32⟩
  | .hbm, ⟨24, _⟩ => ⟨S2048x64, .f32⟩
  | .local _ .vmem, ⟨0, _⟩ => ⟨S256x1, .i32⟩
  | .local _ .vmem, ⟨1, _⟩ => ⟨S256x1, .i32⟩
  | .local _ .vmem, ⟨2, _⟩ => ⟨S1x2048x128, .f32⟩
  | .local _ .vmem, ⟨3, _⟩ => ⟨S1x2048x128, .f32⟩
  | .local _ .vmem, ⟨4, _⟩ => ⟨S1x2048x1, .f32⟩
  | .local _ .vmem, ⟨5, _⟩ => ⟨S1x2048x1, .f32⟩
  | .local _ .vmem, ⟨6, _⟩ => ⟨S256x128, .bf16⟩
  | .local _ .vmem, ⟨7, _⟩ => ⟨S16x1x128, .f32⟩
  | .local _ .smem, ⟨0, _⟩ => ⟨S256, .i32⟩
  | .local _ .smem, ⟨1, _⟩ => ⟨S256, .i32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2048], ![false, false]⟩

def k0_off1 (v3 : BitVec 32) : Fin 3 → Nat :=
  let c0_i32_5 : BitVec 32 := 0#32
  let c0_i32_6 : BitVec 32 := 0#32
  ![v3.toNat, 0, 0]

def k0_chk1 (v3 : BitVec 32) : Prop :=
  (∀ a, (k0_off1 v3) a + S1x1x128.size a ≤ S1048576x1x128.size a)
instance k0_chk1.dec : ∀ (v3 : BitVec 32), Decidable (k0_chk1 v3) := fun v3 => decidable_of_iff' _ (Iff.of_eq (k0_chk1.eq_1 v3))
theorem k0_off1_inb : ∀ (v3 : BitVec 32) (k0_hw1 : k0_chk1 v3), ∀ a, (k0_off1 v3) a + S1x1x128.size a ≤ S1048576x1x128.size a := fun v3 k0_hw1 => k0_hw1

def k0_off2 (v10 : BitVec 32) : Fin 3 → Nat :=
  let c0_i32_10 : BitVec 32 := 0#32
  let c0_i32_11 : BitVec 32 := 0#32
  ![v10.toNat, 0, 0]

def k0_chk2 (v10 : BitVec 32) : Prop :=
  (∀ a, (k0_off2 v10) a + S1x1x128.size a ≤ S1048576x1x128.size a)
instance k0_chk2.dec : ∀ (v10 : BitVec 32), Decidable (k0_chk2 v10) := fun v10 => decidable_of_iff' _ (Iff.of_eq (k0_chk2.eq_1 v10))
theorem k0_off2_inb : ∀ (v10 : BitVec 32) (k0_hw2 : k0_chk2 v10), ∀ a, (k0_off2 v10) a + S1x1x128.size a ≤ S1048576x1x128.size a := fun v10 k0_hw2 => k0_hw2

def k0_off3 (v17 : BitVec 32) : Fin 3 → Nat :=
  let c0_i32_15 : BitVec 32 := 0#32
  let c0_i32_16 : BitVec 32 := 0#32
  ![v17.toNat, 0, 0]

def k0_chk3 (v17 : BitVec 32) : Prop :=
  (∀ a, (k0_off3 v17) a + S1x1x128.size a ≤ S1048576x1x128.size a)
instance k0_chk3.dec : ∀ (v17 : BitVec 32), Decidable (k0_chk3 v17) := fun v17 => decidable_of_iff' _ (Iff.of_eq (k0_chk3.eq_1 v17))
theorem k0_off3_inb : ∀ (v17 : BitVec 32) (k0_hw3 : k0_chk3 v17), ∀ a, (k0_off3 v17) a + S1x1x128.size a ≤ S1048576x1x128.size a := fun v17 k0_hw3 => k0_hw3

def k0_off4 (v24 : BitVec 32) : Fin 3 → Nat :=
  let c0_i32_20 : BitVec 32 := 0#32
  let c0_i32_21 : BitVec 32 := 0#32
  ![v24.toNat, 0, 0]

def k0_chk4 (v24 : BitVec 32) : Prop :=
  (∀ a, (k0_off4 v24) a + S1x1x128.size a ≤ S1048576x1x128.size a)
instance k0_chk4.dec : ∀ (v24 : BitVec 32), Decidable (k0_chk4 v24) := fun v24 => decidable_of_iff' _ (Iff.of_eq (k0_chk4.eq_1 v24))
theorem k0_off4_inb : ∀ (v24 : BitVec 32) (k0_hw4 : k0_chk4 v24), ∀ a, (k0_off4 v24) a + S1x1x128.size a ≤ S1048576x1x128.size a := fun v24 k0_hw4 => k0_hw4

def k0_off5 (v31 : BitVec 32) : Fin 3 → Nat :=
  let c0_i32_25 : BitVec 32 := 0#32
  let c0_i32_26 : BitVec 32 := 0#32
  ![v31.toNat, 0, 0]

def k0_chk5 (v31 : BitVec 32) : Prop :=
  (∀ a, (k0_off5 v31) a + S1x1x128.size a ≤ S1048576x1x128.size a)
instance k0_chk5.dec : ∀ (v31 : BitVec 32), Decidable (k0_chk5 v31) := fun v31 => decidable_of_iff' _ (Iff.of_eq (k0_chk5.eq_1 v31))
theorem k0_off5_inb : ∀ (v31 : BitVec 32) (k0_hw5 : k0_chk5 v31), ∀ a, (k0_off5 v31) a + S1x1x128.size a ≤ S1048576x1x128.size a := fun v31 k0_hw5 => k0_hw5

def k0_off6 (v38 : BitVec 32) : Fin 3 → Nat :=
  let c0_i32_30 : BitVec 32 := 0#32
  let c0_i32_31 : BitVec 32 := 0#32
  ![v38.toNat, 0, 0]

def k0_chk6 (v38 : BitVec 32) : Prop :=
  (∀ a, (k0_off6 v38) a + S1x1x128.size a ≤ S1048576x1x128.size a)
instance k0_chk6.dec : ∀ (v38 : BitVec 32), Decidable (k0_chk6 v38) := fun v38 => decidable_of_iff' _ (Iff.of_eq (k0_chk6.eq_1 v38))
theorem k0_off6_inb : ∀ (v38 : BitVec 32) (k0_hw6 : k0_chk6 v38), ∀ a, (k0_off6 v38) a + S1x1x128.size a ≤ S1048576x1x128.size a := fun v38 k0_hw6 => k0_hw6

def k0_off7 (v45 : BitVec 32) : Fin 3 → Nat :=
  let c0_i32_35 : BitVec 32 := 0#32
  let c0_i32_36 : BitVec 32 := 0#32
  ![v45.toNat, 0, 0]

def k0_chk7 (v45 : BitVec 32) : Prop :=
  (∀ a, (k0_off7 v45) a + S1x1x128.size a ≤ S1048576x1x128.size a)
instance k0_chk7.dec : ∀ (v45 : BitVec 32), Decidable (k0_chk7 v45) := fun v45 => decidable_of_iff' _ (Iff.of_eq (k0_chk7.eq_1 v45))
theorem k0_off7_inb : ∀ (v45 : BitVec 32) (k0_hw7 : k0_chk7 v45), ∀ a, (k0_off7 v45) a + S1x1x128.size a ≤ S1048576x1x128.size a := fun v45 k0_hw7 => k0_hw7

def k0_off8 (v52 : BitVec 32) : Fin 3 → Nat :=
  let c0_i32_40 : BitVec 32 := 0#32
  let c0_i32_41 : BitVec 32 := 0#32
  ![v52.toNat, 0, 0]

def k0_chk8 (v52 : BitVec 32) : Prop :=
  (∀ a, (k0_off8 v52) a + S1x1x128.size a ≤ S1048576x1x128.size a)
instance k0_chk8.dec : ∀ (v52 : BitVec 32), Decidable (k0_chk8 v52) := fun v52 => decidable_of_iff' _ (Iff.of_eq (k0_chk8.eq_1 v52))
theorem k0_off8_inb : ∀ (v52 : BitVec 32) (k0_hw8 : k0_chk8 v52), ∀ a, (k0_off8 v52) a + S1x1x128.size a ≤ S1048576x1x128.size a := fun v52 k0_hw8 => k0_hw8

def k0_off9 (v59 : BitVec 32) : Fin 3 → Nat :=
  let c0_i32_45 : BitVec 32 := 0#32
  let c0_i32_46 : BitVec 32 := 0#32
  ![v59.toNat, 0, 0]

def k0_chk9 (v59 : BitVec 32) : Prop :=
  (∀ a, (k0_off9 v59) a + S1x1x128.size a ≤ S1048576x1x128.size a)
instance k0_chk9.dec : ∀ (v59 : BitVec 32), Decidable (k0_chk9 v59) := fun v59 => decidable_of_iff' _ (Iff.of_eq (k0_chk9.eq_1 v59))
theorem k0_off9_inb : ∀ (v59 : BitVec 32) (k0_hw9 : k0_chk9 v59), ∀ a, (k0_off9 v59) a + S1x1x128.size a ≤ S1048576x1x128.size a := fun v59 k0_hw9 => k0_hw9

def k0_off10 (v66 : BitVec 32) : Fin 3 → Nat :=
  let c0_i32_50 : BitVec 32 := 0#32
  let c0_i32_51 : BitVec 32 := 0#32
  ![v66.toNat, 0, 0]

def k0_chk10 (v66 : BitVec 32) : Prop :=
  (∀ a, (k0_off10 v66) a + S1x1x128.size a ≤ S1048576x1x128.size a)
instance k0_chk10.dec : ∀ (v66 : BitVec 32), Decidable (k0_chk10 v66) := fun v66 => decidable_of_iff' _ (Iff.of_eq (k0_chk10.eq_1 v66))
theorem k0_off10_inb : ∀ (v66 : BitVec 32) (k0_hw10 : k0_chk10 v66), ∀ a, (k0_off10 v66) a + S1x1x128.size a ≤ S1048576x1x128.size a := fun v66 k0_hw10 => k0_hw10

def k0_off11 (v73 : BitVec 32) : Fin 3 → Nat :=
  let c0_i32_55 : BitVec 32 := 0#32
  let c0_i32_56 : BitVec 32 := 0#32
  ![v73.toNat, 0, 0]

def k0_chk11 (v73 : BitVec 32) : Prop :=
  (∀ a, (k0_off11 v73) a + S1x1x128.size a ≤ S1048576x1x128.size a)
instance k0_chk11.dec : ∀ (v73 : BitVec 32), Decidable (k0_chk11 v73) := fun v73 => decidable_of_iff' _ (Iff.of_eq (k0_chk11.eq_1 v73))
theorem k0_off11_inb : ∀ (v73 : BitVec 32) (k0_hw11 : k0_chk11 v73), ∀ a, (k0_off11 v73) a + S1x1x128.size a ≤ S1048576x1x128.size a := fun v73 k0_hw11 => k0_hw11

def k0_off12 (v80 : BitVec 32) : Fin 3 → Nat :=
  let c0_i32_60 : BitVec 32 := 0#32
  let c0_i32_61 : BitVec 32 := 0#32
  ![v80.toNat, 0, 0]

def k0_chk12 (v80 : BitVec 32) : Prop :=
  (∀ a, (k0_off12 v80) a + S1x1x128.size a ≤ S1048576x1x128.size a)
instance k0_chk12.dec : ∀ (v80 : BitVec 32), Decidable (k0_chk12 v80) := fun v80 => decidable_of_iff' _ (Iff.of_eq (k0_chk12.eq_1 v80))
theorem k0_off12_inb : ∀ (v80 : BitVec 32) (k0_hw12 : k0_chk12 v80), ∀ a, (k0_off12 v80) a + S1x1x128.size a ≤ S1048576x1x128.size a := fun v80 k0_hw12 => k0_hw12

def k0_off13 (v87 : BitVec 32) : Fin 3 → Nat :=
  let c0_i32_65 : BitVec 32 := 0#32
  let c0_i32_66 : BitVec 32 := 0#32
  ![v87.toNat, 0, 0]

def k0_chk13 (v87 : BitVec 32) : Prop :=
  (∀ a, (k0_off13 v87) a + S1x1x128.size a ≤ S1048576x1x128.size a)
instance k0_chk13.dec : ∀ (v87 : BitVec 32), Decidable (k0_chk13 v87) := fun v87 => decidable_of_iff' _ (Iff.of_eq (k0_chk13.eq_1 v87))
theorem k0_off13_inb : ∀ (v87 : BitVec 32) (k0_hw13 : k0_chk13 v87), ∀ a, (k0_off13 v87) a + S1x1x128.size a ≤ S1048576x1x128.size a := fun v87 k0_hw13 => k0_hw13

def k0_off14 (v94 : BitVec 32) : Fin 3 → Nat :=
  let c0_i32_70 : BitVec 32 := 0#32
  let c0_i32_71 : BitVec 32 := 0#32
  ![v94.toNat, 0, 0]

def k0_chk14 (v94 : BitVec 32) : Prop :=
  (∀ a, (k0_off14 v94) a + S1x1x128.size a ≤ S1048576x1x128.size a)
instance k0_chk14.dec : ∀ (v94 : BitVec 32), Decidable (k0_chk14 v94) := fun v94 => decidable_of_iff' _ (Iff.of_eq (k0_chk14.eq_1 v94))
theorem k0_off14_inb : ∀ (v94 : BitVec 32) (k0_hw14 : k0_chk14 v94), ∀ a, (k0_off14 v94) a + S1x1x128.size a ≤ S1048576x1x128.size a := fun v94 k0_hw14 => k0_hw14

def k0_off15 (v101 : BitVec 32) : Fin 3 → Nat :=
  let c0_i32_75 : BitVec 32 := 0#32
  let c0_i32_76 : BitVec 32 := 0#32
  ![v101.toNat, 0, 0]

def k0_chk15 (v101 : BitVec 32) : Prop :=
  (∀ a, (k0_off15 v101) a + S1x1x128.size a ≤ S1048576x1x128.size a)
instance k0_chk15.dec : ∀ (v101 : BitVec 32), Decidable (k0_chk15 v101) := fun v101 => decidable_of_iff' _ (Iff.of_eq (k0_chk15.eq_1 v101))
theorem k0_off15_inb : ∀ (v101 : BitVec 32) (k0_hw15 : k0_chk15 v101), ∀ a, (k0_off15 v101) a + S1x1x128.size a ≤ S1048576x1x128.size a := fun v101 k0_hw15 => k0_hw15

def k0_off16 (v108 : BitVec 32) : Fin 3 → Nat :=
  let c0_i32_80 : BitVec 32 := 0#32
  let c0_i32_81 : BitVec 32 := 0#32
  ![v108.toNat, 0, 0]

def k0_chk16 (v108 : BitVec 32) : Prop :=
  (∀ a, (k0_off16 v108) a + S1x1x128.size a ≤ S1048576x1x128.size a)
instance k0_chk16.dec : ∀ (v108 : BitVec 32), Decidable (k0_chk16 v108) := fun v108 => decidable_of_iff' _ (Iff.of_eq (k0_chk16.eq_1 v108))
theorem k0_off16_inb : ∀ (v108 : BitVec 32) (k0_hw16 : k0_chk16 v108), ∀ a, (k0_off16 v108) a + S1x1x128.size a ≤ S1048576x1x128.size a := fun v108 k0_hw16 => k0_hw16

def k0_off17 (v127 : BitVec 32) : Fin 3 → Nat :=
  let c0_i32_98 : BitVec 32 := 0#32
  let c0_i32_99 : BitVec 32 := 0#32
  ![v127.toNat, 0, 0]

def k0_chk17 (v127 : BitVec 32) : Prop :=
  (∀ a, (k0_off17 v127) a + S1x1x128.size a ≤ S1048576x1x128.size a)
instance k0_chk17.dec : ∀ (v127 : BitVec 32), Decidable (k0_chk17 v127) := fun v127 => decidable_of_iff' _ (Iff.of_eq (k0_chk17.eq_1 v127))
theorem k0_off17_inb : ∀ (v127 : BitVec 32) (k0_hw17 : k0_chk17 v127), ∀ a, (k0_off17 v127) a + S1x1x128.size a ≤ S1048576x1x128.size a := fun v127 k0_hw17 => k0_hw17

def k0_off18 (v146 : BitVec 32) : Fin 3 → Nat :=
  let c0_i32_116 : BitVec 32 := 0#32
  let c0_i32_117 : BitVec 32 := 0#32
  ![v146.toNat, 0, 0]

def k0_chk18 (v146 : BitVec 32) : Prop :=
  (∀ a, (k0_off18 v146) a + S1x1x128.size a ≤ S1048576x1x128.size a)
instance k0_chk18.dec : ∀ (v146 : BitVec 32), Decidable (k0_chk18 v146) := fun v146 => decidable_of_iff' _ (Iff.of_eq (k0_chk18.eq_1 v146))
theorem k0_off18_inb : ∀ (v146 : BitVec 32) (k0_hw18 : k0_chk18 v146), ∀ a, (k0_off18 v146) a + S1x1x128.size a ≤ S1048576x1x128.size a := fun v146 k0_hw18 => k0_hw18

def k0_off19 (v165 : BitVec 32) : Fin 3 → Nat :=
  let c0_i32_134 : BitVec 32 := 0#32
  let c0_i32_135 : BitVec 32 := 0#32
  ![v165.toNat, 0, 0]

def k0_chk19 (v165 : BitVec 32) : Prop :=
  (∀ a, (k0_off19 v165) a + S1x1x128.size a ≤ S1048576x1x128.size a)
instance k0_chk19.dec : ∀ (v165 : BitVec 32), Decidable (k0_chk19 v165) := fun v165 => decidable_of_iff' _ (Iff.of_eq (k0_chk19.eq_1 v165))
theorem k0_off19_inb : ∀ (v165 : BitVec 32) (k0_hw19 : k0_chk19 v165), ∀ a, (k0_off19 v165) a + S1x1x128.size a ≤ S1048576x1x128.size a := fun v165 k0_hw19 => k0_hw19

def k0_off20 (v184 : BitVec 32) : Fin 3 → Nat :=
  let c0_i32_152 : BitVec 32 := 0#32
  let c0_i32_153 : BitVec 32 := 0#32
  ![v184.toNat, 0, 0]

def k0_chk20 (v184 : BitVec 32) : Prop :=
  (∀ a, (k0_off20 v184) a + S1x1x128.size a ≤ S1048576x1x128.size a)
instance k0_chk20.dec : ∀ (v184 : BitVec 32), Decidable (k0_chk20 v184) := fun v184 => decidable_of_iff' _ (Iff.of_eq (k0_chk20.eq_1 v184))
theorem k0_off20_inb : ∀ (v184 : BitVec 32) (k0_hw20 : k0_chk20 v184), ∀ a, (k0_off20 v184) a + S1x1x128.size a ≤ S1048576x1x128.size a := fun v184 k0_hw20 => k0_hw20

def k0_off21 (v203 : BitVec 32) : Fin 3 → Nat :=
  let c0_i32_170 : BitVec 32 := 0#32
  let c0_i32_171 : BitVec 32 := 0#32
  ![v203.toNat, 0, 0]

def k0_chk21 (v203 : BitVec 32) : Prop :=
  (∀ a, (k0_off21 v203) a + S1x1x128.size a ≤ S1048576x1x128.size a)
instance k0_chk21.dec : ∀ (v203 : BitVec 32), Decidable (k0_chk21 v203) := fun v203 => decidable_of_iff' _ (Iff.of_eq (k0_chk21.eq_1 v203))
theorem k0_off21_inb : ∀ (v203 : BitVec 32) (k0_hw21 : k0_chk21 v203), ∀ a, (k0_off21 v203) a + S1x1x128.size a ≤ S1048576x1x128.size a := fun v203 k0_hw21 => k0_hw21

def k0_off22 (v222 : BitVec 32) : Fin 3 → Nat :=
  let c0_i32_188 : BitVec 32 := 0#32
  let c0_i32_189 : BitVec 32 := 0#32
  ![v222.toNat, 0, 0]

def k0_chk22 (v222 : BitVec 32) : Prop :=
  (∀ a, (k0_off22 v222) a + S1x1x128.size a ≤ S1048576x1x128.size a)
instance k0_chk22.dec : ∀ (v222 : BitVec 32), Decidable (k0_chk22 v222) := fun v222 => decidable_of_iff' _ (Iff.of_eq (k0_chk22.eq_1 v222))
theorem k0_off22_inb : ∀ (v222 : BitVec 32) (k0_hw22 : k0_chk22 v222), ∀ a, (k0_off22 v222) a + S1x1x128.size a ≤ S1048576x1x128.size a := fun v222 k0_hw22 => k0_hw22

def k0_off23 (v241 : BitVec 32) : Fin 3 → Nat :=
  let c0_i32_206 : BitVec 32 := 0#32
  let c0_i32_207 : BitVec 32 := 0#32
  ![v241.toNat, 0, 0]

def k0_chk23 (v241 : BitVec 32) : Prop :=
  (∀ a, (k0_off23 v241) a + S1x1x128.size a ≤ S1048576x1x128.size a)
instance k0_chk23.dec : ∀ (v241 : BitVec 32), Decidable (k0_chk23 v241) := fun v241 => decidable_of_iff' _ (Iff.of_eq (k0_chk23.eq_1 v241))
theorem k0_off23_inb : ∀ (v241 : BitVec 32) (k0_hw23 : k0_chk23 v241), ∀ a, (k0_off23 v241) a + S1x1x128.size a ≤ S1048576x1x128.size a := fun v241 k0_hw23 => k0_hw23

def k0_off24 (v260 : BitVec 32) : Fin 3 → Nat :=
  let c0_i32_224 : BitVec 32 := 0#32
  let c0_i32_225 : BitVec 32 := 0#32
  ![v260.toNat, 0, 0]

def k0_chk24 (v260 : BitVec 32) : Prop :=
  (∀ a, (k0_off24 v260) a + S1x1x128.size a ≤ S1048576x1x128.size a)
instance k0_chk24.dec : ∀ (v260 : BitVec 32), Decidable (k0_chk24 v260) := fun v260 => decidable_of_iff' _ (Iff.of_eq (k0_chk24.eq_1 v260))
theorem k0_off24_inb : ∀ (v260 : BitVec 32) (k0_hw24 : k0_chk24 v260), ∀ a, (k0_off24 v260) a + S1x1x128.size a ≤ S1048576x1x128.size a := fun v260 k0_hw24 => k0_hw24

def k0_off25 (v279 : BitVec 32) : Fin 3 → Nat :=
  let c0_i32_242 : BitVec 32 := 0#32
  let c0_i32_243 : BitVec 32 := 0#32
  ![v279.toNat, 0, 0]

def k0_chk25 (v279 : BitVec 32) : Prop :=
  (∀ a, (k0_off25 v279) a + S1x1x128.size a ≤ S1048576x1x128.size a)
instance k0_chk25.dec : ∀ (v279 : BitVec 32), Decidable (k0_chk25 v279) := fun v279 => decidable_of_iff' _ (Iff.of_eq (k0_chk25.eq_1 v279))
theorem k0_off25_inb : ∀ (v279 : BitVec 32) (k0_hw25 : k0_chk25 v279), ∀ a, (k0_off25 v279) a + S1x1x128.size a ≤ S1048576x1x128.size a := fun v279 k0_hw25 => k0_hw25

def k0_off26 (v298 : BitVec 32) : Fin 3 → Nat :=
  let c0_i32_260 : BitVec 32 := 0#32
  let c0_i32_261 : BitVec 32 := 0#32
  ![v298.toNat, 0, 0]

def k0_chk26 (v298 : BitVec 32) : Prop :=
  (∀ a, (k0_off26 v298) a + S1x1x128.size a ≤ S1048576x1x128.size a)
instance k0_chk26.dec : ∀ (v298 : BitVec 32), Decidable (k0_chk26 v298) := fun v298 => decidable_of_iff' _ (Iff.of_eq (k0_chk26.eq_1 v298))
theorem k0_off26_inb : ∀ (v298 : BitVec 32) (k0_hw26 : k0_chk26 v298), ∀ a, (k0_off26 v298) a + S1x1x128.size a ≤ S1048576x1x128.size a := fun v298 k0_hw26 => k0_hw26

def k0_off27 (v317 : BitVec 32) : Fin 3 → Nat :=
  let c0_i32_278 : BitVec 32 := 0#32
  let c0_i32_279 : BitVec 32 := 0#32
  ![v317.toNat, 0, 0]

def k0_chk27 (v317 : BitVec 32) : Prop :=
  (∀ a, (k0_off27 v317) a + S1x1x128.size a ≤ S1048576x1x128.size a)
instance k0_chk27.dec : ∀ (v317 : BitVec 32), Decidable (k0_chk27 v317) := fun v317 => decidable_of_iff' _ (Iff.of_eq (k0_chk27.eq_1 v317))
theorem k0_off27_inb : ∀ (v317 : BitVec 32) (k0_hw27 : k0_chk27 v317), ∀ a, (k0_off27 v317) a + S1x1x128.size a ≤ S1048576x1x128.size a := fun v317 k0_hw27 => k0_hw27

def k0_off28 (v336 : BitVec 32) : Fin 3 → Nat :=
  let c0_i32_296 : BitVec 32 := 0#32
  let c0_i32_297 : BitVec 32 := 0#32
  ![v336.toNat, 0, 0]

def k0_chk28 (v336 : BitVec 32) : Prop :=
  (∀ a, (k0_off28 v336) a + S1x1x128.size a ≤ S1048576x1x128.size a)
instance k0_chk28.dec : ∀ (v336 : BitVec 32), Decidable (k0_chk28 v336) := fun v336 => decidable_of_iff' _ (Iff.of_eq (k0_chk28.eq_1 v336))
theorem k0_off28_inb : ∀ (v336 : BitVec 32) (k0_hw28 : k0_chk28 v336), ∀ a, (k0_off28 v336) a + S1x1x128.size a ≤ S1048576x1x128.size a := fun v336 k0_hw28 => k0_hw28

def k0_off29 (v355 : BitVec 32) : Fin 3 → Nat :=
  let c0_i32_314 : BitVec 32 := 0#32
  let c0_i32_315 : BitVec 32 := 0#32
  ![v355.toNat, 0, 0]

def k0_chk29 (v355 : BitVec 32) : Prop :=
  (∀ a, (k0_off29 v355) a + S1x1x128.size a ≤ S1048576x1x128.size a)
instance k0_chk29.dec : ∀ (v355 : BitVec 32), Decidable (k0_chk29 v355) := fun v355 => decidable_of_iff' _ (Iff.of_eq (k0_chk29.eq_1 v355))
theorem k0_off29_inb : ∀ (v355 : BitVec 32) (k0_hw29 : k0_chk29 v355), ∀ a, (k0_off29 v355) a + S1x1x128.size a ≤ S1048576x1x128.size a := fun v355 k0_hw29 => k0_hw29

def k0_off30 (v374 : BitVec 32) : Fin 3 → Nat :=
  let c0_i32_332 : BitVec 32 := 0#32
  let c0_i32_333 : BitVec 32 := 0#32
  ![v374.toNat, 0, 0]

def k0_chk30 (v374 : BitVec 32) : Prop :=
  (∀ a, (k0_off30 v374) a + S1x1x128.size a ≤ S1048576x1x128.size a)
instance k0_chk30.dec : ∀ (v374 : BitVec 32), Decidable (k0_chk30 v374) := fun v374 => decidable_of_iff' _ (Iff.of_eq (k0_chk30.eq_1 v374))
theorem k0_off30_inb : ∀ (v374 : BitVec 32) (k0_hw30 : k0_chk30 v374), ∀ a, (k0_off30 v374) a + S1x1x128.size a ≤ S1048576x1x128.size a := fun v374 k0_hw30 => k0_hw30

def k0_off31 (v393 : BitVec 32) : Fin 3 → Nat :=
  let c0_i32_350 : BitVec 32 := 0#32
  let c0_i32_351 : BitVec 32 := 0#32
  ![v393.toNat, 0, 0]

def k0_chk31 (v393 : BitVec 32) : Prop :=
  (∀ a, (k0_off31 v393) a + S1x1x128.size a ≤ S1048576x1x128.size a)
instance k0_chk31.dec : ∀ (v393 : BitVec 32), Decidable (k0_chk31 v393) := fun v393 => decidable_of_iff' _ (Iff.of_eq (k0_chk31.eq_1 v393))
theorem k0_off31_inb : ∀ (v393 : BitVec 32) (k0_hw31 : k0_chk31 v393), ∀ a, (k0_off31 v393) a + S1x1x128.size a ≤ S1048576x1x128.size a := fun v393 k0_hw31 => k0_hw31

def k0_off32 (v412 : BitVec 32) : Fin 3 → Nat :=
  let c0_i32_368 : BitVec 32 := 0#32
  let c0_i32_369 : BitVec 32 := 0#32
  ![v412.toNat, 0, 0]

def k0_chk32 (v412 : BitVec 32) : Prop :=
  (∀ a, (k0_off32 v412) a + S1x1x128.size a ≤ S1048576x1x128.size a)
instance k0_chk32.dec : ∀ (v412 : BitVec 32), Decidable (k0_chk32 v412) := fun v412 => decidable_of_iff' _ (Iff.of_eq (k0_chk32.eq_1 v412))
theorem k0_off32_inb : ∀ (v412 : BitVec 32) (k0_hw32 : k0_chk32 v412), ∀ a, (k0_off32 v412) a + S1x1x128.size a ≤ S1048576x1x128.size a := fun v412 k0_hw32 => k0_hw32

def k0_off33 (v431 : BitVec 32) : Fin 3 → Nat :=
  let c0_i32_386 : BitVec 32 := 0#32
  let c0_i32_387 : BitVec 32 := 0#32
  ![v431.toNat, 0, 0]

def k0_chk33 (v431 : BitVec 32) : Prop :=
  (∀ a, (k0_off33 v431) a + S1x1x128.size a ≤ S1048576x1x128.size a)
instance k0_chk33.dec : ∀ (v431 : BitVec 32), Decidable (k0_chk33 v431) := fun v431 => decidable_of_iff' _ (Iff.of_eq (k0_chk33.eq_1 v431))
theorem k0_off33_inb : ∀ (v431 : BitVec 32) (k0_hw33 : k0_chk33 v431), ∀ a, (k0_off33 v431) a + S1x1x128.size a ≤ S1048576x1x128.size a := fun v431 k0_hw33 => k0_hw33

def k0_off34 (v450 : BitVec 32) : Fin 3 → Nat :=
  let c0_i32_404 : BitVec 32 := 0#32
  let c0_i32_405 : BitVec 32 := 0#32
  ![v450.toNat, 0, 0]

def k0_chk34 (v450 : BitVec 32) : Prop :=
  (∀ a, (k0_off34 v450) a + S1x1x128.size a ≤ S1048576x1x128.size a)
instance k0_chk34.dec : ∀ (v450 : BitVec 32), Decidable (k0_chk34 v450) := fun v450 => decidable_of_iff' _ (Iff.of_eq (k0_chk34.eq_1 v450))
theorem k0_off34_inb : ∀ (v450 : BitVec 32) (k0_hw34 : k0_chk34 v450), ∀ a, (k0_off34 v450) a + S1x1x128.size a ≤ S1048576x1x128.size a := fun v450 k0_hw34 => k0_hw34

def k0_off35 (v469 : BitVec 32) : Fin 3 → Nat :=
  let c0_i32_422 : BitVec 32 := 0#32
  let c0_i32_423 : BitVec 32 := 0#32
  ![v469.toNat, 0, 0]

def k0_chk35 (v469 : BitVec 32) : Prop :=
  (∀ a, (k0_off35 v469) a + S1x1x128.size a ≤ S1048576x1x128.size a)
instance k0_chk35.dec : ∀ (v469 : BitVec 32), Decidable (k0_chk35 v469) := fun v469 => decidable_of_iff' _ (Iff.of_eq (k0_chk35.eq_1 v469))
theorem k0_off35_inb : ∀ (v469 : BitVec 32) (k0_hw35 : k0_chk35 v469), ∀ a, (k0_off35 v469) a + S1x1x128.size a ≤ S1048576x1x128.size a := fun v469 k0_hw35 => k0_hw35

def k0_off36 (v488 : BitVec 32) : Fin 3 → Nat :=
  let c0_i32_440 : BitVec 32 := 0#32
  let c0_i32_441 : BitVec 32 := 0#32
  ![v488.toNat, 0, 0]

def k0_chk36 (v488 : BitVec 32) : Prop :=
  (∀ a, (k0_off36 v488) a + S1x1x128.size a ≤ S1048576x1x128.size a)
instance k0_chk36.dec : ∀ (v488 : BitVec 32), Decidable (k0_chk36 v488) := fun v488 => decidable_of_iff' _ (Iff.of_eq (k0_chk36.eq_1 v488))
theorem k0_off36_inb : ∀ (v488 : BitVec 32) (k0_hw36 : k0_chk36 v488), ∀ a, (k0_off36 v488) a + S1x1x128.size a ≤ S1048576x1x128.size a := fun v488 k0_hw36 => k0_hw36

def k0_off37 (v507 : BitVec 32) : Fin 3 → Nat :=
  let c0_i32_458 : BitVec 32 := 0#32
  let c0_i32_459 : BitVec 32 := 0#32
  ![v507.toNat, 0, 0]

def k0_chk37 (v507 : BitVec 32) : Prop :=
  (∀ a, (k0_off37 v507) a + S1x1x128.size a ≤ S1048576x1x128.size a)
instance k0_chk37.dec : ∀ (v507 : BitVec 32), Decidable (k0_chk37 v507) := fun v507 => decidable_of_iff' _ (Iff.of_eq (k0_chk37.eq_1 v507))
theorem k0_off37_inb : ∀ (v507 : BitVec 32) (k0_hw37 : k0_chk37 v507), ∀ a, (k0_off37 v507) a + S1x1x128.size a ≤ S1048576x1x128.size a := fun v507 k0_hw37 => k0_hw37

def k0_off38 (v526 : BitVec 32) : Fin 3 → Nat :=
  let c0_i32_476 : BitVec 32 := 0#32
  let c0_i32_477 : BitVec 32 := 0#32
  ![v526.toNat, 0, 0]

def k0_chk38 (v526 : BitVec 32) : Prop :=
  (∀ a, (k0_off38 v526) a + S1x1x128.size a ≤ S1048576x1x128.size a)
instance k0_chk38.dec : ∀ (v526 : BitVec 32), Decidable (k0_chk38 v526) := fun v526 => decidable_of_iff' _ (Iff.of_eq (k0_chk38.eq_1 v526))
theorem k0_off38_inb : ∀ (v526 : BitVec 32) (k0_hw38 : k0_chk38 v526), ∀ a, (k0_off38 v526) a + S1x1x128.size a ≤ S1048576x1x128.size a := fun v526 k0_hw38 => k0_hw38

def k0_off39 (v545 : BitVec 32) : Fin 3 → Nat :=
  let c0_i32_494 : BitVec 32 := 0#32
  let c0_i32_495 : BitVec 32 := 0#32
  ![v545.toNat, 0, 0]

def k0_chk39 (v545 : BitVec 32) : Prop :=
  (∀ a, (k0_off39 v545) a + S1x1x128.size a ≤ S1048576x1x128.size a)
instance k0_chk39.dec : ∀ (v545 : BitVec 32), Decidable (k0_chk39 v545) := fun v545 => decidable_of_iff' _ (Iff.of_eq (k0_chk39.eq_1 v545))
theorem k0_off39_inb : ∀ (v545 : BitVec 32) (k0_hw39 : k0_chk39 v545), ∀ a, (k0_off39 v545) a + S1x1x128.size a ≤ S1048576x1x128.size a := fun v545 k0_hw39 => k0_hw39

def k0_off40 (v564 : BitVec 32) : Fin 3 → Nat :=
  let c0_i32_512 : BitVec 32 := 0#32
  let c0_i32_513 : BitVec 32 := 0#32
  ![v564.toNat, 0, 0]

def k0_chk40 (v564 : BitVec 32) : Prop :=
  (∀ a, (k0_off40 v564) a + S1x1x128.size a ≤ S1048576x1x128.size a)
instance k0_chk40.dec : ∀ (v564 : BitVec 32), Decidable (k0_chk40 v564) := fun v564 => decidable_of_iff' _ (Iff.of_eq (k0_chk40.eq_1 v564))
theorem k0_off40_inb : ∀ (v564 : BitVec 32) (k0_hw40 : k0_chk40 v564), ∀ a, (k0_off40 v564) a + S1x1x128.size a ≤ S1048576x1x128.size a := fun v564 k0_hw40 => k0_hw40

def k0_off41 (v583 : BitVec 32) : Fin 3 → Nat :=
  let c0_i32_530 : BitVec 32 := 0#32
  let c0_i32_531 : BitVec 32 := 0#32
  ![v583.toNat, 0, 0]

def k0_chk41 (v583 : BitVec 32) : Prop :=
  (∀ a, (k0_off41 v583) a + S1x1x128.size a ≤ S1048576x1x128.size a)
instance k0_chk41.dec : ∀ (v583 : BitVec 32), Decidable (k0_chk41 v583) := fun v583 => decidable_of_iff' _ (Iff.of_eq (k0_chk41.eq_1 v583))
theorem k0_off41_inb : ∀ (v583 : BitVec 32) (k0_hw41 : k0_chk41 v583), ∀ a, (k0_off41 v583) a + S1x1x128.size a ≤ S1048576x1x128.size a := fun v583 k0_hw41 => k0_hw41

def k0_off42 (v602 : BitVec 32) : Fin 3 → Nat :=
  let c0_i32_548 : BitVec 32 := 0#32
  let c0_i32_549 : BitVec 32 := 0#32
  ![v602.toNat, 0, 0]

def k0_chk42 (v602 : BitVec 32) : Prop :=
  (∀ a, (k0_off42 v602) a + S1x1x128.size a ≤ S1048576x1x128.size a)
instance k0_chk42.dec : ∀ (v602 : BitVec 32), Decidable (k0_chk42 v602) := fun v602 => decidable_of_iff' _ (Iff.of_eq (k0_chk42.eq_1 v602))
theorem k0_off42_inb : ∀ (v602 : BitVec 32) (k0_hw42 : k0_chk42 v602), ∀ a, (k0_off42 v602) a + S1x1x128.size a ≤ S1048576x1x128.size a := fun v602 k0_hw42 => k0_hw42

def k0_off43 (v621 : BitVec 32) : Fin 3 → Nat :=
  let c0_i32_566 : BitVec 32 := 0#32
  let c0_i32_567 : BitVec 32 := 0#32
  ![v621.toNat, 0, 0]

def k0_chk43 (v621 : BitVec 32) : Prop :=
  (∀ a, (k0_off43 v621) a + S1x1x128.size a ≤ S1048576x1x128.size a)
instance k0_chk43.dec : ∀ (v621 : BitVec 32), Decidable (k0_chk43 v621) := fun v621 => decidable_of_iff' _ (Iff.of_eq (k0_chk43.eq_1 v621))
theorem k0_off43_inb : ∀ (v621 : BitVec 32) (k0_hw43 : k0_chk43 v621), ∀ a, (k0_off43 v621) a + S1x1x128.size a ≤ S1048576x1x128.size a := fun v621 k0_hw43 => k0_hw43

def k0_off44 (v640 : BitVec 32) : Fin 3 → Nat :=
  let c0_i32_584 : BitVec 32 := 0#32
  let c0_i32_585 : BitVec 32 := 0#32
  ![v640.toNat, 0, 0]

def k0_chk44 (v640 : BitVec 32) : Prop :=
  (∀ a, (k0_off44 v640) a + S1x1x128.size a ≤ S1048576x1x128.size a)
instance k0_chk44.dec : ∀ (v640 : BitVec 32), Decidable (k0_chk44 v640) := fun v640 => decidable_of_iff' _ (Iff.of_eq (k0_chk44.eq_1 v640))
theorem k0_off44_inb : ∀ (v640 : BitVec 32) (k0_hw44 : k0_chk44 v640), ∀ a, (k0_off44 v640) a + S1x1x128.size a ≤ S1048576x1x128.size a := fun v640 k0_hw44 => k0_hw44

def k0_off45 (v659 : BitVec 32) : Fin 3 → Nat :=
  let c0_i32_602 : BitVec 32 := 0#32
  let c0_i32_603 : BitVec 32 := 0#32
  ![v659.toNat, 0, 0]

def k0_chk45 (v659 : BitVec 32) : Prop :=
  (∀ a, (k0_off45 v659) a + S1x1x128.size a ≤ S1048576x1x128.size a)
instance k0_chk45.dec : ∀ (v659 : BitVec 32), Decidable (k0_chk45 v659) := fun v659 => decidable_of_iff' _ (Iff.of_eq (k0_chk45.eq_1 v659))
theorem k0_off45_inb : ∀ (v659 : BitVec 32) (k0_hw45 : k0_chk45 v659), ∀ a, (k0_off45 v659) a + S1x1x128.size a ≤ S1048576x1x128.size a := fun v659 k0_hw45 => k0_hw45

def k0_off46 (v678 : BitVec 32) : Fin 3 → Nat :=
  let c0_i32_620 : BitVec 32 := 0#32
  let c0_i32_621 : BitVec 32 := 0#32
  ![v678.toNat, 0, 0]

def k0_chk46 (v678 : BitVec 32) : Prop :=
  (∀ a, (k0_off46 v678) a + S1x1x128.size a ≤ S1048576x1x128.size a)
instance k0_chk46.dec : ∀ (v678 : BitVec 32), Decidable (k0_chk46 v678) := fun v678 => decidable_of_iff' _ (Iff.of_eq (k0_chk46.eq_1 v678))
theorem k0_off46_inb : ∀ (v678 : BitVec 32) (k0_hw46 : k0_chk46 v678), ∀ a, (k0_off46 v678) a + S1x1x128.size a ≤ S1048576x1x128.size a := fun v678 k0_hw46 => k0_hw46

def k0_off47 (v697 : BitVec 32) : Fin 3 → Nat :=
  let c0_i32_638 : BitVec 32 := 0#32
  let c0_i32_639 : BitVec 32 := 0#32
  ![v697.toNat, 0, 0]

def k0_chk47 (v697 : BitVec 32) : Prop :=
  (∀ a, (k0_off47 v697) a + S1x1x128.size a ≤ S1048576x1x128.size a)
instance k0_chk47.dec : ∀ (v697 : BitVec 32), Decidable (k0_chk47 v697) := fun v697 => decidable_of_iff' _ (Iff.of_eq (k0_chk47.eq_1 v697))
theorem k0_off47_inb : ∀ (v697 : BitVec 32) (k0_hw47 : k0_chk47 v697), ∀ a, (k0_off47 v697) a + S1x1x128.size a ≤ S1048576x1x128.size a := fun v697 k0_hw47 => k0_hw47

def k0_off48 (v716 : BitVec 32) : Fin 3 → Nat :=
  let c0_i32_656 : BitVec 32 := 0#32
  let c0_i32_657 : BitVec 32 := 0#32
  ![v716.toNat, 0, 0]

def k0_chk48 (v716 : BitVec 32) : Prop :=
  (∀ a, (k0_off48 v716) a + S1x1x128.size a ≤ S1048576x1x128.size a)
instance k0_chk48.dec : ∀ (v716 : BitVec 32), Decidable (k0_chk48 v716) := fun v716 => decidable_of_iff' _ (Iff.of_eq (k0_chk48.eq_1 v716))
theorem k0_off48_inb : ∀ (v716 : BitVec 32) (k0_hw48 : k0_chk48 v716), ∀ a, (k0_off48 v716) a + S1x1x128.size a ≤ S1048576x1x128.size a := fun v716 k0_hw48 => k0_hw48

def k0_off49 (v735 : BitVec 32) : Fin 3 → Nat :=
  let c0_i32_674 : BitVec 32 := 0#32
  let c0_i32_675 : BitVec 32 := 0#32
  ![v735.toNat, 0, 0]

def k0_chk49 (v735 : BitVec 32) : Prop :=
  (∀ a, (k0_off49 v735) a + S1x1x128.size a ≤ S1048576x1x128.size a)
instance k0_chk49.dec : ∀ (v735 : BitVec 32), Decidable (k0_chk49 v735) := fun v735 => decidable_of_iff' _ (Iff.of_eq (k0_chk49.eq_1 v735))
theorem k0_off49_inb : ∀ (v735 : BitVec 32) (k0_hw49 : k0_chk49 v735), ∀ a, (k0_off49 v735) a + S1x1x128.size a ≤ S1048576x1x128.size a := fun v735 k0_hw49 => k0_hw49

def k0_off50 (v754 : BitVec 32) : Fin 3 → Nat :=
  let c0_i32_692 : BitVec 32 := 0#32
  let c0_i32_693 : BitVec 32 := 0#32
  ![v754.toNat, 0, 0]

def k0_chk50 (v754 : BitVec 32) : Prop :=
  (∀ a, (k0_off50 v754) a + S1x1x128.size a ≤ S1048576x1x128.size a)
instance k0_chk50.dec : ∀ (v754 : BitVec 32), Decidable (k0_chk50 v754) := fun v754 => decidable_of_iff' _ (Iff.of_eq (k0_chk50.eq_1 v754))
theorem k0_off50_inb : ∀ (v754 : BitVec 32) (k0_hw50 : k0_chk50 v754), ∀ a, (k0_off50 v754) a + S1x1x128.size a ≤ S1048576x1x128.size a := fun v754 k0_hw50 => k0_hw50

def k0_off51 (v773 : BitVec 32) : Fin 3 → Nat :=
  let c0_i32_710 : BitVec 32 := 0#32
  let c0_i32_711 : BitVec 32 := 0#32
  ![v773.toNat, 0, 0]

def k0_chk51 (v773 : BitVec 32) : Prop :=
  (∀ a, (k0_off51 v773) a + S1x1x128.size a ≤ S1048576x1x128.size a)
instance k0_chk51.dec : ∀ (v773 : BitVec 32), Decidable (k0_chk51 v773) := fun v773 => decidable_of_iff' _ (Iff.of_eq (k0_chk51.eq_1 v773))
theorem k0_off51_inb : ∀ (v773 : BitVec 32) (k0_hw51 : k0_chk51 v773), ∀ a, (k0_off51 v773) a + S1x1x128.size a ≤ S1048576x1x128.size a := fun v773 k0_hw51 => k0_hw51

def k0_off52 (v792 : BitVec 32) : Fin 3 → Nat :=
  let c0_i32_728 : BitVec 32 := 0#32
  let c0_i32_729 : BitVec 32 := 0#32
  ![v792.toNat, 0, 0]

def k0_chk52 (v792 : BitVec 32) : Prop :=
  (∀ a, (k0_off52 v792) a + S1x1x128.size a ≤ S1048576x1x128.size a)
instance k0_chk52.dec : ∀ (v792 : BitVec 32), Decidable (k0_chk52 v792) := fun v792 => decidable_of_iff' _ (Iff.of_eq (k0_chk52.eq_1 v792))
theorem k0_off52_inb : ∀ (v792 : BitVec 32) (k0_hw52 : k0_chk52 v792), ∀ a, (k0_off52 v792) a + S1x1x128.size a ≤ S1048576x1x128.size a := fun v792 k0_hw52 => k0_hw52

def k0_off53 (v811 : BitVec 32) : Fin 3 → Nat :=
  let c0_i32_746 : BitVec 32 := 0#32
  let c0_i32_747 : BitVec 32 := 0#32
  ![v811.toNat, 0, 0]

def k0_chk53 (v811 : BitVec 32) : Prop :=
  (∀ a, (k0_off53 v811) a + S1x1x128.size a ≤ S1048576x1x128.size a)
instance k0_chk53.dec : ∀ (v811 : BitVec 32), Decidable (k0_chk53 v811) := fun v811 => decidable_of_iff' _ (Iff.of_eq (k0_chk53.eq_1 v811))
theorem k0_off53_inb : ∀ (v811 : BitVec 32) (k0_hw53 : k0_chk53 v811), ∀ a, (k0_off53 v811) a + S1x1x128.size a ≤ S1048576x1x128.size a := fun v811 k0_hw53 => k0_hw53

def k0_off54 (v830 : BitVec 32) : Fin 3 → Nat :=
  let c0_i32_764 : BitVec 32 := 0#32
  let c0_i32_765 : BitVec 32 := 0#32
  ![v830.toNat, 0, 0]

def k0_chk54 (v830 : BitVec 32) : Prop :=
  (∀ a, (k0_off54 v830) a + S1x1x128.size a ≤ S1048576x1x128.size a)
instance k0_chk54.dec : ∀ (v830 : BitVec 32), Decidable (k0_chk54 v830) := fun v830 => decidable_of_iff' _ (Iff.of_eq (k0_chk54.eq_1 v830))
theorem k0_off54_inb : ∀ (v830 : BitVec 32) (k0_hw54 : k0_chk54 v830), ∀ a, (k0_off54 v830) a + S1x1x128.size a ≤ S1048576x1x128.size a := fun v830 k0_hw54 => k0_hw54

def k0_off55 (v849 : BitVec 32) : Fin 3 → Nat :=
  let c0_i32_782 : BitVec 32 := 0#32
  let c0_i32_783 : BitVec 32 := 0#32
  ![v849.toNat, 0, 0]

def k0_chk55 (v849 : BitVec 32) : Prop :=
  (∀ a, (k0_off55 v849) a + S1x1x128.size a ≤ S1048576x1x128.size a)
instance k0_chk55.dec : ∀ (v849 : BitVec 32), Decidable (k0_chk55 v849) := fun v849 => decidable_of_iff' _ (Iff.of_eq (k0_chk55.eq_1 v849))
theorem k0_off55_inb : ∀ (v849 : BitVec 32) (k0_hw55 : k0_chk55 v849), ∀ a, (k0_off55 v849) a + S1x1x128.size a ≤ S1048576x1x128.size a := fun v849 k0_hw55 => k0_hw55

def k0_off56 (v868 : BitVec 32) : Fin 3 → Nat :=
  let c0_i32_800 : BitVec 32 := 0#32
  let c0_i32_801 : BitVec 32 := 0#32
  ![v868.toNat, 0, 0]

def k0_chk56 (v868 : BitVec 32) : Prop :=
  (∀ a, (k0_off56 v868) a + S1x1x128.size a ≤ S1048576x1x128.size a)
instance k0_chk56.dec : ∀ (v868 : BitVec 32), Decidable (k0_chk56 v868) := fun v868 => decidable_of_iff' _ (Iff.of_eq (k0_chk56.eq_1 v868))
theorem k0_off56_inb : ∀ (v868 : BitVec 32) (k0_hw56 : k0_chk56 v868), ∀ a, (k0_off56 v868) a + S1x1x128.size a ≤ S1048576x1x128.size a := fun v868 k0_hw56 => k0_hw56

def k0_off57 (v887 : BitVec 32) : Fin 3 → Nat :=
  let c0_i32_818 : BitVec 32 := 0#32
  let c0_i32_819 : BitVec 32 := 0#32
  ![v887.toNat, 0, 0]

def k0_chk57 (v887 : BitVec 32) : Prop :=
  (∀ a, (k0_off57 v887) a + S1x1x128.size a ≤ S1048576x1x128.size a)
instance k0_chk57.dec : ∀ (v887 : BitVec 32), Decidable (k0_chk57 v887) := fun v887 => decidable_of_iff' _ (Iff.of_eq (k0_chk57.eq_1 v887))
theorem k0_off57_inb : ∀ (v887 : BitVec 32) (k0_hw57 : k0_chk57 v887), ∀ a, (k0_off57 v887) a + S1x1x128.size a ≤ S1048576x1x128.size a := fun v887 k0_hw57 => k0_hw57

def k0_off58 (v906 : BitVec 32) : Fin 3 → Nat :=
  let c0_i32_836 : BitVec 32 := 0#32
  let c0_i32_837 : BitVec 32 := 0#32
  ![v906.toNat, 0, 0]

def k0_chk58 (v906 : BitVec 32) : Prop :=
  (∀ a, (k0_off58 v906) a + S1x1x128.size a ≤ S1048576x1x128.size a)
instance k0_chk58.dec : ∀ (v906 : BitVec 32), Decidable (k0_chk58 v906) := fun v906 => decidable_of_iff' _ (Iff.of_eq (k0_chk58.eq_1 v906))
theorem k0_off58_inb : ∀ (v906 : BitVec 32) (k0_hw58 : k0_chk58 v906), ∀ a, (k0_off58 v906) a + S1x1x128.size a ≤ S1048576x1x128.size a := fun v906 k0_hw58 => k0_hw58

def k0_off59 (v925 : BitVec 32) : Fin 3 → Nat :=
  let c0_i32_854 : BitVec 32 := 0#32
  let c0_i32_855 : BitVec 32 := 0#32
  ![v925.toNat, 0, 0]

def k0_chk59 (v925 : BitVec 32) : Prop :=
  (∀ a, (k0_off59 v925) a + S1x1x128.size a ≤ S1048576x1x128.size a)
instance k0_chk59.dec : ∀ (v925 : BitVec 32), Decidable (k0_chk59 v925) := fun v925 => decidable_of_iff' _ (Iff.of_eq (k0_chk59.eq_1 v925))
theorem k0_off59_inb : ∀ (v925 : BitVec 32) (k0_hw59 : k0_chk59 v925), ∀ a, (k0_off59 v925) a + S1x1x128.size a ≤ S1048576x1x128.size a := fun v925 k0_hw59 => k0_hw59

def k0_off60 (v944 : BitVec 32) : Fin 3 → Nat :=
  let c0_i32_872 : BitVec 32 := 0#32
  let c0_i32_873 : BitVec 32 := 0#32
  ![v944.toNat, 0, 0]

def k0_chk60 (v944 : BitVec 32) : Prop :=
  (∀ a, (k0_off60 v944) a + S1x1x128.size a ≤ S1048576x1x128.size a)
instance k0_chk60.dec : ∀ (v944 : BitVec 32), Decidable (k0_chk60 v944) := fun v944 => decidable_of_iff' _ (Iff.of_eq (k0_chk60.eq_1 v944))
theorem k0_off60_inb : ∀ (v944 : BitVec 32) (k0_hw60 : k0_chk60 v944), ∀ a, (k0_off60 v944) a + S1x1x128.size a ≤ S1048576x1x128.size a := fun v944 k0_hw60 => k0_hw60

def k0_off61 (v963 : BitVec 32) : Fin 3 → Nat :=
  let c0_i32_890 : BitVec 32 := 0#32
  let c0_i32_891 : BitVec 32 := 0#32
  ![v963.toNat, 0, 0]

def k0_chk61 (v963 : BitVec 32) : Prop :=
  (∀ a, (k0_off61 v963) a + S1x1x128.size a ≤ S1048576x1x128.size a)
instance k0_chk61.dec : ∀ (v963 : BitVec 32), Decidable (k0_chk61 v963) := fun v963 => decidable_of_iff' _ (Iff.of_eq (k0_chk61.eq_1 v963))
theorem k0_off61_inb : ∀ (v963 : BitVec 32) (k0_hw61 : k0_chk61 v963), ∀ a, (k0_off61 v963) a + S1x1x128.size a ≤ S1048576x1x128.size a := fun v963 k0_hw61 => k0_hw61

def k0_off62 (v982 : BitVec 32) : Fin 3 → Nat :=
  let c0_i32_908 : BitVec 32 := 0#32
  let c0_i32_909 : BitVec 32 := 0#32
  ![v982.toNat, 0, 0]

def k0_chk62 (v982 : BitVec 32) : Prop :=
  (∀ a, (k0_off62 v982) a + S1x1x128.size a ≤ S1048576x1x128.size a)
instance k0_chk62.dec : ∀ (v982 : BitVec 32), Decidable (k0_chk62 v982) := fun v982 => decidable_of_iff' _ (Iff.of_eq (k0_chk62.eq_1 v982))
theorem k0_off62_inb : ∀ (v982 : BitVec 32) (k0_hw62 : k0_chk62 v982), ∀ a, (k0_off62 v982) a + S1x1x128.size a ≤ S1048576x1x128.size a := fun v982 k0_hw62 => k0_hw62

def k0_off63 (v1001 : BitVec 32) : Fin 3 → Nat :=
  let c0_i32_926 : BitVec 32 := 0#32
  let c0_i32_927 : BitVec 32 := 0#32
  ![v1001.toNat, 0, 0]

def k0_chk63 (v1001 : BitVec 32) : Prop :=
  (∀ a, (k0_off63 v1001) a + S1x1x128.size a ≤ S1048576x1x128.size a)
instance k0_chk63.dec : ∀ (v1001 : BitVec 32), Decidable (k0_chk63 v1001) := fun v1001 => decidable_of_iff' _ (Iff.of_eq (k0_chk63.eq_1 v1001))
theorem k0_off63_inb : ∀ (v1001 : BitVec 32) (k0_hw63 : k0_chk63 v1001), ∀ a, (k0_off63 v1001) a + S1x1x128.size a ≤ S1048576x1x128.size a := fun v1001 k0_hw63 => k0_hw63

def k0_off64 (v1020 : BitVec 32) : Fin 3 → Nat :=
  let c0_i32_944 : BitVec 32 := 0#32
  let c0_i32_945 : BitVec 32 := 0#32
  ![v1020.toNat, 0, 0]

def k0_chk64 (v1020 : BitVec 32) : Prop :=
  (∀ a, (k0_off64 v1020) a + S1x1x128.size a ≤ S1048576x1x128.size a)
instance k0_chk64.dec : ∀ (v1020 : BitVec 32), Decidable (k0_chk64 v1020) := fun v1020 => decidable_of_iff' _ (Iff.of_eq (k0_chk64.eq_1 v1020))
theorem k0_off64_inb : ∀ (v1020 : BitVec 32) (k0_hw64 : k0_chk64 v1020), ∀ a, (k0_off64 v1020) a + S1x1x128.size a ≤ S1048576x1x128.size a := fun v1020 k0_hw64 => k0_hw64

def k0_off65 (v1039 : BitVec 32) : Fin 3 → Nat :=
  let c0_i32_962 : BitVec 32 := 0#32
  let c0_i32_963 : BitVec 32 := 0#32
  ![v1039.toNat, 0, 0]

def k0_chk65 (v1039 : BitVec 32) : Prop :=
  (∀ a, (k0_off65 v1039) a + S1x1x128.size a ≤ S1048576x1x128.size a)
instance k0_chk65.dec : ∀ (v1039 : BitVec 32), Decidable (k0_chk65 v1039) := fun v1039 => decidable_of_iff' _ (Iff.of_eq (k0_chk65.eq_1 v1039))
theorem k0_off65_inb : ∀ (v1039 : BitVec 32) (k0_hw65 : k0_chk65 v1039), ∀ a, (k0_off65 v1039) a + S1x1x128.size a ≤ S1048576x1x128.size a := fun v1039 k0_hw65 => k0_hw65

def k0_off66 (v1058 : BitVec 32) : Fin 3 → Nat :=
  let c0_i32_980 : BitVec 32 := 0#32
  let c0_i32_981 : BitVec 32 := 0#32
  ![v1058.toNat, 0, 0]

def k0_chk66 (v1058 : BitVec 32) : Prop :=
  (∀ a, (k0_off66 v1058) a + S1x1x128.size a ≤ S1048576x1x128.size a)
instance k0_chk66.dec : ∀ (v1058 : BitVec 32), Decidable (k0_chk66 v1058) := fun v1058 => decidable_of_iff' _ (Iff.of_eq (k0_chk66.eq_1 v1058))
theorem k0_off66_inb : ∀ (v1058 : BitVec 32) (k0_hw66 : k0_chk66 v1058), ∀ a, (k0_off66 v1058) a + S1x1x128.size a ≤ S1048576x1x128.size a := fun v1058 k0_hw66 => k0_hw66

def k0_off67 (v1077 : BitVec 32) : Fin 3 → Nat :=
  let c0_i32_998 : BitVec 32 := 0#32
  let c0_i32_999 : BitVec 32 := 0#32
  ![v1077.toNat, 0, 0]

def k0_chk67 (v1077 : BitVec 32) : Prop :=
  (∀ a, (k0_off67 v1077) a + S1x1x128.size a ≤ S1048576x1x128.size a)
instance k0_chk67.dec : ∀ (v1077 : BitVec 32), Decidable (k0_chk67 v1077) := fun v1077 => decidable_of_iff' _ (Iff.of_eq (k0_chk67.eq_1 v1077))
theorem k0_off67_inb : ∀ (v1077 : BitVec 32) (k0_hw67 : k0_chk67 v1077), ∀ a, (k0_off67 v1077) a + S1x1x128.size a ≤ S1048576x1x128.size a := fun v1077 k0_hw67 => k0_hw67

def k0_off68 (v1096 : BitVec 32) : Fin 3 → Nat :=
  let c0_i32_1016 : BitVec 32 := 0#32
  let c0_i32_1017 : BitVec 32 := 0#32
  ![v1096.toNat, 0, 0]

def k0_chk68 (v1096 : BitVec 32) : Prop :=
  (∀ a, (k0_off68 v1096) a + S1x1x128.size a ≤ S1048576x1x128.size a)
instance k0_chk68.dec : ∀ (v1096 : BitVec 32), Decidable (k0_chk68 v1096) := fun v1096 => decidable_of_iff' _ (Iff.of_eq (k0_chk68.eq_1 v1096))
theorem k0_off68_inb : ∀ (v1096 : BitVec 32) (k0_hw68 : k0_chk68 v1096), ∀ a, (k0_off68 v1096) a + S1x1x128.size a ≤ S1048576x1x128.size a := fun v1096 k0_hw68 => k0_hw68

def k0_off69 (v1115 : BitVec 32) : Fin 3 → Nat :=
  let c0_i32_1034 : BitVec 32 := 0#32
  let c0_i32_1035 : BitVec 32 := 0#32
  ![v1115.toNat, 0, 0]

def k0_chk69 (v1115 : BitVec 32) : Prop :=
  (∀ a, (k0_off69 v1115) a + S1x1x128.size a ≤ S1048576x1x128.size a)
instance k0_chk69.dec : ∀ (v1115 : BitVec 32), Decidable (k0_chk69 v1115) := fun v1115 => decidable_of_iff' _ (Iff.of_eq (k0_chk69.eq_1 v1115))
theorem k0_off69_inb : ∀ (v1115 : BitVec 32) (k0_hw69 : k0_chk69 v1115), ∀ a, (k0_off69 v1115) a + S1x1x128.size a ≤ S1048576x1x128.size a := fun v1115 k0_hw69 => k0_hw69

def k0_off70 (v1134 : BitVec 32) : Fin 3 → Nat :=
  let c0_i32_1052 : BitVec 32 := 0#32
  let c0_i32_1053 : BitVec 32 := 0#32
  ![v1134.toNat, 0, 0]

def k0_chk70 (v1134 : BitVec 32) : Prop :=
  (∀ a, (k0_off70 v1134) a + S1x1x128.size a ≤ S1048576x1x128.size a)
instance k0_chk70.dec : ∀ (v1134 : BitVec 32), Decidable (k0_chk70 v1134) := fun v1134 => decidable_of_iff' _ (Iff.of_eq (k0_chk70.eq_1 v1134))
theorem k0_off70_inb : ∀ (v1134 : BitVec 32) (k0_hw70 : k0_chk70 v1134), ∀ a, (k0_off70 v1134) a + S1x1x128.size a ≤ S1048576x1x128.size a := fun v1134 k0_hw70 => k0_hw70

def k0_off71 (v1153 : BitVec 32) : Fin 3 → Nat :=
  let c0_i32_1070 : BitVec 32 := 0#32
  let c0_i32_1071 : BitVec 32 := 0#32
  ![v1153.toNat, 0, 0]

def k0_chk71 (v1153 : BitVec 32) : Prop :=
  (∀ a, (k0_off71 v1153) a + S1x1x128.size a ≤ S1048576x1x128.size a)
instance k0_chk71.dec : ∀ (v1153 : BitVec 32), Decidable (k0_chk71 v1153) := fun v1153 => decidable_of_iff' _ (Iff.of_eq (k0_chk71.eq_1 v1153))
theorem k0_off71_inb : ∀ (v1153 : BitVec 32) (k0_hw71 : k0_chk71 v1153), ∀ a, (k0_off71 v1153) a + S1x1x128.size a ≤ S1048576x1x128.size a := fun v1153 k0_hw71 => k0_hw71

def k0_off72 (v1172 : BitVec 32) : Fin 3 → Nat :=
  let c0_i32_1088 : BitVec 32 := 0#32
  let c0_i32_1089 : BitVec 32 := 0#32
  ![v1172.toNat, 0, 0]

def k0_chk72 (v1172 : BitVec 32) : Prop :=
  (∀ a, (k0_off72 v1172) a + S1x1x128.size a ≤ S1048576x1x128.size a)
instance k0_chk72.dec : ∀ (v1172 : BitVec 32), Decidable (k0_chk72 v1172) := fun v1172 => decidable_of_iff' _ (Iff.of_eq (k0_chk72.eq_1 v1172))
theorem k0_off72_inb : ∀ (v1172 : BitVec 32) (k0_hw72 : k0_chk72 v1172), ∀ a, (k0_off72 v1172) a + S1x1x128.size a ≤ S1048576x1x128.size a := fun v1172 k0_hw72 => k0_hw72

def k0_off73 (v1191 : BitVec 32) : Fin 3 → Nat :=
  let c0_i32_1106 : BitVec 32 := 0#32
  let c0_i32_1107 : BitVec 32 := 0#32
  ![v1191.toNat, 0, 0]

def k0_chk73 (v1191 : BitVec 32) : Prop :=
  (∀ a, (k0_off73 v1191) a + S1x1x128.size a ≤ S1048576x1x128.size a)
instance k0_chk73.dec : ∀ (v1191 : BitVec 32), Decidable (k0_chk73 v1191) := fun v1191 => decidable_of_iff' _ (Iff.of_eq (k0_chk73.eq_1 v1191))
theorem k0_off73_inb : ∀ (v1191 : BitVec 32) (k0_hw73 : k0_chk73 v1191), ∀ a, (k0_off73 v1191) a + S1x1x128.size a ≤ S1048576x1x128.size a := fun v1191 k0_hw73 => k0_hw73

def k0_off74 (v1210 : BitVec 32) : Fin 3 → Nat :=
  let c0_i32_1124 : BitVec 32 := 0#32
  let c0_i32_1125 : BitVec 32 := 0#32
  ![v1210.toNat, 0, 0]

def k0_chk74 (v1210 : BitVec 32) : Prop :=
  (∀ a, (k0_off74 v1210) a + S1x1x128.size a ≤ S1048576x1x128.size a)
instance k0_chk74.dec : ∀ (v1210 : BitVec 32), Decidable (k0_chk74 v1210) := fun v1210 => decidable_of_iff' _ (Iff.of_eq (k0_chk74.eq_1 v1210))
theorem k0_off74_inb : ∀ (v1210 : BitVec 32) (k0_hw74 : k0_chk74 v1210), ∀ a, (k0_off74 v1210) a + S1x1x128.size a ≤ S1048576x1x128.size a := fun v1210 k0_hw74 => k0_hw74

def k0_off75 (v1229 : BitVec 32) : Fin 3 → Nat :=
  let c0_i32_1142 : BitVec 32 := 0#32
  let c0_i32_1143 : BitVec 32 := 0#32
  ![v1229.toNat, 0, 0]

def k0_chk75 (v1229 : BitVec 32) : Prop :=
  (∀ a, (k0_off75 v1229) a + S1x1x128.size a ≤ S1048576x1x128.size a)
instance k0_chk75.dec : ∀ (v1229 : BitVec 32), Decidable (k0_chk75 v1229) := fun v1229 => decidable_of_iff' _ (Iff.of_eq (k0_chk75.eq_1 v1229))
theorem k0_off75_inb : ∀ (v1229 : BitVec 32) (k0_hw75 : k0_chk75 v1229), ∀ a, (k0_off75 v1229) a + S1x1x128.size a ≤ S1048576x1x128.size a := fun v1229 k0_hw75 => k0_hw75

def k0_off76 (v1248 : BitVec 32) : Fin 3 → Nat :=
  let c0_i32_1160 : BitVec 32 := 0#32
  let c0_i32_1161 : BitVec 32 := 0#32
  ![v1248.toNat, 0, 0]

def k0_chk76 (v1248 : BitVec 32) : Prop :=
  (∀ a, (k0_off76 v1248) a + S1x1x128.size a ≤ S1048576x1x128.size a)
instance k0_chk76.dec : ∀ (v1248 : BitVec 32), Decidable (k0_chk76 v1248) := fun v1248 => decidable_of_iff' _ (Iff.of_eq (k0_chk76.eq_1 v1248))
theorem k0_off76_inb : ∀ (v1248 : BitVec 32) (k0_hw76 : k0_chk76 v1248), ∀ a, (k0_off76 v1248) a + S1x1x128.size a ≤ S1048576x1x128.size a := fun v1248 k0_hw76 => k0_hw76

def k0_off77 (v1267 : BitVec 32) : Fin 3 → Nat :=
  let c0_i32_1178 : BitVec 32 := 0#32
  let c0_i32_1179 : BitVec 32 := 0#32
  ![v1267.toNat, 0, 0]

def k0_chk77 (v1267 : BitVec 32) : Prop :=
  (∀ a, (k0_off77 v1267) a + S1x1x128.size a ≤ S1048576x1x128.size a)
instance k0_chk77.dec : ∀ (v1267 : BitVec 32), Decidable (k0_chk77 v1267) := fun v1267 => decidable_of_iff' _ (Iff.of_eq (k0_chk77.eq_1 v1267))
theorem k0_off77_inb : ∀ (v1267 : BitVec 32) (k0_hw77 : k0_chk77 v1267), ∀ a, (k0_off77 v1267) a + S1x1x128.size a ≤ S1048576x1x128.size a := fun v1267 k0_hw77 => k0_hw77

def k0_off78 (v1286 : BitVec 32) : Fin 3 → Nat :=
  let c0_i32_1196 : BitVec 32 := 0#32
  let c0_i32_1197 : BitVec 32 := 0#32
  ![v1286.toNat, 0, 0]

def k0_chk78 (v1286 : BitVec 32) : Prop :=
  (∀ a, (k0_off78 v1286) a + S1x1x128.size a ≤ S1048576x1x128.size a)
instance k0_chk78.dec : ∀ (v1286 : BitVec 32), Decidable (k0_chk78 v1286) := fun v1286 => decidable_of_iff' _ (Iff.of_eq (k0_chk78.eq_1 v1286))
theorem k0_off78_inb : ∀ (v1286 : BitVec 32) (k0_hw78 : k0_chk78 v1286), ∀ a, (k0_off78 v1286) a + S1x1x128.size a ≤ S1048576x1x128.size a := fun v1286 k0_hw78 => k0_hw78

def k0_off79 (v1305 : BitVec 32) : Fin 3 → Nat :=
  let c0_i32_1214 : BitVec 32 := 0#32
  let c0_i32_1215 : BitVec 32 := 0#32
  ![v1305.toNat, 0, 0]

def k0_chk79 (v1305 : BitVec 32) : Prop :=
  (∀ a, (k0_off79 v1305) a + S1x1x128.size a ≤ S1048576x1x128.size a)
instance k0_chk79.dec : ∀ (v1305 : BitVec 32), Decidable (k0_chk79 v1305) := fun v1305 => decidable_of_iff' _ (Iff.of_eq (k0_chk79.eq_1 v1305))
theorem k0_off79_inb : ∀ (v1305 : BitVec 32) (k0_hw79 : k0_chk79 v1305), ∀ a, (k0_off79 v1305) a + S1x1x128.size a ≤ S1048576x1x128.size a := fun v1305 k0_hw79 => k0_hw79

def k0_off80 (v1324 : BitVec 32) : Fin 3 → Nat :=
  let c0_i32_1232 : BitVec 32 := 0#32
  let c0_i32_1233 : BitVec 32 := 0#32
  ![v1324.toNat, 0, 0]

def k0_chk80 (v1324 : BitVec 32) : Prop :=
  (∀ a, (k0_off80 v1324) a + S1x1x128.size a ≤ S1048576x1x128.size a)
instance k0_chk80.dec : ∀ (v1324 : BitVec 32), Decidable (k0_chk80 v1324) := fun v1324 => decidable_of_iff' _ (Iff.of_eq (k0_chk80.eq_1 v1324))
theorem k0_off80_inb : ∀ (v1324 : BitVec 32) (k0_hw80 : k0_chk80 v1324), ∀ a, (k0_off80 v1324) a + S1x1x128.size a ≤ S1048576x1x128.size a := fun v1324 k0_hw80 => k0_hw80

def k0_off81 (v1343 : BitVec 32) : Fin 3 → Nat :=
  let c0_i32_1250 : BitVec 32 := 0#32
  let c0_i32_1251 : BitVec 32 := 0#32
  ![v1343.toNat, 0, 0]

def k0_chk81 (v1343 : BitVec 32) : Prop :=
  (∀ a, (k0_off81 v1343) a + S1x1x128.size a ≤ S1048576x1x128.size a)
instance k0_chk81.dec : ∀ (v1343 : BitVec 32), Decidable (k0_chk81 v1343) := fun v1343 => decidable_of_iff' _ (Iff.of_eq (k0_chk81.eq_1 v1343))
theorem k0_off81_inb : ∀ (v1343 : BitVec 32) (k0_hw81 : k0_chk81 v1343), ∀ a, (k0_off81 v1343) a + S1x1x128.size a ≤ S1048576x1x128.size a := fun v1343 k0_hw81 => k0_hw81

def k0_off82 (v1362 : BitVec 32) : Fin 3 → Nat :=
  let c0_i32_1268 : BitVec 32 := 0#32
  let c0_i32_1269 : BitVec 32 := 0#32
  ![v1362.toNat, 0, 0]

def k0_chk82 (v1362 : BitVec 32) : Prop :=
  (∀ a, (k0_off82 v1362) a + S1x1x128.size a ≤ S1048576x1x128.size a)
instance k0_chk82.dec : ∀ (v1362 : BitVec 32), Decidable (k0_chk82 v1362) := fun v1362 => decidable_of_iff' _ (Iff.of_eq (k0_chk82.eq_1 v1362))
theorem k0_off82_inb : ∀ (v1362 : BitVec 32) (k0_hw82 : k0_chk82 v1362), ∀ a, (k0_off82 v1362) a + S1x1x128.size a ≤ S1048576x1x128.size a := fun v1362 k0_hw82 => k0_hw82

def k0_off83 (v1381 : BitVec 32) : Fin 3 → Nat :=
  let c0_i32_1286 : BitVec 32 := 0#32
  let c0_i32_1287 : BitVec 32 := 0#32
  ![v1381.toNat, 0, 0]

def k0_chk83 (v1381 : BitVec 32) : Prop :=
  (∀ a, (k0_off83 v1381) a + S1x1x128.size a ≤ S1048576x1x128.size a)
instance k0_chk83.dec : ∀ (v1381 : BitVec 32), Decidable (k0_chk83 v1381) := fun v1381 => decidable_of_iff' _ (Iff.of_eq (k0_chk83.eq_1 v1381))
theorem k0_off83_inb : ∀ (v1381 : BitVec 32) (k0_hw83 : k0_chk83 v1381), ∀ a, (k0_off83 v1381) a + S1x1x128.size a ≤ S1048576x1x128.size a := fun v1381 k0_hw83 => k0_hw83

def k0_off84 (v1400 : BitVec 32) : Fin 3 → Nat :=
  let c0_i32_1304 : BitVec 32 := 0#32
  let c0_i32_1305 : BitVec 32 := 0#32
  ![v1400.toNat, 0, 0]

def k0_chk84 (v1400 : BitVec 32) : Prop :=
  (∀ a, (k0_off84 v1400) a + S1x1x128.size a ≤ S1048576x1x128.size a)
instance k0_chk84.dec : ∀ (v1400 : BitVec 32), Decidable (k0_chk84 v1400) := fun v1400 => decidable_of_iff' _ (Iff.of_eq (k0_chk84.eq_1 v1400))
theorem k0_off84_inb : ∀ (v1400 : BitVec 32) (k0_hw84 : k0_chk84 v1400), ∀ a, (k0_off84 v1400) a + S1x1x128.size a ≤ S1048576x1x128.size a := fun v1400 k0_hw84 => k0_hw84

def k0_off85 (v1419 : BitVec 32) : Fin 3 → Nat :=
  let c0_i32_1322 : BitVec 32 := 0#32
  let c0_i32_1323 : BitVec 32 := 0#32
  ![v1419.toNat, 0, 0]

def k0_chk85 (v1419 : BitVec 32) : Prop :=
  (∀ a, (k0_off85 v1419) a + S1x1x128.size a ≤ S1048576x1x128.size a)
instance k0_chk85.dec : ∀ (v1419 : BitVec 32), Decidable (k0_chk85 v1419) := fun v1419 => decidable_of_iff' _ (Iff.of_eq (k0_chk85.eq_1 v1419))
theorem k0_off85_inb : ∀ (v1419 : BitVec 32) (k0_hw85 : k0_chk85 v1419), ∀ a, (k0_off85 v1419) a + S1x1x128.size a ≤ S1048576x1x128.size a := fun v1419 k0_hw85 => k0_hw85

def k0_off86 (v1438 : BitVec 32) : Fin 3 → Nat :=
  let c0_i32_1340 : BitVec 32 := 0#32
  let c0_i32_1341 : BitVec 32 := 0#32
  ![v1438.toNat, 0, 0]

def k0_chk86 (v1438 : BitVec 32) : Prop :=
  (∀ a, (k0_off86 v1438) a + S1x1x128.size a ≤ S1048576x1x128.size a)
instance k0_chk86.dec : ∀ (v1438 : BitVec 32), Decidable (k0_chk86 v1438) := fun v1438 => decidable_of_iff' _ (Iff.of_eq (k0_chk86.eq_1 v1438))
theorem k0_off86_inb : ∀ (v1438 : BitVec 32) (k0_hw86 : k0_chk86 v1438), ∀ a, (k0_off86 v1438) a + S1x1x128.size a ≤ S1048576x1x128.size a := fun v1438 k0_hw86 => k0_hw86

def k0_off87 (v1457 : BitVec 32) : Fin 3 → Nat :=
  let c0_i32_1358 : BitVec 32 := 0#32
  let c0_i32_1359 : BitVec 32 := 0#32
  ![v1457.toNat, 0, 0]

def k0_chk87 (v1457 : BitVec 32) : Prop :=
  (∀ a, (k0_off87 v1457) a + S1x1x128.size a ≤ S1048576x1x128.size a)
instance k0_chk87.dec : ∀ (v1457 : BitVec 32), Decidable (k0_chk87 v1457) := fun v1457 => decidable_of_iff' _ (Iff.of_eq (k0_chk87.eq_1 v1457))
theorem k0_off87_inb : ∀ (v1457 : BitVec 32) (k0_hw87 : k0_chk87 v1457), ∀ a, (k0_off87 v1457) a + S1x1x128.size a ≤ S1048576x1x128.size a := fun v1457 k0_hw87 => k0_hw87

def k0_off88 (v1476 : BitVec 32) : Fin 3 → Nat :=
  let c0_i32_1376 : BitVec 32 := 0#32
  let c0_i32_1377 : BitVec 32 := 0#32
  ![v1476.toNat, 0, 0]

def k0_chk88 (v1476 : BitVec 32) : Prop :=
  (∀ a, (k0_off88 v1476) a + S1x1x128.size a ≤ S1048576x1x128.size a)
instance k0_chk88.dec : ∀ (v1476 : BitVec 32), Decidable (k0_chk88 v1476) := fun v1476 => decidable_of_iff' _ (Iff.of_eq (k0_chk88.eq_1 v1476))
theorem k0_off88_inb : ∀ (v1476 : BitVec 32) (k0_hw88 : k0_chk88 v1476), ∀ a, (k0_off88 v1476) a + S1x1x128.size a ≤ S1048576x1x128.size a := fun v1476 k0_hw88 => k0_hw88

def k0_off89 (v1495 : BitVec 32) : Fin 3 → Nat :=
  let c0_i32_1394 : BitVec 32 := 0#32
  let c0_i32_1395 : BitVec 32 := 0#32
  ![v1495.toNat, 0, 0]

def k0_chk89 (v1495 : BitVec 32) : Prop :=
  (∀ a, (k0_off89 v1495) a + S1x1x128.size a ≤ S1048576x1x128.size a)
instance k0_chk89.dec : ∀ (v1495 : BitVec 32), Decidable (k0_chk89 v1495) := fun v1495 => decidable_of_iff' _ (Iff.of_eq (k0_chk89.eq_1 v1495))
theorem k0_off89_inb : ∀ (v1495 : BitVec 32) (k0_hw89 : k0_chk89 v1495), ∀ a, (k0_off89 v1495) a + S1x1x128.size a ≤ S1048576x1x128.size a := fun v1495 k0_hw89 => k0_hw89

def k0_off90 (v1514 : BitVec 32) : Fin 3 → Nat :=
  let c0_i32_1412 : BitVec 32 := 0#32
  let c0_i32_1413 : BitVec 32 := 0#32
  ![v1514.toNat, 0, 0]

def k0_chk90 (v1514 : BitVec 32) : Prop :=
  (∀ a, (k0_off90 v1514) a + S1x1x128.size a ≤ S1048576x1x128.size a)
instance k0_chk90.dec : ∀ (v1514 : BitVec 32), Decidable (k0_chk90 v1514) := fun v1514 => decidable_of_iff' _ (Iff.of_eq (k0_chk90.eq_1 v1514))
theorem k0_off90_inb : ∀ (v1514 : BitVec 32) (k0_hw90 : k0_chk90 v1514), ∀ a, (k0_off90 v1514) a + S1x1x128.size a ≤ S1048576x1x128.size a := fun v1514 k0_hw90 => k0_hw90

def k0_off91 (v1533 : BitVec 32) : Fin 3 → Nat :=
  let c0_i32_1430 : BitVec 32 := 0#32
  let c0_i32_1431 : BitVec 32 := 0#32
  ![v1533.toNat, 0, 0]

def k0_chk91 (v1533 : BitVec 32) : Prop :=
  (∀ a, (k0_off91 v1533) a + S1x1x128.size a ≤ S1048576x1x128.size a)
instance k0_chk91.dec : ∀ (v1533 : BitVec 32), Decidable (k0_chk91 v1533) := fun v1533 => decidable_of_iff' _ (Iff.of_eq (k0_chk91.eq_1 v1533))
theorem k0_off91_inb : ∀ (v1533 : BitVec 32) (k0_hw91 : k0_chk91 v1533), ∀ a, (k0_off91 v1533) a + S1x1x128.size a ≤ S1048576x1x128.size a := fun v1533 k0_hw91 => k0_hw91

def k0_off92 (v1552 : BitVec 32) : Fin 3 → Nat :=
  let c0_i32_1448 : BitVec 32 := 0#32
  let c0_i32_1449 : BitVec 32 := 0#32
  ![v1552.toNat, 0, 0]

def k0_chk92 (v1552 : BitVec 32) : Prop :=
  (∀ a, (k0_off92 v1552) a + S1x1x128.size a ≤ S1048576x1x128.size a)
instance k0_chk92.dec : ∀ (v1552 : BitVec 32), Decidable (k0_chk92 v1552) := fun v1552 => decidable_of_iff' _ (Iff.of_eq (k0_chk92.eq_1 v1552))
theorem k0_off92_inb : ∀ (v1552 : BitVec 32) (k0_hw92 : k0_chk92 v1552), ∀ a, (k0_off92 v1552) a + S1x1x128.size a ≤ S1048576x1x128.size a := fun v1552 k0_hw92 => k0_hw92

def k0_off93 (v1571 : BitVec 32) : Fin 3 → Nat :=
  let c0_i32_1466 : BitVec 32 := 0#32
  let c0_i32_1467 : BitVec 32 := 0#32
  ![v1571.toNat, 0, 0]

def k0_chk93 (v1571 : BitVec 32) : Prop :=
  (∀ a, (k0_off93 v1571) a + S1x1x128.size a ≤ S1048576x1x128.size a)
instance k0_chk93.dec : ∀ (v1571 : BitVec 32), Decidable (k0_chk93 v1571) := fun v1571 => decidable_of_iff' _ (Iff.of_eq (k0_chk93.eq_1 v1571))
theorem k0_off93_inb : ∀ (v1571 : BitVec 32) (k0_hw93 : k0_chk93 v1571), ∀ a, (k0_off93 v1571) a + S1x1x128.size a ≤ S1048576x1x128.size a := fun v1571 k0_hw93 => k0_hw93

def k0_off94 (v1590 : BitVec 32) : Fin 3 → Nat :=
  let c0_i32_1484 : BitVec 32 := 0#32
  let c0_i32_1485 : BitVec 32 := 0#32
  ![v1590.toNat, 0, 0]

def k0_chk94 (v1590 : BitVec 32) : Prop :=
  (∀ a, (k0_off94 v1590) a + S1x1x128.size a ≤ S1048576x1x128.size a)
instance k0_chk94.dec : ∀ (v1590 : BitVec 32), Decidable (k0_chk94 v1590) := fun v1590 => decidable_of_iff' _ (Iff.of_eq (k0_chk94.eq_1 v1590))
theorem k0_off94_inb : ∀ (v1590 : BitVec 32) (k0_hw94 : k0_chk94 v1590), ∀ a, (k0_off94 v1590) a + S1x1x128.size a ≤ S1048576x1x128.size a := fun v1590 k0_hw94 => k0_hw94

def k0_off95 (v1609 : BitVec 32) : Fin 3 → Nat :=
  let c0_i32_1502 : BitVec 32 := 0#32
  let c0_i32_1503 : BitVec 32 := 0#32
  ![v1609.toNat, 0, 0]

def k0_chk95 (v1609 : BitVec 32) : Prop :=
  (∀ a, (k0_off95 v1609) a + S1x1x128.size a ≤ S1048576x1x128.size a)
instance k0_chk95.dec : ∀ (v1609 : BitVec 32), Decidable (k0_chk95 v1609) := fun v1609 => decidable_of_iff' _ (Iff.of_eq (k0_chk95.eq_1 v1609))
theorem k0_off95_inb : ∀ (v1609 : BitVec 32) (k0_hw95 : k0_chk95 v1609), ∀ a, (k0_off95 v1609) a + S1x1x128.size a ≤ S1048576x1x128.size a := fun v1609 k0_hw95 => k0_hw95

def k0_off96 (v1628 : BitVec 32) : Fin 3 → Nat :=
  let c0_i32_1520 : BitVec 32 := 0#32
  let c0_i32_1521 : BitVec 32 := 0#32
  ![v1628.toNat, 0, 0]

def k0_chk96 (v1628 : BitVec 32) : Prop :=
  (∀ a, (k0_off96 v1628) a + S1x1x128.size a ≤ S1048576x1x128.size a)
instance k0_chk96.dec : ∀ (v1628 : BitVec 32), Decidable (k0_chk96 v1628) := fun v1628 => decidable_of_iff' _ (Iff.of_eq (k0_chk96.eq_1 v1628))
theorem k0_off96_inb : ∀ (v1628 : BitVec 32) (k0_hw96 : k0_chk96 v1628), ∀ a, (k0_off96 v1628) a + S1x1x128.size a ≤ S1048576x1x128.size a := fun v1628 k0_hw96 => k0_hw96

def k0_off97 (v1647 : BitVec 32) : Fin 3 → Nat :=
  let c0_i32_1538 : BitVec 32 := 0#32
  let c0_i32_1539 : BitVec 32 := 0#32
  ![v1647.toNat, 0, 0]

def k0_chk97 (v1647 : BitVec 32) : Prop :=
  (∀ a, (k0_off97 v1647) a + S1x1x128.size a ≤ S1048576x1x128.size a)
instance k0_chk97.dec : ∀ (v1647 : BitVec 32), Decidable (k0_chk97 v1647) := fun v1647 => decidable_of_iff' _ (Iff.of_eq (k0_chk97.eq_1 v1647))
theorem k0_off97_inb : ∀ (v1647 : BitVec 32) (k0_hw97 : k0_chk97 v1647), ∀ a, (k0_off97 v1647) a + S1x1x128.size a ≤ S1048576x1x128.size a := fun v1647 k0_hw97 => k0_hw97

def k0_off98 (v1666 : BitVec 32) : Fin 3 → Nat :=
  let c0_i32_1556 : BitVec 32 := 0#32
  let c0_i32_1557 : BitVec 32 := 0#32
  ![v1666.toNat, 0, 0]

def k0_chk98 (v1666 : BitVec 32) : Prop :=
  (∀ a, (k0_off98 v1666) a + S1x1x128.size a ≤ S1048576x1x128.size a)
instance k0_chk98.dec : ∀ (v1666 : BitVec 32), Decidable (k0_chk98 v1666) := fun v1666 => decidable_of_iff' _ (Iff.of_eq (k0_chk98.eq_1 v1666))
theorem k0_off98_inb : ∀ (v1666 : BitVec 32) (k0_hw98 : k0_chk98 v1666), ∀ a, (k0_off98 v1666) a + S1x1x128.size a ≤ S1048576x1x128.size a := fun v1666 k0_hw98 => k0_hw98

def k0_off99 (v1685 : BitVec 32) : Fin 3 → Nat :=
  let c0_i32_1574 : BitVec 32 := 0#32
  let c0_i32_1575 : BitVec 32 := 0#32
  ![v1685.toNat, 0, 0]

def k0_chk99 (v1685 : BitVec 32) : Prop :=
  (∀ a, (k0_off99 v1685) a + S1x1x128.size a ≤ S1048576x1x128.size a)
instance k0_chk99.dec : ∀ (v1685 : BitVec 32), Decidable (k0_chk99 v1685) := fun v1685 => decidable_of_iff' _ (Iff.of_eq (k0_chk99.eq_1 v1685))
theorem k0_off99_inb : ∀ (v1685 : BitVec 32) (k0_hw99 : k0_chk99 v1685), ∀ a, (k0_off99 v1685) a + S1x1x128.size a ≤ S1048576x1x128.size a := fun v1685 k0_hw99 => k0_hw99

def k0_off100 (v1704 : BitVec 32) : Fin 3 → Nat :=
  let c0_i32_1592 : BitVec 32 := 0#32
  let c0_i32_1593 : BitVec 32 := 0#32
  ![v1704.toNat, 0, 0]

def k0_chk100 (v1704 : BitVec 32) : Prop :=
  (∀ a, (k0_off100 v1704) a + S1x1x128.size a ≤ S1048576x1x128.size a)
instance k0_chk100.dec : ∀ (v1704 : BitVec 32), Decidable (k0_chk100 v1704) := fun v1704 => decidable_of_iff' _ (Iff.of_eq (k0_chk100.eq_1 v1704))
theorem k0_off100_inb : ∀ (v1704 : BitVec 32) (k0_hw100 : k0_chk100 v1704), ∀ a, (k0_off100 v1704) a + S1x1x128.size a ≤ S1048576x1x128.size a := fun v1704 k0_hw100 => k0_hw100

def k0_off101 (v1723 : BitVec 32) : Fin 3 → Nat :=
  let c0_i32_1610 : BitVec 32 := 0#32
  let c0_i32_1611 : BitVec 32 := 0#32
  ![v1723.toNat, 0, 0]

def k0_chk101 (v1723 : BitVec 32) : Prop :=
  (∀ a, (k0_off101 v1723) a + S1x1x128.size a ≤ S1048576x1x128.size a)
instance k0_chk101.dec : ∀ (v1723 : BitVec 32), Decidable (k0_chk101 v1723) := fun v1723 => decidable_of_iff' _ (Iff.of_eq (k0_chk101.eq_1 v1723))
theorem k0_off101_inb : ∀ (v1723 : BitVec 32) (k0_hw101 : k0_chk101 v1723), ∀ a, (k0_off101 v1723) a + S1x1x128.size a ≤ S1048576x1x128.size a := fun v1723 k0_hw101 => k0_hw101

def k0_off102 (v1742 : BitVec 32) : Fin 3 → Nat :=
  let c0_i32_1628 : BitVec 32 := 0#32
  let c0_i32_1629 : BitVec 32 := 0#32
  ![v1742.toNat, 0, 0]

def k0_chk102 (v1742 : BitVec 32) : Prop :=
  (∀ a, (k0_off102 v1742) a + S1x1x128.size a ≤ S1048576x1x128.size a)
instance k0_chk102.dec : ∀ (v1742 : BitVec 32), Decidable (k0_chk102 v1742) := fun v1742 => decidable_of_iff' _ (Iff.of_eq (k0_chk102.eq_1 v1742))
theorem k0_off102_inb : ∀ (v1742 : BitVec 32) (k0_hw102 : k0_chk102 v1742), ∀ a, (k0_off102 v1742) a + S1x1x128.size a ≤ S1048576x1x128.size a := fun v1742 k0_hw102 => k0_hw102

def k0_off103 (v1761 : BitVec 32) : Fin 3 → Nat :=
  let c0_i32_1646 : BitVec 32 := 0#32
  let c0_i32_1647 : BitVec 32 := 0#32
  ![v1761.toNat, 0, 0]

def k0_chk103 (v1761 : BitVec 32) : Prop :=
  (∀ a, (k0_off103 v1761) a + S1x1x128.size a ≤ S1048576x1x128.size a)
instance k0_chk103.dec : ∀ (v1761 : BitVec 32), Decidable (k0_chk103 v1761) := fun v1761 => decidable_of_iff' _ (Iff.of_eq (k0_chk103.eq_1 v1761))
theorem k0_off103_inb : ∀ (v1761 : BitVec 32) (k0_hw103 : k0_chk103 v1761), ∀ a, (k0_off103 v1761) a + S1x1x128.size a ≤ S1048576x1x128.size a := fun v1761 k0_hw103 => k0_hw103

def k0_off104 (v1780 : BitVec 32) : Fin 3 → Nat :=
  let c0_i32_1664 : BitVec 32 := 0#32
  let c0_i32_1665 : BitVec 32 := 0#32
  ![v1780.toNat, 0, 0]

def k0_chk104 (v1780 : BitVec 32) : Prop :=
  (∀ a, (k0_off104 v1780) a + S1x1x128.size a ≤ S1048576x1x128.size a)
instance k0_chk104.dec : ∀ (v1780 : BitVec 32), Decidable (k0_chk104 v1780) := fun v1780 => decidable_of_iff' _ (Iff.of_eq (k0_chk104.eq_1 v1780))
theorem k0_off104_inb : ∀ (v1780 : BitVec 32) (k0_hw104 : k0_chk104 v1780), ∀ a, (k0_off104 v1780) a + S1x1x128.size a ≤ S1048576x1x128.size a := fun v1780 k0_hw104 => k0_hw104

def k0_off105 (v1799 : BitVec 32) : Fin 3 → Nat :=
  let c0_i32_1682 : BitVec 32 := 0#32
  let c0_i32_1683 : BitVec 32 := 0#32
  ![v1799.toNat, 0, 0]

def k0_chk105 (v1799 : BitVec 32) : Prop :=
  (∀ a, (k0_off105 v1799) a + S1x1x128.size a ≤ S1048576x1x128.size a)
instance k0_chk105.dec : ∀ (v1799 : BitVec 32), Decidable (k0_chk105 v1799) := fun v1799 => decidable_of_iff' _ (Iff.of_eq (k0_chk105.eq_1 v1799))
theorem k0_off105_inb : ∀ (v1799 : BitVec 32) (k0_hw105 : k0_chk105 v1799), ∀ a, (k0_off105 v1799) a + S1x1x128.size a ≤ S1048576x1x128.size a := fun v1799 k0_hw105 => k0_hw105

def k0_off106 (v1818 : BitVec 32) : Fin 3 → Nat :=
  let c0_i32_1700 : BitVec 32 := 0#32
  let c0_i32_1701 : BitVec 32 := 0#32
  ![v1818.toNat, 0, 0]

def k0_chk106 (v1818 : BitVec 32) : Prop :=
  (∀ a, (k0_off106 v1818) a + S1x1x128.size a ≤ S1048576x1x128.size a)
instance k0_chk106.dec : ∀ (v1818 : BitVec 32), Decidable (k0_chk106 v1818) := fun v1818 => decidable_of_iff' _ (Iff.of_eq (k0_chk106.eq_1 v1818))
theorem k0_off106_inb : ∀ (v1818 : BitVec 32) (k0_hw106 : k0_chk106 v1818), ∀ a, (k0_off106 v1818) a + S1x1x128.size a ≤ S1048576x1x128.size a := fun v1818 k0_hw106 => k0_hw106

def k0_off107 (v1837 : BitVec 32) : Fin 3 → Nat :=
  let c0_i32_1718 : BitVec 32 := 0#32
  let c0_i32_1719 : BitVec 32 := 0#32
  ![v1837.toNat, 0, 0]

def k0_chk107 (v1837 : BitVec 32) : Prop :=
  (∀ a, (k0_off107 v1837) a + S1x1x128.size a ≤ S1048576x1x128.size a)
instance k0_chk107.dec : ∀ (v1837 : BitVec 32), Decidable (k0_chk107 v1837) := fun v1837 => decidable_of_iff' _ (Iff.of_eq (k0_chk107.eq_1 v1837))
theorem k0_off107_inb : ∀ (v1837 : BitVec 32) (k0_hw107 : k0_chk107 v1837), ∀ a, (k0_off107 v1837) a + S1x1x128.size a ≤ S1048576x1x128.size a := fun v1837 k0_hw107 => k0_hw107

def k0_off108 (v1856 : BitVec 32) : Fin 3 → Nat :=
  let c0_i32_1736 : BitVec 32 := 0#32
  let c0_i32_1737 : BitVec 32 := 0#32
  ![v1856.toNat, 0, 0]

def k0_chk108 (v1856 : BitVec 32) : Prop :=
  (∀ a, (k0_off108 v1856) a + S1x1x128.size a ≤ S1048576x1x128.size a)
instance k0_chk108.dec : ∀ (v1856 : BitVec 32), Decidable (k0_chk108 v1856) := fun v1856 => decidable_of_iff' _ (Iff.of_eq (k0_chk108.eq_1 v1856))
theorem k0_off108_inb : ∀ (v1856 : BitVec 32) (k0_hw108 : k0_chk108 v1856), ∀ a, (k0_off108 v1856) a + S1x1x128.size a ≤ S1048576x1x128.size a := fun v1856 k0_hw108 => k0_hw108

def k0_off109 (v1875 : BitVec 32) : Fin 3 → Nat :=
  let c0_i32_1754 : BitVec 32 := 0#32
  let c0_i32_1755 : BitVec 32 := 0#32
  ![v1875.toNat, 0, 0]

def k0_chk109 (v1875 : BitVec 32) : Prop :=
  (∀ a, (k0_off109 v1875) a + S1x1x128.size a ≤ S1048576x1x128.size a)
instance k0_chk109.dec : ∀ (v1875 : BitVec 32), Decidable (k0_chk109 v1875) := fun v1875 => decidable_of_iff' _ (Iff.of_eq (k0_chk109.eq_1 v1875))
theorem k0_off109_inb : ∀ (v1875 : BitVec 32) (k0_hw109 : k0_chk109 v1875), ∀ a, (k0_off109 v1875) a + S1x1x128.size a ≤ S1048576x1x128.size a := fun v1875 k0_hw109 => k0_hw109

def k0_off110 (v1894 : BitVec 32) : Fin 3 → Nat :=
  let c0_i32_1772 : BitVec 32 := 0#32
  let c0_i32_1773 : BitVec 32 := 0#32
  ![v1894.toNat, 0, 0]

def k0_chk110 (v1894 : BitVec 32) : Prop :=
  (∀ a, (k0_off110 v1894) a + S1x1x128.size a ≤ S1048576x1x128.size a)
instance k0_chk110.dec : ∀ (v1894 : BitVec 32), Decidable (k0_chk110 v1894) := fun v1894 => decidable_of_iff' _ (Iff.of_eq (k0_chk110.eq_1 v1894))
theorem k0_off110_inb : ∀ (v1894 : BitVec 32) (k0_hw110 : k0_chk110 v1894), ∀ a, (k0_off110 v1894) a + S1x1x128.size a ≤ S1048576x1x128.size a := fun v1894 k0_hw110 => k0_hw110

def k0_off111 (v1913 : BitVec 32) : Fin 3 → Nat :=
  let c0_i32_1790 : BitVec 32 := 0#32
  let c0_i32_1791 : BitVec 32 := 0#32
  ![v1913.toNat, 0, 0]

def k0_chk111 (v1913 : BitVec 32) : Prop :=
  (∀ a, (k0_off111 v1913) a + S1x1x128.size a ≤ S1048576x1x128.size a)
instance k0_chk111.dec : ∀ (v1913 : BitVec 32), Decidable (k0_chk111 v1913) := fun v1913 => decidable_of_iff' _ (Iff.of_eq (k0_chk111.eq_1 v1913))
theorem k0_off111_inb : ∀ (v1913 : BitVec 32) (k0_hw111 : k0_chk111 v1913), ∀ a, (k0_off111 v1913) a + S1x1x128.size a ≤ S1048576x1x128.size a := fun v1913 k0_hw111 => k0_hw111

def k0_off112 (v1932 : BitVec 32) : Fin 3 → Nat :=
  let c0_i32_1808 : BitVec 32 := 0#32
  let c0_i32_1809 : BitVec 32 := 0#32
  ![v1932.toNat, 0, 0]

def k0_chk112 (v1932 : BitVec 32) : Prop :=
  (∀ a, (k0_off112 v1932) a + S1x1x128.size a ≤ S1048576x1x128.size a)
instance k0_chk112.dec : ∀ (v1932 : BitVec 32), Decidable (k0_chk112 v1932) := fun v1932 => decidable_of_iff' _ (Iff.of_eq (k0_chk112.eq_1 v1932))
theorem k0_off112_inb : ∀ (v1932 : BitVec 32) (k0_hw112 : k0_chk112 v1932), ∀ a, (k0_off112 v1932) a + S1x1x128.size a ≤ S1048576x1x128.size a := fun v1932 k0_hw112 => k0_hw112

def k0_off113 (v1951 : BitVec 32) : Fin 3 → Nat :=
  let c0_i32_1826 : BitVec 32 := 0#32
  let c0_i32_1827 : BitVec 32 := 0#32
  ![v1951.toNat, 0, 0]

def k0_chk113 (v1951 : BitVec 32) : Prop :=
  (∀ a, (k0_off113 v1951) a + S1x1x128.size a ≤ S1048576x1x128.size a)
instance k0_chk113.dec : ∀ (v1951 : BitVec 32), Decidable (k0_chk113 v1951) := fun v1951 => decidable_of_iff' _ (Iff.of_eq (k0_chk113.eq_1 v1951))
theorem k0_off113_inb : ∀ (v1951 : BitVec 32) (k0_hw113 : k0_chk113 v1951), ∀ a, (k0_off113 v1951) a + S1x1x128.size a ≤ S1048576x1x128.size a := fun v1951 k0_hw113 => k0_hw113

def k0_off114 (v1970 : BitVec 32) : Fin 3 → Nat :=
  let c0_i32_1844 : BitVec 32 := 0#32
  let c0_i32_1845 : BitVec 32 := 0#32
  ![v1970.toNat, 0, 0]

def k0_chk114 (v1970 : BitVec 32) : Prop :=
  (∀ a, (k0_off114 v1970) a + S1x1x128.size a ≤ S1048576x1x128.size a)
instance k0_chk114.dec : ∀ (v1970 : BitVec 32), Decidable (k0_chk114 v1970) := fun v1970 => decidable_of_iff' _ (Iff.of_eq (k0_chk114.eq_1 v1970))
theorem k0_off114_inb : ∀ (v1970 : BitVec 32) (k0_hw114 : k0_chk114 v1970), ∀ a, (k0_off114 v1970) a + S1x1x128.size a ≤ S1048576x1x128.size a := fun v1970 k0_hw114 => k0_hw114

def k0_off115 (v1989 : BitVec 32) : Fin 3 → Nat :=
  let c0_i32_1862 : BitVec 32 := 0#32
  let c0_i32_1863 : BitVec 32 := 0#32
  ![v1989.toNat, 0, 0]

def k0_chk115 (v1989 : BitVec 32) : Prop :=
  (∀ a, (k0_off115 v1989) a + S1x1x128.size a ≤ S1048576x1x128.size a)
instance k0_chk115.dec : ∀ (v1989 : BitVec 32), Decidable (k0_chk115 v1989) := fun v1989 => decidable_of_iff' _ (Iff.of_eq (k0_chk115.eq_1 v1989))
theorem k0_off115_inb : ∀ (v1989 : BitVec 32) (k0_hw115 : k0_chk115 v1989), ∀ a, (k0_off115 v1989) a + S1x1x128.size a ≤ S1048576x1x128.size a := fun v1989 k0_hw115 => k0_hw115

def k0_off116 (v2008 : BitVec 32) : Fin 3 → Nat :=
  let c0_i32_1880 : BitVec 32 := 0#32
  let c0_i32_1881 : BitVec 32 := 0#32
  ![v2008.toNat, 0, 0]

def k0_chk116 (v2008 : BitVec 32) : Prop :=
  (∀ a, (k0_off116 v2008) a + S1x1x128.size a ≤ S1048576x1x128.size a)
instance k0_chk116.dec : ∀ (v2008 : BitVec 32), Decidable (k0_chk116 v2008) := fun v2008 => decidable_of_iff' _ (Iff.of_eq (k0_chk116.eq_1 v2008))
theorem k0_off116_inb : ∀ (v2008 : BitVec 32) (k0_hw116 : k0_chk116 v2008), ∀ a, (k0_off116 v2008) a + S1x1x128.size a ≤ S1048576x1x128.size a := fun v2008 k0_hw116 => k0_hw116

def k0_off117 (v2027 : BitVec 32) : Fin 3 → Nat :=
  let c0_i32_1898 : BitVec 32 := 0#32
  let c0_i32_1899 : BitVec 32 := 0#32
  ![v2027.toNat, 0, 0]

def k0_chk117 (v2027 : BitVec 32) : Prop :=
  (∀ a, (k0_off117 v2027) a + S1x1x128.size a ≤ S1048576x1x128.size a)
instance k0_chk117.dec : ∀ (v2027 : BitVec 32), Decidable (k0_chk117 v2027) := fun v2027 => decidable_of_iff' _ (Iff.of_eq (k0_chk117.eq_1 v2027))
theorem k0_off117_inb : ∀ (v2027 : BitVec 32) (k0_hw117 : k0_chk117 v2027), ∀ a, (k0_off117 v2027) a + S1x1x128.size a ≤ S1048576x1x128.size a := fun v2027 k0_hw117 => k0_hw117

def k0_off118 (v2046 : BitVec 32) : Fin 3 → Nat :=
  let c0_i32_1916 : BitVec 32 := 0#32
  let c0_i32_1917 : BitVec 32 := 0#32
  ![v2046.toNat, 0, 0]

def k0_chk118 (v2046 : BitVec 32) : Prop :=
  (∀ a, (k0_off118 v2046) a + S1x1x128.size a ≤ S1048576x1x128.size a)
instance k0_chk118.dec : ∀ (v2046 : BitVec 32), Decidable (k0_chk118 v2046) := fun v2046 => decidable_of_iff' _ (Iff.of_eq (k0_chk118.eq_1 v2046))
theorem k0_off118_inb : ∀ (v2046 : BitVec 32) (k0_hw118 : k0_chk118 v2046), ∀ a, (k0_off118 v2046) a + S1x1x128.size a ≤ S1048576x1x128.size a := fun v2046 k0_hw118 => k0_hw118

def k0_off119 (v2065 : BitVec 32) : Fin 3 → Nat :=
  let c0_i32_1934 : BitVec 32 := 0#32
  let c0_i32_1935 : BitVec 32 := 0#32
  ![v2065.toNat, 0, 0]

def k0_chk119 (v2065 : BitVec 32) : Prop :=
  (∀ a, (k0_off119 v2065) a + S1x1x128.size a ≤ S1048576x1x128.size a)
instance k0_chk119.dec : ∀ (v2065 : BitVec 32), Decidable (k0_chk119 v2065) := fun v2065 => decidable_of_iff' _ (Iff.of_eq (k0_chk119.eq_1 v2065))
theorem k0_off119_inb : ∀ (v2065 : BitVec 32) (k0_hw119 : k0_chk119 v2065), ∀ a, (k0_off119 v2065) a + S1x1x128.size a ≤ S1048576x1x128.size a := fun v2065 k0_hw119 => k0_hw119

def k0_off120 (v2084 : BitVec 32) : Fin 3 → Nat :=
  let c0_i32_1952 : BitVec 32 := 0#32
  let c0_i32_1953 : BitVec 32 := 0#32
  ![v2084.toNat, 0, 0]

def k0_chk120 (v2084 : BitVec 32) : Prop :=
  (∀ a, (k0_off120 v2084) a + S1x1x128.size a ≤ S1048576x1x128.size a)
instance k0_chk120.dec : ∀ (v2084 : BitVec 32), Decidable (k0_chk120 v2084) := fun v2084 => decidable_of_iff' _ (Iff.of_eq (k0_chk120.eq_1 v2084))
theorem k0_off120_inb : ∀ (v2084 : BitVec 32) (k0_hw120 : k0_chk120 v2084), ∀ a, (k0_off120 v2084) a + S1x1x128.size a ≤ S1048576x1x128.size a := fun v2084 k0_hw120 => k0_hw120

def k0_off121 (v2103 : BitVec 32) : Fin 3 → Nat :=
  let c0_i32_1970 : BitVec 32 := 0#32
  let c0_i32_1971 : BitVec 32 := 0#32
  ![v2103.toNat, 0, 0]

def k0_chk121 (v2103 : BitVec 32) : Prop :=
  (∀ a, (k0_off121 v2103) a + S1x1x128.size a ≤ S1048576x1x128.size a)
instance k0_chk121.dec : ∀ (v2103 : BitVec 32), Decidable (k0_chk121 v2103) := fun v2103 => decidable_of_iff' _ (Iff.of_eq (k0_chk121.eq_1 v2103))
theorem k0_off121_inb : ∀ (v2103 : BitVec 32) (k0_hw121 : k0_chk121 v2103), ∀ a, (k0_off121 v2103) a + S1x1x128.size a ≤ S1048576x1x128.size a := fun v2103 k0_hw121 => k0_hw121

def k0_off122 (v2122 : BitVec 32) : Fin 3 → Nat :=
  let c0_i32_1988 : BitVec 32 := 0#32
  let c0_i32_1989 : BitVec 32 := 0#32
  ![v2122.toNat, 0, 0]

def k0_chk122 (v2122 : BitVec 32) : Prop :=
  (∀ a, (k0_off122 v2122) a + S1x1x128.size a ≤ S1048576x1x128.size a)
instance k0_chk122.dec : ∀ (v2122 : BitVec 32), Decidable (k0_chk122 v2122) := fun v2122 => decidable_of_iff' _ (Iff.of_eq (k0_chk122.eq_1 v2122))
theorem k0_off122_inb : ∀ (v2122 : BitVec 32) (k0_hw122 : k0_chk122 v2122), ∀ a, (k0_off122 v2122) a + S1x1x128.size a ≤ S1048576x1x128.size a := fun v2122 k0_hw122 => k0_hw122

def k0_off123 (v2141 : BitVec 32) : Fin 3 → Nat :=
  let c0_i32_2006 : BitVec 32 := 0#32
  let c0_i32_2007 : BitVec 32 := 0#32
  ![v2141.toNat, 0, 0]

def k0_chk123 (v2141 : BitVec 32) : Prop :=
  (∀ a, (k0_off123 v2141) a + S1x1x128.size a ≤ S1048576x1x128.size a)
instance k0_chk123.dec : ∀ (v2141 : BitVec 32), Decidable (k0_chk123 v2141) := fun v2141 => decidable_of_iff' _ (Iff.of_eq (k0_chk123.eq_1 v2141))
theorem k0_off123_inb : ∀ (v2141 : BitVec 32) (k0_hw123 : k0_chk123 v2141), ∀ a, (k0_off123 v2141) a + S1x1x128.size a ≤ S1048576x1x128.size a := fun v2141 k0_hw123 => k0_hw123

def k0_off124 (v2160 : BitVec 32) : Fin 3 → Nat :=
  let c0_i32_2024 : BitVec 32 := 0#32
  let c0_i32_2025 : BitVec 32 := 0#32
  ![v2160.toNat, 0, 0]

def k0_chk124 (v2160 : BitVec 32) : Prop :=
  (∀ a, (k0_off124 v2160) a + S1x1x128.size a ≤ S1048576x1x128.size a)
instance k0_chk124.dec : ∀ (v2160 : BitVec 32), Decidable (k0_chk124 v2160) := fun v2160 => decidable_of_iff' _ (Iff.of_eq (k0_chk124.eq_1 v2160))
theorem k0_off124_inb : ∀ (v2160 : BitVec 32) (k0_hw124 : k0_chk124 v2160), ∀ a, (k0_off124 v2160) a + S1x1x128.size a ≤ S1048576x1x128.size a := fun v2160 k0_hw124 => k0_hw124

def k0_off125 (v2179 : BitVec 32) : Fin 3 → Nat :=
  let c0_i32_2042 : BitVec 32 := 0#32
  let c0_i32_2043 : BitVec 32 := 0#32
  ![v2179.toNat, 0, 0]

def k0_chk125 (v2179 : BitVec 32) : Prop :=
  (∀ a, (k0_off125 v2179) a + S1x1x128.size a ≤ S1048576x1x128.size a)
instance k0_chk125.dec : ∀ (v2179 : BitVec 32), Decidable (k0_chk125 v2179) := fun v2179 => decidable_of_iff' _ (Iff.of_eq (k0_chk125.eq_1 v2179))
theorem k0_off125_inb : ∀ (v2179 : BitVec 32) (k0_hw125 : k0_chk125 v2179), ∀ a, (k0_off125 v2179) a + S1x1x128.size a ≤ S1048576x1x128.size a := fun v2179 k0_hw125 => k0_hw125

def k0_off126 (v2198 : BitVec 32) : Fin 3 → Nat :=
  let c0_i32_2060 : BitVec 32 := 0#32
  let c0_i32_2061 : BitVec 32 := 0#32
  ![v2198.toNat, 0, 0]

def k0_chk126 (v2198 : BitVec 32) : Prop :=
  (∀ a, (k0_off126 v2198) a + S1x1x128.size a ≤ S1048576x1x128.size a)
instance k0_chk126.dec : ∀ (v2198 : BitVec 32), Decidable (k0_chk126 v2198) := fun v2198 => decidable_of_iff' _ (Iff.of_eq (k0_chk126.eq_1 v2198))
theorem k0_off126_inb : ∀ (v2198 : BitVec 32) (k0_hw126 : k0_chk126 v2198), ∀ a, (k0_off126 v2198) a + S1x1x128.size a ≤ S1048576x1x128.size a := fun v2198 k0_hw126 => k0_hw126

def k0_off127 (v2217 : BitVec 32) : Fin 3 → Nat :=
  let c0_i32_2078 : BitVec 32 := 0#32
  let c0_i32_2079 : BitVec 32 := 0#32
  ![v2217.toNat, 0, 0]

def k0_chk127 (v2217 : BitVec 32) : Prop :=
  (∀ a, (k0_off127 v2217) a + S1x1x128.size a ≤ S1048576x1x128.size a)
instance k0_chk127.dec : ∀ (v2217 : BitVec 32), Decidable (k0_chk127 v2217) := fun v2217 => decidable_of_iff' _ (Iff.of_eq (k0_chk127.eq_1 v2217))
theorem k0_off127_inb : ∀ (v2217 : BitVec 32) (k0_hw127 : k0_chk127 v2217), ∀ a, (k0_off127 v2217) a + S1x1x128.size a ≤ S1048576x1x128.size a := fun v2217 k0_hw127 => k0_hw127

def k0_off128 (v2236 : BitVec 32) : Fin 3 → Nat :=
  let c0_i32_2096 : BitVec 32 := 0#32
  let c0_i32_2097 : BitVec 32 := 0#32
  ![v2236.toNat, 0, 0]

def k0_chk128 (v2236 : BitVec 32) : Prop :=
  (∀ a, (k0_off128 v2236) a + S1x1x128.size a ≤ S1048576x1x128.size a)
instance k0_chk128.dec : ∀ (v2236 : BitVec 32), Decidable (k0_chk128 v2236) := fun v2236 => decidable_of_iff' _ (Iff.of_eq (k0_chk128.eq_1 v2236))
theorem k0_off128_inb : ∀ (v2236 : BitVec 32) (k0_hw128 : k0_chk128 v2236), ∀ a, (k0_off128 v2236) a + S1x1x128.size a ≤ S1048576x1x128.size a := fun v2236 k0_hw128 => k0_hw128

def k0_off129 (v2255 : BitVec 32) : Fin 3 → Nat :=
  let c0_i32_2114 : BitVec 32 := 0#32
  let c0_i32_2115 : BitVec 32 := 0#32
  ![v2255.toNat, 0, 0]

def k0_chk129 (v2255 : BitVec 32) : Prop :=
  (∀ a, (k0_off129 v2255) a + S1x1x128.size a ≤ S1048576x1x128.size a)
instance k0_chk129.dec : ∀ (v2255 : BitVec 32), Decidable (k0_chk129 v2255) := fun v2255 => decidable_of_iff' _ (Iff.of_eq (k0_chk129.eq_1 v2255))
theorem k0_off129_inb : ∀ (v2255 : BitVec 32) (k0_hw129 : k0_chk129 v2255), ∀ a, (k0_off129 v2255) a + S1x1x128.size a ≤ S1048576x1x128.size a := fun v2255 k0_hw129 => k0_hw129

def k0_off130 (v2274 : BitVec 32) : Fin 3 → Nat :=
  let c0_i32_2132 : BitVec 32 := 0#32
  let c0_i32_2133 : BitVec 32 := 0#32
  ![v2274.toNat, 0, 0]

def k0_chk130 (v2274 : BitVec 32) : Prop :=
  (∀ a, (k0_off130 v2274) a + S1x1x128.size a ≤ S1048576x1x128.size a)
instance k0_chk130.dec : ∀ (v2274 : BitVec 32), Decidable (k0_chk130 v2274) := fun v2274 => decidable_of_iff' _ (Iff.of_eq (k0_chk130.eq_1 v2274))
theorem k0_off130_inb : ∀ (v2274 : BitVec 32) (k0_hw130 : k0_chk130 v2274), ∀ a, (k0_off130 v2274) a + S1x1x128.size a ≤ S1048576x1x128.size a := fun v2274 k0_hw130 => k0_hw130

def k0_off131 (v2293 : BitVec 32) : Fin 3 → Nat :=
  let c0_i32_2150 : BitVec 32 := 0#32
  let c0_i32_2151 : BitVec 32 := 0#32
  ![v2293.toNat, 0, 0]

def k0_chk131 (v2293 : BitVec 32) : Prop :=
  (∀ a, (k0_off131 v2293) a + S1x1x128.size a ≤ S1048576x1x128.size a)
instance k0_chk131.dec : ∀ (v2293 : BitVec 32), Decidable (k0_chk131 v2293) := fun v2293 => decidable_of_iff' _ (Iff.of_eq (k0_chk131.eq_1 v2293))
theorem k0_off131_inb : ∀ (v2293 : BitVec 32) (k0_hw131 : k0_chk131 v2293), ∀ a, (k0_off131 v2293) a + S1x1x128.size a ≤ S1048576x1x128.size a := fun v2293 k0_hw131 => k0_hw131

def k0_off132 (v2312 : BitVec 32) : Fin 3 → Nat :=
  let c0_i32_2168 : BitVec 32 := 0#32
  let c0_i32_2169 : BitVec 32 := 0#32
  ![v2312.toNat, 0, 0]

def k0_chk132 (v2312 : BitVec 32) : Prop :=
  (∀ a, (k0_off132 v2312) a + S1x1x128.size a ≤ S1048576x1x128.size a)
instance k0_chk132.dec : ∀ (v2312 : BitVec 32), Decidable (k0_chk132 v2312) := fun v2312 => decidable_of_iff' _ (Iff.of_eq (k0_chk132.eq_1 v2312))
theorem k0_off132_inb : ∀ (v2312 : BitVec 32) (k0_hw132 : k0_chk132 v2312), ∀ a, (k0_off132 v2312) a + S1x1x128.size a ≤ S1048576x1x128.size a := fun v2312 k0_hw132 => k0_hw132

def k0_off133 (v2331 : BitVec 32) : Fin 3 → Nat :=
  let c0_i32_2186 : BitVec 32 := 0#32
  let c0_i32_2187 : BitVec 32 := 0#32
  ![v2331.toNat, 0, 0]

def k0_chk133 (v2331 : BitVec 32) : Prop :=
  (∀ a, (k0_off133 v2331) a + S1x1x128.size a ≤ S1048576x1x128.size a)
instance k0_chk133.dec : ∀ (v2331 : BitVec 32), Decidable (k0_chk133 v2331) := fun v2331 => decidable_of_iff' _ (Iff.of_eq (k0_chk133.eq_1 v2331))
theorem k0_off133_inb : ∀ (v2331 : BitVec 32) (k0_hw133 : k0_chk133 v2331), ∀ a, (k0_off133 v2331) a + S1x1x128.size a ≤ S1048576x1x128.size a := fun v2331 k0_hw133 => k0_hw133

def k0_off134 (v2350 : BitVec 32) : Fin 3 → Nat :=
  let c0_i32_2204 : BitVec 32 := 0#32
  let c0_i32_2205 : BitVec 32 := 0#32
  ![v2350.toNat, 0, 0]

def k0_chk134 (v2350 : BitVec 32) : Prop :=
  (∀ a, (k0_off134 v2350) a + S1x1x128.size a ≤ S1048576x1x128.size a)
instance k0_chk134.dec : ∀ (v2350 : BitVec 32), Decidable (k0_chk134 v2350) := fun v2350 => decidable_of_iff' _ (Iff.of_eq (k0_chk134.eq_1 v2350))
theorem k0_off134_inb : ∀ (v2350 : BitVec 32) (k0_hw134 : k0_chk134 v2350), ∀ a, (k0_off134 v2350) a + S1x1x128.size a ≤ S1048576x1x128.size a := fun v2350 k0_hw134 => k0_hw134

def k0_off135 (v2369 : BitVec 32) : Fin 3 → Nat :=
  let c0_i32_2222 : BitVec 32 := 0#32
  let c0_i32_2223 : BitVec 32 := 0#32
  ![v2369.toNat, 0, 0]

def k0_chk135 (v2369 : BitVec 32) : Prop :=
  (∀ a, (k0_off135 v2369) a + S1x1x128.size a ≤ S1048576x1x128.size a)
instance k0_chk135.dec : ∀ (v2369 : BitVec 32), Decidable (k0_chk135 v2369) := fun v2369 => decidable_of_iff' _ (Iff.of_eq (k0_chk135.eq_1 v2369))
theorem k0_off135_inb : ∀ (v2369 : BitVec 32) (k0_hw135 : k0_chk135 v2369), ∀ a, (k0_off135 v2369) a + S1x1x128.size a ≤ S1048576x1x128.size a := fun v2369 k0_hw135 => k0_hw135

def k0_off136 (v2388 : BitVec 32) : Fin 3 → Nat :=
  let c0_i32_2240 : BitVec 32 := 0#32
  let c0_i32_2241 : BitVec 32 := 0#32
  ![v2388.toNat, 0, 0]

def k0_chk136 (v2388 : BitVec 32) : Prop :=
  (∀ a, (k0_off136 v2388) a + S1x1x128.size a ≤ S1048576x1x128.size a)
instance k0_chk136.dec : ∀ (v2388 : BitVec 32), Decidable (k0_chk136 v2388) := fun v2388 => decidable_of_iff' _ (Iff.of_eq (k0_chk136.eq_1 v2388))
theorem k0_off136_inb : ∀ (v2388 : BitVec 32) (k0_hw136 : k0_chk136 v2388), ∀ a, (k0_off136 v2388) a + S1x1x128.size a ≤ S1048576x1x128.size a := fun v2388 k0_hw136 => k0_hw136

def k0_off137 (v2407 : BitVec 32) : Fin 3 → Nat :=
  let c0_i32_2258 : BitVec 32 := 0#32
  let c0_i32_2259 : BitVec 32 := 0#32
  ![v2407.toNat, 0, 0]

def k0_chk137 (v2407 : BitVec 32) : Prop :=
  (∀ a, (k0_off137 v2407) a + S1x1x128.size a ≤ S1048576x1x128.size a)
instance k0_chk137.dec : ∀ (v2407 : BitVec 32), Decidable (k0_chk137 v2407) := fun v2407 => decidable_of_iff' _ (Iff.of_eq (k0_chk137.eq_1 v2407))
theorem k0_off137_inb : ∀ (v2407 : BitVec 32) (k0_hw137 : k0_chk137 v2407), ∀ a, (k0_off137 v2407) a + S1x1x128.size a ≤ S1048576x1x128.size a := fun v2407 k0_hw137 => k0_hw137

def k0_off138 (v2426 : BitVec 32) : Fin 3 → Nat :=
  let c0_i32_2276 : BitVec 32 := 0#32
  let c0_i32_2277 : BitVec 32 := 0#32
  ![v2426.toNat, 0, 0]

def k0_chk138 (v2426 : BitVec 32) : Prop :=
  (∀ a, (k0_off138 v2426) a + S1x1x128.size a ≤ S1048576x1x128.size a)
instance k0_chk138.dec : ∀ (v2426 : BitVec 32), Decidable (k0_chk138 v2426) := fun v2426 => decidable_of_iff' _ (Iff.of_eq (k0_chk138.eq_1 v2426))
theorem k0_off138_inb : ∀ (v2426 : BitVec 32) (k0_hw138 : k0_chk138 v2426), ∀ a, (k0_off138 v2426) a + S1x1x128.size a ≤ S1048576x1x128.size a := fun v2426 k0_hw138 => k0_hw138

def k0_off139 (v2445 : BitVec 32) : Fin 3 → Nat :=
  let c0_i32_2294 : BitVec 32 := 0#32
  let c0_i32_2295 : BitVec 32 := 0#32
  ![v2445.toNat, 0, 0]

def k0_chk139 (v2445 : BitVec 32) : Prop :=
  (∀ a, (k0_off139 v2445) a + S1x1x128.size a ≤ S1048576x1x128.size a)
instance k0_chk139.dec : ∀ (v2445 : BitVec 32), Decidable (k0_chk139 v2445) := fun v2445 => decidable_of_iff' _ (Iff.of_eq (k0_chk139.eq_1 v2445))
theorem k0_off139_inb : ∀ (v2445 : BitVec 32) (k0_hw139 : k0_chk139 v2445), ∀ a, (k0_off139 v2445) a + S1x1x128.size a ≤ S1048576x1x128.size a := fun v2445 k0_hw139 => k0_hw139

def k0_off140 (v2464 : BitVec 32) : Fin 3 → Nat :=
  let c0_i32_2312 : BitVec 32 := 0#32
  let c0_i32_2313 : BitVec 32 := 0#32
  ![v2464.toNat, 0, 0]

def k0_chk140 (v2464 : BitVec 32) : Prop :=
  (∀ a, (k0_off140 v2464) a + S1x1x128.size a ≤ S1048576x1x128.size a)
instance k0_chk140.dec : ∀ (v2464 : BitVec 32), Decidable (k0_chk140 v2464) := fun v2464 => decidable_of_iff' _ (Iff.of_eq (k0_chk140.eq_1 v2464))
theorem k0_off140_inb : ∀ (v2464 : BitVec 32) (k0_hw140 : k0_chk140 v2464), ∀ a, (k0_off140 v2464) a + S1x1x128.size a ≤ S1048576x1x128.size a := fun v2464 k0_hw140 => k0_hw140

def k0_off141 (v2483 : BitVec 32) : Fin 3 → Nat :=
  let c0_i32_2330 : BitVec 32 := 0#32
  let c0_i32_2331 : BitVec 32 := 0#32
  ![v2483.toNat, 0, 0]

def k0_chk141 (v2483 : BitVec 32) : Prop :=
  (∀ a, (k0_off141 v2483) a + S1x1x128.size a ≤ S1048576x1x128.size a)
instance k0_chk141.dec : ∀ (v2483 : BitVec 32), Decidable (k0_chk141 v2483) := fun v2483 => decidable_of_iff' _ (Iff.of_eq (k0_chk141.eq_1 v2483))
theorem k0_off141_inb : ∀ (v2483 : BitVec 32) (k0_hw141 : k0_chk141 v2483), ∀ a, (k0_off141 v2483) a + S1x1x128.size a ≤ S1048576x1x128.size a := fun v2483 k0_hw141 => k0_hw141

def k0_off142 (v2502 : BitVec 32) : Fin 3 → Nat :=
  let c0_i32_2348 : BitVec 32 := 0#32
  let c0_i32_2349 : BitVec 32 := 0#32
  ![v2502.toNat, 0, 0]

def k0_chk142 (v2502 : BitVec 32) : Prop :=
  (∀ a, (k0_off142 v2502) a + S1x1x128.size a ≤ S1048576x1x128.size a)
instance k0_chk142.dec : ∀ (v2502 : BitVec 32), Decidable (k0_chk142 v2502) := fun v2502 => decidable_of_iff' _ (Iff.of_eq (k0_chk142.eq_1 v2502))
theorem k0_off142_inb : ∀ (v2502 : BitVec 32) (k0_hw142 : k0_chk142 v2502), ∀ a, (k0_off142 v2502) a + S1x1x128.size a ≤ S1048576x1x128.size a := fun v2502 k0_hw142 => k0_hw142

def k0_off143 (v2521 : BitVec 32) : Fin 3 → Nat :=
  let c0_i32_2366 : BitVec 32 := 0#32
  let c0_i32_2367 : BitVec 32 := 0#32
  ![v2521.toNat, 0, 0]

def k0_chk143 (v2521 : BitVec 32) : Prop :=
  (∀ a, (k0_off143 v2521) a + S1x1x128.size a ≤ S1048576x1x128.size a)
instance k0_chk143.dec : ∀ (v2521 : BitVec 32), Decidable (k0_chk143 v2521) := fun v2521 => decidable_of_iff' _ (Iff.of_eq (k0_chk143.eq_1 v2521))
theorem k0_off143_inb : ∀ (v2521 : BitVec 32) (k0_hw143 : k0_chk143 v2521), ∀ a, (k0_off143 v2521) a + S1x1x128.size a ≤ S1048576x1x128.size a := fun v2521 k0_hw143 => k0_hw143

def k0_off144 (v2540 : BitVec 32) : Fin 3 → Nat :=
  let c0_i32_2384 : BitVec 32 := 0#32
  let c0_i32_2385 : BitVec 32 := 0#32
  ![v2540.toNat, 0, 0]

def k0_chk144 (v2540 : BitVec 32) : Prop :=
  (∀ a, (k0_off144 v2540) a + S1x1x128.size a ≤ S1048576x1x128.size a)
instance k0_chk144.dec : ∀ (v2540 : BitVec 32), Decidable (k0_chk144 v2540) := fun v2540 => decidable_of_iff' _ (Iff.of_eq (k0_chk144.eq_1 v2540))
theorem k0_off144_inb : ∀ (v2540 : BitVec 32) (k0_hw144 : k0_chk144 v2540), ∀ a, (k0_off144 v2540) a + S1x1x128.size a ≤ S1048576x1x128.size a := fun v2540 k0_hw144 => k0_hw144

def k0_off145 (v2559 : BitVec 32) : Fin 3 → Nat :=
  let c0_i32_2402 : BitVec 32 := 0#32
  let c0_i32_2403 : BitVec 32 := 0#32
  ![v2559.toNat, 0, 0]

def k0_chk145 (v2559 : BitVec 32) : Prop :=
  (∀ a, (k0_off145 v2559) a + S1x1x128.size a ≤ S1048576x1x128.size a)
instance k0_chk145.dec : ∀ (v2559 : BitVec 32), Decidable (k0_chk145 v2559) := fun v2559 => decidable_of_iff' _ (Iff.of_eq (k0_chk145.eq_1 v2559))
theorem k0_off145_inb : ∀ (v2559 : BitVec 32) (k0_hw145 : k0_chk145 v2559), ∀ a, (k0_off145 v2559) a + S1x1x128.size a ≤ S1048576x1x128.size a := fun v2559 k0_hw145 => k0_hw145

def k0_off146 (v2578 : BitVec 32) : Fin 3 → Nat :=
  let c0_i32_2420 : BitVec 32 := 0#32
  let c0_i32_2421 : BitVec 32 := 0#32
  ![v2578.toNat, 0, 0]

def k0_chk146 (v2578 : BitVec 32) : Prop :=
  (∀ a, (k0_off146 v2578) a + S1x1x128.size a ≤ S1048576x1x128.size a)
instance k0_chk146.dec : ∀ (v2578 : BitVec 32), Decidable (k0_chk146 v2578) := fun v2578 => decidable_of_iff' _ (Iff.of_eq (k0_chk146.eq_1 v2578))
theorem k0_off146_inb : ∀ (v2578 : BitVec 32) (k0_hw146 : k0_chk146 v2578), ∀ a, (k0_off146 v2578) a + S1x1x128.size a ≤ S1048576x1x128.size a := fun v2578 k0_hw146 => k0_hw146

def k0_off147 (v2597 : BitVec 32) : Fin 3 → Nat :=
  let c0_i32_2438 : BitVec 32 := 0#32
  let c0_i32_2439 : BitVec 32 := 0#32
  ![v2597.toNat, 0, 0]

def k0_chk147 (v2597 : BitVec 32) : Prop :=
  (∀ a, (k0_off147 v2597) a + S1x1x128.size a ≤ S1048576x1x128.size a)
instance k0_chk147.dec : ∀ (v2597 : BitVec 32), Decidable (k0_chk147 v2597) := fun v2597 => decidable_of_iff' _ (Iff.of_eq (k0_chk147.eq_1 v2597))
theorem k0_off147_inb : ∀ (v2597 : BitVec 32) (k0_hw147 : k0_chk147 v2597), ∀ a, (k0_off147 v2597) a + S1x1x128.size a ≤ S1048576x1x128.size a := fun v2597 k0_hw147 => k0_hw147

def k0_off148 (v2616 : BitVec 32) : Fin 3 → Nat :=
  let c0_i32_2456 : BitVec 32 := 0#32
  let c0_i32_2457 : BitVec 32 := 0#32
  ![v2616.toNat, 0, 0]

def k0_chk148 (v2616 : BitVec 32) : Prop :=
  (∀ a, (k0_off148 v2616) a + S1x1x128.size a ≤ S1048576x1x128.size a)
instance k0_chk148.dec : ∀ (v2616 : BitVec 32), Decidable (k0_chk148 v2616) := fun v2616 => decidable_of_iff' _ (Iff.of_eq (k0_chk148.eq_1 v2616))
theorem k0_off148_inb : ∀ (v2616 : BitVec 32) (k0_hw148 : k0_chk148 v2616), ∀ a, (k0_off148 v2616) a + S1x1x128.size a ≤ S1048576x1x128.size a := fun v2616 k0_hw148 => k0_hw148

def k0_off149 (v2635 : BitVec 32) : Fin 3 → Nat :=
  let c0_i32_2474 : BitVec 32 := 0#32
  let c0_i32_2475 : BitVec 32 := 0#32
  ![v2635.toNat, 0, 0]

def k0_chk149 (v2635 : BitVec 32) : Prop :=
  (∀ a, (k0_off149 v2635) a + S1x1x128.size a ≤ S1048576x1x128.size a)
instance k0_chk149.dec : ∀ (v2635 : BitVec 32), Decidable (k0_chk149 v2635) := fun v2635 => decidable_of_iff' _ (Iff.of_eq (k0_chk149.eq_1 v2635))
theorem k0_off149_inb : ∀ (v2635 : BitVec 32) (k0_hw149 : k0_chk149 v2635), ∀ a, (k0_off149 v2635) a + S1x1x128.size a ≤ S1048576x1x128.size a := fun v2635 k0_hw149 => k0_hw149

def k0_off150 (v2654 : BitVec 32) : Fin 3 → Nat :=
  let c0_i32_2492 : BitVec 32 := 0#32
  let c0_i32_2493 : BitVec 32 := 0#32
  ![v2654.toNat, 0, 0]

def k0_chk150 (v2654 : BitVec 32) : Prop :=
  (∀ a, (k0_off150 v2654) a + S1x1x128.size a ≤ S1048576x1x128.size a)
instance k0_chk150.dec : ∀ (v2654 : BitVec 32), Decidable (k0_chk150 v2654) := fun v2654 => decidable_of_iff' _ (Iff.of_eq (k0_chk150.eq_1 v2654))
theorem k0_off150_inb : ∀ (v2654 : BitVec 32) (k0_hw150 : k0_chk150 v2654), ∀ a, (k0_off150 v2654) a + S1x1x128.size a ≤ S1048576x1x128.size a := fun v2654 k0_hw150 => k0_hw150

def k0_off151 (v2673 : BitVec 32) : Fin 3 → Nat :=
  let c0_i32_2510 : BitVec 32 := 0#32
  let c0_i32_2511 : BitVec 32 := 0#32
  ![v2673.toNat, 0, 0]

def k0_chk151 (v2673 : BitVec 32) : Prop :=
  (∀ a, (k0_off151 v2673) a + S1x1x128.size a ≤ S1048576x1x128.size a)
instance k0_chk151.dec : ∀ (v2673 : BitVec 32), Decidable (k0_chk151 v2673) := fun v2673 => decidable_of_iff' _ (Iff.of_eq (k0_chk151.eq_1 v2673))
theorem k0_off151_inb : ∀ (v2673 : BitVec 32) (k0_hw151 : k0_chk151 v2673), ∀ a, (k0_off151 v2673) a + S1x1x128.size a ≤ S1048576x1x128.size a := fun v2673 k0_hw151 => k0_hw151

def k0_off152 (v2692 : BitVec 32) : Fin 3 → Nat :=
  let c0_i32_2528 : BitVec 32 := 0#32
  let c0_i32_2529 : BitVec 32 := 0#32
  ![v2692.toNat, 0, 0]

def k0_chk152 (v2692 : BitVec 32) : Prop :=
  (∀ a, (k0_off152 v2692) a + S1x1x128.size a ≤ S1048576x1x128.size a)
instance k0_chk152.dec : ∀ (v2692 : BitVec 32), Decidable (k0_chk152 v2692) := fun v2692 => decidable_of_iff' _ (Iff.of_eq (k0_chk152.eq_1 v2692))
theorem k0_off152_inb : ∀ (v2692 : BitVec 32) (k0_hw152 : k0_chk152 v2692), ∀ a, (k0_off152 v2692) a + S1x1x128.size a ≤ S1048576x1x128.size a := fun v2692 k0_hw152 => k0_hw152

def k0_off153 (v2711 : BitVec 32) : Fin 3 → Nat :=
  let c0_i32_2546 : BitVec 32 := 0#32
  let c0_i32_2547 : BitVec 32 := 0#32
  ![v2711.toNat, 0, 0]

def k0_chk153 (v2711 : BitVec 32) : Prop :=
  (∀ a, (k0_off153 v2711) a + S1x1x128.size a ≤ S1048576x1x128.size a)
instance k0_chk153.dec : ∀ (v2711 : BitVec 32), Decidable (k0_chk153 v2711) := fun v2711 => decidable_of_iff' _ (Iff.of_eq (k0_chk153.eq_1 v2711))
theorem k0_off153_inb : ∀ (v2711 : BitVec 32) (k0_hw153 : k0_chk153 v2711), ∀ a, (k0_off153 v2711) a + S1x1x128.size a ≤ S1048576x1x128.size a := fun v2711 k0_hw153 => k0_hw153

def k0_off154 (v2730 : BitVec 32) : Fin 3 → Nat :=
  let c0_i32_2564 : BitVec 32 := 0#32
  let c0_i32_2565 : BitVec 32 := 0#32
  ![v2730.toNat, 0, 0]

def k0_chk154 (v2730 : BitVec 32) : Prop :=
  (∀ a, (k0_off154 v2730) a + S1x1x128.size a ≤ S1048576x1x128.size a)
instance k0_chk154.dec : ∀ (v2730 : BitVec 32), Decidable (k0_chk154 v2730) := fun v2730 => decidable_of_iff' _ (Iff.of_eq (k0_chk154.eq_1 v2730))
theorem k0_off154_inb : ∀ (v2730 : BitVec 32) (k0_hw154 : k0_chk154 v2730), ∀ a, (k0_off154 v2730) a + S1x1x128.size a ≤ S1048576x1x128.size a := fun v2730 k0_hw154 => k0_hw154

def k0_off155 (v2749 : BitVec 32) : Fin 3 → Nat :=
  let c0_i32_2582 : BitVec 32 := 0#32
  let c0_i32_2583 : BitVec 32 := 0#32
  ![v2749.toNat, 0, 0]

def k0_chk155 (v2749 : BitVec 32) : Prop :=
  (∀ a, (k0_off155 v2749) a + S1x1x128.size a ≤ S1048576x1x128.size a)
instance k0_chk155.dec : ∀ (v2749 : BitVec 32), Decidable (k0_chk155 v2749) := fun v2749 => decidable_of_iff' _ (Iff.of_eq (k0_chk155.eq_1 v2749))
theorem k0_off155_inb : ∀ (v2749 : BitVec 32) (k0_hw155 : k0_chk155 v2749), ∀ a, (k0_off155 v2749) a + S1x1x128.size a ≤ S1048576x1x128.size a := fun v2749 k0_hw155 => k0_hw155

def k0_off156 (v2768 : BitVec 32) : Fin 3 → Nat :=
  let c0_i32_2600 : BitVec 32 := 0#32
  let c0_i32_2601 : BitVec 32 := 0#32
  ![v2768.toNat, 0, 0]

def k0_chk156 (v2768 : BitVec 32) : Prop :=
  (∀ a, (k0_off156 v2768) a + S1x1x128.size a ≤ S1048576x1x128.size a)
instance k0_chk156.dec : ∀ (v2768 : BitVec 32), Decidable (k0_chk156 v2768) := fun v2768 => decidable_of_iff' _ (Iff.of_eq (k0_chk156.eq_1 v2768))
theorem k0_off156_inb : ∀ (v2768 : BitVec 32) (k0_hw156 : k0_chk156 v2768), ∀ a, (k0_off156 v2768) a + S1x1x128.size a ≤ S1048576x1x128.size a := fun v2768 k0_hw156 => k0_hw156

def k0_off157 (v2787 : BitVec 32) : Fin 3 → Nat :=
  let c0_i32_2618 : BitVec 32 := 0#32
  let c0_i32_2619 : BitVec 32 := 0#32
  ![v2787.toNat, 0, 0]

def k0_chk157 (v2787 : BitVec 32) : Prop :=
  (∀ a, (k0_off157 v2787) a + S1x1x128.size a ≤ S1048576x1x128.size a)
instance k0_chk157.dec : ∀ (v2787 : BitVec 32), Decidable (k0_chk157 v2787) := fun v2787 => decidable_of_iff' _ (Iff.of_eq (k0_chk157.eq_1 v2787))
theorem k0_off157_inb : ∀ (v2787 : BitVec 32) (k0_hw157 : k0_chk157 v2787), ∀ a, (k0_off157 v2787) a + S1x1x128.size a ≤ S1048576x1x128.size a := fun v2787 k0_hw157 => k0_hw157

def k0_off158 (v2806 : BitVec 32) : Fin 3 → Nat :=
  let c0_i32_2636 : BitVec 32 := 0#32
  let c0_i32_2637 : BitVec 32 := 0#32
  ![v2806.toNat, 0, 0]

def k0_chk158 (v2806 : BitVec 32) : Prop :=
  (∀ a, (k0_off158 v2806) a + S1x1x128.size a ≤ S1048576x1x128.size a)
instance k0_chk158.dec : ∀ (v2806 : BitVec 32), Decidable (k0_chk158 v2806) := fun v2806 => decidable_of_iff' _ (Iff.of_eq (k0_chk158.eq_1 v2806))
theorem k0_off158_inb : ∀ (v2806 : BitVec 32) (k0_hw158 : k0_chk158 v2806), ∀ a, (k0_off158 v2806) a + S1x1x128.size a ≤ S1048576x1x128.size a := fun v2806 k0_hw158 => k0_hw158

def k0_off159 (v2825 : BitVec 32) : Fin 3 → Nat :=
  let c0_i32_2654 : BitVec 32 := 0#32
  let c0_i32_2655 : BitVec 32 := 0#32
  ![v2825.toNat, 0, 0]

def k0_chk159 (v2825 : BitVec 32) : Prop :=
  (∀ a, (k0_off159 v2825) a + S1x1x128.size a ≤ S1048576x1x128.size a)
instance k0_chk159.dec : ∀ (v2825 : BitVec 32), Decidable (k0_chk159 v2825) := fun v2825 => decidable_of_iff' _ (Iff.of_eq (k0_chk159.eq_1 v2825))
theorem k0_off159_inb : ∀ (v2825 : BitVec 32) (k0_hw159 : k0_chk159 v2825), ∀ a, (k0_off159 v2825) a + S1x1x128.size a ≤ S1048576x1x128.size a := fun v2825 k0_hw159 => k0_hw159

def k0_off160 (v2844 : BitVec 32) : Fin 3 → Nat :=
  let c0_i32_2672 : BitVec 32 := 0#32
  let c0_i32_2673 : BitVec 32 := 0#32
  ![v2844.toNat, 0, 0]

def k0_chk160 (v2844 : BitVec 32) : Prop :=
  (∀ a, (k0_off160 v2844) a + S1x1x128.size a ≤ S1048576x1x128.size a)
instance k0_chk160.dec : ∀ (v2844 : BitVec 32), Decidable (k0_chk160 v2844) := fun v2844 => decidable_of_iff' _ (Iff.of_eq (k0_chk160.eq_1 v2844))
theorem k0_off160_inb : ∀ (v2844 : BitVec 32) (k0_hw160 : k0_chk160 v2844), ∀ a, (k0_off160 v2844) a + S1x1x128.size a ≤ S1048576x1x128.size a := fun v2844 k0_hw160 => k0_hw160

def k0_off161 (v2863 : BitVec 32) : Fin 3 → Nat :=
  let c0_i32_2690 : BitVec 32 := 0#32
  let c0_i32_2691 : BitVec 32 := 0#32
  ![v2863.toNat, 0, 0]

def k0_chk161 (v2863 : BitVec 32) : Prop :=
  (∀ a, (k0_off161 v2863) a + S1x1x128.size a ≤ S1048576x1x128.size a)
instance k0_chk161.dec : ∀ (v2863 : BitVec 32), Decidable (k0_chk161 v2863) := fun v2863 => decidable_of_iff' _ (Iff.of_eq (k0_chk161.eq_1 v2863))
theorem k0_off161_inb : ∀ (v2863 : BitVec 32) (k0_hw161 : k0_chk161 v2863), ∀ a, (k0_off161 v2863) a + S1x1x128.size a ≤ S1048576x1x128.size a := fun v2863 k0_hw161 => k0_hw161

def k0_off162 (v2882 : BitVec 32) : Fin 3 → Nat :=
  let c0_i32_2708 : BitVec 32 := 0#32
  let c0_i32_2709 : BitVec 32 := 0#32
  ![v2882.toNat, 0, 0]

def k0_chk162 (v2882 : BitVec 32) : Prop :=
  (∀ a, (k0_off162 v2882) a + S1x1x128.size a ≤ S1048576x1x128.size a)
instance k0_chk162.dec : ∀ (v2882 : BitVec 32), Decidable (k0_chk162 v2882) := fun v2882 => decidable_of_iff' _ (Iff.of_eq (k0_chk162.eq_1 v2882))
theorem k0_off162_inb : ∀ (v2882 : BitVec 32) (k0_hw162 : k0_chk162 v2882), ∀ a, (k0_off162 v2882) a + S1x1x128.size a ≤ S1048576x1x128.size a := fun v2882 k0_hw162 => k0_hw162

def k0_off163 (v2901 : BitVec 32) : Fin 3 → Nat :=
  let c0_i32_2726 : BitVec 32 := 0#32
  let c0_i32_2727 : BitVec 32 := 0#32
  ![v2901.toNat, 0, 0]

def k0_chk163 (v2901 : BitVec 32) : Prop :=
  (∀ a, (k0_off163 v2901) a + S1x1x128.size a ≤ S1048576x1x128.size a)
instance k0_chk163.dec : ∀ (v2901 : BitVec 32), Decidable (k0_chk163 v2901) := fun v2901 => decidable_of_iff' _ (Iff.of_eq (k0_chk163.eq_1 v2901))
theorem k0_off163_inb : ∀ (v2901 : BitVec 32) (k0_hw163 : k0_chk163 v2901), ∀ a, (k0_off163 v2901) a + S1x1x128.size a ≤ S1048576x1x128.size a := fun v2901 k0_hw163 => k0_hw163

def k0_off164 (v2920 : BitVec 32) : Fin 3 → Nat :=
  let c0_i32_2744 : BitVec 32 := 0#32
  let c0_i32_2745 : BitVec 32 := 0#32
  ![v2920.toNat, 0, 0]

def k0_chk164 (v2920 : BitVec 32) : Prop :=
  (∀ a, (k0_off164 v2920) a + S1x1x128.size a ≤ S1048576x1x128.size a)
instance k0_chk164.dec : ∀ (v2920 : BitVec 32), Decidable (k0_chk164 v2920) := fun v2920 => decidable_of_iff' _ (Iff.of_eq (k0_chk164.eq_1 v2920))
theorem k0_off164_inb : ∀ (v2920 : BitVec 32) (k0_hw164 : k0_chk164 v2920), ∀ a, (k0_off164 v2920) a + S1x1x128.size a ≤ S1048576x1x128.size a := fun v2920 k0_hw164 => k0_hw164

def k0_off165 (v2939 : BitVec 32) : Fin 3 → Nat :=
  let c0_i32_2762 : BitVec 32 := 0#32
  let c0_i32_2763 : BitVec 32 := 0#32
  ![v2939.toNat, 0, 0]

def k0_chk165 (v2939 : BitVec 32) : Prop :=
  (∀ a, (k0_off165 v2939) a + S1x1x128.size a ≤ S1048576x1x128.size a)
instance k0_chk165.dec : ∀ (v2939 : BitVec 32), Decidable (k0_chk165 v2939) := fun v2939 => decidable_of_iff' _ (Iff.of_eq (k0_chk165.eq_1 v2939))
theorem k0_off165_inb : ∀ (v2939 : BitVec 32) (k0_hw165 : k0_chk165 v2939), ∀ a, (k0_off165 v2939) a + S1x1x128.size a ≤ S1048576x1x128.size a := fun v2939 k0_hw165 => k0_hw165

def k0_off166 (v2958 : BitVec 32) : Fin 3 → Nat :=
  let c0_i32_2780 : BitVec 32 := 0#32
  let c0_i32_2781 : BitVec 32 := 0#32
  ![v2958.toNat, 0, 0]

def k0_chk166 (v2958 : BitVec 32) : Prop :=
  (∀ a, (k0_off166 v2958) a + S1x1x128.size a ≤ S1048576x1x128.size a)
instance k0_chk166.dec : ∀ (v2958 : BitVec 32), Decidable (k0_chk166 v2958) := fun v2958 => decidable_of_iff' _ (Iff.of_eq (k0_chk166.eq_1 v2958))
theorem k0_off166_inb : ∀ (v2958 : BitVec 32) (k0_hw166 : k0_chk166 v2958), ∀ a, (k0_off166 v2958) a + S1x1x128.size a ≤ S1048576x1x128.size a := fun v2958 k0_hw166 => k0_hw166

def k0_off167 (v2977 : BitVec 32) : Fin 3 → Nat :=
  let c0_i32_2798 : BitVec 32 := 0#32
  let c0_i32_2799 : BitVec 32 := 0#32
  ![v2977.toNat, 0, 0]

def k0_chk167 (v2977 : BitVec 32) : Prop :=
  (∀ a, (k0_off167 v2977) a + S1x1x128.size a ≤ S1048576x1x128.size a)
instance k0_chk167.dec : ∀ (v2977 : BitVec 32), Decidable (k0_chk167 v2977) := fun v2977 => decidable_of_iff' _ (Iff.of_eq (k0_chk167.eq_1 v2977))
theorem k0_off167_inb : ∀ (v2977 : BitVec 32) (k0_hw167 : k0_chk167 v2977), ∀ a, (k0_off167 v2977) a + S1x1x128.size a ≤ S1048576x1x128.size a := fun v2977 k0_hw167 => k0_hw167

def k0_off168 (v2996 : BitVec 32) : Fin 3 → Nat :=
  let c0_i32_2816 : BitVec 32 := 0#32
  let c0_i32_2817 : BitVec 32 := 0#32
  ![v2996.toNat, 0, 0]

def k0_chk168 (v2996 : BitVec 32) : Prop :=
  (∀ a, (k0_off168 v2996) a + S1x1x128.size a ≤ S1048576x1x128.size a)
instance k0_chk168.dec : ∀ (v2996 : BitVec 32), Decidable (k0_chk168 v2996) := fun v2996 => decidable_of_iff' _ (Iff.of_eq (k0_chk168.eq_1 v2996))
theorem k0_off168_inb : ∀ (v2996 : BitVec 32) (k0_hw168 : k0_chk168 v2996), ∀ a, (k0_off168 v2996) a + S1x1x128.size a ≤ S1048576x1x128.size a := fun v2996 k0_hw168 => k0_hw168

def k0_off169 (v3015 : BitVec 32) : Fin 3 → Nat :=
  let c0_i32_2834 : BitVec 32 := 0#32
  let c0_i32_2835 : BitVec 32 := 0#32
  ![v3015.toNat, 0, 0]

def k0_chk169 (v3015 : BitVec 32) : Prop :=
  (∀ a, (k0_off169 v3015) a + S1x1x128.size a ≤ S1048576x1x128.size a)
instance k0_chk169.dec : ∀ (v3015 : BitVec 32), Decidable (k0_chk169 v3015) := fun v3015 => decidable_of_iff' _ (Iff.of_eq (k0_chk169.eq_1 v3015))
theorem k0_off169_inb : ∀ (v3015 : BitVec 32) (k0_hw169 : k0_chk169 v3015), ∀ a, (k0_off169 v3015) a + S1x1x128.size a ≤ S1048576x1x128.size a := fun v3015 k0_hw169 => k0_hw169

def k0_off170 (v3034 : BitVec 32) : Fin 3 → Nat :=
  let c0_i32_2852 : BitVec 32 := 0#32
  let c0_i32_2853 : BitVec 32 := 0#32
  ![v3034.toNat, 0, 0]

def k0_chk170 (v3034 : BitVec 32) : Prop :=
  (∀ a, (k0_off170 v3034) a + S1x1x128.size a ≤ S1048576x1x128.size a)
instance k0_chk170.dec : ∀ (v3034 : BitVec 32), Decidable (k0_chk170 v3034) := fun v3034 => decidable_of_iff' _ (Iff.of_eq (k0_chk170.eq_1 v3034))
theorem k0_off170_inb : ∀ (v3034 : BitVec 32) (k0_hw170 : k0_chk170 v3034), ∀ a, (k0_off170 v3034) a + S1x1x128.size a ≤ S1048576x1x128.size a := fun v3034 k0_hw170 => k0_hw170

def k0_off171 (v3053 : BitVec 32) : Fin 3 → Nat :=
  let c0_i32_2870 : BitVec 32 := 0#32
  let c0_i32_2871 : BitVec 32 := 0#32
  ![v3053.toNat, 0, 0]

def k0_chk171 (v3053 : BitVec 32) : Prop :=
  (∀ a, (k0_off171 v3053) a + S1x1x128.size a ≤ S1048576x1x128.size a)
instance k0_chk171.dec : ∀ (v3053 : BitVec 32), Decidable (k0_chk171 v3053) := fun v3053 => decidable_of_iff' _ (Iff.of_eq (k0_chk171.eq_1 v3053))
theorem k0_off171_inb : ∀ (v3053 : BitVec 32) (k0_hw171 : k0_chk171 v3053), ∀ a, (k0_off171 v3053) a + S1x1x128.size a ≤ S1048576x1x128.size a := fun v3053 k0_hw171 => k0_hw171

def k0_off172 (v3072 : BitVec 32) : Fin 3 → Nat :=
  let c0_i32_2888 : BitVec 32 := 0#32
  let c0_i32_2889 : BitVec 32 := 0#32
  ![v3072.toNat, 0, 0]

def k0_chk172 (v3072 : BitVec 32) : Prop :=
  (∀ a, (k0_off172 v3072) a + S1x1x128.size a ≤ S1048576x1x128.size a)
instance k0_chk172.dec : ∀ (v3072 : BitVec 32), Decidable (k0_chk172 v3072) := fun v3072 => decidable_of_iff' _ (Iff.of_eq (k0_chk172.eq_1 v3072))
theorem k0_off172_inb : ∀ (v3072 : BitVec 32) (k0_hw172 : k0_chk172 v3072), ∀ a, (k0_off172 v3072) a + S1x1x128.size a ≤ S1048576x1x128.size a := fun v3072 k0_hw172 => k0_hw172

def k0_off173 (v3091 : BitVec 32) : Fin 3 → Nat :=
  let c0_i32_2906 : BitVec 32 := 0#32
  let c0_i32_2907 : BitVec 32 := 0#32
  ![v3091.toNat, 0, 0]

def k0_chk173 (v3091 : BitVec 32) : Prop :=
  (∀ a, (k0_off173 v3091) a + S1x1x128.size a ≤ S1048576x1x128.size a)
instance k0_chk173.dec : ∀ (v3091 : BitVec 32), Decidable (k0_chk173 v3091) := fun v3091 => decidable_of_iff' _ (Iff.of_eq (k0_chk173.eq_1 v3091))
theorem k0_off173_inb : ∀ (v3091 : BitVec 32) (k0_hw173 : k0_chk173 v3091), ∀ a, (k0_off173 v3091) a + S1x1x128.size a ≤ S1048576x1x128.size a := fun v3091 k0_hw173 => k0_hw173

def k0_off174 (v3110 : BitVec 32) : Fin 3 → Nat :=
  let c0_i32_2924 : BitVec 32 := 0#32
  let c0_i32_2925 : BitVec 32 := 0#32
  ![v3110.toNat, 0, 0]

def k0_chk174 (v3110 : BitVec 32) : Prop :=
  (∀ a, (k0_off174 v3110) a + S1x1x128.size a ≤ S1048576x1x128.size a)
instance k0_chk174.dec : ∀ (v3110 : BitVec 32), Decidable (k0_chk174 v3110) := fun v3110 => decidable_of_iff' _ (Iff.of_eq (k0_chk174.eq_1 v3110))
theorem k0_off174_inb : ∀ (v3110 : BitVec 32) (k0_hw174 : k0_chk174 v3110), ∀ a, (k0_off174 v3110) a + S1x1x128.size a ≤ S1048576x1x128.size a := fun v3110 k0_hw174 => k0_hw174

def k0_off175 (v3129 : BitVec 32) : Fin 3 → Nat :=
  let c0_i32_2942 : BitVec 32 := 0#32
  let c0_i32_2943 : BitVec 32 := 0#32
  ![v3129.toNat, 0, 0]

def k0_chk175 (v3129 : BitVec 32) : Prop :=
  (∀ a, (k0_off175 v3129) a + S1x1x128.size a ≤ S1048576x1x128.size a)
instance k0_chk175.dec : ∀ (v3129 : BitVec 32), Decidable (k0_chk175 v3129) := fun v3129 => decidable_of_iff' _ (Iff.of_eq (k0_chk175.eq_1 v3129))
theorem k0_off175_inb : ∀ (v3129 : BitVec 32) (k0_hw175 : k0_chk175 v3129), ∀ a, (k0_off175 v3129) a + S1x1x128.size a ≤ S1048576x1x128.size a := fun v3129 k0_hw175 => k0_hw175

def k0_off176 (v3148 : BitVec 32) : Fin 3 → Nat :=
  let c0_i32_2960 : BitVec 32 := 0#32
  let c0_i32_2961 : BitVec 32 := 0#32
  ![v3148.toNat, 0, 0]

def k0_chk176 (v3148 : BitVec 32) : Prop :=
  (∀ a, (k0_off176 v3148) a + S1x1x128.size a ≤ S1048576x1x128.size a)
instance k0_chk176.dec : ∀ (v3148 : BitVec 32), Decidable (k0_chk176 v3148) := fun v3148 => decidable_of_iff' _ (Iff.of_eq (k0_chk176.eq_1 v3148))
theorem k0_off176_inb : ∀ (v3148 : BitVec 32) (k0_hw176 : k0_chk176 v3148), ∀ a, (k0_off176 v3148) a + S1x1x128.size a ≤ S1048576x1x128.size a := fun v3148 k0_hw176 => k0_hw176

def k0_off177 (v3167 : BitVec 32) : Fin 3 → Nat :=
  let c0_i32_2978 : BitVec 32 := 0#32
  let c0_i32_2979 : BitVec 32 := 0#32
  ![v3167.toNat, 0, 0]

def k0_chk177 (v3167 : BitVec 32) : Prop :=
  (∀ a, (k0_off177 v3167) a + S1x1x128.size a ≤ S1048576x1x128.size a)
instance k0_chk177.dec : ∀ (v3167 : BitVec 32), Decidable (k0_chk177 v3167) := fun v3167 => decidable_of_iff' _ (Iff.of_eq (k0_chk177.eq_1 v3167))
theorem k0_off177_inb : ∀ (v3167 : BitVec 32) (k0_hw177 : k0_chk177 v3167), ∀ a, (k0_off177 v3167) a + S1x1x128.size a ≤ S1048576x1x128.size a := fun v3167 k0_hw177 => k0_hw177

def k0_off178 (v3186 : BitVec 32) : Fin 3 → Nat :=
  let c0_i32_2996 : BitVec 32 := 0#32
  let c0_i32_2997 : BitVec 32 := 0#32
  ![v3186.toNat, 0, 0]

def k0_chk178 (v3186 : BitVec 32) : Prop :=
  (∀ a, (k0_off178 v3186) a + S1x1x128.size a ≤ S1048576x1x128.size a)
instance k0_chk178.dec : ∀ (v3186 : BitVec 32), Decidable (k0_chk178 v3186) := fun v3186 => decidable_of_iff' _ (Iff.of_eq (k0_chk178.eq_1 v3186))
theorem k0_off178_inb : ∀ (v3186 : BitVec 32) (k0_hw178 : k0_chk178 v3186), ∀ a, (k0_off178 v3186) a + S1x1x128.size a ≤ S1048576x1x128.size a := fun v3186 k0_hw178 => k0_hw178

def k0_off179 (v3205 : BitVec 32) : Fin 3 → Nat :=
  let c0_i32_3014 : BitVec 32 := 0#32
  let c0_i32_3015 : BitVec 32 := 0#32
  ![v3205.toNat, 0, 0]

def k0_chk179 (v3205 : BitVec 32) : Prop :=
  (∀ a, (k0_off179 v3205) a + S1x1x128.size a ≤ S1048576x1x128.size a)
instance k0_chk179.dec : ∀ (v3205 : BitVec 32), Decidable (k0_chk179 v3205) := fun v3205 => decidable_of_iff' _ (Iff.of_eq (k0_chk179.eq_1 v3205))
theorem k0_off179_inb : ∀ (v3205 : BitVec 32) (k0_hw179 : k0_chk179 v3205), ∀ a, (k0_off179 v3205) a + S1x1x128.size a ≤ S1048576x1x128.size a := fun v3205 k0_hw179 => k0_hw179

def k0_off180 (v3224 : BitVec 32) : Fin 3 → Nat :=
  let c0_i32_3032 : BitVec 32 := 0#32
  let c0_i32_3033 : BitVec 32 := 0#32
  ![v3224.toNat, 0, 0]

def k0_chk180 (v3224 : BitVec 32) : Prop :=
  (∀ a, (k0_off180 v3224) a + S1x1x128.size a ≤ S1048576x1x128.size a)
instance k0_chk180.dec : ∀ (v3224 : BitVec 32), Decidable (k0_chk180 v3224) := fun v3224 => decidable_of_iff' _ (Iff.of_eq (k0_chk180.eq_1 v3224))
theorem k0_off180_inb : ∀ (v3224 : BitVec 32) (k0_hw180 : k0_chk180 v3224), ∀ a, (k0_off180 v3224) a + S1x1x128.size a ≤ S1048576x1x128.size a := fun v3224 k0_hw180 => k0_hw180

def k0_off181 (v3243 : BitVec 32) : Fin 3 → Nat :=
  let c0_i32_3050 : BitVec 32 := 0#32
  let c0_i32_3051 : BitVec 32 := 0#32
  ![v3243.toNat, 0, 0]

def k0_chk181 (v3243 : BitVec 32) : Prop :=
  (∀ a, (k0_off181 v3243) a + S1x1x128.size a ≤ S1048576x1x128.size a)
instance k0_chk181.dec : ∀ (v3243 : BitVec 32), Decidable (k0_chk181 v3243) := fun v3243 => decidable_of_iff' _ (Iff.of_eq (k0_chk181.eq_1 v3243))
theorem k0_off181_inb : ∀ (v3243 : BitVec 32) (k0_hw181 : k0_chk181 v3243), ∀ a, (k0_off181 v3243) a + S1x1x128.size a ≤ S1048576x1x128.size a := fun v3243 k0_hw181 => k0_hw181

def k0_off182 (v3262 : BitVec 32) : Fin 3 → Nat :=
  let c0_i32_3068 : BitVec 32 := 0#32
  let c0_i32_3069 : BitVec 32 := 0#32
  ![v3262.toNat, 0, 0]

def k0_chk182 (v3262 : BitVec 32) : Prop :=
  (∀ a, (k0_off182 v3262) a + S1x1x128.size a ≤ S1048576x1x128.size a)
instance k0_chk182.dec : ∀ (v3262 : BitVec 32), Decidable (k0_chk182 v3262) := fun v3262 => decidable_of_iff' _ (Iff.of_eq (k0_chk182.eq_1 v3262))
theorem k0_off182_inb : ∀ (v3262 : BitVec 32) (k0_hw182 : k0_chk182 v3262), ∀ a, (k0_off182 v3262) a + S1x1x128.size a ≤ S1048576x1x128.size a := fun v3262 k0_hw182 => k0_hw182

def k0_off183 (v3281 : BitVec 32) : Fin 3 → Nat :=
  let c0_i32_3086 : BitVec 32 := 0#32
  let c0_i32_3087 : BitVec 32 := 0#32
  ![v3281.toNat, 0, 0]

def k0_chk183 (v3281 : BitVec 32) : Prop :=
  (∀ a, (k0_off183 v3281) a + S1x1x128.size a ≤ S1048576x1x128.size a)
instance k0_chk183.dec : ∀ (v3281 : BitVec 32), Decidable (k0_chk183 v3281) := fun v3281 => decidable_of_iff' _ (Iff.of_eq (k0_chk183.eq_1 v3281))
theorem k0_off183_inb : ∀ (v3281 : BitVec 32) (k0_hw183 : k0_chk183 v3281), ∀ a, (k0_off183 v3281) a + S1x1x128.size a ≤ S1048576x1x128.size a := fun v3281 k0_hw183 => k0_hw183

def k0_off184 (v3300 : BitVec 32) : Fin 3 → Nat :=
  let c0_i32_3104 : BitVec 32 := 0#32
  let c0_i32_3105 : BitVec 32 := 0#32
  ![v3300.toNat, 0, 0]

def k0_chk184 (v3300 : BitVec 32) : Prop :=
  (∀ a, (k0_off184 v3300) a + S1x1x128.size a ≤ S1048576x1x128.size a)
instance k0_chk184.dec : ∀ (v3300 : BitVec 32), Decidable (k0_chk184 v3300) := fun v3300 => decidable_of_iff' _ (Iff.of_eq (k0_chk184.eq_1 v3300))
theorem k0_off184_inb : ∀ (v3300 : BitVec 32) (k0_hw184 : k0_chk184 v3300), ∀ a, (k0_off184 v3300) a + S1x1x128.size a ≤ S1048576x1x128.size a := fun v3300 k0_hw184 => k0_hw184

def k0_off185 (v3319 : BitVec 32) : Fin 3 → Nat :=
  let c0_i32_3122 : BitVec 32 := 0#32
  let c0_i32_3123 : BitVec 32 := 0#32
  ![v3319.toNat, 0, 0]

def k0_chk185 (v3319 : BitVec 32) : Prop :=
  (∀ a, (k0_off185 v3319) a + S1x1x128.size a ≤ S1048576x1x128.size a)
instance k0_chk185.dec : ∀ (v3319 : BitVec 32), Decidable (k0_chk185 v3319) := fun v3319 => decidable_of_iff' _ (Iff.of_eq (k0_chk185.eq_1 v3319))
theorem k0_off185_inb : ∀ (v3319 : BitVec 32) (k0_hw185 : k0_chk185 v3319), ∀ a, (k0_off185 v3319) a + S1x1x128.size a ≤ S1048576x1x128.size a := fun v3319 k0_hw185 => k0_hw185

def k0_off186 (v3338 : BitVec 32) : Fin 3 → Nat :=
  let c0_i32_3140 : BitVec 32 := 0#32
  let c0_i32_3141 : BitVec 32 := 0#32
  ![v3338.toNat, 0, 0]

def k0_chk186 (v3338 : BitVec 32) : Prop :=
  (∀ a, (k0_off186 v3338) a + S1x1x128.size a ≤ S1048576x1x128.size a)
instance k0_chk186.dec : ∀ (v3338 : BitVec 32), Decidable (k0_chk186 v3338) := fun v3338 => decidable_of_iff' _ (Iff.of_eq (k0_chk186.eq_1 v3338))
theorem k0_off186_inb : ∀ (v3338 : BitVec 32) (k0_hw186 : k0_chk186 v3338), ∀ a, (k0_off186 v3338) a + S1x1x128.size a ≤ S1048576x1x128.size a := fun v3338 k0_hw186 => k0_hw186

def k0_off187 (v3357 : BitVec 32) : Fin 3 → Nat :=
  let c0_i32_3158 : BitVec 32 := 0#32
  let c0_i32_3159 : BitVec 32 := 0#32
  ![v3357.toNat, 0, 0]

def k0_chk187 (v3357 : BitVec 32) : Prop :=
  (∀ a, (k0_off187 v3357) a + S1x1x128.size a ≤ S1048576x1x128.size a)
instance k0_chk187.dec : ∀ (v3357 : BitVec 32), Decidable (k0_chk187 v3357) := fun v3357 => decidable_of_iff' _ (Iff.of_eq (k0_chk187.eq_1 v3357))
theorem k0_off187_inb : ∀ (v3357 : BitVec 32) (k0_hw187 : k0_chk187 v3357), ∀ a, (k0_off187 v3357) a + S1x1x128.size a ≤ S1048576x1x128.size a := fun v3357 k0_hw187 => k0_hw187

def k0_off188 (v3376 : BitVec 32) : Fin 3 → Nat :=
  let c0_i32_3176 : BitVec 32 := 0#32
  let c0_i32_3177 : BitVec 32 := 0#32
  ![v3376.toNat, 0, 0]

def k0_chk188 (v3376 : BitVec 32) : Prop :=
  (∀ a, (k0_off188 v3376) a + S1x1x128.size a ≤ S1048576x1x128.size a)
instance k0_chk188.dec : ∀ (v3376 : BitVec 32), Decidable (k0_chk188 v3376) := fun v3376 => decidable_of_iff' _ (Iff.of_eq (k0_chk188.eq_1 v3376))
theorem k0_off188_inb : ∀ (v3376 : BitVec 32) (k0_hw188 : k0_chk188 v3376), ∀ a, (k0_off188 v3376) a + S1x1x128.size a ≤ S1048576x1x128.size a := fun v3376 k0_hw188 => k0_hw188

def k0_off189 (v3395 : BitVec 32) : Fin 3 → Nat :=
  let c0_i32_3194 : BitVec 32 := 0#32
  let c0_i32_3195 : BitVec 32 := 0#32
  ![v3395.toNat, 0, 0]

def k0_chk189 (v3395 : BitVec 32) : Prop :=
  (∀ a, (k0_off189 v3395) a + S1x1x128.size a ≤ S1048576x1x128.size a)
instance k0_chk189.dec : ∀ (v3395 : BitVec 32), Decidable (k0_chk189 v3395) := fun v3395 => decidable_of_iff' _ (Iff.of_eq (k0_chk189.eq_1 v3395))
theorem k0_off189_inb : ∀ (v3395 : BitVec 32) (k0_hw189 : k0_chk189 v3395), ∀ a, (k0_off189 v3395) a + S1x1x128.size a ≤ S1048576x1x128.size a := fun v3395 k0_hw189 => k0_hw189

def k0_off190 (v3414 : BitVec 32) : Fin 3 → Nat :=
  let c0_i32_3212 : BitVec 32 := 0#32
  let c0_i32_3213 : BitVec 32 := 0#32
  ![v3414.toNat, 0, 0]

def k0_chk190 (v3414 : BitVec 32) : Prop :=
  (∀ a, (k0_off190 v3414) a + S1x1x128.size a ≤ S1048576x1x128.size a)
instance k0_chk190.dec : ∀ (v3414 : BitVec 32), Decidable (k0_chk190 v3414) := fun v3414 => decidable_of_iff' _ (Iff.of_eq (k0_chk190.eq_1 v3414))
theorem k0_off190_inb : ∀ (v3414 : BitVec 32) (k0_hw190 : k0_chk190 v3414), ∀ a, (k0_off190 v3414) a + S1x1x128.size a ≤ S1048576x1x128.size a := fun v3414 k0_hw190 => k0_hw190

def k0_off191 (v3433 : BitVec 32) : Fin 3 → Nat :=
  let c0_i32_3230 : BitVec 32 := 0#32
  let c0_i32_3231 : BitVec 32 := 0#32
  ![v3433.toNat, 0, 0]

def k0_chk191 (v3433 : BitVec 32) : Prop :=
  (∀ a, (k0_off191 v3433) a + S1x1x128.size a ≤ S1048576x1x128.size a)
instance k0_chk191.dec : ∀ (v3433 : BitVec 32), Decidable (k0_chk191 v3433) := fun v3433 => decidable_of_iff' _ (Iff.of_eq (k0_chk191.eq_1 v3433))
theorem k0_off191_inb : ∀ (v3433 : BitVec 32) (k0_hw191 : k0_chk191 v3433), ∀ a, (k0_off191 v3433) a + S1x1x128.size a ≤ S1048576x1x128.size a := fun v3433 k0_hw191 => k0_hw191

def k0_off192 (v3452 : BitVec 32) : Fin 3 → Nat :=
  let c0_i32_3248 : BitVec 32 := 0#32
  let c0_i32_3249 : BitVec 32 := 0#32
  ![v3452.toNat, 0, 0]

def k0_chk192 (v3452 : BitVec 32) : Prop :=
  (∀ a, (k0_off192 v3452) a + S1x1x128.size a ≤ S1048576x1x128.size a)
instance k0_chk192.dec : ∀ (v3452 : BitVec 32), Decidable (k0_chk192 v3452) := fun v3452 => decidable_of_iff' _ (Iff.of_eq (k0_chk192.eq_1 v3452))
theorem k0_off192_inb : ∀ (v3452 : BitVec 32) (k0_hw192 : k0_chk192 v3452), ∀ a, (k0_off192 v3452) a + S1x1x128.size a ≤ S1048576x1x128.size a := fun v3452 k0_hw192 => k0_hw192

def k0_off193 (v3471 : BitVec 32) : Fin 3 → Nat :=
  let c0_i32_3266 : BitVec 32 := 0#32
  let c0_i32_3267 : BitVec 32 := 0#32
  ![v3471.toNat, 0, 0]

def k0_chk193 (v3471 : BitVec 32) : Prop :=
  (∀ a, (k0_off193 v3471) a + S1x1x128.size a ≤ S1048576x1x128.size a)
instance k0_chk193.dec : ∀ (v3471 : BitVec 32), Decidable (k0_chk193 v3471) := fun v3471 => decidable_of_iff' _ (Iff.of_eq (k0_chk193.eq_1 v3471))
theorem k0_off193_inb : ∀ (v3471 : BitVec 32) (k0_hw193 : k0_chk193 v3471), ∀ a, (k0_off193 v3471) a + S1x1x128.size a ≤ S1048576x1x128.size a := fun v3471 k0_hw193 => k0_hw193

def k0_off194 (v3490 : BitVec 32) : Fin 3 → Nat :=
  let c0_i32_3284 : BitVec 32 := 0#32
  let c0_i32_3285 : BitVec 32 := 0#32
  ![v3490.toNat, 0, 0]

def k0_chk194 (v3490 : BitVec 32) : Prop :=
  (∀ a, (k0_off194 v3490) a + S1x1x128.size a ≤ S1048576x1x128.size a)
instance k0_chk194.dec : ∀ (v3490 : BitVec 32), Decidable (k0_chk194 v3490) := fun v3490 => decidable_of_iff' _ (Iff.of_eq (k0_chk194.eq_1 v3490))
theorem k0_off194_inb : ∀ (v3490 : BitVec 32) (k0_hw194 : k0_chk194 v3490), ∀ a, (k0_off194 v3490) a + S1x1x128.size a ≤ S1048576x1x128.size a := fun v3490 k0_hw194 => k0_hw194

def k0_off195 (v3509 : BitVec 32) : Fin 3 → Nat :=
  let c0_i32_3302 : BitVec 32 := 0#32
  let c0_i32_3303 : BitVec 32 := 0#32
  ![v3509.toNat, 0, 0]

def k0_chk195 (v3509 : BitVec 32) : Prop :=
  (∀ a, (k0_off195 v3509) a + S1x1x128.size a ≤ S1048576x1x128.size a)
instance k0_chk195.dec : ∀ (v3509 : BitVec 32), Decidable (k0_chk195 v3509) := fun v3509 => decidable_of_iff' _ (Iff.of_eq (k0_chk195.eq_1 v3509))
theorem k0_off195_inb : ∀ (v3509 : BitVec 32) (k0_hw195 : k0_chk195 v3509), ∀ a, (k0_off195 v3509) a + S1x1x128.size a ≤ S1048576x1x128.size a := fun v3509 k0_hw195 => k0_hw195

def k0_off196 (v3528 : BitVec 32) : Fin 3 → Nat :=
  let c0_i32_3320 : BitVec 32 := 0#32
  let c0_i32_3321 : BitVec 32 := 0#32
  ![v3528.toNat, 0, 0]

def k0_chk196 (v3528 : BitVec 32) : Prop :=
  (∀ a, (k0_off196 v3528) a + S1x1x128.size a ≤ S1048576x1x128.size a)
instance k0_chk196.dec : ∀ (v3528 : BitVec 32), Decidable (k0_chk196 v3528) := fun v3528 => decidable_of_iff' _ (Iff.of_eq (k0_chk196.eq_1 v3528))
theorem k0_off196_inb : ∀ (v3528 : BitVec 32) (k0_hw196 : k0_chk196 v3528), ∀ a, (k0_off196 v3528) a + S1x1x128.size a ≤ S1048576x1x128.size a := fun v3528 k0_hw196 => k0_hw196

def k0_off197 (v3547 : BitVec 32) : Fin 3 → Nat :=
  let c0_i32_3338 : BitVec 32 := 0#32
  let c0_i32_3339 : BitVec 32 := 0#32
  ![v3547.toNat, 0, 0]

def k0_chk197 (v3547 : BitVec 32) : Prop :=
  (∀ a, (k0_off197 v3547) a + S1x1x128.size a ≤ S1048576x1x128.size a)
instance k0_chk197.dec : ∀ (v3547 : BitVec 32), Decidable (k0_chk197 v3547) := fun v3547 => decidable_of_iff' _ (Iff.of_eq (k0_chk197.eq_1 v3547))
theorem k0_off197_inb : ∀ (v3547 : BitVec 32) (k0_hw197 : k0_chk197 v3547), ∀ a, (k0_off197 v3547) a + S1x1x128.size a ≤ S1048576x1x128.size a := fun v3547 k0_hw197 => k0_hw197

def k0_off198 (v3566 : BitVec 32) : Fin 3 → Nat :=
  let c0_i32_3356 : BitVec 32 := 0#32
  let c0_i32_3357 : BitVec 32 := 0#32
  ![v3566.toNat, 0, 0]

def k0_chk198 (v3566 : BitVec 32) : Prop :=
  (∀ a, (k0_off198 v3566) a + S1x1x128.size a ≤ S1048576x1x128.size a)
instance k0_chk198.dec : ∀ (v3566 : BitVec 32), Decidable (k0_chk198 v3566) := fun v3566 => decidable_of_iff' _ (Iff.of_eq (k0_chk198.eq_1 v3566))
theorem k0_off198_inb : ∀ (v3566 : BitVec 32) (k0_hw198 : k0_chk198 v3566), ∀ a, (k0_off198 v3566) a + S1x1x128.size a ≤ S1048576x1x128.size a := fun v3566 k0_hw198 => k0_hw198

def k0_off199 (v3585 : BitVec 32) : Fin 3 → Nat :=
  let c0_i32_3374 : BitVec 32 := 0#32
  let c0_i32_3375 : BitVec 32 := 0#32
  ![v3585.toNat, 0, 0]

def k0_chk199 (v3585 : BitVec 32) : Prop :=
  (∀ a, (k0_off199 v3585) a + S1x1x128.size a ≤ S1048576x1x128.size a)
instance k0_chk199.dec : ∀ (v3585 : BitVec 32), Decidable (k0_chk199 v3585) := fun v3585 => decidable_of_iff' _ (Iff.of_eq (k0_chk199.eq_1 v3585))
theorem k0_off199_inb : ∀ (v3585 : BitVec 32) (k0_hw199 : k0_chk199 v3585), ∀ a, (k0_off199 v3585) a + S1x1x128.size a ≤ S1048576x1x128.size a := fun v3585 k0_hw199 => k0_hw199

def k0_off200 (v3604 : BitVec 32) : Fin 3 → Nat :=
  let c0_i32_3392 : BitVec 32 := 0#32
  let c0_i32_3393 : BitVec 32 := 0#32
  ![v3604.toNat, 0, 0]

def k0_chk200 (v3604 : BitVec 32) : Prop :=
  (∀ a, (k0_off200 v3604) a + S1x1x128.size a ≤ S1048576x1x128.size a)
instance k0_chk200.dec : ∀ (v3604 : BitVec 32), Decidable (k0_chk200 v3604) := fun v3604 => decidable_of_iff' _ (Iff.of_eq (k0_chk200.eq_1 v3604))
theorem k0_off200_inb : ∀ (v3604 : BitVec 32) (k0_hw200 : k0_chk200 v3604), ∀ a, (k0_off200 v3604) a + S1x1x128.size a ≤ S1048576x1x128.size a := fun v3604 k0_hw200 => k0_hw200

def k0_off201 (v3623 : BitVec 32) : Fin 3 → Nat :=
  let c0_i32_3410 : BitVec 32 := 0#32
  let c0_i32_3411 : BitVec 32 := 0#32
  ![v3623.toNat, 0, 0]

def k0_chk201 (v3623 : BitVec 32) : Prop :=
  (∀ a, (k0_off201 v3623) a + S1x1x128.size a ≤ S1048576x1x128.size a)
instance k0_chk201.dec : ∀ (v3623 : BitVec 32), Decidable (k0_chk201 v3623) := fun v3623 => decidable_of_iff' _ (Iff.of_eq (k0_chk201.eq_1 v3623))
theorem k0_off201_inb : ∀ (v3623 : BitVec 32) (k0_hw201 : k0_chk201 v3623), ∀ a, (k0_off201 v3623) a + S1x1x128.size a ≤ S1048576x1x128.size a := fun v3623 k0_hw201 => k0_hw201

def k0_off202 (v3642 : BitVec 32) : Fin 3 → Nat :=
  let c0_i32_3428 : BitVec 32 := 0#32
  let c0_i32_3429 : BitVec 32 := 0#32
  ![v3642.toNat, 0, 0]

def k0_chk202 (v3642 : BitVec 32) : Prop :=
  (∀ a, (k0_off202 v3642) a + S1x1x128.size a ≤ S1048576x1x128.size a)
instance k0_chk202.dec : ∀ (v3642 : BitVec 32), Decidable (k0_chk202 v3642) := fun v3642 => decidable_of_iff' _ (Iff.of_eq (k0_chk202.eq_1 v3642))
theorem k0_off202_inb : ∀ (v3642 : BitVec 32) (k0_hw202 : k0_chk202 v3642), ∀ a, (k0_off202 v3642) a + S1x1x128.size a ≤ S1048576x1x128.size a := fun v3642 k0_hw202 => k0_hw202

def k0_off203 (v3661 : BitVec 32) : Fin 3 → Nat :=
  let c0_i32_3446 : BitVec 32 := 0#32
  let c0_i32_3447 : BitVec 32 := 0#32
  ![v3661.toNat, 0, 0]

def k0_chk203 (v3661 : BitVec 32) : Prop :=
  (∀ a, (k0_off203 v3661) a + S1x1x128.size a ≤ S1048576x1x128.size a)
instance k0_chk203.dec : ∀ (v3661 : BitVec 32), Decidable (k0_chk203 v3661) := fun v3661 => decidable_of_iff' _ (Iff.of_eq (k0_chk203.eq_1 v3661))
theorem k0_off203_inb : ∀ (v3661 : BitVec 32) (k0_hw203 : k0_chk203 v3661), ∀ a, (k0_off203 v3661) a + S1x1x128.size a ≤ S1048576x1x128.size a := fun v3661 k0_hw203 => k0_hw203

def k0_off204 (v3680 : BitVec 32) : Fin 3 → Nat :=
  let c0_i32_3464 : BitVec 32 := 0#32
  let c0_i32_3465 : BitVec 32 := 0#32
  ![v3680.toNat, 0, 0]

def k0_chk204 (v3680 : BitVec 32) : Prop :=
  (∀ a, (k0_off204 v3680) a + S1x1x128.size a ≤ S1048576x1x128.size a)
instance k0_chk204.dec : ∀ (v3680 : BitVec 32), Decidable (k0_chk204 v3680) := fun v3680 => decidable_of_iff' _ (Iff.of_eq (k0_chk204.eq_1 v3680))
theorem k0_off204_inb : ∀ (v3680 : BitVec 32) (k0_hw204 : k0_chk204 v3680), ∀ a, (k0_off204 v3680) a + S1x1x128.size a ≤ S1048576x1x128.size a := fun v3680 k0_hw204 => k0_hw204

def k0_off205 (v3699 : BitVec 32) : Fin 3 → Nat :=
  let c0_i32_3482 : BitVec 32 := 0#32
  let c0_i32_3483 : BitVec 32 := 0#32
  ![v3699.toNat, 0, 0]

def k0_chk205 (v3699 : BitVec 32) : Prop :=
  (∀ a, (k0_off205 v3699) a + S1x1x128.size a ≤ S1048576x1x128.size a)
instance k0_chk205.dec : ∀ (v3699 : BitVec 32), Decidable (k0_chk205 v3699) := fun v3699 => decidable_of_iff' _ (Iff.of_eq (k0_chk205.eq_1 v3699))
theorem k0_off205_inb : ∀ (v3699 : BitVec 32) (k0_hw205 : k0_chk205 v3699), ∀ a, (k0_off205 v3699) a + S1x1x128.size a ≤ S1048576x1x128.size a := fun v3699 k0_hw205 => k0_hw205

def k0_off206 (v3718 : BitVec 32) : Fin 3 → Nat :=
  let c0_i32_3500 : BitVec 32 := 0#32
  let c0_i32_3501 : BitVec 32 := 0#32
  ![v3718.toNat, 0, 0]

def k0_chk206 (v3718 : BitVec 32) : Prop :=
  (∀ a, (k0_off206 v3718) a + S1x1x128.size a ≤ S1048576x1x128.size a)
instance k0_chk206.dec : ∀ (v3718 : BitVec 32), Decidable (k0_chk206 v3718) := fun v3718 => decidable_of_iff' _ (Iff.of_eq (k0_chk206.eq_1 v3718))
theorem k0_off206_inb : ∀ (v3718 : BitVec 32) (k0_hw206 : k0_chk206 v3718), ∀ a, (k0_off206 v3718) a + S1x1x128.size a ≤ S1048576x1x128.size a := fun v3718 k0_hw206 => k0_hw206

def k0_off207 (v3737 : BitVec 32) : Fin 3 → Nat :=
  let c0_i32_3518 : BitVec 32 := 0#32
  let c0_i32_3519 : BitVec 32 := 0#32
  ![v3737.toNat, 0, 0]

def k0_chk207 (v3737 : BitVec 32) : Prop :=
  (∀ a, (k0_off207 v3737) a + S1x1x128.size a ≤ S1048576x1x128.size a)
instance k0_chk207.dec : ∀ (v3737 : BitVec 32), Decidable (k0_chk207 v3737) := fun v3737 => decidable_of_iff' _ (Iff.of_eq (k0_chk207.eq_1 v3737))
theorem k0_off207_inb : ∀ (v3737 : BitVec 32) (k0_hw207 : k0_chk207 v3737), ∀ a, (k0_off207 v3737) a + S1x1x128.size a ≤ S1048576x1x128.size a := fun v3737 k0_hw207 => k0_hw207

def k0_off208 (v3756 : BitVec 32) : Fin 3 → Nat :=
  let c0_i32_3536 : BitVec 32 := 0#32
  let c0_i32_3537 : BitVec 32 := 0#32
  ![v3756.toNat, 0, 0]

def k0_chk208 (v3756 : BitVec 32) : Prop :=
  (∀ a, (k0_off208 v3756) a + S1x1x128.size a ≤ S1048576x1x128.size a)
instance k0_chk208.dec : ∀ (v3756 : BitVec 32), Decidable (k0_chk208 v3756) := fun v3756 => decidable_of_iff' _ (Iff.of_eq (k0_chk208.eq_1 v3756))
theorem k0_off208_inb : ∀ (v3756 : BitVec 32) (k0_hw208 : k0_chk208 v3756), ∀ a, (k0_off208 v3756) a + S1x1x128.size a ≤ S1048576x1x128.size a := fun v3756 k0_hw208 => k0_hw208

def k0_off209 (v3775 : BitVec 32) : Fin 3 → Nat :=
  let c0_i32_3554 : BitVec 32 := 0#32
  let c0_i32_3555 : BitVec 32 := 0#32
  ![v3775.toNat, 0, 0]

def k0_chk209 (v3775 : BitVec 32) : Prop :=
  (∀ a, (k0_off209 v3775) a + S1x1x128.size a ≤ S1048576x1x128.size a)
instance k0_chk209.dec : ∀ (v3775 : BitVec 32), Decidable (k0_chk209 v3775) := fun v3775 => decidable_of_iff' _ (Iff.of_eq (k0_chk209.eq_1 v3775))
theorem k0_off209_inb : ∀ (v3775 : BitVec 32) (k0_hw209 : k0_chk209 v3775), ∀ a, (k0_off209 v3775) a + S1x1x128.size a ≤ S1048576x1x128.size a := fun v3775 k0_hw209 => k0_hw209

def k0_off210 (v3794 : BitVec 32) : Fin 3 → Nat :=
  let c0_i32_3572 : BitVec 32 := 0#32
  let c0_i32_3573 : BitVec 32 := 0#32
  ![v3794.toNat, 0, 0]

def k0_chk210 (v3794 : BitVec 32) : Prop :=
  (∀ a, (k0_off210 v3794) a + S1x1x128.size a ≤ S1048576x1x128.size a)
instance k0_chk210.dec : ∀ (v3794 : BitVec 32), Decidable (k0_chk210 v3794) := fun v3794 => decidable_of_iff' _ (Iff.of_eq (k0_chk210.eq_1 v3794))
theorem k0_off210_inb : ∀ (v3794 : BitVec 32) (k0_hw210 : k0_chk210 v3794), ∀ a, (k0_off210 v3794) a + S1x1x128.size a ≤ S1048576x1x128.size a := fun v3794 k0_hw210 => k0_hw210

def k0_off211 (v3813 : BitVec 32) : Fin 3 → Nat :=
  let c0_i32_3590 : BitVec 32 := 0#32
  let c0_i32_3591 : BitVec 32 := 0#32
  ![v3813.toNat, 0, 0]

def k0_chk211 (v3813 : BitVec 32) : Prop :=
  (∀ a, (k0_off211 v3813) a + S1x1x128.size a ≤ S1048576x1x128.size a)
instance k0_chk211.dec : ∀ (v3813 : BitVec 32), Decidable (k0_chk211 v3813) := fun v3813 => decidable_of_iff' _ (Iff.of_eq (k0_chk211.eq_1 v3813))
theorem k0_off211_inb : ∀ (v3813 : BitVec 32) (k0_hw211 : k0_chk211 v3813), ∀ a, (k0_off211 v3813) a + S1x1x128.size a ≤ S1048576x1x128.size a := fun v3813 k0_hw211 => k0_hw211

def k0_off212 (v3832 : BitVec 32) : Fin 3 → Nat :=
  let c0_i32_3608 : BitVec 32 := 0#32
  let c0_i32_3609 : BitVec 32 := 0#32
  ![v3832.toNat, 0, 0]

def k0_chk212 (v3832 : BitVec 32) : Prop :=
  (∀ a, (k0_off212 v3832) a + S1x1x128.size a ≤ S1048576x1x128.size a)
instance k0_chk212.dec : ∀ (v3832 : BitVec 32), Decidable (k0_chk212 v3832) := fun v3832 => decidable_of_iff' _ (Iff.of_eq (k0_chk212.eq_1 v3832))
theorem k0_off212_inb : ∀ (v3832 : BitVec 32) (k0_hw212 : k0_chk212 v3832), ∀ a, (k0_off212 v3832) a + S1x1x128.size a ≤ S1048576x1x128.size a := fun v3832 k0_hw212 => k0_hw212

def k0_off213 (v3851 : BitVec 32) : Fin 3 → Nat :=
  let c0_i32_3626 : BitVec 32 := 0#32
  let c0_i32_3627 : BitVec 32 := 0#32
  ![v3851.toNat, 0, 0]

def k0_chk213 (v3851 : BitVec 32) : Prop :=
  (∀ a, (k0_off213 v3851) a + S1x1x128.size a ≤ S1048576x1x128.size a)
instance k0_chk213.dec : ∀ (v3851 : BitVec 32), Decidable (k0_chk213 v3851) := fun v3851 => decidable_of_iff' _ (Iff.of_eq (k0_chk213.eq_1 v3851))
theorem k0_off213_inb : ∀ (v3851 : BitVec 32) (k0_hw213 : k0_chk213 v3851), ∀ a, (k0_off213 v3851) a + S1x1x128.size a ≤ S1048576x1x128.size a := fun v3851 k0_hw213 => k0_hw213

def k0_off214 (v3870 : BitVec 32) : Fin 3 → Nat :=
  let c0_i32_3644 : BitVec 32 := 0#32
  let c0_i32_3645 : BitVec 32 := 0#32
  ![v3870.toNat, 0, 0]

def k0_chk214 (v3870 : BitVec 32) : Prop :=
  (∀ a, (k0_off214 v3870) a + S1x1x128.size a ≤ S1048576x1x128.size a)
instance k0_chk214.dec : ∀ (v3870 : BitVec 32), Decidable (k0_chk214 v3870) := fun v3870 => decidable_of_iff' _ (Iff.of_eq (k0_chk214.eq_1 v3870))
theorem k0_off214_inb : ∀ (v3870 : BitVec 32) (k0_hw214 : k0_chk214 v3870), ∀ a, (k0_off214 v3870) a + S1x1x128.size a ≤ S1048576x1x128.size a := fun v3870 k0_hw214 => k0_hw214

def k0_off215 (v3889 : BitVec 32) : Fin 3 → Nat :=
  let c0_i32_3662 : BitVec 32 := 0#32
  let c0_i32_3663 : BitVec 32 := 0#32
  ![v3889.toNat, 0, 0]

def k0_chk215 (v3889 : BitVec 32) : Prop :=
  (∀ a, (k0_off215 v3889) a + S1x1x128.size a ≤ S1048576x1x128.size a)
instance k0_chk215.dec : ∀ (v3889 : BitVec 32), Decidable (k0_chk215 v3889) := fun v3889 => decidable_of_iff' _ (Iff.of_eq (k0_chk215.eq_1 v3889))
theorem k0_off215_inb : ∀ (v3889 : BitVec 32) (k0_hw215 : k0_chk215 v3889), ∀ a, (k0_off215 v3889) a + S1x1x128.size a ≤ S1048576x1x128.size a := fun v3889 k0_hw215 => k0_hw215

def k0_off216 (v3908 : BitVec 32) : Fin 3 → Nat :=
  let c0_i32_3680 : BitVec 32 := 0#32
  let c0_i32_3681 : BitVec 32 := 0#32
  ![v3908.toNat, 0, 0]

def k0_chk216 (v3908 : BitVec 32) : Prop :=
  (∀ a, (k0_off216 v3908) a + S1x1x128.size a ≤ S1048576x1x128.size a)
instance k0_chk216.dec : ∀ (v3908 : BitVec 32), Decidable (k0_chk216 v3908) := fun v3908 => decidable_of_iff' _ (Iff.of_eq (k0_chk216.eq_1 v3908))
theorem k0_off216_inb : ∀ (v3908 : BitVec 32) (k0_hw216 : k0_chk216 v3908), ∀ a, (k0_off216 v3908) a + S1x1x128.size a ≤ S1048576x1x128.size a := fun v3908 k0_hw216 => k0_hw216

def k0_off217 (v3927 : BitVec 32) : Fin 3 → Nat :=
  let c0_i32_3698 : BitVec 32 := 0#32
  let c0_i32_3699 : BitVec 32 := 0#32
  ![v3927.toNat, 0, 0]

def k0_chk217 (v3927 : BitVec 32) : Prop :=
  (∀ a, (k0_off217 v3927) a + S1x1x128.size a ≤ S1048576x1x128.size a)
instance k0_chk217.dec : ∀ (v3927 : BitVec 32), Decidable (k0_chk217 v3927) := fun v3927 => decidable_of_iff' _ (Iff.of_eq (k0_chk217.eq_1 v3927))
theorem k0_off217_inb : ∀ (v3927 : BitVec 32) (k0_hw217 : k0_chk217 v3927), ∀ a, (k0_off217 v3927) a + S1x1x128.size a ≤ S1048576x1x128.size a := fun v3927 k0_hw217 => k0_hw217

def k0_off218 (v3946 : BitVec 32) : Fin 3 → Nat :=
  let c0_i32_3716 : BitVec 32 := 0#32
  let c0_i32_3717 : BitVec 32 := 0#32
  ![v3946.toNat, 0, 0]

def k0_chk218 (v3946 : BitVec 32) : Prop :=
  (∀ a, (k0_off218 v3946) a + S1x1x128.size a ≤ S1048576x1x128.size a)
instance k0_chk218.dec : ∀ (v3946 : BitVec 32), Decidable (k0_chk218 v3946) := fun v3946 => decidable_of_iff' _ (Iff.of_eq (k0_chk218.eq_1 v3946))
theorem k0_off218_inb : ∀ (v3946 : BitVec 32) (k0_hw218 : k0_chk218 v3946), ∀ a, (k0_off218 v3946) a + S1x1x128.size a ≤ S1048576x1x128.size a := fun v3946 k0_hw218 => k0_hw218

def k0_off219 (v3965 : BitVec 32) : Fin 3 → Nat :=
  let c0_i32_3734 : BitVec 32 := 0#32
  let c0_i32_3735 : BitVec 32 := 0#32
  ![v3965.toNat, 0, 0]

def k0_chk219 (v3965 : BitVec 32) : Prop :=
  (∀ a, (k0_off219 v3965) a + S1x1x128.size a ≤ S1048576x1x128.size a)
instance k0_chk219.dec : ∀ (v3965 : BitVec 32), Decidable (k0_chk219 v3965) := fun v3965 => decidable_of_iff' _ (Iff.of_eq (k0_chk219.eq_1 v3965))
theorem k0_off219_inb : ∀ (v3965 : BitVec 32) (k0_hw219 : k0_chk219 v3965), ∀ a, (k0_off219 v3965) a + S1x1x128.size a ≤ S1048576x1x128.size a := fun v3965 k0_hw219 => k0_hw219

def k0_off220 (v3984 : BitVec 32) : Fin 3 → Nat :=
  let c0_i32_3752 : BitVec 32 := 0#32
  let c0_i32_3753 : BitVec 32 := 0#32
  ![v3984.toNat, 0, 0]

def k0_chk220 (v3984 : BitVec 32) : Prop :=
  (∀ a, (k0_off220 v3984) a + S1x1x128.size a ≤ S1048576x1x128.size a)
instance k0_chk220.dec : ∀ (v3984 : BitVec 32), Decidable (k0_chk220 v3984) := fun v3984 => decidable_of_iff' _ (Iff.of_eq (k0_chk220.eq_1 v3984))
theorem k0_off220_inb : ∀ (v3984 : BitVec 32) (k0_hw220 : k0_chk220 v3984), ∀ a, (k0_off220 v3984) a + S1x1x128.size a ≤ S1048576x1x128.size a := fun v3984 k0_hw220 => k0_hw220

def k0_off221 (v4003 : BitVec 32) : Fin 3 → Nat :=
  let c0_i32_3770 : BitVec 32 := 0#32
  let c0_i32_3771 : BitVec 32 := 0#32
  ![v4003.toNat, 0, 0]

def k0_chk221 (v4003 : BitVec 32) : Prop :=
  (∀ a, (k0_off221 v4003) a + S1x1x128.size a ≤ S1048576x1x128.size a)
instance k0_chk221.dec : ∀ (v4003 : BitVec 32), Decidable (k0_chk221 v4003) := fun v4003 => decidable_of_iff' _ (Iff.of_eq (k0_chk221.eq_1 v4003))
theorem k0_off221_inb : ∀ (v4003 : BitVec 32) (k0_hw221 : k0_chk221 v4003), ∀ a, (k0_off221 v4003) a + S1x1x128.size a ≤ S1048576x1x128.size a := fun v4003 k0_hw221 => k0_hw221

def k0_off222 (v4022 : BitVec 32) : Fin 3 → Nat :=
  let c0_i32_3788 : BitVec 32 := 0#32
  let c0_i32_3789 : BitVec 32 := 0#32
  ![v4022.toNat, 0, 0]

def k0_chk222 (v4022 : BitVec 32) : Prop :=
  (∀ a, (k0_off222 v4022) a + S1x1x128.size a ≤ S1048576x1x128.size a)
instance k0_chk222.dec : ∀ (v4022 : BitVec 32), Decidable (k0_chk222 v4022) := fun v4022 => decidable_of_iff' _ (Iff.of_eq (k0_chk222.eq_1 v4022))
theorem k0_off222_inb : ∀ (v4022 : BitVec 32) (k0_hw222 : k0_chk222 v4022), ∀ a, (k0_off222 v4022) a + S1x1x128.size a ≤ S1048576x1x128.size a := fun v4022 k0_hw222 => k0_hw222

def k0_off223 (v4041 : BitVec 32) : Fin 3 → Nat :=
  let c0_i32_3806 : BitVec 32 := 0#32
  let c0_i32_3807 : BitVec 32 := 0#32
  ![v4041.toNat, 0, 0]

def k0_chk223 (v4041 : BitVec 32) : Prop :=
  (∀ a, (k0_off223 v4041) a + S1x1x128.size a ≤ S1048576x1x128.size a)
instance k0_chk223.dec : ∀ (v4041 : BitVec 32), Decidable (k0_chk223 v4041) := fun v4041 => decidable_of_iff' _ (Iff.of_eq (k0_chk223.eq_1 v4041))
theorem k0_off223_inb : ∀ (v4041 : BitVec 32) (k0_hw223 : k0_chk223 v4041), ∀ a, (k0_off223 v4041) a + S1x1x128.size a ≤ S1048576x1x128.size a := fun v4041 k0_hw223 => k0_hw223

def k0_off224 (v4060 : BitVec 32) : Fin 3 → Nat :=
  let c0_i32_3824 : BitVec 32 := 0#32
  let c0_i32_3825 : BitVec 32 := 0#32
  ![v4060.toNat, 0, 0]

def k0_chk224 (v4060 : BitVec 32) : Prop :=
  (∀ a, (k0_off224 v4060) a + S1x1x128.size a ≤ S1048576x1x128.size a)
instance k0_chk224.dec : ∀ (v4060 : BitVec 32), Decidable (k0_chk224 v4060) := fun v4060 => decidable_of_iff' _ (Iff.of_eq (k0_chk224.eq_1 v4060))
theorem k0_off224_inb : ∀ (v4060 : BitVec 32) (k0_hw224 : k0_chk224 v4060), ∀ a, (k0_off224 v4060) a + S1x1x128.size a ≤ S1048576x1x128.size a := fun v4060 k0_hw224 => k0_hw224

def k0_off225 (v4079 : BitVec 32) : Fin 3 → Nat :=
  let c0_i32_3842 : BitVec 32 := 0#32
  let c0_i32_3843 : BitVec 32 := 0#32
  ![v4079.toNat, 0, 0]

def k0_chk225 (v4079 : BitVec 32) : Prop :=
  (∀ a, (k0_off225 v4079) a + S1x1x128.size a ≤ S1048576x1x128.size a)
instance k0_chk225.dec : ∀ (v4079 : BitVec 32), Decidable (k0_chk225 v4079) := fun v4079 => decidable_of_iff' _ (Iff.of_eq (k0_chk225.eq_1 v4079))
theorem k0_off225_inb : ∀ (v4079 : BitVec 32) (k0_hw225 : k0_chk225 v4079), ∀ a, (k0_off225 v4079) a + S1x1x128.size a ≤ S1048576x1x128.size a := fun v4079 k0_hw225 => k0_hw225

def k0_off226 (v4098 : BitVec 32) : Fin 3 → Nat :=
  let c0_i32_3860 : BitVec 32 := 0#32
  let c0_i32_3861 : BitVec 32 := 0#32
  ![v4098.toNat, 0, 0]

def k0_chk226 (v4098 : BitVec 32) : Prop :=
  (∀ a, (k0_off226 v4098) a + S1x1x128.size a ≤ S1048576x1x128.size a)
instance k0_chk226.dec : ∀ (v4098 : BitVec 32), Decidable (k0_chk226 v4098) := fun v4098 => decidable_of_iff' _ (Iff.of_eq (k0_chk226.eq_1 v4098))
theorem k0_off226_inb : ∀ (v4098 : BitVec 32) (k0_hw226 : k0_chk226 v4098), ∀ a, (k0_off226 v4098) a + S1x1x128.size a ≤ S1048576x1x128.size a := fun v4098 k0_hw226 => k0_hw226

def k0_off227 (v4117 : BitVec 32) : Fin 3 → Nat :=
  let c0_i32_3878 : BitVec 32 := 0#32
  let c0_i32_3879 : BitVec 32 := 0#32
  ![v4117.toNat, 0, 0]

def k0_chk227 (v4117 : BitVec 32) : Prop :=
  (∀ a, (k0_off227 v4117) a + S1x1x128.size a ≤ S1048576x1x128.size a)
instance k0_chk227.dec : ∀ (v4117 : BitVec 32), Decidable (k0_chk227 v4117) := fun v4117 => decidable_of_iff' _ (Iff.of_eq (k0_chk227.eq_1 v4117))
theorem k0_off227_inb : ∀ (v4117 : BitVec 32) (k0_hw227 : k0_chk227 v4117), ∀ a, (k0_off227 v4117) a + S1x1x128.size a ≤ S1048576x1x128.size a := fun v4117 k0_hw227 => k0_hw227

def k0_off228 (v4136 : BitVec 32) : Fin 3 → Nat :=
  let c0_i32_3896 : BitVec 32 := 0#32
  let c0_i32_3897 : BitVec 32 := 0#32
  ![v4136.toNat, 0, 0]

def k0_chk228 (v4136 : BitVec 32) : Prop :=
  (∀ a, (k0_off228 v4136) a + S1x1x128.size a ≤ S1048576x1x128.size a)
instance k0_chk228.dec : ∀ (v4136 : BitVec 32), Decidable (k0_chk228 v4136) := fun v4136 => decidable_of_iff' _ (Iff.of_eq (k0_chk228.eq_1 v4136))
theorem k0_off228_inb : ∀ (v4136 : BitVec 32) (k0_hw228 : k0_chk228 v4136), ∀ a, (k0_off228 v4136) a + S1x1x128.size a ≤ S1048576x1x128.size a := fun v4136 k0_hw228 => k0_hw228

def k0_off229 (v4155 : BitVec 32) : Fin 3 → Nat :=
  let c0_i32_3914 : BitVec 32 := 0#32
  let c0_i32_3915 : BitVec 32 := 0#32
  ![v4155.toNat, 0, 0]

def k0_chk229 (v4155 : BitVec 32) : Prop :=
  (∀ a, (k0_off229 v4155) a + S1x1x128.size a ≤ S1048576x1x128.size a)
instance k0_chk229.dec : ∀ (v4155 : BitVec 32), Decidable (k0_chk229 v4155) := fun v4155 => decidable_of_iff' _ (Iff.of_eq (k0_chk229.eq_1 v4155))
theorem k0_off229_inb : ∀ (v4155 : BitVec 32) (k0_hw229 : k0_chk229 v4155), ∀ a, (k0_off229 v4155) a + S1x1x128.size a ≤ S1048576x1x128.size a := fun v4155 k0_hw229 => k0_hw229

def k0_off230 (v4174 : BitVec 32) : Fin 3 → Nat :=
  let c0_i32_3932 : BitVec 32 := 0#32
  let c0_i32_3933 : BitVec 32 := 0#32
  ![v4174.toNat, 0, 0]

def k0_chk230 (v4174 : BitVec 32) : Prop :=
  (∀ a, (k0_off230 v4174) a + S1x1x128.size a ≤ S1048576x1x128.size a)
instance k0_chk230.dec : ∀ (v4174 : BitVec 32), Decidable (k0_chk230 v4174) := fun v4174 => decidable_of_iff' _ (Iff.of_eq (k0_chk230.eq_1 v4174))
theorem k0_off230_inb : ∀ (v4174 : BitVec 32) (k0_hw230 : k0_chk230 v4174), ∀ a, (k0_off230 v4174) a + S1x1x128.size a ≤ S1048576x1x128.size a := fun v4174 k0_hw230 => k0_hw230

def k0_off231 (v4193 : BitVec 32) : Fin 3 → Nat :=
  let c0_i32_3950 : BitVec 32 := 0#32
  let c0_i32_3951 : BitVec 32 := 0#32
  ![v4193.toNat, 0, 0]

def k0_chk231 (v4193 : BitVec 32) : Prop :=
  (∀ a, (k0_off231 v4193) a + S1x1x128.size a ≤ S1048576x1x128.size a)
instance k0_chk231.dec : ∀ (v4193 : BitVec 32), Decidable (k0_chk231 v4193) := fun v4193 => decidable_of_iff' _ (Iff.of_eq (k0_chk231.eq_1 v4193))
theorem k0_off231_inb : ∀ (v4193 : BitVec 32) (k0_hw231 : k0_chk231 v4193), ∀ a, (k0_off231 v4193) a + S1x1x128.size a ≤ S1048576x1x128.size a := fun v4193 k0_hw231 => k0_hw231

def k0_off232 (v4212 : BitVec 32) : Fin 3 → Nat :=
  let c0_i32_3968 : BitVec 32 := 0#32
  let c0_i32_3969 : BitVec 32 := 0#32
  ![v4212.toNat, 0, 0]

def k0_chk232 (v4212 : BitVec 32) : Prop :=
  (∀ a, (k0_off232 v4212) a + S1x1x128.size a ≤ S1048576x1x128.size a)
instance k0_chk232.dec : ∀ (v4212 : BitVec 32), Decidable (k0_chk232 v4212) := fun v4212 => decidable_of_iff' _ (Iff.of_eq (k0_chk232.eq_1 v4212))
theorem k0_off232_inb : ∀ (v4212 : BitVec 32) (k0_hw232 : k0_chk232 v4212), ∀ a, (k0_off232 v4212) a + S1x1x128.size a ≤ S1048576x1x128.size a := fun v4212 k0_hw232 => k0_hw232

def k0_off233 (v4231 : BitVec 32) : Fin 3 → Nat :=
  let c0_i32_3986 : BitVec 32 := 0#32
  let c0_i32_3987 : BitVec 32 := 0#32
  ![v4231.toNat, 0, 0]

def k0_chk233 (v4231 : BitVec 32) : Prop :=
  (∀ a, (k0_off233 v4231) a + S1x1x128.size a ≤ S1048576x1x128.size a)
instance k0_chk233.dec : ∀ (v4231 : BitVec 32), Decidable (k0_chk233 v4231) := fun v4231 => decidable_of_iff' _ (Iff.of_eq (k0_chk233.eq_1 v4231))
theorem k0_off233_inb : ∀ (v4231 : BitVec 32) (k0_hw233 : k0_chk233 v4231), ∀ a, (k0_off233 v4231) a + S1x1x128.size a ≤ S1048576x1x128.size a := fun v4231 k0_hw233 => k0_hw233

def k0_off234 (v4250 : BitVec 32) : Fin 3 → Nat :=
  let c0_i32_4004 : BitVec 32 := 0#32
  let c0_i32_4005 : BitVec 32 := 0#32
  ![v4250.toNat, 0, 0]

def k0_chk234 (v4250 : BitVec 32) : Prop :=
  (∀ a, (k0_off234 v4250) a + S1x1x128.size a ≤ S1048576x1x128.size a)
instance k0_chk234.dec : ∀ (v4250 : BitVec 32), Decidable (k0_chk234 v4250) := fun v4250 => decidable_of_iff' _ (Iff.of_eq (k0_chk234.eq_1 v4250))
theorem k0_off234_inb : ∀ (v4250 : BitVec 32) (k0_hw234 : k0_chk234 v4250), ∀ a, (k0_off234 v4250) a + S1x1x128.size a ≤ S1048576x1x128.size a := fun v4250 k0_hw234 => k0_hw234

def k0_off235 (v4269 : BitVec 32) : Fin 3 → Nat :=
  let c0_i32_4022 : BitVec 32 := 0#32
  let c0_i32_4023 : BitVec 32 := 0#32
  ![v4269.toNat, 0, 0]

def k0_chk235 (v4269 : BitVec 32) : Prop :=
  (∀ a, (k0_off235 v4269) a + S1x1x128.size a ≤ S1048576x1x128.size a)
instance k0_chk235.dec : ∀ (v4269 : BitVec 32), Decidable (k0_chk235 v4269) := fun v4269 => decidable_of_iff' _ (Iff.of_eq (k0_chk235.eq_1 v4269))
theorem k0_off235_inb : ∀ (v4269 : BitVec 32) (k0_hw235 : k0_chk235 v4269), ∀ a, (k0_off235 v4269) a + S1x1x128.size a ≤ S1048576x1x128.size a := fun v4269 k0_hw235 => k0_hw235

def k0_off236 (v4288 : BitVec 32) : Fin 3 → Nat :=
  let c0_i32_4040 : BitVec 32 := 0#32
  let c0_i32_4041 : BitVec 32 := 0#32
  ![v4288.toNat, 0, 0]

def k0_chk236 (v4288 : BitVec 32) : Prop :=
  (∀ a, (k0_off236 v4288) a + S1x1x128.size a ≤ S1048576x1x128.size a)
instance k0_chk236.dec : ∀ (v4288 : BitVec 32), Decidable (k0_chk236 v4288) := fun v4288 => decidable_of_iff' _ (Iff.of_eq (k0_chk236.eq_1 v4288))
theorem k0_off236_inb : ∀ (v4288 : BitVec 32) (k0_hw236 : k0_chk236 v4288), ∀ a, (k0_off236 v4288) a + S1x1x128.size a ≤ S1048576x1x128.size a := fun v4288 k0_hw236 => k0_hw236

def k0_off237 (v4307 : BitVec 32) : Fin 3 → Nat :=
  let c0_i32_4058 : BitVec 32 := 0#32
  let c0_i32_4059 : BitVec 32 := 0#32
  ![v4307.toNat, 0, 0]

def k0_chk237 (v4307 : BitVec 32) : Prop :=
  (∀ a, (k0_off237 v4307) a + S1x1x128.size a ≤ S1048576x1x128.size a)
instance k0_chk237.dec : ∀ (v4307 : BitVec 32), Decidable (k0_chk237 v4307) := fun v4307 => decidable_of_iff' _ (Iff.of_eq (k0_chk237.eq_1 v4307))
theorem k0_off237_inb : ∀ (v4307 : BitVec 32) (k0_hw237 : k0_chk237 v4307), ∀ a, (k0_off237 v4307) a + S1x1x128.size a ≤ S1048576x1x128.size a := fun v4307 k0_hw237 => k0_hw237

def k0_off238 (v4326 : BitVec 32) : Fin 3 → Nat :=
  let c0_i32_4076 : BitVec 32 := 0#32
  let c0_i32_4077 : BitVec 32 := 0#32
  ![v4326.toNat, 0, 0]

def k0_chk238 (v4326 : BitVec 32) : Prop :=
  (∀ a, (k0_off238 v4326) a + S1x1x128.size a ≤ S1048576x1x128.size a)
instance k0_chk238.dec : ∀ (v4326 : BitVec 32), Decidable (k0_chk238 v4326) := fun v4326 => decidable_of_iff' _ (Iff.of_eq (k0_chk238.eq_1 v4326))
theorem k0_off238_inb : ∀ (v4326 : BitVec 32) (k0_hw238 : k0_chk238 v4326), ∀ a, (k0_off238 v4326) a + S1x1x128.size a ≤ S1048576x1x128.size a := fun v4326 k0_hw238 => k0_hw238

def k0_off239 (v4345 : BitVec 32) : Fin 3 → Nat :=
  let c0_i32_4094 : BitVec 32 := 0#32
  let c0_i32_4095 : BitVec 32 := 0#32
  ![v4345.toNat, 0, 0]

def k0_chk239 (v4345 : BitVec 32) : Prop :=
  (∀ a, (k0_off239 v4345) a + S1x1x128.size a ≤ S1048576x1x128.size a)
instance k0_chk239.dec : ∀ (v4345 : BitVec 32), Decidable (k0_chk239 v4345) := fun v4345 => decidable_of_iff' _ (Iff.of_eq (k0_chk239.eq_1 v4345))
theorem k0_off239_inb : ∀ (v4345 : BitVec 32) (k0_hw239 : k0_chk239 v4345), ∀ a, (k0_off239 v4345) a + S1x1x128.size a ≤ S1048576x1x128.size a := fun v4345 k0_hw239 => k0_hw239

def k0_off240 (v4364 : BitVec 32) : Fin 3 → Nat :=
  let c0_i32_4112 : BitVec 32 := 0#32
  let c0_i32_4113 : BitVec 32 := 0#32
  ![v4364.toNat, 0, 0]

def k0_chk240 (v4364 : BitVec 32) : Prop :=
  (∀ a, (k0_off240 v4364) a + S1x1x128.size a ≤ S1048576x1x128.size a)
instance k0_chk240.dec : ∀ (v4364 : BitVec 32), Decidable (k0_chk240 v4364) := fun v4364 => decidable_of_iff' _ (Iff.of_eq (k0_chk240.eq_1 v4364))
theorem k0_off240_inb : ∀ (v4364 : BitVec 32) (k0_hw240 : k0_chk240 v4364), ∀ a, (k0_off240 v4364) a + S1x1x128.size a ≤ S1048576x1x128.size a := fun v4364 k0_hw240 => k0_hw240

def k0_off241 (v4383 : BitVec 32) : Fin 3 → Nat :=
  let c0_i32_4130 : BitVec 32 := 0#32
  let c0_i32_4131 : BitVec 32 := 0#32
  ![v4383.toNat, 0, 0]

def k0_chk241 (v4383 : BitVec 32) : Prop :=
  (∀ a, (k0_off241 v4383) a + S1x1x128.size a ≤ S1048576x1x128.size a)
instance k0_chk241.dec : ∀ (v4383 : BitVec 32), Decidable (k0_chk241 v4383) := fun v4383 => decidable_of_iff' _ (Iff.of_eq (k0_chk241.eq_1 v4383))
theorem k0_off241_inb : ∀ (v4383 : BitVec 32) (k0_hw241 : k0_chk241 v4383), ∀ a, (k0_off241 v4383) a + S1x1x128.size a ≤ S1048576x1x128.size a := fun v4383 k0_hw241 => k0_hw241

def k0_off242 (v4402 : BitVec 32) : Fin 3 → Nat :=
  let c0_i32_4148 : BitVec 32 := 0#32
  let c0_i32_4149 : BitVec 32 := 0#32
  ![v4402.toNat, 0, 0]

def k0_chk242 (v4402 : BitVec 32) : Prop :=
  (∀ a, (k0_off242 v4402) a + S1x1x128.size a ≤ S1048576x1x128.size a)
instance k0_chk242.dec : ∀ (v4402 : BitVec 32), Decidable (k0_chk242 v4402) := fun v4402 => decidable_of_iff' _ (Iff.of_eq (k0_chk242.eq_1 v4402))
theorem k0_off242_inb : ∀ (v4402 : BitVec 32) (k0_hw242 : k0_chk242 v4402), ∀ a, (k0_off242 v4402) a + S1x1x128.size a ≤ S1048576x1x128.size a := fun v4402 k0_hw242 => k0_hw242

def k0_off243 (v4421 : BitVec 32) : Fin 3 → Nat :=
  let c0_i32_4166 : BitVec 32 := 0#32
  let c0_i32_4167 : BitVec 32 := 0#32
  ![v4421.toNat, 0, 0]

def k0_chk243 (v4421 : BitVec 32) : Prop :=
  (∀ a, (k0_off243 v4421) a + S1x1x128.size a ≤ S1048576x1x128.size a)
instance k0_chk243.dec : ∀ (v4421 : BitVec 32), Decidable (k0_chk243 v4421) := fun v4421 => decidable_of_iff' _ (Iff.of_eq (k0_chk243.eq_1 v4421))
theorem k0_off243_inb : ∀ (v4421 : BitVec 32) (k0_hw243 : k0_chk243 v4421), ∀ a, (k0_off243 v4421) a + S1x1x128.size a ≤ S1048576x1x128.size a := fun v4421 k0_hw243 => k0_hw243

def k0_off244 (v4440 : BitVec 32) : Fin 3 → Nat :=
  let c0_i32_4184 : BitVec 32 := 0#32
  let c0_i32_4185 : BitVec 32 := 0#32
  ![v4440.toNat, 0, 0]

def k0_chk244 (v4440 : BitVec 32) : Prop :=
  (∀ a, (k0_off244 v4440) a + S1x1x128.size a ≤ S1048576x1x128.size a)
instance k0_chk244.dec : ∀ (v4440 : BitVec 32), Decidable (k0_chk244 v4440) := fun v4440 => decidable_of_iff' _ (Iff.of_eq (k0_chk244.eq_1 v4440))
theorem k0_off244_inb : ∀ (v4440 : BitVec 32) (k0_hw244 : k0_chk244 v4440), ∀ a, (k0_off244 v4440) a + S1x1x128.size a ≤ S1048576x1x128.size a := fun v4440 k0_hw244 => k0_hw244

def k0_off245 (v4459 : BitVec 32) : Fin 3 → Nat :=
  let c0_i32_4202 : BitVec 32 := 0#32
  let c0_i32_4203 : BitVec 32 := 0#32
  ![v4459.toNat, 0, 0]

def k0_chk245 (v4459 : BitVec 32) : Prop :=
  (∀ a, (k0_off245 v4459) a + S1x1x128.size a ≤ S1048576x1x128.size a)
instance k0_chk245.dec : ∀ (v4459 : BitVec 32), Decidable (k0_chk245 v4459) := fun v4459 => decidable_of_iff' _ (Iff.of_eq (k0_chk245.eq_1 v4459))
theorem k0_off245_inb : ∀ (v4459 : BitVec 32) (k0_hw245 : k0_chk245 v4459), ∀ a, (k0_off245 v4459) a + S1x1x128.size a ≤ S1048576x1x128.size a := fun v4459 k0_hw245 => k0_hw245

def k0_off246 (v4478 : BitVec 32) : Fin 3 → Nat :=
  let c0_i32_4220 : BitVec 32 := 0#32
  let c0_i32_4221 : BitVec 32 := 0#32
  ![v4478.toNat, 0, 0]

def k0_chk246 (v4478 : BitVec 32) : Prop :=
  (∀ a, (k0_off246 v4478) a + S1x1x128.size a ≤ S1048576x1x128.size a)
instance k0_chk246.dec : ∀ (v4478 : BitVec 32), Decidable (k0_chk246 v4478) := fun v4478 => decidable_of_iff' _ (Iff.of_eq (k0_chk246.eq_1 v4478))
theorem k0_off246_inb : ∀ (v4478 : BitVec 32) (k0_hw246 : k0_chk246 v4478), ∀ a, (k0_off246 v4478) a + S1x1x128.size a ≤ S1048576x1x128.size a := fun v4478 k0_hw246 => k0_hw246

def k0_off247 (v4497 : BitVec 32) : Fin 3 → Nat :=
  let c0_i32_4238 : BitVec 32 := 0#32
  let c0_i32_4239 : BitVec 32 := 0#32
  ![v4497.toNat, 0, 0]

def k0_chk247 (v4497 : BitVec 32) : Prop :=
  (∀ a, (k0_off247 v4497) a + S1x1x128.size a ≤ S1048576x1x128.size a)
instance k0_chk247.dec : ∀ (v4497 : BitVec 32), Decidable (k0_chk247 v4497) := fun v4497 => decidable_of_iff' _ (Iff.of_eq (k0_chk247.eq_1 v4497))
theorem k0_off247_inb : ∀ (v4497 : BitVec 32) (k0_hw247 : k0_chk247 v4497), ∀ a, (k0_off247 v4497) a + S1x1x128.size a ≤ S1048576x1x128.size a := fun v4497 k0_hw247 => k0_hw247

def k0_off248 (v4516 : BitVec 32) : Fin 3 → Nat :=
  let c0_i32_4256 : BitVec 32 := 0#32
  let c0_i32_4257 : BitVec 32 := 0#32
  ![v4516.toNat, 0, 0]

def k0_chk248 (v4516 : BitVec 32) : Prop :=
  (∀ a, (k0_off248 v4516) a + S1x1x128.size a ≤ S1048576x1x128.size a)
instance k0_chk248.dec : ∀ (v4516 : BitVec 32), Decidable (k0_chk248 v4516) := fun v4516 => decidable_of_iff' _ (Iff.of_eq (k0_chk248.eq_1 v4516))
theorem k0_off248_inb : ∀ (v4516 : BitVec 32) (k0_hw248 : k0_chk248 v4516), ∀ a, (k0_off248 v4516) a + S1x1x128.size a ≤ S1048576x1x128.size a := fun v4516 k0_hw248 => k0_hw248

def k0_off249 (v4535 : BitVec 32) : Fin 3 → Nat :=
  let c0_i32_4274 : BitVec 32 := 0#32
  let c0_i32_4275 : BitVec 32 := 0#32
  ![v4535.toNat, 0, 0]

def k0_chk249 (v4535 : BitVec 32) : Prop :=
  (∀ a, (k0_off249 v4535) a + S1x1x128.size a ≤ S1048576x1x128.size a)
instance k0_chk249.dec : ∀ (v4535 : BitVec 32), Decidable (k0_chk249 v4535) := fun v4535 => decidable_of_iff' _ (Iff.of_eq (k0_chk249.eq_1 v4535))
theorem k0_off249_inb : ∀ (v4535 : BitVec 32) (k0_hw249 : k0_chk249 v4535), ∀ a, (k0_off249 v4535) a + S1x1x128.size a ≤ S1048576x1x128.size a := fun v4535 k0_hw249 => k0_hw249

def k0_off250 (v4554 : BitVec 32) : Fin 3 → Nat :=
  let c0_i32_4292 : BitVec 32 := 0#32
  let c0_i32_4293 : BitVec 32 := 0#32
  ![v4554.toNat, 0, 0]

def k0_chk250 (v4554 : BitVec 32) : Prop :=
  (∀ a, (k0_off250 v4554) a + S1x1x128.size a ≤ S1048576x1x128.size a)
instance k0_chk250.dec : ∀ (v4554 : BitVec 32), Decidable (k0_chk250 v4554) := fun v4554 => decidable_of_iff' _ (Iff.of_eq (k0_chk250.eq_1 v4554))
theorem k0_off250_inb : ∀ (v4554 : BitVec 32) (k0_hw250 : k0_chk250 v4554), ∀ a, (k0_off250 v4554) a + S1x1x128.size a ≤ S1048576x1x128.size a := fun v4554 k0_hw250 => k0_hw250

def k0_off251 (v4573 : BitVec 32) : Fin 3 → Nat :=
  let c0_i32_4310 : BitVec 32 := 0#32
  let c0_i32_4311 : BitVec 32 := 0#32
  ![v4573.toNat, 0, 0]

def k0_chk251 (v4573 : BitVec 32) : Prop :=
  (∀ a, (k0_off251 v4573) a + S1x1x128.size a ≤ S1048576x1x128.size a)
instance k0_chk251.dec : ∀ (v4573 : BitVec 32), Decidable (k0_chk251 v4573) := fun v4573 => decidable_of_iff' _ (Iff.of_eq (k0_chk251.eq_1 v4573))
theorem k0_off251_inb : ∀ (v4573 : BitVec 32) (k0_hw251 : k0_chk251 v4573), ∀ a, (k0_off251 v4573) a + S1x1x128.size a ≤ S1048576x1x128.size a := fun v4573 k0_hw251 => k0_hw251

def k0_off252 (v4592 : BitVec 32) : Fin 3 → Nat :=
  let c0_i32_4328 : BitVec 32 := 0#32
  let c0_i32_4329 : BitVec 32 := 0#32
  ![v4592.toNat, 0, 0]

def k0_chk252 (v4592 : BitVec 32) : Prop :=
  (∀ a, (k0_off252 v4592) a + S1x1x128.size a ≤ S1048576x1x128.size a)
instance k0_chk252.dec : ∀ (v4592 : BitVec 32), Decidable (k0_chk252 v4592) := fun v4592 => decidable_of_iff' _ (Iff.of_eq (k0_chk252.eq_1 v4592))
theorem k0_off252_inb : ∀ (v4592 : BitVec 32) (k0_hw252 : k0_chk252 v4592), ∀ a, (k0_off252 v4592) a + S1x1x128.size a ≤ S1048576x1x128.size a := fun v4592 k0_hw252 => k0_hw252

def k0_off253 (v4611 : BitVec 32) : Fin 3 → Nat :=
  let c0_i32_4346 : BitVec 32 := 0#32
  let c0_i32_4347 : BitVec 32 := 0#32
  ![v4611.toNat, 0, 0]

def k0_chk253 (v4611 : BitVec 32) : Prop :=
  (∀ a, (k0_off253 v4611) a + S1x1x128.size a ≤ S1048576x1x128.size a)
instance k0_chk253.dec : ∀ (v4611 : BitVec 32), Decidable (k0_chk253 v4611) := fun v4611 => decidable_of_iff' _ (Iff.of_eq (k0_chk253.eq_1 v4611))
theorem k0_off253_inb : ∀ (v4611 : BitVec 32) (k0_hw253 : k0_chk253 v4611), ∀ a, (k0_off253 v4611) a + S1x1x128.size a ≤ S1048576x1x128.size a := fun v4611 k0_hw253 => k0_hw253

def k0_off254 (v4630 : BitVec 32) : Fin 3 → Nat :=
  let c0_i32_4364 : BitVec 32 := 0#32
  let c0_i32_4365 : BitVec 32 := 0#32
  ![v4630.toNat, 0, 0]

def k0_chk254 (v4630 : BitVec 32) : Prop :=
  (∀ a, (k0_off254 v4630) a + S1x1x128.size a ≤ S1048576x1x128.size a)
instance k0_chk254.dec : ∀ (v4630 : BitVec 32), Decidable (k0_chk254 v4630) := fun v4630 => decidable_of_iff' _ (Iff.of_eq (k0_chk254.eq_1 v4630))
theorem k0_off254_inb : ∀ (v4630 : BitVec 32) (k0_hw254 : k0_chk254 v4630), ∀ a, (k0_off254 v4630) a + S1x1x128.size a ≤ S1048576x1x128.size a := fun v4630 k0_hw254 => k0_hw254

def k0_off255 (v4649 : BitVec 32) : Fin 3 → Nat :=
  let c0_i32_4382 : BitVec 32 := 0#32
  let c0_i32_4383 : BitVec 32 := 0#32
  ![v4649.toNat, 0, 0]

def k0_chk255 (v4649 : BitVec 32) : Prop :=
  (∀ a, (k0_off255 v4649) a + S1x1x128.size a ≤ S1048576x1x128.size a)
instance k0_chk255.dec : ∀ (v4649 : BitVec 32), Decidable (k0_chk255 v4649) := fun v4649 => decidable_of_iff' _ (Iff.of_eq (k0_chk255.eq_1 v4649))
theorem k0_off255_inb : ∀ (v4649 : BitVec 32) (k0_hw255 : k0_chk255 v4649), ∀ a, (k0_off255 v4649) a + S1x1x128.size a ≤ S1048576x1x128.size a := fun v4649 k0_hw255 => k0_hw255

def k0_off256 (v4668 : BitVec 32) : Fin 3 → Nat :=
  let c0_i32_4400 : BitVec 32 := 0#32
  let c0_i32_4401 : BitVec 32 := 0#32
  ![v4668.toNat, 0, 0]

def k0_chk256 (v4668 : BitVec 32) : Prop :=
  (∀ a, (k0_off256 v4668) a + S1x1x128.size a ≤ S1048576x1x128.size a)
instance k0_chk256.dec : ∀ (v4668 : BitVec 32), Decidable (k0_chk256 v4668) := fun v4668 => decidable_of_iff' _ (Iff.of_eq (k0_chk256.eq_1 v4668))
theorem k0_off256_inb : ∀ (v4668 : BitVec 32) (k0_hw256 : k0_chk256 v4668), ∀ a, (k0_off256 v4668) a + S1x1x128.size a ≤ S1048576x1x128.size a := fun v4668 k0_hw256 => k0_hw256

def cc0_transform_0 (i : grid0.Coords) : Fin 1 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  ![v1.toNat]

def cc0_transform_1 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1048576_S1048576x1 : S1048576.ShapeCasts S1048576x1
  pads_S1048576x64_S1048576x128_000_0640 : S1048576x64.Pads (![0, 0] : Fin 2 → Nat) ![0, 64] ![0, 0] S1048576x128
  h_S_ : 0 < S_.numel
  shapeCasts_S1048576x128_S1048576x1x128 : S1048576x128.ShapeCasts S1048576x1x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  inb_S256_S1_0 : ∀ a, (![0] : Fin 1 → Nat) a + S1.size a ≤ S256.size a
  numel1_S1 : S1.numel = 1
  inb_S16_S1_0 : ∀ a, (![0] : Fin 1 → Nat) a + S1.size a ≤ S16.size a
  squeezes_S1_S_ : S1.Squeezes S_
  inb_S16x1x128_S1x1x128_0_0_0 : ∀ a, (![0, 0, 0] : Fin 3 → Nat) a + S1x1x128.size a ≤ S16x1x128.size a
  squeezes_S1x1x128_S1x128 : S1x1x128.Squeezes S1x128
  inb_S256_S1_1 : ∀ a, (![1] : Fin 1 → Nat) a + S1.size a ≤ S256.size a
  inb_S16_S1_1 : ∀ a, (![1] : Fin 1 → Nat) a + S1.size a ≤ S16.size a
  inb_S16x1x128_S1x1x128_1_0_0 : ∀ a, (![1, 0, 0] : Fin 3 → Nat) a + S1x1x128.size a ≤ S16x1x128.size a
  inb_S256_S1_2 : ∀ a, (![2] : Fin 1 → Nat) a + S1.size a ≤ S256.size a
  inb_S16_S1_2 : ∀ a, (![2] : Fin 1 → Nat) a + S1.size a ≤ S16.size a
  inb_S16x1x128_S1x1x128_2_0_0 : ∀ a, (![2, 0, 0] : Fin 3 → Nat) a + S1x1x128.size a ≤ S16x1x128.size a
  inb_S256_S1_3 : ∀ a, (![3] : Fin 1 → Nat) a + S1.size a ≤ S256.size a
  inb_S16_S1_3 : ∀ a, (![3] : Fin 1 → Nat) a + S1.size a ≤ S16.size a
  inb_S16x1x128_S1x1x128_3_0_0 : ∀ a, (![3, 0, 0] : Fin 3 → Nat) a + S1x1x128.size a ≤ S16x1x128.size a
  inb_S256_S1_4 : ∀ a, (![4] : Fin 1 → Nat) a + S1.size a ≤ S256.size a
  inb_S16_S1_4 : ∀ a, (![4] : Fin 1 → Nat) a + S1.size a ≤ S16.size a
  inb_S16x1x128_S1x1x128_4_0_0 : ∀ a, (![4, 0, 0] : Fin 3 → Nat) a + S1x1x128.size a ≤ S16x1x128.size a
  inb_S256_S1_5 : ∀ a, (![5] : Fin 1 → Nat) a + S1.size a ≤ S256.size a
  inb_S16_S1_5 : ∀ a, (![5] : Fin 1 → Nat) a + S1.size a ≤ S16.size a
  inb_S16x1x128_S1x1x128_5_0_0 : ∀ a, (![5, 0, 0] : Fin 3 → Nat) a + S1x1x128.size a ≤ S16x1x128.size a
  inb_S256_S1_6 : ∀ a, (![6] : Fin 1 → Nat) a + S1.size a ≤ S256.size a
  inb_S16_S1_6 : ∀ a, (![6] : Fin 1 → Nat) a + S1.size a ≤ S16.size a
  inb_S16x1x128_S1x1x128_6_0_0 : ∀ a, (![6, 0, 0] : Fin 3 → Nat) a + S1x1x128.size a ≤ S16x1x128.size a
  inb_S256_S1_7 : ∀ a, (![7] : Fin 1 → Nat) a + S1.size a ≤ S256.size a
  inb_S16_S1_7 : ∀ a, (![7] : Fin 1 → Nat) a + S1.size a ≤ S16.size a
  inb_S16x1x128_S1x1x128_7_0_0 : ∀ a, (![7, 0, 0] : Fin 3 → Nat) a + S1x1x128.size a ≤ S16x1x128.size a
  inb_S256_S1_8 : ∀ a, (![8] : Fin 1 → Nat) a + S1.size a ≤ S256.size a
  inb_S16_S1_8 : ∀ a, (![8] : Fin 1 → Nat) a + S1.size a ≤ S16.size a
  inb_S16x1x128_S1x1x128_8_0_0 : ∀ a, (![8, 0, 0] : Fin 3 → Nat) a + S1x1x128.size a ≤ S16x1x128.size a
  inb_S256_S1_9 : ∀ a, (![9] : Fin 1 → Nat) a + S1.size a ≤ S256.size a
  inb_S16_S1_9 : ∀ a, (![9] : Fin 1 → Nat) a + S1.size a ≤ S16.size a
  inb_S16x1x128_S1x1x128_9_0_0 : ∀ a, (![9, 0, 0] : Fin 3 → Nat) a + S1x1x128.size a ≤ S16x1x128.size a
  inb_S256_S1_10 : ∀ a, (![10] : Fin 1 → Nat) a + S1.size a ≤ S256.size a
  inb_S16_S1_10 : ∀ a, (![10] : Fin 1 → Nat) a + S1.size a ≤ S16.size a
  inb_S16x1x128_S1x1x128_10_0_0 : ∀ a, (![10, 0, 0] : Fin 3 → Nat) a + S1x1x128.size a ≤ S16x1x128.size a
  inb_S256_S1_11 : ∀ a, (![11] : Fin 1 → Nat) a + S1.size a ≤ S256.size a
  inb_S16_S1_11 : ∀ a, (![11] : Fin 1 → Nat) a + S1.size a ≤ S16.size a
  inb_S16x1x128_S1x1x128_11_0_0 : ∀ a, (![11, 0, 0] : Fin 3 → Nat) a + S1x1x128.size a ≤ S16x1x128.size a
  inb_S256_S1_12 : ∀ a, (![12] : Fin 1 → Nat) a + S1.size a ≤ S256.size a
  inb_S16_S1_12 : ∀ a, (![12] : Fin 1 → Nat) a + S1.size a ≤ S16.size a
  inb_S16x1x128_S1x1x128_12_0_0 : ∀ a, (![12, 0, 0] : Fin 3 → Nat) a + S1x1x128.size a ≤ S16x1x128.size a
  inb_S256_S1_13 : ∀ a, (![13] : Fin 1 → Nat) a + S1.size a ≤ S256.size a
  inb_S16_S1_13 : ∀ a, (![13] : Fin 1 → Nat) a + S1.size a ≤ S16.size a
  inb_S16x1x128_S1x1x128_13_0_0 : ∀ a, (![13, 0, 0] : Fin 3 → Nat) a + S1x1x128.size a ≤ S16x1x128.size a
  inb_S256_S1_14 : ∀ a, (![14] : Fin 1 → Nat) a + S1.size a ≤ S256.size a
  inb_S16_S1_14 : ∀ a, (![14] : Fin 1 → Nat) a + S1.size a ≤ S16.size a
  inb_S16x1x128_S1x1x128_14_0_0 : ∀ a, (![14, 0, 0] : Fin 3 → Nat) a + S1x1x128.size a ≤ S16x1x128.size a
  inb_S256_S1_15 : ∀ a, (![15] : Fin 1 → Nat) a + S1.size a ≤ S256.size a
  inb_S16_S1_15 : ∀ a, (![15] : Fin 1 → Nat) a + S1.size a ≤ S16.size a
  inb_S16x1x128_S1x1x128_15_0_0 : ∀ a, (![15, 0, 0] : Fin 3 → Nat) a + S1x1x128.size a ≤ S16x1x128.size a
  inb_S1048576x1x128_S1x1x128_0_0_0 : ∀ a, (![0, 0, 0] : Fin 3 → Nat) a + S1x1x128.size a ≤ S1048576x1x128.size a
  h_S1x1x128 : 0 < S1x1x128.numel
  shapeCasts_S1x1x128_S128 : S1x1x128.ShapeCasts S128
  bitsLt_bf16_f32 : FTy.bits .bf16 < FTy.bits .f32
  inb_S256x128_S1x128_0_0 : ∀ a, (![0, 0] : Fin 2 → Nat) a + S1x128.size a ≤ S256x128.size a
  h_S1x128 : 0 < S1x128.numel
  shapeCasts_S1x128_S128 : S1x128.ShapeCasts S128
  shapeCasts_S128_S1x128 : S128.ShapeCasts S1x128
  inb_S256x128_S2x128_0_0 : ∀ a, (![0, 0] : Fin 2 → Nat) a + S2x128.size a ≤ S256x128.size a
  h_S2x128 : 0 < S2x128.numel
  slices_S2x128_S1x128_0_0 : S2x128.Slices ![0, 0] S1x128
  packedbf16_S256x128_S2x128_0_0 : (Rect.unit (s := S256x128) ![0, 0] S2x128.size inb_S256x128_S2x128_0_0).PackedRows (EltTy.packing .bf16)
  inb_S256_S1_16 : ∀ a, (![16] : Fin 1 → Nat) a + S1.size a ≤ S256.size a
  inb_S256x128_S1x128_1_0 : ∀ a, (![1, 0] : Fin 2 → Nat) a + S1x128.size a ≤ S256x128.size a
  slices_S2x128_S1x128_1_0 : S2x128.Slices ![1, 0] S1x128
  inb_S256_S1_17 : ∀ a, (![17] : Fin 1 → Nat) a + S1.size a ≤ S256.size a
  inb_S256x128_S1x128_2_0 : ∀ a, (![2, 0] : Fin 2 → Nat) a + S1x128.size a ≤ S256x128.size a
  inb_S256x128_S2x128_2_0 : ∀ a, (![2, 0] : Fin 2 → Nat) a + S2x128.size a ≤ S256x128.size a
  packedbf16_S256x128_S2x128_2_0 : (Rect.unit (s := S256x128) ![2, 0] S2x128.size inb_S256x128_S2x128_2_0).PackedRows (EltTy.packing .bf16)
  inb_S256_S1_18 : ∀ a, (![18] : Fin 1 → Nat) a + S1.size a ≤ S256.size a
  inb_S256x128_S1x128_3_0 : ∀ a, (![3, 0] : Fin 2 → Nat) a + S1x128.size a ≤ S256x128.size a
  inb_S256_S1_19 : ∀ a, (![19] : Fin 1 → Nat) a + S1.size a ≤ S256.size a
  inb_S256x128_S1x128_4_0 : ∀ a, (![4, 0] : Fin 2 → Nat) a + S1x128.size a ≤ S256x128.size a
  inb_S256x128_S2x128_4_0 : ∀ a, (![4, 0] : Fin 2 → Nat) a + S2x128.size a ≤ S256x128.size a
  packedbf16_S256x128_S2x128_4_0 : (Rect.unit (s := S256x128) ![4, 0] S2x128.size inb_S256x128_S2x128_4_0).PackedRows (EltTy.packing .bf16)
  inb_S256_S1_20 : ∀ a, (![20] : Fin 1 → Nat) a + S1.size a ≤ S256.size a
  inb_S256x128_S1x128_5_0 : ∀ a, (![5, 0] : Fin 2 → Nat) a + S1x128.size a ≤ S256x128.size a
  inb_S256_S1_21 : ∀ a, (![21] : Fin 1 → Nat) a + S1.size a ≤ S256.size a
  inb_S256x128_S1x128_6_0 : ∀ a, (![6, 0] : Fin 2 → Nat) a + S1x128.size a ≤ S256x128.size a
  inb_S256x128_S2x128_6_0 : ∀ a, (![6, 0] : Fin 2 → Nat) a + S2x128.size a ≤ S256x128.size a
  packedbf16_S256x128_S2x128_6_0 : (Rect.unit (s := S256x128) ![6, 0] S2x128.size inb_S256x128_S2x128_6_0).PackedRows (EltTy.packing .bf16)
  inb_S256_S1_22 : ∀ a, (![22] : Fin 1 → Nat) a + S1.size a ≤ S256.size a
  inb_S256x128_S1x128_7_0 : ∀ a, (![7, 0] : Fin 2 → Nat) a + S1x128.size a ≤ S256x128.size a
  inb_S256_S1_23 : ∀ a, (![23] : Fin 1 → Nat) a + S1.size a ≤ S256.size a
  inb_S256x128_S1x128_8_0 : ∀ a, (![8, 0] : Fin 2 → Nat) a + S1x128.size a ≤ S256x128.size a
  inb_S256x128_S2x128_8_0 : ∀ a, (![8, 0] : Fin 2 → Nat) a + S2x128.size a ≤ S256x128.size a
  packedbf16_S256x128_S2x128_8_0 : (Rect.unit (s := S256x128) ![8, 0] S2x128.size inb_S256x128_S2x128_8_0).PackedRows (EltTy.packing .bf16)
  inb_S256_S1_24 : ∀ a, (![24] : Fin 1 → Nat) a + S1.size a ≤ S256.size a
  inb_S256x128_S1x128_9_0 : ∀ a, (![9, 0] : Fin 2 → Nat) a + S1x128.size a ≤ S256x128.size a
  inb_S256_S1_25 : ∀ a, (![25] : Fin 1 → Nat) a + S1.size a ≤ S256.size a
  inb_S256x128_S1x128_10_0 : ∀ a, (![10, 0] : Fin 2 → Nat) a + S1x128.size a ≤ S256x128.size a
  inb_S256x128_S2x128_10_0 : ∀ a, (![10, 0] : Fin 2 → Nat) a + S2x128.size a ≤ S256x128.size a
  packedbf16_S256x128_S2x128_10_0 : (Rect.unit (s := S256x128) ![10, 0] S2x128.size inb_S256x128_S2x128_10_0).PackedRows (EltTy.packing .bf16)
  inb_S256_S1_26 : ∀ a, (![26] : Fin 1 → Nat) a + S1.size a ≤ S256.size a
  inb_S256x128_S1x128_11_0 : ∀ a, (![11, 0] : Fin 2 → Nat) a + S1x128.size a ≤ S256x128.size a
  inb_S256_S1_27 : ∀ a, (![27] : Fin 1 → Nat) a + S1.size a ≤ S256.size a
  inb_S256x128_S1x128_12_0 : ∀ a, (![12, 0] : Fin 2 → Nat) a + S1x128.size a ≤ S256x128.size a
  inb_S256x128_S2x128_12_0 : ∀ a, (![12, 0] : Fin 2 → Nat) a + S2x128.size a ≤ S256x128.size a
  packedbf16_S256x128_S2x128_12_0 : (Rect.unit (s := S256x128) ![12, 0] S2x128.size inb_S256x128_S2x128_12_0).PackedRows (EltTy.packing .bf16)
  inb_S256_S1_28 : ∀ a, (![28] : Fin 1 → Nat) a + S1.size a ≤ S256.size a
  inb_S256x128_S1x128_13_0 : ∀ a, (![13, 0] : Fin 2 → Nat) a + S1x128.size a ≤ S256x128.size a
  inb_S256_S1_29 : ∀ a, (![29] : Fin 1 → Nat) a + S1.size a ≤ S256.size a
  inb_S256x128_S1x128_14_0 : ∀ a, (![14, 0] : Fin 2 → Nat) a + S1x128.size a ≤ S256x128.size a
  inb_S256x128_S2x128_14_0 : ∀ a, (![14, 0] : Fin 2 → Nat) a + S2x128.size a ≤ S256x128.size a
  packedbf16_S256x128_S2x128_14_0 : (Rect.unit (s := S256x128) ![14, 0] S2x128.size inb_S256x128_S2x128_14_0).PackedRows (EltTy.packing .bf16)
  inb_S256_S1_30 : ∀ a, (![30] : Fin 1 → Nat) a + S1.size a ≤ S256.size a
  inb_S256x128_S1x128_15_0 : ∀ a, (![15, 0] : Fin 2 → Nat) a + S1x128.size a ≤ S256x128.size a
  inb_S256_S1_31 : ∀ a, (![31] : Fin 1 → Nat) a + S1.size a ≤ S256.size a
  inb_S256x128_S1x128_16_0 : ∀ a, (![16, 0] : Fin 2 → Nat) a + S1x128.size a ≤ S256x128.size a
  inb_S256x128_S2x128_16_0 : ∀ a, (![16, 0] : Fin 2 → Nat) a + S2x128.size a ≤ S256x128.size a
  packedbf16_S256x128_S2x128_16_0 : (Rect.unit (s := S256x128) ![16, 0] S2x128.size inb_S256x128_S2x128_16_0).PackedRows (EltTy.packing .bf16)
  inb_S256_S1_32 : ∀ a, (![32] : Fin 1 → Nat) a + S1.size a ≤ S256.size a
  inb_S256x128_S1x128_17_0 : ∀ a, (![17, 0] : Fin 2 → Nat) a + S1x128.size a ≤ S256x128.size a
  inb_S256_S1_33 : ∀ a, (![33] : Fin 1 → Nat) a + S1.size a ≤ S256.size a
  inb_S256x128_S1x128_18_0 : ∀ a, (![18, 0] : Fin 2 → Nat) a + S1x128.size a ≤ S256x128.size a
  inb_S256x128_S2x128_18_0 : ∀ a, (![18, 0] : Fin 2 → Nat) a + S2x128.size a ≤ S256x128.size a
  packedbf16_S256x128_S2x128_18_0 : (Rect.unit (s := S256x128) ![18, 0] S2x128.size inb_S256x128_S2x128_18_0).PackedRows (EltTy.packing .bf16)
  inb_S256_S1_34 : ∀ a, (![34] : Fin 1 → Nat) a + S1.size a ≤ S256.size a
  inb_S256x128_S1x128_19_0 : ∀ a, (![19, 0] : Fin 2 → Nat) a + S1x128.size a ≤ S256x128.size a
  inb_S256_S1_35 : ∀ a, (![35] : Fin 1 → Nat) a + S1.size a ≤ S256.size a
  inb_S256x128_S1x128_20_0 : ∀ a, (![20, 0] : Fin 2 → Nat) a + S1x128.size a ≤ S256x128.size a
  inb_S256x128_S2x128_20_0 : ∀ a, (![20, 0] : Fin 2 → Nat) a + S2x128.size a ≤ S256x128.size a
  packedbf16_S256x128_S2x128_20_0 : (Rect.unit (s := S256x128) ![20, 0] S2x128.size inb_S256x128_S2x128_20_0).PackedRows (EltTy.packing .bf16)
  inb_S256_S1_36 : ∀ a, (![36] : Fin 1 → Nat) a + S1.size a ≤ S256.size a
  inb_S256x128_S1x128_21_0 : ∀ a, (![21, 0] : Fin 2 → Nat) a + S1x128.size a ≤ S256x128.size a
  inb_S256_S1_37 : ∀ a, (![37] : Fin 1 → Nat) a + S1.size a ≤ S256.size a
  inb_S256x128_S1x128_22_0 : ∀ a, (![22, 0] : Fin 2 → Nat) a + S1x128.size a ≤ S256x128.size a
  inb_S256x128_S2x128_22_0 : ∀ a, (![22, 0] : Fin 2 → Nat) a + S2x128.size a ≤ S256x128.size a
  packedbf16_S256x128_S2x128_22_0 : (Rect.unit (s := S256x128) ![22, 0] S2x128.size inb_S256x128_S2x128_22_0).PackedRows (EltTy.packing .bf16)
  inb_S256_S1_38 : ∀ a, (![38] : Fin 1 → Nat) a + S1.size a ≤ S256.size a
  inb_S256x128_S1x128_23_0 : ∀ a, (![23, 0] : Fin 2 → Nat) a + S1x128.size a ≤ S256x128.size a
  inb_S256_S1_39 : ∀ a, (![39] : Fin 1 → Nat) a + S1.size a ≤ S256.size a
  inb_S256x128_S1x128_24_0 : ∀ a, (![24, 0] : Fin 2 → Nat) a + S1x128.size a ≤ S256x128.size a
  inb_S256x128_S2x128_24_0 : ∀ a, (![24, 0] : Fin 2 → Nat) a + S2x128.size a ≤ S256x128.size a
  packedbf16_S256x128_S2x128_24_0 : (Rect.unit (s := S256x128) ![24, 0] S2x128.size inb_S256x128_S2x128_24_0).PackedRows (EltTy.packing .bf16)
  inb_S256_S1_40 : ∀ a, (![40] : Fin 1 → Nat) a + S1.size a ≤ S256.size a
  inb_S256x128_S1x128_25_0 : ∀ a, (![25, 0] : Fin 2 → Nat) a + S1x128.size a ≤ S256x128.size a
  inb_S256_S1_41 : ∀ a, (![41] : Fin 1 → Nat) a + S1.size a ≤ S256.size a
  inb_S256x128_S1x128_26_0 : ∀ a, (![26, 0] : Fin 2 → Nat) a + S1x128.size a ≤ S256x128.size a
  inb_S256x128_S2x128_26_0 : ∀ a, (![26, 0] : Fin 2 → Nat) a + S2x128.size a ≤ S256x128.size a
  packedbf16_S256x128_S2x128_26_0 : (Rect.unit (s := S256x128) ![26, 0] S2x128.size inb_S256x128_S2x128_26_0).PackedRows (EltTy.packing .bf16)
  inb_S256_S1_42 : ∀ a, (![42] : Fin 1 → Nat) a + S1.size a ≤ S256.size a
  inb_S256x128_S1x128_27_0 : ∀ a, (![27, 0] : Fin 2 → Nat) a + S1x128.size a ≤ S256x128.size a
  inb_S256_S1_43 : ∀ a, (![43] : Fin 1 → Nat) a + S1.size a ≤ S256.size a
  inb_S256x128_S1x128_28_0 : ∀ a, (![28, 0] : Fin 2 → Nat) a + S1x128.size a ≤ S256x128.size a
  inb_S256x128_S2x128_28_0 : ∀ a, (![28, 0] : Fin 2 → Nat) a + S2x128.size a ≤ S256x128.size a
  packedbf16_S256x128_S2x128_28_0 : (Rect.unit (s := S256x128) ![28, 0] S2x128.size inb_S256x128_S2x128_28_0).PackedRows (EltTy.packing .bf16)
  inb_S256_S1_44 : ∀ a, (![44] : Fin 1 → Nat) a + S1.size a ≤ S256.size a
  inb_S256x128_S1x128_29_0 : ∀ a, (![29, 0] : Fin 2 → Nat) a + S1x128.size a ≤ S256x128.size a
  inb_S256_S1_45 : ∀ a, (![45] : Fin 1 → Nat) a + S1.size a ≤ S256.size a
  inb_S256x128_S1x128_30_0 : ∀ a, (![30, 0] : Fin 2 → Nat) a + S1x128.size a ≤ S256x128.size a
  inb_S256x128_S2x128_30_0 : ∀ a, (![30, 0] : Fin 2 → Nat) a + S2x128.size a ≤ S256x128.size a
  packedbf16_S256x128_S2x128_30_0 : (Rect.unit (s := S256x128) ![30, 0] S2x128.size inb_S256x128_S2x128_30_0).PackedRows (EltTy.packing .bf16)
  inb_S256_S1_46 : ∀ a, (![46] : Fin 1 → Nat) a + S1.size a ≤ S256.size a
  inb_S256x128_S1x128_31_0 : ∀ a, (![31, 0] : Fin 2 → Nat) a + S1x128.size a ≤ S256x128.size a
  inb_S256_S1_47 : ∀ a, (![47] : Fin 1 → Nat) a + S1.size a ≤ S256.size a
  inb_S256x128_S1x128_32_0 : ∀ a, (![32, 0] : Fin 2 → Nat) a + S1x128.size a ≤ S256x128.size a
  inb_S256x128_S2x128_32_0 : ∀ a, (![32, 0] : Fin 2 → Nat) a + S2x128.size a ≤ S256x128.size a
  packedbf16_S256x128_S2x128_32_0 : (Rect.unit (s := S256x128) ![32, 0] S2x128.size inb_S256x128_S2x128_32_0).PackedRows (EltTy.packing .bf16)
  inb_S256_S1_48 : ∀ a, (![48] : Fin 1 → Nat) a + S1.size a ≤ S256.size a
  inb_S256x128_S1x128_33_0 : ∀ a, (![33, 0] : Fin 2 → Nat) a + S1x128.size a ≤ S256x128.size a
  inb_S256_S1_49 : ∀ a, (![49] : Fin 1 → Nat) a + S1.size a ≤ S256.size a
  inb_S256x128_S1x128_34_0 : ∀ a, (![34, 0] : Fin 2 → Nat) a + S1x128.size a ≤ S256x128.size a
  inb_S256x128_S2x128_34_0 : ∀ a, (![34, 0] : Fin 2 → Nat) a + S2x128.size a ≤ S256x128.size a
  packedbf16_S256x128_S2x128_34_0 : (Rect.unit (s := S256x128) ![34, 0] S2x128.size inb_S256x128_S2x128_34_0).PackedRows (EltTy.packing .bf16)
  inb_S256_S1_50 : ∀ a, (![50] : Fin 1 → Nat) a + S1.size a ≤ S256.size a
  inb_S256x128_S1x128_35_0 : ∀ a, (![35, 0] : Fin 2 → Nat) a + S1x128.size a ≤ S256x128.size a
  inb_S256_S1_51 : ∀ a, (![51] : Fin 1 → Nat) a + S1.size a ≤ S256.size a
  inb_S256x128_S1x128_36_0 : ∀ a, (![36, 0] : Fin 2 → Nat) a + S1x128.size a ≤ S256x128.size a
  inb_S256x128_S2x128_36_0 : ∀ a, (![36, 0] : Fin 2 → Nat) a + S2x128.size a ≤ S256x128.size a
  packedbf16_S256x128_S2x128_36_0 : (Rect.unit (s := S256x128) ![36, 0] S2x128.size inb_S256x128_S2x128_36_0).PackedRows (EltTy.packing .bf16)
  inb_S256_S1_52 : ∀ a, (![52] : Fin 1 → Nat) a + S1.size a ≤ S256.size a
  inb_S256x128_S1x128_37_0 : ∀ a, (![37, 0] : Fin 2 → Nat) a + S1x128.size a ≤ S256x128.size a
  inb_S256_S1_53 : ∀ a, (![53] : Fin 1 → Nat) a + S1.size a ≤ S256.size a
  inb_S256x128_S1x128_38_0 : ∀ a, (![38, 0] : Fin 2 → Nat) a + S1x128.size a ≤ S256x128.size a
  inb_S256x128_S2x128_38_0 : ∀ a, (![38, 0] : Fin 2 → Nat) a + S2x128.size a ≤ S256x128.size a
  packedbf16_S256x128_S2x128_38_0 : (Rect.unit (s := S256x128) ![38, 0] S2x128.size inb_S256x128_S2x128_38_0).PackedRows (EltTy.packing .bf16)
  inb_S256_S1_54 : ∀ a, (![54] : Fin 1 → Nat) a + S1.size a ≤ S256.size a
  inb_S256x128_S1x128_39_0 : ∀ a, (![39, 0] : Fin 2 → Nat) a + S1x128.size a ≤ S256x128.size a
  inb_S256_S1_55 : ∀ a, (![55] : Fin 1 → Nat) a + S1.size a ≤ S256.size a
  inb_S256x128_S1x128_40_0 : ∀ a, (![40, 0] : Fin 2 → Nat) a + S1x128.size a ≤ S256x128.size a
  inb_S256x128_S2x128_40_0 : ∀ a, (![40, 0] : Fin 2 → Nat) a + S2x128.size a ≤ S256x128.size a
  packedbf16_S256x128_S2x128_40_0 : (Rect.unit (s := S256x128) ![40, 0] S2x128.size inb_S256x128_S2x128_40_0).PackedRows (EltTy.packing .bf16)
  inb_S256_S1_56 : ∀ a, (![56] : Fin 1 → Nat) a + S1.size a ≤ S256.size a
  inb_S256x128_S1x128_41_0 : ∀ a, (![41, 0] : Fin 2 → Nat) a + S1x128.size a ≤ S256x128.size a
  inb_S256_S1_57 : ∀ a, (![57] : Fin 1 → Nat) a + S1.size a ≤ S256.size a
  inb_S256x128_S1x128_42_0 : ∀ a, (![42, 0] : Fin 2 → Nat) a + S1x128.size a ≤ S256x128.size a
  inb_S256x128_S2x128_42_0 : ∀ a, (![42, 0] : Fin 2 → Nat) a + S2x128.size a ≤ S256x128.size a
  packedbf16_S256x128_S2x128_42_0 : (Rect.unit (s := S256x128) ![42, 0] S2x128.size inb_S256x128_S2x128_42_0).PackedRows (EltTy.packing .bf16)
  inb_S256_S1_58 : ∀ a, (![58] : Fin 1 → Nat) a + S1.size a ≤ S256.size a
  inb_S256x128_S1x128_43_0 : ∀ a, (![43, 0] : Fin 2 → Nat) a + S1x128.size a ≤ S256x128.size a
  inb_S256_S1_59 : ∀ a, (![59] : Fin 1 → Nat) a + S1.size a ≤ S256.size a
  inb_S256x128_S1x128_44_0 : ∀ a, (![44, 0] : Fin 2 → Nat) a + S1x128.size a ≤ S256x128.size a
  inb_S256x128_S2x128_44_0 : ∀ a, (![44, 0] : Fin 2 → Nat) a + S2x128.size a ≤ S256x128.size a
  packedbf16_S256x128_S2x128_44_0 : (Rect.unit (s := S256x128) ![44, 0] S2x128.size inb_S256x128_S2x128_44_0).PackedRows (EltTy.packing .bf16)
  inb_S256_S1_60 : ∀ a, (![60] : Fin 1 → Nat) a + S1.size a ≤ S256.size a
  inb_S256x128_S1x128_45_0 : ∀ a, (![45, 0] : Fin 2 → Nat) a + S1x128.size a ≤ S256x128.size a
  inb_S256_S1_61 : ∀ a, (![61] : Fin 1 → Nat) a + S1.size a ≤ S256.size a
  inb_S256x128_S1x128_46_0 : ∀ a, (![46, 0] : Fin 2 → Nat) a + S1x128.size a ≤ S256x128.size a
  inb_S256x128_S2x128_46_0 : ∀ a, (![46, 0] : Fin 2 → Nat) a + S2x128.size a ≤ S256x128.size a
  packedbf16_S256x128_S2x128_46_0 : (Rect.unit (s := S256x128) ![46, 0] S2x128.size inb_S256x128_S2x128_46_0).PackedRows (EltTy.packing .bf16)
  inb_S256_S1_62 : ∀ a, (![62] : Fin 1 → Nat) a + S1.size a ≤ S256.size a
  inb_S256x128_S1x128_47_0 : ∀ a, (![47, 0] : Fin 2 → Nat) a + S1x128.size a ≤ S256x128.size a
  inb_S256_S1_63 : ∀ a, (![63] : Fin 1 → Nat) a + S1.size a ≤ S256.size a
  inb_S256x128_S1x128_48_0 : ∀ a, (![48, 0] : Fin 2 → Nat) a + S1x128.size a ≤ S256x128.size a
  inb_S256x128_S2x128_48_0 : ∀ a, (![48, 0] : Fin 2 → Nat) a + S2x128.size a ≤ S256x128.size a
  packedbf16_S256x128_S2x128_48_0 : (Rect.unit (s := S256x128) ![48, 0] S2x128.size inb_S256x128_S2x128_48_0).PackedRows (EltTy.packing .bf16)
  inb_S256_S1_64 : ∀ a, (![64] : Fin 1 → Nat) a + S1.size a ≤ S256.size a
  inb_S256x128_S1x128_49_0 : ∀ a, (![49, 0] : Fin 2 → Nat) a + S1x128.size a ≤ S256x128.size a
  inb_S256_S1_65 : ∀ a, (![65] : Fin 1 → Nat) a + S1.size a ≤ S256.size a
  inb_S256x128_S1x128_50_0 : ∀ a, (![50, 0] : Fin 2 → Nat) a + S1x128.size a ≤ S256x128.size a
  inb_S256x128_S2x128_50_0 : ∀ a, (![50, 0] : Fin 2 → Nat) a + S2x128.size a ≤ S256x128.size a
  packedbf16_S256x128_S2x128_50_0 : (Rect.unit (s := S256x128) ![50, 0] S2x128.size inb_S256x128_S2x128_50_0).PackedRows (EltTy.packing .bf16)
  inb_S256_S1_66 : ∀ a, (![66] : Fin 1 → Nat) a + S1.size a ≤ S256.size a
  inb_S256x128_S1x128_51_0 : ∀ a, (![51, 0] : Fin 2 → Nat) a + S1x128.size a ≤ S256x128.size a
  inb_S256_S1_67 : ∀ a, (![67] : Fin 1 → Nat) a + S1.size a ≤ S256.size a
  inb_S256x128_S1x128_52_0 : ∀ a, (![52, 0] : Fin 2 → Nat) a + S1x128.size a ≤ S256x128.size a
  inb_S256x128_S2x128_52_0 : ∀ a, (![52, 0] : Fin 2 → Nat) a + S2x128.size a ≤ S256x128.size a
  packedbf16_S256x128_S2x128_52_0 : (Rect.unit (s := S256x128) ![52, 0] S2x128.size inb_S256x128_S2x128_52_0).PackedRows (EltTy.packing .bf16)
  inb_S256_S1_68 : ∀ a, (![68] : Fin 1 → Nat) a + S1.size a ≤ S256.size a
  inb_S256x128_S1x128_53_0 : ∀ a, (![53, 0] : Fin 2 → Nat) a + S1x128.size a ≤ S256x128.size a
  inb_S256_S1_69 : ∀ a, (![69] : Fin 1 → Nat) a + S1.size a ≤ S256.size a
  inb_S256x128_S1x128_54_0 : ∀ a, (![54, 0] : Fin 2 → Nat) a + S1x128.size a ≤ S256x128.size a
  inb_S256x128_S2x128_54_0 : ∀ a, (![54, 0] : Fin 2 → Nat) a + S2x128.size a ≤ S256x128.size a
  packedbf16_S256x128_S2x128_54_0 : (Rect.unit (s := S256x128) ![54, 0] S2x128.size inb_S256x128_S2x128_54_0).PackedRows (EltTy.packing .bf16)
  inb_S256_S1_70 : ∀ a, (![70] : Fin 1 → Nat) a + S1.size a ≤ S256.size a
  inb_S256x128_S1x128_55_0 : ∀ a, (![55, 0] : Fin 2 → Nat) a + S1x128.size a ≤ S256x128.size a
  inb_S256_S1_71 : ∀ a, (![71] : Fin 1 → Nat) a + S1.size a ≤ S256.size a
  inb_S256x128_S1x128_56_0 : ∀ a, (![56, 0] : Fin 2 → Nat) a + S1x128.size a ≤ S256x128.size a
  inb_S256x128_S2x128_56_0 : ∀ a, (![56, 0] : Fin 2 → Nat) a + S2x128.size a ≤ S256x128.size a
  packedbf16_S256x128_S2x128_56_0 : (Rect.unit (s := S256x128) ![56, 0] S2x128.size inb_S256x128_S2x128_56_0).PackedRows (EltTy.packing .bf16)
  inb_S256_S1_72 : ∀ a, (![72] : Fin 1 → Nat) a + S1.size a ≤ S256.size a
  inb_S256x128_S1x128_57_0 : ∀ a, (![57, 0] : Fin 2 → Nat) a + S1x128.size a ≤ S256x128.size a
  inb_S256_S1_73 : ∀ a, (![73] : Fin 1 → Nat) a + S1.size a ≤ S256.size a
  inb_S256x128_S1x128_58_0 : ∀ a, (![58, 0] : Fin 2 → Nat) a + S1x128.size a ≤ S256x128.size a
  inb_S256x128_S2x128_58_0 : ∀ a, (![58, 0] : Fin 2 → Nat) a + S2x128.size a ≤ S256x128.size a
  packedbf16_S256x128_S2x128_58_0 : (Rect.unit (s := S256x128) ![58, 0] S2x128.size inb_S256x128_S2x128_58_0).PackedRows (EltTy.packing .bf16)
  inb_S256_S1_74 : ∀ a, (![74] : Fin 1 → Nat) a + S1.size a ≤ S256.size a
  inb_S256x128_S1x128_59_0 : ∀ a, (![59, 0] : Fin 2 → Nat) a + S1x128.size a ≤ S256x128.size a
  inb_S256_S1_75 : ∀ a, (![75] : Fin 1 → Nat) a + S1.size a ≤ S256.size a
  inb_S256x128_S1x128_60_0 : ∀ a, (![60, 0] : Fin 2 → Nat) a + S1x128.size a ≤ S256x128.size a
  inb_S256x128_S2x128_60_0 : ∀ a, (![60, 0] : Fin 2 → Nat) a + S2x128.size a ≤ S256x128.size a
  packedbf16_S256x128_S2x128_60_0 : (Rect.unit (s := S256x128) ![60, 0] S2x128.size inb_S256x128_S2x128_60_0).PackedRows (EltTy.packing .bf16)
  inb_S256_S1_76 : ∀ a, (![76] : Fin 1 → Nat) a + S1.size a ≤ S256.size a
  inb_S256x128_S1x128_61_0 : ∀ a, (![61, 0] : Fin 2 → Nat) a + S1x128.size a ≤ S256x128.size a
  inb_S256_S1_77 : ∀ a, (![77] : Fin 1 → Nat) a + S1.size a ≤ S256.size a
  inb_S256x128_S1x128_62_0 : ∀ a, (![62, 0] : Fin 2 → Nat) a + S1x128.size a ≤ S256x128.size a
  inb_S256x128_S2x128_62_0 : ∀ a, (![62, 0] : Fin 2 → Nat) a + S2x128.size a ≤ S256x128.size a
  packedbf16_S256x128_S2x128_62_0 : (Rect.unit (s := S256x128) ![62, 0] S2x128.size inb_S256x128_S2x128_62_0).PackedRows (EltTy.packing .bf16)
  inb_S256_S1_78 : ∀ a, (![78] : Fin 1 → Nat) a + S1.size a ≤ S256.size a
  inb_S256x128_S1x128_63_0 : ∀ a, (![63, 0] : Fin 2 → Nat) a + S1x128.size a ≤ S256x128.size a
  inb_S256_S1_79 : ∀ a, (![79] : Fin 1 → Nat) a + S1.size a ≤ S256.size a
  inb_S256x128_S1x128_64_0 : ∀ a, (![64, 0] : Fin 2 → Nat) a + S1x128.size a ≤ S256x128.size a
  inb_S256x128_S2x128_64_0 : ∀ a, (![64, 0] : Fin 2 → Nat) a + S2x128.size a ≤ S256x128.size a
  packedbf16_S256x128_S2x128_64_0 : (Rect.unit (s := S256x128) ![64, 0] S2x128.size inb_S256x128_S2x128_64_0).PackedRows (EltTy.packing .bf16)
  inb_S256_S1_80 : ∀ a, (![80] : Fin 1 → Nat) a + S1.size a ≤ S256.size a
  inb_S256x128_S1x128_65_0 : ∀ a, (![65, 0] : Fin 2 → Nat) a + S1x128.size a ≤ S256x128.size a
  inb_S256_S1_81 : ∀ a, (![81] : Fin 1 → Nat) a + S1.size a ≤ S256.size a
  inb_S256x128_S1x128_66_0 : ∀ a, (![66, 0] : Fin 2 → Nat) a + S1x128.size a ≤ S256x128.size a
  inb_S256x128_S2x128_66_0 : ∀ a, (![66, 0] : Fin 2 → Nat) a + S2x128.size a ≤ S256x128.size a
  packedbf16_S256x128_S2x128_66_0 : (Rect.unit (s := S256x128) ![66, 0] S2x128.size inb_S256x128_S2x128_66_0).PackedRows (EltTy.packing .bf16)
  inb_S256_S1_82 : ∀ a, (![82] : Fin 1 → Nat) a + S1.size a ≤ S256.size a
  inb_S256x128_S1x128_67_0 : ∀ a, (![67, 0] : Fin 2 → Nat) a + S1x128.size a ≤ S256x128.size a
  inb_S256_S1_83 : ∀ a, (![83] : Fin 1 → Nat) a + S1.size a ≤ S256.size a
  inb_S256x128_S1x128_68_0 : ∀ a, (![68, 0] : Fin 2 → Nat) a + S1x128.size a ≤ S256x128.size a
  inb_S256x128_S2x128_68_0 : ∀ a, (![68, 0] : Fin 2 → Nat) a + S2x128.size a ≤ S256x128.size a
  packedbf16_S256x128_S2x128_68_0 : (Rect.unit (s := S256x128) ![68, 0] S2x128.size inb_S256x128_S2x128_68_0).PackedRows (EltTy.packing .bf16)
  inb_S256_S1_84 : ∀ a, (![84] : Fin 1 → Nat) a + S1.size a ≤ S256.size a
  inb_S256x128_S1x128_69_0 : ∀ a, (![69, 0] : Fin 2 → Nat) a + S1x128.size a ≤ S256x128.size a
  inb_S256_S1_85 : ∀ a, (![85] : Fin 1 → Nat) a + S1.size a ≤ S256.size a
  inb_S256x128_S1x128_70_0 : ∀ a, (![70, 0] : Fin 2 → Nat) a + S1x128.size a ≤ S256x128.size a
  inb_S256x128_S2x128_70_0 : ∀ a, (![70, 0] : Fin 2 → Nat) a + S2x128.size a ≤ S256x128.size a
  packedbf16_S256x128_S2x128_70_0 : (Rect.unit (s := S256x128) ![70, 0] S2x128.size inb_S256x128_S2x128_70_0).PackedRows (EltTy.packing .bf16)
  inb_S256_S1_86 : ∀ a, (![86] : Fin 1 → Nat) a + S1.size a ≤ S256.size a
  inb_S256x128_S1x128_71_0 : ∀ a, (![71, 0] : Fin 2 → Nat) a + S1x128.size a ≤ S256x128.size a
  inb_S256_S1_87 : ∀ a, (![87] : Fin 1 → Nat) a + S1.size a ≤ S256.size a
  inb_S256x128_S1x128_72_0 : ∀ a, (![72, 0] : Fin 2 → Nat) a + S1x128.size a ≤ S256x128.size a
  inb_S256x128_S2x128_72_0 : ∀ a, (![72, 0] : Fin 2 → Nat) a + S2x128.size a ≤ S256x128.size a
  packedbf16_S256x128_S2x128_72_0 : (Rect.unit (s := S256x128) ![72, 0] S2x128.size inb_S256x128_S2x128_72_0).PackedRows (EltTy.packing .bf16)
  inb_S256_S1_88 : ∀ a, (![88] : Fin 1 → Nat) a + S1.size a ≤ S256.size a
  inb_S256x128_S1x128_73_0 : ∀ a, (![73, 0] : Fin 2 → Nat) a + S1x128.size a ≤ S256x128.size a
  inb_S256_S1_89 : ∀ a, (![89] : Fin 1 → Nat) a + S1.size a ≤ S256.size a
  inb_S256x128_S1x128_74_0 : ∀ a, (![74, 0] : Fin 2 → Nat) a + S1x128.size a ≤ S256x128.size a
  inb_S256x128_S2x128_74_0 : ∀ a, (![74, 0] : Fin 2 → Nat) a + S2x128.size a ≤ S256x128.size a
  packedbf16_S256x128_S2x128_74_0 : (Rect.unit (s := S256x128) ![74, 0] S2x128.size inb_S256x128_S2x128_74_0).PackedRows (EltTy.packing .bf16)
  inb_S256_S1_90 : ∀ a, (![90] : Fin 1 → Nat) a + S1.size a ≤ S256.size a
  inb_S256x128_S1x128_75_0 : ∀ a, (![75, 0] : Fin 2 → Nat) a + S1x128.size a ≤ S256x128.size a
  inb_S256_S1_91 : ∀ a, (![91] : Fin 1 → Nat) a + S1.size a ≤ S256.size a
  inb_S256x128_S1x128_76_0 : ∀ a, (![76, 0] : Fin 2 → Nat) a + S1x128.size a ≤ S256x128.size a
  inb_S256x128_S2x128_76_0 : ∀ a, (![76, 0] : Fin 2 → Nat) a + S2x128.size a ≤ S256x128.size a
  packedbf16_S256x128_S2x128_76_0 : (Rect.unit (s := S256x128) ![76, 0] S2x128.size inb_S256x128_S2x128_76_0).PackedRows (EltTy.packing .bf16)
  inb_S256_S1_92 : ∀ a, (![92] : Fin 1 → Nat) a + S1.size a ≤ S256.size a
  inb_S256x128_S1x128_77_0 : ∀ a, (![77, 0] : Fin 2 → Nat) a + S1x128.size a ≤ S256x128.size a
  inb_S256_S1_93 : ∀ a, (![93] : Fin 1 → Nat) a + S1.size a ≤ S256.size a
  inb_S256x128_S1x128_78_0 : ∀ a, (![78, 0] : Fin 2 → Nat) a + S1x128.size a ≤ S256x128.size a
  inb_S256x128_S2x128_78_0 : ∀ a, (![78, 0] : Fin 2 → Nat) a + S2x128.size a ≤ S256x128.size a
  packedbf16_S256x128_S2x128_78_0 : (Rect.unit (s := S256x128) ![78, 0] S2x128.size inb_S256x128_S2x128_78_0).PackedRows (EltTy.packing .bf16)
  inb_S256_S1_94 : ∀ a, (![94] : Fin 1 → Nat) a + S1.size a ≤ S256.size a
  inb_S256x128_S1x128_79_0 : ∀ a, (![79, 0] : Fin 2 → Nat) a + S1x128.size a ≤ S256x128.size a
  inb_S256_S1_95 : ∀ a, (![95] : Fin 1 → Nat) a + S1.size a ≤ S256.size a
  inb_S256x128_S1x128_80_0 : ∀ a, (![80, 0] : Fin 2 → Nat) a + S1x128.size a ≤ S256x128.size a
  inb_S256x128_S2x128_80_0 : ∀ a, (![80, 0] : Fin 2 → Nat) a + S2x128.size a ≤ S256x128.size a
  packedbf16_S256x128_S2x128_80_0 : (Rect.unit (s := S256x128) ![80, 0] S2x128.size inb_S256x128_S2x128_80_0).PackedRows (EltTy.packing .bf16)
  inb_S256_S1_96 : ∀ a, (![96] : Fin 1 → Nat) a + S1.size a ≤ S256.size a
  inb_S256x128_S1x128_81_0 : ∀ a, (![81, 0] : Fin 2 → Nat) a + S1x128.size a ≤ S256x128.size a
  inb_S256_S1_97 : ∀ a, (![97] : Fin 1 → Nat) a + S1.size a ≤ S256.size a
  inb_S256x128_S1x128_82_0 : ∀ a, (![82, 0] : Fin 2 → Nat) a + S1x128.size a ≤ S256x128.size a
  inb_S256x128_S2x128_82_0 : ∀ a, (![82, 0] : Fin 2 → Nat) a + S2x128.size a ≤ S256x128.size a
  packedbf16_S256x128_S2x128_82_0 : (Rect.unit (s := S256x128) ![82, 0] S2x128.size inb_S256x128_S2x128_82_0).PackedRows (EltTy.packing .bf16)
  inb_S256_S1_98 : ∀ a, (![98] : Fin 1 → Nat) a + S1.size a ≤ S256.size a
  inb_S256x128_S1x128_83_0 : ∀ a, (![83, 0] : Fin 2 → Nat) a + S1x128.size a ≤ S256x128.size a
  inb_S256_S1_99 : ∀ a, (![99] : Fin 1 → Nat) a + S1.size a ≤ S256.size a
  inb_S256x128_S1x128_84_0 : ∀ a, (![84, 0] : Fin 2 → Nat) a + S1x128.size a ≤ S256x128.size a
  inb_S256x128_S2x128_84_0 : ∀ a, (![84, 0] : Fin 2 → Nat) a + S2x128.size a ≤ S256x128.size a
  packedbf16_S256x128_S2x128_84_0 : (Rect.unit (s := S256x128) ![84, 0] S2x128.size inb_S256x128_S2x128_84_0).PackedRows (EltTy.packing .bf16)
  inb_S256_S1_100 : ∀ a, (![100] : Fin 1 → Nat) a + S1.size a ≤ S256.size a
  inb_S256x128_S1x128_85_0 : ∀ a, (![85, 0] : Fin 2 → Nat) a + S1x128.size a ≤ S256x128.size a
  inb_S256_S1_101 : ∀ a, (![101] : Fin 1 → Nat) a + S1.size a ≤ S256.size a
  inb_S256x128_S1x128_86_0 : ∀ a, (![86, 0] : Fin 2 → Nat) a + S1x128.size a ≤ S256x128.size a
  inb_S256x128_S2x128_86_0 : ∀ a, (![86, 0] : Fin 2 → Nat) a + S2x128.size a ≤ S256x128.size a
  packedbf16_S256x128_S2x128_86_0 : (Rect.unit (s := S256x128) ![86, 0] S2x128.size inb_S256x128_S2x128_86_0).PackedRows (EltTy.packing .bf16)
  inb_S256_S1_102 : ∀ a, (![102] : Fin 1 → Nat) a + S1.size a ≤ S256.size a
  inb_S256x128_S1x128_87_0 : ∀ a, (![87, 0] : Fin 2 → Nat) a + S1x128.size a ≤ S256x128.size a
  inb_S256_S1_103 : ∀ a, (![103] : Fin 1 → Nat) a + S1.size a ≤ S256.size a
  inb_S256x128_S1x128_88_0 : ∀ a, (![88, 0] : Fin 2 → Nat) a + S1x128.size a ≤ S256x128.size a
  inb_S256x128_S2x128_88_0 : ∀ a, (![88, 0] : Fin 2 → Nat) a + S2x128.size a ≤ S256x128.size a
  packedbf16_S256x128_S2x128_88_0 : (Rect.unit (s := S256x128) ![88, 0] S2x128.size inb_S256x128_S2x128_88_0).PackedRows (EltTy.packing .bf16)
  inb_S256_S1_104 : ∀ a, (![104] : Fin 1 → Nat) a + S1.size a ≤ S256.size a
  inb_S256x128_S1x128_89_0 : ∀ a, (![89, 0] : Fin 2 → Nat) a + S1x128.size a ≤ S256x128.size a
  inb_S256_S1_105 : ∀ a, (![105] : Fin 1 → Nat) a + S1.size a ≤ S256.size a
  inb_S256x128_S1x128_90_0 : ∀ a, (![90, 0] : Fin 2 → Nat) a + S1x128.size a ≤ S256x128.size a
  inb_S256x128_S2x128_90_0 : ∀ a, (![90, 0] : Fin 2 → Nat) a + S2x128.size a ≤ S256x128.size a
  packedbf16_S256x128_S2x128_90_0 : (Rect.unit (s := S256x128) ![90, 0] S2x128.size inb_S256x128_S2x128_90_0).PackedRows (EltTy.packing .bf16)
  inb_S256_S1_106 : ∀ a, (![106] : Fin 1 → Nat) a + S1.size a ≤ S256.size a
  inb_S256x128_S1x128_91_0 : ∀ a, (![91, 0] : Fin 2 → Nat) a + S1x128.size a ≤ S256x128.size a
  inb_S256_S1_107 : ∀ a, (![107] : Fin 1 → Nat) a + S1.size a ≤ S256.size a
  inb_S256x128_S1x128_92_0 : ∀ a, (![92, 0] : Fin 2 → Nat) a + S1x128.size a ≤ S256x128.size a
  inb_S256x128_S2x128_92_0 : ∀ a, (![92, 0] : Fin 2 → Nat) a + S2x128.size a ≤ S256x128.size a
  packedbf16_S256x128_S2x128_92_0 : (Rect.unit (s := S256x128) ![92, 0] S2x128.size inb_S256x128_S2x128_92_0).PackedRows (EltTy.packing .bf16)
  inb_S256_S1_108 : ∀ a, (![108] : Fin 1 → Nat) a + S1.size a ≤ S256.size a
  inb_S256x128_S1x128_93_0 : ∀ a, (![93, 0] : Fin 2 → Nat) a + S1x128.size a ≤ S256x128.size a
  inb_S256_S1_109 : ∀ a, (![109] : Fin 1 → Nat) a + S1.size a ≤ S256.size a
  inb_S256x128_S1x128_94_0 : ∀ a, (![94, 0] : Fin 2 → Nat) a + S1x128.size a ≤ S256x128.size a
  inb_S256x128_S2x128_94_0 : ∀ a, (![94, 0] : Fin 2 → Nat) a + S2x128.size a ≤ S256x128.size a
  packedbf16_S256x128_S2x128_94_0 : (Rect.unit (s := S256x128) ![94, 0] S2x128.size inb_S256x128_S2x128_94_0).PackedRows (EltTy.packing .bf16)
  inb_S256_S1_110 : ∀ a, (![110] : Fin 1 → Nat) a + S1.size a ≤ S256.size a
  inb_S256x128_S1x128_95_0 : ∀ a, (![95, 0] : Fin 2 → Nat) a + S1x128.size a ≤ S256x128.size a
  inb_S256_S1_111 : ∀ a, (![111] : Fin 1 → Nat) a + S1.size a ≤ S256.size a
  inb_S256x128_S1x128_96_0 : ∀ a, (![96, 0] : Fin 2 → Nat) a + S1x128.size a ≤ S256x128.size a
  inb_S256x128_S2x128_96_0 : ∀ a, (![96, 0] : Fin 2 → Nat) a + S2x128.size a ≤ S256x128.size a
  packedbf16_S256x128_S2x128_96_0 : (Rect.unit (s := S256x128) ![96, 0] S2x128.size inb_S256x128_S2x128_96_0).PackedRows (EltTy.packing .bf16)
  inb_S256_S1_112 : ∀ a, (![112] : Fin 1 → Nat) a + S1.size a ≤ S256.size a
  inb_S256x128_S1x128_97_0 : ∀ a, (![97, 0] : Fin 2 → Nat) a + S1x128.size a ≤ S256x128.size a
  inb_S256_S1_113 : ∀ a, (![113] : Fin 1 → Nat) a + S1.size a ≤ S256.size a
  inb_S256x128_S1x128_98_0 : ∀ a, (![98, 0] : Fin 2 → Nat) a + S1x128.size a ≤ S256x128.size a
  inb_S256x128_S2x128_98_0 : ∀ a, (![98, 0] : Fin 2 → Nat) a + S2x128.size a ≤ S256x128.size a
  packedbf16_S256x128_S2x128_98_0 : (Rect.unit (s := S256x128) ![98, 0] S2x128.size inb_S256x128_S2x128_98_0).PackedRows (EltTy.packing .bf16)
  inb_S256_S1_114 : ∀ a, (![114] : Fin 1 → Nat) a + S1.size a ≤ S256.size a
  inb_S256x128_S1x128_99_0 : ∀ a, (![99, 0] : Fin 2 → Nat) a + S1x128.size a ≤ S256x128.size a
  inb_S256_S1_115 : ∀ a, (![115] : Fin 1 → Nat) a + S1.size a ≤ S256.size a
  inb_S256x128_S1x128_100_0 : ∀ a, (![100, 0] : Fin 2 → Nat) a + S1x128.size a ≤ S256x128.size a
  inb_S256x128_S2x128_100_0 : ∀ a, (![100, 0] : Fin 2 → Nat) a + S2x128.size a ≤ S256x128.size a
  packedbf16_S256x128_S2x128_100_0 : (Rect.unit (s := S256x128) ![100, 0] S2x128.size inb_S256x128_S2x128_100_0).PackedRows (EltTy.packing .bf16)
  inb_S256_S1_116 : ∀ a, (![116] : Fin 1 → Nat) a + S1.size a ≤ S256.size a
  inb_S256x128_S1x128_101_0 : ∀ a, (![101, 0] : Fin 2 → Nat) a + S1x128.size a ≤ S256x128.size a
  inb_S256_S1_117 : ∀ a, (![117] : Fin 1 → Nat) a + S1.size a ≤ S256.size a
  inb_S256x128_S1x128_102_0 : ∀ a, (![102, 0] : Fin 2 → Nat) a + S1x128.size a ≤ S256x128.size a
  inb_S256x128_S2x128_102_0 : ∀ a, (![102, 0] : Fin 2 → Nat) a + S2x128.size a ≤ S256x128.size a
  packedbf16_S256x128_S2x128_102_0 : (Rect.unit (s := S256x128) ![102, 0] S2x128.size inb_S256x128_S2x128_102_0).PackedRows (EltTy.packing .bf16)
  inb_S256_S1_118 : ∀ a, (![118] : Fin 1 → Nat) a + S1.size a ≤ S256.size a
  inb_S256x128_S1x128_103_0 : ∀ a, (![103, 0] : Fin 2 → Nat) a + S1x128.size a ≤ S256x128.size a
  inb_S256_S1_119 : ∀ a, (![119] : Fin 1 → Nat) a + S1.size a ≤ S256.size a
  inb_S256x128_S1x128_104_0 : ∀ a, (![104, 0] : Fin 2 → Nat) a + S1x128.size a ≤ S256x128.size a
  inb_S256x128_S2x128_104_0 : ∀ a, (![104, 0] : Fin 2 → Nat) a + S2x128.size a ≤ S256x128.size a
  packedbf16_S256x128_S2x128_104_0 : (Rect.unit (s := S256x128) ![104, 0] S2x128.size inb_S256x128_S2x128_104_0).PackedRows (EltTy.packing .bf16)
  inb_S256_S1_120 : ∀ a, (![120] : Fin 1 → Nat) a + S1.size a ≤ S256.size a
  inb_S256x128_S1x128_105_0 : ∀ a, (![105, 0] : Fin 2 → Nat) a + S1x128.size a ≤ S256x128.size a
  inb_S256_S1_121 : ∀ a, (![121] : Fin 1 → Nat) a + S1.size a ≤ S256.size a
  inb_S256x128_S1x128_106_0 : ∀ a, (![106, 0] : Fin 2 → Nat) a + S1x128.size a ≤ S256x128.size a
  inb_S256x128_S2x128_106_0 : ∀ a, (![106, 0] : Fin 2 → Nat) a + S2x128.size a ≤ S256x128.size a
  packedbf16_S256x128_S2x128_106_0 : (Rect.unit (s := S256x128) ![106, 0] S2x128.size inb_S256x128_S2x128_106_0).PackedRows (EltTy.packing .bf16)
  inb_S256_S1_122 : ∀ a, (![122] : Fin 1 → Nat) a + S1.size a ≤ S256.size a
  inb_S256x128_S1x128_107_0 : ∀ a, (![107, 0] : Fin 2 → Nat) a + S1x128.size a ≤ S256x128.size a
  inb_S256_S1_123 : ∀ a, (![123] : Fin 1 → Nat) a + S1.size a ≤ S256.size a
  inb_S256x128_S1x128_108_0 : ∀ a, (![108, 0] : Fin 2 → Nat) a + S1x128.size a ≤ S256x128.size a
  inb_S256x128_S2x128_108_0 : ∀ a, (![108, 0] : Fin 2 → Nat) a + S2x128.size a ≤ S256x128.size a
  packedbf16_S256x128_S2x128_108_0 : (Rect.unit (s := S256x128) ![108, 0] S2x128.size inb_S256x128_S2x128_108_0).PackedRows (EltTy.packing .bf16)
  inb_S256_S1_124 : ∀ a, (![124] : Fin 1 → Nat) a + S1.size a ≤ S256.size a
  inb_S256x128_S1x128_109_0 : ∀ a, (![109, 0] : Fin 2 → Nat) a + S1x128.size a ≤ S256x128.size a
  inb_S256_S1_125 : ∀ a, (![125] : Fin 1 → Nat) a + S1.size a ≤ S256.size a
  inb_S256x128_S1x128_110_0 : ∀ a, (![110, 0] : Fin 2 → Nat) a + S1x128.size a ≤ S256x128.size a
  inb_S256x128_S2x128_110_0 : ∀ a, (![110, 0] : Fin 2 → Nat) a + S2x128.size a ≤ S256x128.size a
  packedbf16_S256x128_S2x128_110_0 : (Rect.unit (s := S256x128) ![110, 0] S2x128.size inb_S256x128_S2x128_110_0).PackedRows (EltTy.packing .bf16)
  inb_S256_S1_126 : ∀ a, (![126] : Fin 1 → Nat) a + S1.size a ≤ S256.size a
  inb_S256x128_S1x128_111_0 : ∀ a, (![111, 0] : Fin 2 → Nat) a + S1x128.size a ≤ S256x128.size a
  inb_S256_S1_127 : ∀ a, (![127] : Fin 1 → Nat) a + S1.size a ≤ S256.size a
  inb_S256x128_S1x128_112_0 : ∀ a, (![112, 0] : Fin 2 → Nat) a + S1x128.size a ≤ S256x128.size a
  inb_S256x128_S2x128_112_0 : ∀ a, (![112, 0] : Fin 2 → Nat) a + S2x128.size a ≤ S256x128.size a
  packedbf16_S256x128_S2x128_112_0 : (Rect.unit (s := S256x128) ![112, 0] S2x128.size inb_S256x128_S2x128_112_0).PackedRows (EltTy.packing .bf16)
  inb_S256_S1_128 : ∀ a, (![128] : Fin 1 → Nat) a + S1.size a ≤ S256.size a
  inb_S256x128_S1x128_113_0 : ∀ a, (![113, 0] : Fin 2 → Nat) a + S1x128.size a ≤ S256x128.size a
  inb_S256_S1_129 : ∀ a, (![129] : Fin 1 → Nat) a + S1.size a ≤ S256.size a
  inb_S256x128_S1x128_114_0 : ∀ a, (![114, 0] : Fin 2 → Nat) a + S1x128.size a ≤ S256x128.size a
  inb_S256x128_S2x128_114_0 : ∀ a, (![114, 0] : Fin 2 → Nat) a + S2x128.size a ≤ S256x128.size a
  packedbf16_S256x128_S2x128_114_0 : (Rect.unit (s := S256x128) ![114, 0] S2x128.size inb_S256x128_S2x128_114_0).PackedRows (EltTy.packing .bf16)
  inb_S256_S1_130 : ∀ a, (![130] : Fin 1 → Nat) a + S1.size a ≤ S256.size a
  inb_S256x128_S1x128_115_0 : ∀ a, (![115, 0] : Fin 2 → Nat) a + S1x128.size a ≤ S256x128.size a
  inb_S256_S1_131 : ∀ a, (![131] : Fin 1 → Nat) a + S1.size a ≤ S256.size a
  inb_S256x128_S1x128_116_0 : ∀ a, (![116, 0] : Fin 2 → Nat) a + S1x128.size a ≤ S256x128.size a
  inb_S256x128_S2x128_116_0 : ∀ a, (![116, 0] : Fin 2 → Nat) a + S2x128.size a ≤ S256x128.size a
  packedbf16_S256x128_S2x128_116_0 : (Rect.unit (s := S256x128) ![116, 0] S2x128.size inb_S256x128_S2x128_116_0).PackedRows (EltTy.packing .bf16)
  inb_S256_S1_132 : ∀ a, (![132] : Fin 1 → Nat) a + S1.size a ≤ S256.size a
  inb_S256x128_S1x128_117_0 : ∀ a, (![117, 0] : Fin 2 → Nat) a + S1x128.size a ≤ S256x128.size a
  inb_S256_S1_133 : ∀ a, (![133] : Fin 1 → Nat) a + S1.size a ≤ S256.size a
  inb_S256x128_S1x128_118_0 : ∀ a, (![118, 0] : Fin 2 → Nat) a + S1x128.size a ≤ S256x128.size a
  inb_S256x128_S2x128_118_0 : ∀ a, (![118, 0] : Fin 2 → Nat) a + S2x128.size a ≤ S256x128.size a
  packedbf16_S256x128_S2x128_118_0 : (Rect.unit (s := S256x128) ![118, 0] S2x128.size inb_S256x128_S2x128_118_0).PackedRows (EltTy.packing .bf16)
  inb_S256_S1_134 : ∀ a, (![134] : Fin 1 → Nat) a + S1.size a ≤ S256.size a
  inb_S256x128_S1x128_119_0 : ∀ a, (![119, 0] : Fin 2 → Nat) a + S1x128.size a ≤ S256x128.size a
  inb_S256_S1_135 : ∀ a, (![135] : Fin 1 → Nat) a + S1.size a ≤ S256.size a
  inb_S256x128_S1x128_120_0 : ∀ a, (![120, 0] : Fin 2 → Nat) a + S1x128.size a ≤ S256x128.size a
  inb_S256x128_S2x128_120_0 : ∀ a, (![120, 0] : Fin 2 → Nat) a + S2x128.size a ≤ S256x128.size a
  packedbf16_S256x128_S2x128_120_0 : (Rect.unit (s := S256x128) ![120, 0] S2x128.size inb_S256x128_S2x128_120_0).PackedRows (EltTy.packing .bf16)
  inb_S256_S1_136 : ∀ a, (![136] : Fin 1 → Nat) a + S1.size a ≤ S256.size a
  inb_S256x128_S1x128_121_0 : ∀ a, (![121, 0] : Fin 2 → Nat) a + S1x128.size a ≤ S256x128.size a
  inb_S256_S1_137 : ∀ a, (![137] : Fin 1 → Nat) a + S1.size a ≤ S256.size a
  inb_S256x128_S1x128_122_0 : ∀ a, (![122, 0] : Fin 2 → Nat) a + S1x128.size a ≤ S256x128.size a
  inb_S256x128_S2x128_122_0 : ∀ a, (![122, 0] : Fin 2 → Nat) a + S2x128.size a ≤ S256x128.size a
  packedbf16_S256x128_S2x128_122_0 : (Rect.unit (s := S256x128) ![122, 0] S2x128.size inb_S256x128_S2x128_122_0).PackedRows (EltTy.packing .bf16)
  inb_S256_S1_138 : ∀ a, (![138] : Fin 1 → Nat) a + S1.size a ≤ S256.size a
  inb_S256x128_S1x128_123_0 : ∀ a, (![123, 0] : Fin 2 → Nat) a + S1x128.size a ≤ S256x128.size a
  inb_S256_S1_139 : ∀ a, (![139] : Fin 1 → Nat) a + S1.size a ≤ S256.size a
  inb_S256x128_S1x128_124_0 : ∀ a, (![124, 0] : Fin 2 → Nat) a + S1x128.size a ≤ S256x128.size a
  inb_S256x128_S2x128_124_0 : ∀ a, (![124, 0] : Fin 2 → Nat) a + S2x128.size a ≤ S256x128.size a
  packedbf16_S256x128_S2x128_124_0 : (Rect.unit (s := S256x128) ![124, 0] S2x128.size inb_S256x128_S2x128_124_0).PackedRows (EltTy.packing .bf16)
  inb_S256_S1_140 : ∀ a, (![140] : Fin 1 → Nat) a + S1.size a ≤ S256.size a
  inb_S256x128_S1x128_125_0 : ∀ a, (![125, 0] : Fin 2 → Nat) a + S1x128.size a ≤ S256x128.size a
  inb_S256_S1_141 : ∀ a, (![141] : Fin 1 → Nat) a + S1.size a ≤ S256.size a
  inb_S256x128_S1x128_126_0 : ∀ a, (![126, 0] : Fin 2 → Nat) a + S1x128.size a ≤ S256x128.size a
  inb_S256x128_S2x128_126_0 : ∀ a, (![126, 0] : Fin 2 → Nat) a + S2x128.size a ≤ S256x128.size a
  packedbf16_S256x128_S2x128_126_0 : (Rect.unit (s := S256x128) ![126, 0] S2x128.size inb_S256x128_S2x128_126_0).PackedRows (EltTy.packing .bf16)
  inb_S256_S1_142 : ∀ a, (![142] : Fin 1 → Nat) a + S1.size a ≤ S256.size a
  inb_S256x128_S1x128_127_0 : ∀ a, (![127, 0] : Fin 2 → Nat) a + S1x128.size a ≤ S256x128.size a
  inb_S256_S1_143 : ∀ a, (![143] : Fin 1 → Nat) a + S1.size a ≤ S256.size a
  inb_S256x128_S1x128_128_0 : ∀ a, (![128, 0] : Fin 2 → Nat) a + S1x128.size a ≤ S256x128.size a
  inb_S256x128_S2x128_128_0 : ∀ a, (![128, 0] : Fin 2 → Nat) a + S2x128.size a ≤ S256x128.size a
  packedbf16_S256x128_S2x128_128_0 : (Rect.unit (s := S256x128) ![128, 0] S2x128.size inb_S256x128_S2x128_128_0).PackedRows (EltTy.packing .bf16)
  inb_S256_S1_144 : ∀ a, (![144] : Fin 1 → Nat) a + S1.size a ≤ S256.size a
  inb_S256x128_S1x128_129_0 : ∀ a, (![129, 0] : Fin 2 → Nat) a + S1x128.size a ≤ S256x128.size a
  inb_S256_S1_145 : ∀ a, (![145] : Fin 1 → Nat) a + S1.size a ≤ S256.size a
  inb_S256x128_S1x128_130_0 : ∀ a, (![130, 0] : Fin 2 → Nat) a + S1x128.size a ≤ S256x128.size a
  inb_S256x128_S2x128_130_0 : ∀ a, (![130, 0] : Fin 2 → Nat) a + S2x128.size a ≤ S256x128.size a
  packedbf16_S256x128_S2x128_130_0 : (Rect.unit (s := S256x128) ![130, 0] S2x128.size inb_S256x128_S2x128_130_0).PackedRows (EltTy.packing .bf16)
  inb_S256_S1_146 : ∀ a, (![146] : Fin 1 → Nat) a + S1.size a ≤ S256.size a
  inb_S256x128_S1x128_131_0 : ∀ a, (![131, 0] : Fin 2 → Nat) a + S1x128.size a ≤ S256x128.size a
  inb_S256_S1_147 : ∀ a, (![147] : Fin 1 → Nat) a + S1.size a ≤ S256.size a
  inb_S256x128_S1x128_132_0 : ∀ a, (![132, 0] : Fin 2 → Nat) a + S1x128.size a ≤ S256x128.size a
  inb_S256x128_S2x128_132_0 : ∀ a, (![132, 0] : Fin 2 → Nat) a + S2x128.size a ≤ S256x128.size a
  packedbf16_S256x128_S2x128_132_0 : (Rect.unit (s := S256x128) ![132, 0] S2x128.size inb_S256x128_S2x128_132_0).PackedRows (EltTy.packing .bf16)
  inb_S256_S1_148 : ∀ a, (![148] : Fin 1 → Nat) a + S1.size a ≤ S256.size a
  inb_S256x128_S1x128_133_0 : ∀ a, (![133, 0] : Fin 2 → Nat) a + S1x128.size a ≤ S256x128.size a
  inb_S256_S1_149 : ∀ a, (![149] : Fin 1 → Nat) a + S1.size a ≤ S256.size a
  inb_S256x128_S1x128_134_0 : ∀ a, (![134, 0] : Fin 2 → Nat) a + S1x128.size a ≤ S256x128.size a
  inb_S256x128_S2x128_134_0 : ∀ a, (![134, 0] : Fin 2 → Nat) a + S2x128.size a ≤ S256x128.size a
  packedbf16_S256x128_S2x128_134_0 : (Rect.unit (s := S256x128) ![134, 0] S2x128.size inb_S256x128_S2x128_134_0).PackedRows (EltTy.packing .bf16)
  inb_S256_S1_150 : ∀ a, (![150] : Fin 1 → Nat) a + S1.size a ≤ S256.size a
  inb_S256x128_S1x128_135_0 : ∀ a, (![135, 0] : Fin 2 → Nat) a + S1x128.size a ≤ S256x128.size a
  inb_S256_S1_151 : ∀ a, (![151] : Fin 1 → Nat) a + S1.size a ≤ S256.size a
  inb_S256x128_S1x128_136_0 : ∀ a, (![136, 0] : Fin 2 → Nat) a + S1x128.size a ≤ S256x128.size a
  inb_S256x128_S2x128_136_0 : ∀ a, (![136, 0] : Fin 2 → Nat) a + S2x128.size a ≤ S256x128.size a
  packedbf16_S256x128_S2x128_136_0 : (Rect.unit (s := S256x128) ![136, 0] S2x128.size inb_S256x128_S2x128_136_0).PackedRows (EltTy.packing .bf16)
  inb_S256_S1_152 : ∀ a, (![152] : Fin 1 → Nat) a + S1.size a ≤ S256.size a
  inb_S256x128_S1x128_137_0 : ∀ a, (![137, 0] : Fin 2 → Nat) a + S1x128.size a ≤ S256x128.size a
  inb_S256_S1_153 : ∀ a, (![153] : Fin 1 → Nat) a + S1.size a ≤ S256.size a
  inb_S256x128_S1x128_138_0 : ∀ a, (![138, 0] : Fin 2 → Nat) a + S1x128.size a ≤ S256x128.size a
  inb_S256x128_S2x128_138_0 : ∀ a, (![138, 0] : Fin 2 → Nat) a + S2x128.size a ≤ S256x128.size a
  packedbf16_S256x128_S2x128_138_0 : (Rect.unit (s := S256x128) ![138, 0] S2x128.size inb_S256x128_S2x128_138_0).PackedRows (EltTy.packing .bf16)
  inb_S256_S1_154 : ∀ a, (![154] : Fin 1 → Nat) a + S1.size a ≤ S256.size a
  inb_S256x128_S1x128_139_0 : ∀ a, (![139, 0] : Fin 2 → Nat) a + S1x128.size a ≤ S256x128.size a
  inb_S256_S1_155 : ∀ a, (![155] : Fin 1 → Nat) a + S1.size a ≤ S256.size a
  inb_S256x128_S1x128_140_0 : ∀ a, (![140, 0] : Fin 2 → Nat) a + S1x128.size a ≤ S256x128.size a
  inb_S256x128_S2x128_140_0 : ∀ a, (![140, 0] : Fin 2 → Nat) a + S2x128.size a ≤ S256x128.size a
  packedbf16_S256x128_S2x128_140_0 : (Rect.unit (s := S256x128) ![140, 0] S2x128.size inb_S256x128_S2x128_140_0).PackedRows (EltTy.packing .bf16)
  inb_S256_S1_156 : ∀ a, (![156] : Fin 1 → Nat) a + S1.size a ≤ S256.size a
  inb_S256x128_S1x128_141_0 : ∀ a, (![141, 0] : Fin 2 → Nat) a + S1x128.size a ≤ S256x128.size a
  inb_S256_S1_157 : ∀ a, (![157] : Fin 1 → Nat) a + S1.size a ≤ S256.size a
  inb_S256x128_S1x128_142_0 : ∀ a, (![142, 0] : Fin 2 → Nat) a + S1x128.size a ≤ S256x128.size a
  inb_S256x128_S2x128_142_0 : ∀ a, (![142, 0] : Fin 2 → Nat) a + S2x128.size a ≤ S256x128.size a
  packedbf16_S256x128_S2x128_142_0 : (Rect.unit (s := S256x128) ![142, 0] S2x128.size inb_S256x128_S2x128_142_0).PackedRows (EltTy.packing .bf16)
  inb_S256_S1_158 : ∀ a, (![158] : Fin 1 → Nat) a + S1.size a ≤ S256.size a
  inb_S256x128_S1x128_143_0 : ∀ a, (![143, 0] : Fin 2 → Nat) a + S1x128.size a ≤ S256x128.size a
  inb_S256_S1_159 : ∀ a, (![159] : Fin 1 → Nat) a + S1.size a ≤ S256.size a
  inb_S256x128_S1x128_144_0 : ∀ a, (![144, 0] : Fin 2 → Nat) a + S1x128.size a ≤ S256x128.size a
  inb_S256x128_S2x128_144_0 : ∀ a, (![144, 0] : Fin 2 → Nat) a + S2x128.size a ≤ S256x128.size a
  packedbf16_S256x128_S2x128_144_0 : (Rect.unit (s := S256x128) ![144, 0] S2x128.size inb_S256x128_S2x128_144_0).PackedRows (EltTy.packing .bf16)
  inb_S256_S1_160 : ∀ a, (![160] : Fin 1 → Nat) a + S1.size a ≤ S256.size a
  inb_S256x128_S1x128_145_0 : ∀ a, (![145, 0] : Fin 2 → Nat) a + S1x128.size a ≤ S256x128.size a
  inb_S256_S1_161 : ∀ a, (![161] : Fin 1 → Nat) a + S1.size a ≤ S256.size a
  inb_S256x128_S1x128_146_0 : ∀ a, (![146, 0] : Fin 2 → Nat) a + S1x128.size a ≤ S256x128.size a
  inb_S256x128_S2x128_146_0 : ∀ a, (![146, 0] : Fin 2 → Nat) a + S2x128.size a ≤ S256x128.size a
  packedbf16_S256x128_S2x128_146_0 : (Rect.unit (s := S256x128) ![146, 0] S2x128.size inb_S256x128_S2x128_146_0).PackedRows (EltTy.packing .bf16)
  inb_S256_S1_162 : ∀ a, (![162] : Fin 1 → Nat) a + S1.size a ≤ S256.size a
  inb_S256x128_S1x128_147_0 : ∀ a, (![147, 0] : Fin 2 → Nat) a + S1x128.size a ≤ S256x128.size a
  inb_S256_S1_163 : ∀ a, (![163] : Fin 1 → Nat) a + S1.size a ≤ S256.size a
  inb_S256x128_S1x128_148_0 : ∀ a, (![148, 0] : Fin 2 → Nat) a + S1x128.size a ≤ S256x128.size a
  inb_S256x128_S2x128_148_0 : ∀ a, (![148, 0] : Fin 2 → Nat) a + S2x128.size a ≤ S256x128.size a
  packedbf16_S256x128_S2x128_148_0 : (Rect.unit (s := S256x128) ![148, 0] S2x128.size inb_S256x128_S2x128_148_0).PackedRows (EltTy.packing .bf16)
  inb_S256_S1_164 : ∀ a, (![164] : Fin 1 → Nat) a + S1.size a ≤ S256.size a
  inb_S256x128_S1x128_149_0 : ∀ a, (![149, 0] : Fin 2 → Nat) a + S1x128.size a ≤ S256x128.size a
  inb_S256_S1_165 : ∀ a, (![165] : Fin 1 → Nat) a + S1.size a ≤ S256.size a
  inb_S256x128_S1x128_150_0 : ∀ a, (![150, 0] : Fin 2 → Nat) a + S1x128.size a ≤ S256x128.size a
  inb_S256x128_S2x128_150_0 : ∀ a, (![150, 0] : Fin 2 → Nat) a + S2x128.size a ≤ S256x128.size a
  packedbf16_S256x128_S2x128_150_0 : (Rect.unit (s := S256x128) ![150, 0] S2x128.size inb_S256x128_S2x128_150_0).PackedRows (EltTy.packing .bf16)
  inb_S256_S1_166 : ∀ a, (![166] : Fin 1 → Nat) a + S1.size a ≤ S256.size a
  inb_S256x128_S1x128_151_0 : ∀ a, (![151, 0] : Fin 2 → Nat) a + S1x128.size a ≤ S256x128.size a
  inb_S256_S1_167 : ∀ a, (![167] : Fin 1 → Nat) a + S1.size a ≤ S256.size a
  inb_S256x128_S1x128_152_0 : ∀ a, (![152, 0] : Fin 2 → Nat) a + S1x128.size a ≤ S256x128.size a
  inb_S256x128_S2x128_152_0 : ∀ a, (![152, 0] : Fin 2 → Nat) a + S2x128.size a ≤ S256x128.size a
  packedbf16_S256x128_S2x128_152_0 : (Rect.unit (s := S256x128) ![152, 0] S2x128.size inb_S256x128_S2x128_152_0).PackedRows (EltTy.packing .bf16)
  inb_S256_S1_168 : ∀ a, (![168] : Fin 1 → Nat) a + S1.size a ≤ S256.size a
  inb_S256x128_S1x128_153_0 : ∀ a, (![153, 0] : Fin 2 → Nat) a + S1x128.size a ≤ S256x128.size a
  inb_S256_S1_169 : ∀ a, (![169] : Fin 1 → Nat) a + S1.size a ≤ S256.size a
  inb_S256x128_S1x128_154_0 : ∀ a, (![154, 0] : Fin 2 → Nat) a + S1x128.size a ≤ S256x128.size a
  inb_S256x128_S2x128_154_0 : ∀ a, (![154, 0] : Fin 2 → Nat) a + S2x128.size a ≤ S256x128.size a
  packedbf16_S256x128_S2x128_154_0 : (Rect.unit (s := S256x128) ![154, 0] S2x128.size inb_S256x128_S2x128_154_0).PackedRows (EltTy.packing .bf16)
  inb_S256_S1_170 : ∀ a, (![170] : Fin 1 → Nat) a + S1.size a ≤ S256.size a
  inb_S256x128_S1x128_155_0 : ∀ a, (![155, 0] : Fin 2 → Nat) a + S1x128.size a ≤ S256x128.size a
  inb_S256_S1_171 : ∀ a, (![171] : Fin 1 → Nat) a + S1.size a ≤ S256.size a
  inb_S256x128_S1x128_156_0 : ∀ a, (![156, 0] : Fin 2 → Nat) a + S1x128.size a ≤ S256x128.size a
  inb_S256x128_S2x128_156_0 : ∀ a, (![156, 0] : Fin 2 → Nat) a + S2x128.size a ≤ S256x128.size a
  packedbf16_S256x128_S2x128_156_0 : (Rect.unit (s := S256x128) ![156, 0] S2x128.size inb_S256x128_S2x128_156_0).PackedRows (EltTy.packing .bf16)
  inb_S256_S1_172 : ∀ a, (![172] : Fin 1 → Nat) a + S1.size a ≤ S256.size a
  inb_S256x128_S1x128_157_0 : ∀ a, (![157, 0] : Fin 2 → Nat) a + S1x128.size a ≤ S256x128.size a
  inb_S256_S1_173 : ∀ a, (![173] : Fin 1 → Nat) a + S1.size a ≤ S256.size a
  inb_S256x128_S1x128_158_0 : ∀ a, (![158, 0] : Fin 2 → Nat) a + S1x128.size a ≤ S256x128.size a
  inb_S256x128_S2x128_158_0 : ∀ a, (![158, 0] : Fin 2 → Nat) a + S2x128.size a ≤ S256x128.size a
  packedbf16_S256x128_S2x128_158_0 : (Rect.unit (s := S256x128) ![158, 0] S2x128.size inb_S256x128_S2x128_158_0).PackedRows (EltTy.packing .bf16)
  inb_S256_S1_174 : ∀ a, (![174] : Fin 1 → Nat) a + S1.size a ≤ S256.size a
  inb_S256x128_S1x128_159_0 : ∀ a, (![159, 0] : Fin 2 → Nat) a + S1x128.size a ≤ S256x128.size a
  inb_S256_S1_175 : ∀ a, (![175] : Fin 1 → Nat) a + S1.size a ≤ S256.size a
  inb_S256x128_S1x128_160_0 : ∀ a, (![160, 0] : Fin 2 → Nat) a + S1x128.size a ≤ S256x128.size a
  inb_S256x128_S2x128_160_0 : ∀ a, (![160, 0] : Fin 2 → Nat) a + S2x128.size a ≤ S256x128.size a
  packedbf16_S256x128_S2x128_160_0 : (Rect.unit (s := S256x128) ![160, 0] S2x128.size inb_S256x128_S2x128_160_0).PackedRows (EltTy.packing .bf16)
  inb_S256_S1_176 : ∀ a, (![176] : Fin 1 → Nat) a + S1.size a ≤ S256.size a
  inb_S256x128_S1x128_161_0 : ∀ a, (![161, 0] : Fin 2 → Nat) a + S1x128.size a ≤ S256x128.size a
  inb_S256_S1_177 : ∀ a, (![177] : Fin 1 → Nat) a + S1.size a ≤ S256.size a
  inb_S256x128_S1x128_162_0 : ∀ a, (![162, 0] : Fin 2 → Nat) a + S1x128.size a ≤ S256x128.size a
  inb_S256x128_S2x128_162_0 : ∀ a, (![162, 0] : Fin 2 → Nat) a + S2x128.size a ≤ S256x128.size a
  packedbf16_S256x128_S2x128_162_0 : (Rect.unit (s := S256x128) ![162, 0] S2x128.size inb_S256x128_S2x128_162_0).PackedRows (EltTy.packing .bf16)
  inb_S256_S1_178 : ∀ a, (![178] : Fin 1 → Nat) a + S1.size a ≤ S256.size a
  inb_S256x128_S1x128_163_0 : ∀ a, (![163, 0] : Fin 2 → Nat) a + S1x128.size a ≤ S256x128.size a
  inb_S256_S1_179 : ∀ a, (![179] : Fin 1 → Nat) a + S1.size a ≤ S256.size a
  inb_S256x128_S1x128_164_0 : ∀ a, (![164, 0] : Fin 2 → Nat) a + S1x128.size a ≤ S256x128.size a
  inb_S256x128_S2x128_164_0 : ∀ a, (![164, 0] : Fin 2 → Nat) a + S2x128.size a ≤ S256x128.size a
  packedbf16_S256x128_S2x128_164_0 : (Rect.unit (s := S256x128) ![164, 0] S2x128.size inb_S256x128_S2x128_164_0).PackedRows (EltTy.packing .bf16)
  inb_S256_S1_180 : ∀ a, (![180] : Fin 1 → Nat) a + S1.size a ≤ S256.size a
  inb_S256x128_S1x128_165_0 : ∀ a, (![165, 0] : Fin 2 → Nat) a + S1x128.size a ≤ S256x128.size a
  inb_S256_S1_181 : ∀ a, (![181] : Fin 1 → Nat) a + S1.size a ≤ S256.size a
  inb_S256x128_S1x128_166_0 : ∀ a, (![166, 0] : Fin 2 → Nat) a + S1x128.size a ≤ S256x128.size a
  inb_S256x128_S2x128_166_0 : ∀ a, (![166, 0] : Fin 2 → Nat) a + S2x128.size a ≤ S256x128.size a
  packedbf16_S256x128_S2x128_166_0 : (Rect.unit (s := S256x128) ![166, 0] S2x128.size inb_S256x128_S2x128_166_0).PackedRows (EltTy.packing .bf16)
  inb_S256_S1_182 : ∀ a, (![182] : Fin 1 → Nat) a + S1.size a ≤ S256.size a
  inb_S256x128_S1x128_167_0 : ∀ a, (![167, 0] : Fin 2 → Nat) a + S1x128.size a ≤ S256x128.size a
  inb_S256_S1_183 : ∀ a, (![183] : Fin 1 → Nat) a + S1.size a ≤ S256.size a
  inb_S256x128_S1x128_168_0 : ∀ a, (![168, 0] : Fin 2 → Nat) a + S1x128.size a ≤ S256x128.size a
  inb_S256x128_S2x128_168_0 : ∀ a, (![168, 0] : Fin 2 → Nat) a + S2x128.size a ≤ S256x128.size a
  packedbf16_S256x128_S2x128_168_0 : (Rect.unit (s := S256x128) ![168, 0] S2x128.size inb_S256x128_S2x128_168_0).PackedRows (EltTy.packing .bf16)
  inb_S256_S1_184 : ∀ a, (![184] : Fin 1 → Nat) a + S1.size a ≤ S256.size a
  inb_S256x128_S1x128_169_0 : ∀ a, (![169, 0] : Fin 2 → Nat) a + S1x128.size a ≤ S256x128.size a
  inb_S256_S1_185 : ∀ a, (![185] : Fin 1 → Nat) a + S1.size a ≤ S256.size a
  inb_S256x128_S1x128_170_0 : ∀ a, (![170, 0] : Fin 2 → Nat) a + S1x128.size a ≤ S256x128.size a
  inb_S256x128_S2x128_170_0 : ∀ a, (![170, 0] : Fin 2 → Nat) a + S2x128.size a ≤ S256x128.size a
  packedbf16_S256x128_S2x128_170_0 : (Rect.unit (s := S256x128) ![170, 0] S2x128.size inb_S256x128_S2x128_170_0).PackedRows (EltTy.packing .bf16)
  inb_S256_S1_186 : ∀ a, (![186] : Fin 1 → Nat) a + S1.size a ≤ S256.size a
  inb_S256x128_S1x128_171_0 : ∀ a, (![171, 0] : Fin 2 → Nat) a + S1x128.size a ≤ S256x128.size a
  inb_S256_S1_187 : ∀ a, (![187] : Fin 1 → Nat) a + S1.size a ≤ S256.size a
  inb_S256x128_S1x128_172_0 : ∀ a, (![172, 0] : Fin 2 → Nat) a + S1x128.size a ≤ S256x128.size a
  inb_S256x128_S2x128_172_0 : ∀ a, (![172, 0] : Fin 2 → Nat) a + S2x128.size a ≤ S256x128.size a
  packedbf16_S256x128_S2x128_172_0 : (Rect.unit (s := S256x128) ![172, 0] S2x128.size inb_S256x128_S2x128_172_0).PackedRows (EltTy.packing .bf16)
  inb_S256_S1_188 : ∀ a, (![188] : Fin 1 → Nat) a + S1.size a ≤ S256.size a
  inb_S256x128_S1x128_173_0 : ∀ a, (![173, 0] : Fin 2 → Nat) a + S1x128.size a ≤ S256x128.size a
  inb_S256_S1_189 : ∀ a, (![189] : Fin 1 → Nat) a + S1.size a ≤ S256.size a
  inb_S256x128_S1x128_174_0 : ∀ a, (![174, 0] : Fin 2 → Nat) a + S1x128.size a ≤ S256x128.size a
  inb_S256x128_S2x128_174_0 : ∀ a, (![174, 0] : Fin 2 → Nat) a + S2x128.size a ≤ S256x128.size a
  packedbf16_S256x128_S2x128_174_0 : (Rect.unit (s := S256x128) ![174, 0] S2x128.size inb_S256x128_S2x128_174_0).PackedRows (EltTy.packing .bf16)
  inb_S256_S1_190 : ∀ a, (![190] : Fin 1 → Nat) a + S1.size a ≤ S256.size a
  inb_S256x128_S1x128_175_0 : ∀ a, (![175, 0] : Fin 2 → Nat) a + S1x128.size a ≤ S256x128.size a
  inb_S256_S1_191 : ∀ a, (![191] : Fin 1 → Nat) a + S1.size a ≤ S256.size a
  inb_S256x128_S1x128_176_0 : ∀ a, (![176, 0] : Fin 2 → Nat) a + S1x128.size a ≤ S256x128.size a
  inb_S256x128_S2x128_176_0 : ∀ a, (![176, 0] : Fin 2 → Nat) a + S2x128.size a ≤ S256x128.size a
  packedbf16_S256x128_S2x128_176_0 : (Rect.unit (s := S256x128) ![176, 0] S2x128.size inb_S256x128_S2x128_176_0).PackedRows (EltTy.packing .bf16)
  inb_S256_S1_192 : ∀ a, (![192] : Fin 1 → Nat) a + S1.size a ≤ S256.size a
  inb_S256x128_S1x128_177_0 : ∀ a, (![177, 0] : Fin 2 → Nat) a + S1x128.size a ≤ S256x128.size a
  inb_S256_S1_193 : ∀ a, (![193] : Fin 1 → Nat) a + S1.size a ≤ S256.size a
  inb_S256x128_S1x128_178_0 : ∀ a, (![178, 0] : Fin 2 → Nat) a + S1x128.size a ≤ S256x128.size a
  inb_S256x128_S2x128_178_0 : ∀ a, (![178, 0] : Fin 2 → Nat) a + S2x128.size a ≤ S256x128.size a
  packedbf16_S256x128_S2x128_178_0 : (Rect.unit (s := S256x128) ![178, 0] S2x128.size inb_S256x128_S2x128_178_0).PackedRows (EltTy.packing .bf16)
  inb_S256_S1_194 : ∀ a, (![194] : Fin 1 → Nat) a + S1.size a ≤ S256.size a
  inb_S256x128_S1x128_179_0 : ∀ a, (![179, 0] : Fin 2 → Nat) a + S1x128.size a ≤ S256x128.size a
  inb_S256_S1_195 : ∀ a, (![195] : Fin 1 → Nat) a + S1.size a ≤ S256.size a
  inb_S256x128_S1x128_180_0 : ∀ a, (![180, 0] : Fin 2 → Nat) a + S1x128.size a ≤ S256x128.size a
  inb_S256x128_S2x128_180_0 : ∀ a, (![180, 0] : Fin 2 → Nat) a + S2x128.size a ≤ S256x128.size a
  packedbf16_S256x128_S2x128_180_0 : (Rect.unit (s := S256x128) ![180, 0] S2x128.size inb_S256x128_S2x128_180_0).PackedRows (EltTy.packing .bf16)
  inb_S256_S1_196 : ∀ a, (![196] : Fin 1 → Nat) a + S1.size a ≤ S256.size a
  inb_S256x128_S1x128_181_0 : ∀ a, (![181, 0] : Fin 2 → Nat) a + S1x128.size a ≤ S256x128.size a
  inb_S256_S1_197 : ∀ a, (![197] : Fin 1 → Nat) a + S1.size a ≤ S256.size a
  inb_S256x128_S1x128_182_0 : ∀ a, (![182, 0] : Fin 2 → Nat) a + S1x128.size a ≤ S256x128.size a
  inb_S256x128_S2x128_182_0 : ∀ a, (![182, 0] : Fin 2 → Nat) a + S2x128.size a ≤ S256x128.size a
  packedbf16_S256x128_S2x128_182_0 : (Rect.unit (s := S256x128) ![182, 0] S2x128.size inb_S256x128_S2x128_182_0).PackedRows (EltTy.packing .bf16)
  inb_S256_S1_198 : ∀ a, (![198] : Fin 1 → Nat) a + S1.size a ≤ S256.size a
  inb_S256x128_S1x128_183_0 : ∀ a, (![183, 0] : Fin 2 → Nat) a + S1x128.size a ≤ S256x128.size a
  inb_S256_S1_199 : ∀ a, (![199] : Fin 1 → Nat) a + S1.size a ≤ S256.size a
  inb_S256x128_S1x128_184_0 : ∀ a, (![184, 0] : Fin 2 → Nat) a + S1x128.size a ≤ S256x128.size a
  inb_S256x128_S2x128_184_0 : ∀ a, (![184, 0] : Fin 2 → Nat) a + S2x128.size a ≤ S256x128.size a
  packedbf16_S256x128_S2x128_184_0 : (Rect.unit (s := S256x128) ![184, 0] S2x128.size inb_S256x128_S2x128_184_0).PackedRows (EltTy.packing .bf16)
  inb_S256_S1_200 : ∀ a, (![200] : Fin 1 → Nat) a + S1.size a ≤ S256.size a
  inb_S256x128_S1x128_185_0 : ∀ a, (![185, 0] : Fin 2 → Nat) a + S1x128.size a ≤ S256x128.size a
  inb_S256_S1_201 : ∀ a, (![201] : Fin 1 → Nat) a + S1.size a ≤ S256.size a
  inb_S256x128_S1x128_186_0 : ∀ a, (![186, 0] : Fin 2 → Nat) a + S1x128.size a ≤ S256x128.size a
  inb_S256x128_S2x128_186_0 : ∀ a, (![186, 0] : Fin 2 → Nat) a + S2x128.size a ≤ S256x128.size a
  packedbf16_S256x128_S2x128_186_0 : (Rect.unit (s := S256x128) ![186, 0] S2x128.size inb_S256x128_S2x128_186_0).PackedRows (EltTy.packing .bf16)
  inb_S256_S1_202 : ∀ a, (![202] : Fin 1 → Nat) a + S1.size a ≤ S256.size a
  inb_S256x128_S1x128_187_0 : ∀ a, (![187, 0] : Fin 2 → Nat) a + S1x128.size a ≤ S256x128.size a
  inb_S256_S1_203 : ∀ a, (![203] : Fin 1 → Nat) a + S1.size a ≤ S256.size a
  inb_S256x128_S1x128_188_0 : ∀ a, (![188, 0] : Fin 2 → Nat) a + S1x128.size a ≤ S256x128.size a
  inb_S256x128_S2x128_188_0 : ∀ a, (![188, 0] : Fin 2 → Nat) a + S2x128.size a ≤ S256x128.size a
  packedbf16_S256x128_S2x128_188_0 : (Rect.unit (s := S256x128) ![188, 0] S2x128.size inb_S256x128_S2x128_188_0).PackedRows (EltTy.packing .bf16)
  inb_S256_S1_204 : ∀ a, (![204] : Fin 1 → Nat) a + S1.size a ≤ S256.size a
  inb_S256x128_S1x128_189_0 : ∀ a, (![189, 0] : Fin 2 → Nat) a + S1x128.size a ≤ S256x128.size a
  inb_S256_S1_205 : ∀ a, (![205] : Fin 1 → Nat) a + S1.size a ≤ S256.size a
  inb_S256x128_S1x128_190_0 : ∀ a, (![190, 0] : Fin 2 → Nat) a + S1x128.size a ≤ S256x128.size a
  inb_S256x128_S2x128_190_0 : ∀ a, (![190, 0] : Fin 2 → Nat) a + S2x128.size a ≤ S256x128.size a
  packedbf16_S256x128_S2x128_190_0 : (Rect.unit (s := S256x128) ![190, 0] S2x128.size inb_S256x128_S2x128_190_0).PackedRows (EltTy.packing .bf16)
  inb_S256_S1_206 : ∀ a, (![206] : Fin 1 → Nat) a + S1.size a ≤ S256.size a
  inb_S256x128_S1x128_191_0 : ∀ a, (![191, 0] : Fin 2 → Nat) a + S1x128.size a ≤ S256x128.size a
  inb_S256_S1_207 : ∀ a, (![207] : Fin 1 → Nat) a + S1.size a ≤ S256.size a
  inb_S256x128_S1x128_192_0 : ∀ a, (![192, 0] : Fin 2 → Nat) a + S1x128.size a ≤ S256x128.size a
  inb_S256x128_S2x128_192_0 : ∀ a, (![192, 0] : Fin 2 → Nat) a + S2x128.size a ≤ S256x128.size a
  packedbf16_S256x128_S2x128_192_0 : (Rect.unit (s := S256x128) ![192, 0] S2x128.size inb_S256x128_S2x128_192_0).PackedRows (EltTy.packing .bf16)
  inb_S256_S1_208 : ∀ a, (![208] : Fin 1 → Nat) a + S1.size a ≤ S256.size a
  inb_S256x128_S1x128_193_0 : ∀ a, (![193, 0] : Fin 2 → Nat) a + S1x128.size a ≤ S256x128.size a
  inb_S256_S1_209 : ∀ a, (![209] : Fin 1 → Nat) a + S1.size a ≤ S256.size a
  inb_S256x128_S1x128_194_0 : ∀ a, (![194, 0] : Fin 2 → Nat) a + S1x128.size a ≤ S256x128.size a
  inb_S256x128_S2x128_194_0 : ∀ a, (![194, 0] : Fin 2 → Nat) a + S2x128.size a ≤ S256x128.size a
  packedbf16_S256x128_S2x128_194_0 : (Rect.unit (s := S256x128) ![194, 0] S2x128.size inb_S256x128_S2x128_194_0).PackedRows (EltTy.packing .bf16)
  inb_S256_S1_210 : ∀ a, (![210] : Fin 1 → Nat) a + S1.size a ≤ S256.size a
  inb_S256x128_S1x128_195_0 : ∀ a, (![195, 0] : Fin 2 → Nat) a + S1x128.size a ≤ S256x128.size a
  inb_S256_S1_211 : ∀ a, (![211] : Fin 1 → Nat) a + S1.size a ≤ S256.size a
  inb_S256x128_S1x128_196_0 : ∀ a, (![196, 0] : Fin 2 → Nat) a + S1x128.size a ≤ S256x128.size a
  inb_S256x128_S2x128_196_0 : ∀ a, (![196, 0] : Fin 2 → Nat) a + S2x128.size a ≤ S256x128.size a
  packedbf16_S256x128_S2x128_196_0 : (Rect.unit (s := S256x128) ![196, 0] S2x128.size inb_S256x128_S2x128_196_0).PackedRows (EltTy.packing .bf16)
  inb_S256_S1_212 : ∀ a, (![212] : Fin 1 → Nat) a + S1.size a ≤ S256.size a
  inb_S256x128_S1x128_197_0 : ∀ a, (![197, 0] : Fin 2 → Nat) a + S1x128.size a ≤ S256x128.size a
  inb_S256_S1_213 : ∀ a, (![213] : Fin 1 → Nat) a + S1.size a ≤ S256.size a
  inb_S256x128_S1x128_198_0 : ∀ a, (![198, 0] : Fin 2 → Nat) a + S1x128.size a ≤ S256x128.size a
  inb_S256x128_S2x128_198_0 : ∀ a, (![198, 0] : Fin 2 → Nat) a + S2x128.size a ≤ S256x128.size a
  packedbf16_S256x128_S2x128_198_0 : (Rect.unit (s := S256x128) ![198, 0] S2x128.size inb_S256x128_S2x128_198_0).PackedRows (EltTy.packing .bf16)
  inb_S256_S1_214 : ∀ a, (![214] : Fin 1 → Nat) a + S1.size a ≤ S256.size a
  inb_S256x128_S1x128_199_0 : ∀ a, (![199, 0] : Fin 2 → Nat) a + S1x128.size a ≤ S256x128.size a
  inb_S256_S1_215 : ∀ a, (![215] : Fin 1 → Nat) a + S1.size a ≤ S256.size a
  inb_S256x128_S1x128_200_0 : ∀ a, (![200, 0] : Fin 2 → Nat) a + S1x128.size a ≤ S256x128.size a
  inb_S256x128_S2x128_200_0 : ∀ a, (![200, 0] : Fin 2 → Nat) a + S2x128.size a ≤ S256x128.size a
  packedbf16_S256x128_S2x128_200_0 : (Rect.unit (s := S256x128) ![200, 0] S2x128.size inb_S256x128_S2x128_200_0).PackedRows (EltTy.packing .bf16)
  inb_S256_S1_216 : ∀ a, (![216] : Fin 1 → Nat) a + S1.size a ≤ S256.size a
  inb_S256x128_S1x128_201_0 : ∀ a, (![201, 0] : Fin 2 → Nat) a + S1x128.size a ≤ S256x128.size a
  inb_S256_S1_217 : ∀ a, (![217] : Fin 1 → Nat) a + S1.size a ≤ S256.size a
  inb_S256x128_S1x128_202_0 : ∀ a, (![202, 0] : Fin 2 → Nat) a + S1x128.size a ≤ S256x128.size a
  inb_S256x128_S2x128_202_0 : ∀ a, (![202, 0] : Fin 2 → Nat) a + S2x128.size a ≤ S256x128.size a
  packedbf16_S256x128_S2x128_202_0 : (Rect.unit (s := S256x128) ![202, 0] S2x128.size inb_S256x128_S2x128_202_0).PackedRows (EltTy.packing .bf16)
  inb_S256_S1_218 : ∀ a, (![218] : Fin 1 → Nat) a + S1.size a ≤ S256.size a
  inb_S256x128_S1x128_203_0 : ∀ a, (![203, 0] : Fin 2 → Nat) a + S1x128.size a ≤ S256x128.size a
  inb_S256_S1_219 : ∀ a, (![219] : Fin 1 → Nat) a + S1.size a ≤ S256.size a
  inb_S256x128_S1x128_204_0 : ∀ a, (![204, 0] : Fin 2 → Nat) a + S1x128.size a ≤ S256x128.size a
  inb_S256x128_S2x128_204_0 : ∀ a, (![204, 0] : Fin 2 → Nat) a + S2x128.size a ≤ S256x128.size a
  packedbf16_S256x128_S2x128_204_0 : (Rect.unit (s := S256x128) ![204, 0] S2x128.size inb_S256x128_S2x128_204_0).PackedRows (EltTy.packing .bf16)
  inb_S256_S1_220 : ∀ a, (![220] : Fin 1 → Nat) a + S1.size a ≤ S256.size a
  inb_S256x128_S1x128_205_0 : ∀ a, (![205, 0] : Fin 2 → Nat) a + S1x128.size a ≤ S256x128.size a
  inb_S256_S1_221 : ∀ a, (![221] : Fin 1 → Nat) a + S1.size a ≤ S256.size a
  inb_S256x128_S1x128_206_0 : ∀ a, (![206, 0] : Fin 2 → Nat) a + S1x128.size a ≤ S256x128.size a
  inb_S256x128_S2x128_206_0 : ∀ a, (![206, 0] : Fin 2 → Nat) a + S2x128.size a ≤ S256x128.size a
  packedbf16_S256x128_S2x128_206_0 : (Rect.unit (s := S256x128) ![206, 0] S2x128.size inb_S256x128_S2x128_206_0).PackedRows (EltTy.packing .bf16)
  inb_S256_S1_222 : ∀ a, (![222] : Fin 1 → Nat) a + S1.size a ≤ S256.size a
  inb_S256x128_S1x128_207_0 : ∀ a, (![207, 0] : Fin 2 → Nat) a + S1x128.size a ≤ S256x128.size a
  inb_S256_S1_223 : ∀ a, (![223] : Fin 1 → Nat) a + S1.size a ≤ S256.size a
  inb_S256x128_S1x128_208_0 : ∀ a, (![208, 0] : Fin 2 → Nat) a + S1x128.size a ≤ S256x128.size a
  inb_S256x128_S2x128_208_0 : ∀ a, (![208, 0] : Fin 2 → Nat) a + S2x128.size a ≤ S256x128.size a
  packedbf16_S256x128_S2x128_208_0 : (Rect.unit (s := S256x128) ![208, 0] S2x128.size inb_S256x128_S2x128_208_0).PackedRows (EltTy.packing .bf16)
  inb_S256_S1_224 : ∀ a, (![224] : Fin 1 → Nat) a + S1.size a ≤ S256.size a
  inb_S256x128_S1x128_209_0 : ∀ a, (![209, 0] : Fin 2 → Nat) a + S1x128.size a ≤ S256x128.size a
  inb_S256_S1_225 : ∀ a, (![225] : Fin 1 → Nat) a + S1.size a ≤ S256.size a
  inb_S256x128_S1x128_210_0 : ∀ a, (![210, 0] : Fin 2 → Nat) a + S1x128.size a ≤ S256x128.size a
  inb_S256x128_S2x128_210_0 : ∀ a, (![210, 0] : Fin 2 → Nat) a + S2x128.size a ≤ S256x128.size a
  packedbf16_S256x128_S2x128_210_0 : (Rect.unit (s := S256x128) ![210, 0] S2x128.size inb_S256x128_S2x128_210_0).PackedRows (EltTy.packing .bf16)
  inb_S256_S1_226 : ∀ a, (![226] : Fin 1 → Nat) a + S1.size a ≤ S256.size a
  inb_S256x128_S1x128_211_0 : ∀ a, (![211, 0] : Fin 2 → Nat) a + S1x128.size a ≤ S256x128.size a
  inb_S256_S1_227 : ∀ a, (![227] : Fin 1 → Nat) a + S1.size a ≤ S256.size a
  inb_S256x128_S1x128_212_0 : ∀ a, (![212, 0] : Fin 2 → Nat) a + S1x128.size a ≤ S256x128.size a
  inb_S256x128_S2x128_212_0 : ∀ a, (![212, 0] : Fin 2 → Nat) a + S2x128.size a ≤ S256x128.size a
  packedbf16_S256x128_S2x128_212_0 : (Rect.unit (s := S256x128) ![212, 0] S2x128.size inb_S256x128_S2x128_212_0).PackedRows (EltTy.packing .bf16)
  inb_S256_S1_228 : ∀ a, (![228] : Fin 1 → Nat) a + S1.size a ≤ S256.size a
  inb_S256x128_S1x128_213_0 : ∀ a, (![213, 0] : Fin 2 → Nat) a + S1x128.size a ≤ S256x128.size a
  inb_S256_S1_229 : ∀ a, (![229] : Fin 1 → Nat) a + S1.size a ≤ S256.size a
  inb_S256x128_S1x128_214_0 : ∀ a, (![214, 0] : Fin 2 → Nat) a + S1x128.size a ≤ S256x128.size a
  inb_S256x128_S2x128_214_0 : ∀ a, (![214, 0] : Fin 2 → Nat) a + S2x128.size a ≤ S256x128.size a
  packedbf16_S256x128_S2x128_214_0 : (Rect.unit (s := S256x128) ![214, 0] S2x128.size inb_S256x128_S2x128_214_0).PackedRows (EltTy.packing .bf16)
  inb_S256_S1_230 : ∀ a, (![230] : Fin 1 → Nat) a + S1.size a ≤ S256.size a
  inb_S256x128_S1x128_215_0 : ∀ a, (![215, 0] : Fin 2 → Nat) a + S1x128.size a ≤ S256x128.size a
  inb_S256_S1_231 : ∀ a, (![231] : Fin 1 → Nat) a + S1.size a ≤ S256.size a
  inb_S256x128_S1x128_216_0 : ∀ a, (![216, 0] : Fin 2 → Nat) a + S1x128.size a ≤ S256x128.size a
  inb_S256x128_S2x128_216_0 : ∀ a, (![216, 0] : Fin 2 → Nat) a + S2x128.size a ≤ S256x128.size a
  packedbf16_S256x128_S2x128_216_0 : (Rect.unit (s := S256x128) ![216, 0] S2x128.size inb_S256x128_S2x128_216_0).PackedRows (EltTy.packing .bf16)
  inb_S256_S1_232 : ∀ a, (![232] : Fin 1 → Nat) a + S1.size a ≤ S256.size a
  inb_S256x128_S1x128_217_0 : ∀ a, (![217, 0] : Fin 2 → Nat) a + S1x128.size a ≤ S256x128.size a
  inb_S256_S1_233 : ∀ a, (![233] : Fin 1 → Nat) a + S1.size a ≤ S256.size a
  inb_S256x128_S1x128_218_0 : ∀ a, (![218, 0] : Fin 2 → Nat) a + S1x128.size a ≤ S256x128.size a
  inb_S256x128_S2x128_218_0 : ∀ a, (![218, 0] : Fin 2 → Nat) a + S2x128.size a ≤ S256x128.size a
  packedbf16_S256x128_S2x128_218_0 : (Rect.unit (s := S256x128) ![218, 0] S2x128.size inb_S256x128_S2x128_218_0).PackedRows (EltTy.packing .bf16)
  inb_S256_S1_234 : ∀ a, (![234] : Fin 1 → Nat) a + S1.size a ≤ S256.size a
  inb_S256x128_S1x128_219_0 : ∀ a, (![219, 0] : Fin 2 → Nat) a + S1x128.size a ≤ S256x128.size a
  inb_S256_S1_235 : ∀ a, (![235] : Fin 1 → Nat) a + S1.size a ≤ S256.size a
  inb_S256x128_S1x128_220_0 : ∀ a, (![220, 0] : Fin 2 → Nat) a + S1x128.size a ≤ S256x128.size a
  inb_S256x128_S2x128_220_0 : ∀ a, (![220, 0] : Fin 2 → Nat) a + S2x128.size a ≤ S256x128.size a
  packedbf16_S256x128_S2x128_220_0 : (Rect.unit (s := S256x128) ![220, 0] S2x128.size inb_S256x128_S2x128_220_0).PackedRows (EltTy.packing .bf16)
  inb_S256_S1_236 : ∀ a, (![236] : Fin 1 → Nat) a + S1.size a ≤ S256.size a
  inb_S256x128_S1x128_221_0 : ∀ a, (![221, 0] : Fin 2 → Nat) a + S1x128.size a ≤ S256x128.size a
  inb_S256_S1_237 : ∀ a, (![237] : Fin 1 → Nat) a + S1.size a ≤ S256.size a
  inb_S256x128_S1x128_222_0 : ∀ a, (![222, 0] : Fin 2 → Nat) a + S1x128.size a ≤ S256x128.size a
  inb_S256x128_S2x128_222_0 : ∀ a, (![222, 0] : Fin 2 → Nat) a + S2x128.size a ≤ S256x128.size a
  packedbf16_S256x128_S2x128_222_0 : (Rect.unit (s := S256x128) ![222, 0] S2x128.size inb_S256x128_S2x128_222_0).PackedRows (EltTy.packing .bf16)
  inb_S256_S1_238 : ∀ a, (![238] : Fin 1 → Nat) a + S1.size a ≤ S256.size a
  inb_S256x128_S1x128_223_0 : ∀ a, (![223, 0] : Fin 2 → Nat) a + S1x128.size a ≤ S256x128.size a
  inb_S256_S1_239 : ∀ a, (![239] : Fin 1 → Nat) a + S1.size a ≤ S256.size a
  inb_S256x128_S1x128_224_0 : ∀ a, (![224, 0] : Fin 2 → Nat) a + S1x128.size a ≤ S256x128.size a
  inb_S256x128_S2x128_224_0 : ∀ a, (![224, 0] : Fin 2 → Nat) a + S2x128.size a ≤ S256x128.size a
  packedbf16_S256x128_S2x128_224_0 : (Rect.unit (s := S256x128) ![224, 0] S2x128.size inb_S256x128_S2x128_224_0).PackedRows (EltTy.packing .bf16)
  inb_S256_S1_240 : ∀ a, (![240] : Fin 1 → Nat) a + S1.size a ≤ S256.size a
  inb_S256x128_S1x128_225_0 : ∀ a, (![225, 0] : Fin 2 → Nat) a + S1x128.size a ≤ S256x128.size a
  inb_S256_S1_241 : ∀ a, (![241] : Fin 1 → Nat) a + S1.size a ≤ S256.size a
  inb_S256x128_S1x128_226_0 : ∀ a, (![226, 0] : Fin 2 → Nat) a + S1x128.size a ≤ S256x128.size a
  inb_S256x128_S2x128_226_0 : ∀ a, (![226, 0] : Fin 2 → Nat) a + S2x128.size a ≤ S256x128.size a
  packedbf16_S256x128_S2x128_226_0 : (Rect.unit (s := S256x128) ![226, 0] S2x128.size inb_S256x128_S2x128_226_0).PackedRows (EltTy.packing .bf16)
  inb_S256_S1_242 : ∀ a, (![242] : Fin 1 → Nat) a + S1.size a ≤ S256.size a
  inb_S256x128_S1x128_227_0 : ∀ a, (![227, 0] : Fin 2 → Nat) a + S1x128.size a ≤ S256x128.size a
  inb_S256_S1_243 : ∀ a, (![243] : Fin 1 → Nat) a + S1.size a ≤ S256.size a
  inb_S256x128_S1x128_228_0 : ∀ a, (![228, 0] : Fin 2 → Nat) a + S1x128.size a ≤ S256x128.size a
  inb_S256x128_S2x128_228_0 : ∀ a, (![228, 0] : Fin 2 → Nat) a + S2x128.size a ≤ S256x128.size a
  packedbf16_S256x128_S2x128_228_0 : (Rect.unit (s := S256x128) ![228, 0] S2x128.size inb_S256x128_S2x128_228_0).PackedRows (EltTy.packing .bf16)
  inb_S256_S1_244 : ∀ a, (![244] : Fin 1 → Nat) a + S1.size a ≤ S256.size a
  inb_S256x128_S1x128_229_0 : ∀ a, (![229, 0] : Fin 2 → Nat) a + S1x128.size a ≤ S256x128.size a
  inb_S256_S1_245 : ∀ a, (![245] : Fin 1 → Nat) a + S1.size a ≤ S256.size a
  inb_S256x128_S1x128_230_0 : ∀ a, (![230, 0] : Fin 2 → Nat) a + S1x128.size a ≤ S256x128.size a
  inb_S256x128_S2x128_230_0 : ∀ a, (![230, 0] : Fin 2 → Nat) a + S2x128.size a ≤ S256x128.size a
  packedbf16_S256x128_S2x128_230_0 : (Rect.unit (s := S256x128) ![230, 0] S2x128.size inb_S256x128_S2x128_230_0).PackedRows (EltTy.packing .bf16)
  inb_S256_S1_246 : ∀ a, (![246] : Fin 1 → Nat) a + S1.size a ≤ S256.size a
  inb_S256x128_S1x128_231_0 : ∀ a, (![231, 0] : Fin 2 → Nat) a + S1x128.size a ≤ S256x128.size a
  inb_S256_S1_247 : ∀ a, (![247] : Fin 1 → Nat) a + S1.size a ≤ S256.size a
  inb_S256x128_S1x128_232_0 : ∀ a, (![232, 0] : Fin 2 → Nat) a + S1x128.size a ≤ S256x128.size a
  inb_S256x128_S2x128_232_0 : ∀ a, (![232, 0] : Fin 2 → Nat) a + S2x128.size a ≤ S256x128.size a
  packedbf16_S256x128_S2x128_232_0 : (Rect.unit (s := S256x128) ![232, 0] S2x128.size inb_S256x128_S2x128_232_0).PackedRows (EltTy.packing .bf16)
  inb_S256_S1_248 : ∀ a, (![248] : Fin 1 → Nat) a + S1.size a ≤ S256.size a
  inb_S256x128_S1x128_233_0 : ∀ a, (![233, 0] : Fin 2 → Nat) a + S1x128.size a ≤ S256x128.size a
  inb_S256_S1_249 : ∀ a, (![249] : Fin 1 → Nat) a + S1.size a ≤ S256.size a
  inb_S256x128_S1x128_234_0 : ∀ a, (![234, 0] : Fin 2 → Nat) a + S1x128.size a ≤ S256x128.size a
  inb_S256x128_S2x128_234_0 : ∀ a, (![234, 0] : Fin 2 → Nat) a + S2x128.size a ≤ S256x128.size a
  packedbf16_S256x128_S2x128_234_0 : (Rect.unit (s := S256x128) ![234, 0] S2x128.size inb_S256x128_S2x128_234_0).PackedRows (EltTy.packing .bf16)
  inb_S256_S1_250 : ∀ a, (![250] : Fin 1 → Nat) a + S1.size a ≤ S256.size a
  inb_S256x128_S1x128_235_0 : ∀ a, (![235, 0] : Fin 2 → Nat) a + S1x128.size a ≤ S256x128.size a
  inb_S256_S1_251 : ∀ a, (![251] : Fin 1 → Nat) a + S1.size a ≤ S256.size a
  inb_S256x128_S1x128_236_0 : ∀ a, (![236, 0] : Fin 2 → Nat) a + S1x128.size a ≤ S256x128.size a
  inb_S256x128_S2x128_236_0 : ∀ a, (![236, 0] : Fin 2 → Nat) a + S2x128.size a ≤ S256x128.size a
  packedbf16_S256x128_S2x128_236_0 : (Rect.unit (s := S256x128) ![236, 0] S2x128.size inb_S256x128_S2x128_236_0).PackedRows (EltTy.packing .bf16)
  inb_S256_S1_252 : ∀ a, (![252] : Fin 1 → Nat) a + S1.size a ≤ S256.size a
  inb_S256x128_S1x128_237_0 : ∀ a, (![237, 0] : Fin 2 → Nat) a + S1x128.size a ≤ S256x128.size a
  inb_S256_S1_253 : ∀ a, (![253] : Fin 1 → Nat) a + S1.size a ≤ S256.size a
  inb_S256x128_S1x128_238_0 : ∀ a, (![238, 0] : Fin 2 → Nat) a + S1x128.size a ≤ S256x128.size a
  inb_S256x128_S2x128_238_0 : ∀ a, (![238, 0] : Fin 2 → Nat) a + S2x128.size a ≤ S256x128.size a
  packedbf16_S256x128_S2x128_238_0 : (Rect.unit (s := S256x128) ![238, 0] S2x128.size inb_S256x128_S2x128_238_0).PackedRows (EltTy.packing .bf16)
  inb_S256_S1_254 : ∀ a, (![254] : Fin 1 → Nat) a + S1.size a ≤ S256.size a
  inb_S256x128_S1x128_239_0 : ∀ a, (![239, 0] : Fin 2 → Nat) a + S1x128.size a ≤ S256x128.size a
  inb_S256_S1_255 : ∀ a, (![255] : Fin 1 → Nat) a + S1.size a ≤ S256.size a
  inb_S256x128_S1x128_240_0 : ∀ a, (![240, 0] : Fin 2 → Nat) a + S1x128.size a ≤ S256x128.size a
  inb_S256x128_S2x128_240_0 : ∀ a, (![240, 0] : Fin 2 → Nat) a + S2x128.size a ≤ S256x128.size a
  packedbf16_S256x128_S2x128_240_0 : (Rect.unit (s := S256x128) ![240, 0] S2x128.size inb_S256x128_S2x128_240_0).PackedRows (EltTy.packing .bf16)
  inb_S256x128_S1x128_241_0 : ∀ a, (![241, 0] : Fin 2 → Nat) a + S1x128.size a ≤ S256x128.size a
  inb_S256x128_S1x128_242_0 : ∀ a, (![242, 0] : Fin 2 → Nat) a + S1x128.size a ≤ S256x128.size a
  inb_S256x128_S2x128_242_0 : ∀ a, (![242, 0] : Fin 2 → Nat) a + S2x128.size a ≤ S256x128.size a
  packedbf16_S256x128_S2x128_242_0 : (Rect.unit (s := S256x128) ![242, 0] S2x128.size inb_S256x128_S2x128_242_0).PackedRows (EltTy.packing .bf16)
  inb_S256x128_S1x128_243_0 : ∀ a, (![243, 0] : Fin 2 → Nat) a + S1x128.size a ≤ S256x128.size a
  inb_S256x128_S1x128_244_0 : ∀ a, (![244, 0] : Fin 2 → Nat) a + S1x128.size a ≤ S256x128.size a
  inb_S256x128_S2x128_244_0 : ∀ a, (![244, 0] : Fin 2 → Nat) a + S2x128.size a ≤ S256x128.size a
  packedbf16_S256x128_S2x128_244_0 : (Rect.unit (s := S256x128) ![244, 0] S2x128.size inb_S256x128_S2x128_244_0).PackedRows (EltTy.packing .bf16)
  inb_S256x128_S1x128_245_0 : ∀ a, (![245, 0] : Fin 2 → Nat) a + S1x128.size a ≤ S256x128.size a
  inb_S256x128_S1x128_246_0 : ∀ a, (![246, 0] : Fin 2 → Nat) a + S1x128.size a ≤ S256x128.size a
  inb_S256x128_S2x128_246_0 : ∀ a, (![246, 0] : Fin 2 → Nat) a + S2x128.size a ≤ S256x128.size a
  packedbf16_S256x128_S2x128_246_0 : (Rect.unit (s := S256x128) ![246, 0] S2x128.size inb_S256x128_S2x128_246_0).PackedRows (EltTy.packing .bf16)
  inb_S256x128_S1x128_247_0 : ∀ a, (![247, 0] : Fin 2 → Nat) a + S1x128.size a ≤ S256x128.size a
  inb_S256x128_S1x128_248_0 : ∀ a, (![248, 0] : Fin 2 → Nat) a + S1x128.size a ≤ S256x128.size a
  inb_S256x128_S2x128_248_0 : ∀ a, (![248, 0] : Fin 2 → Nat) a + S2x128.size a ≤ S256x128.size a
  packedbf16_S256x128_S2x128_248_0 : (Rect.unit (s := S256x128) ![248, 0] S2x128.size inb_S256x128_S2x128_248_0).PackedRows (EltTy.packing .bf16)
  inb_S256x128_S1x128_249_0 : ∀ a, (![249, 0] : Fin 2 → Nat) a + S1x128.size a ≤ S256x128.size a
  inb_S256x128_S1x128_250_0 : ∀ a, (![250, 0] : Fin 2 → Nat) a + S1x128.size a ≤ S256x128.size a
  inb_S256x128_S2x128_250_0 : ∀ a, (![250, 0] : Fin 2 → Nat) a + S2x128.size a ≤ S256x128.size a
  packedbf16_S256x128_S2x128_250_0 : (Rect.unit (s := S256x128) ![250, 0] S2x128.size inb_S256x128_S2x128_250_0).PackedRows (EltTy.packing .bf16)
  inb_S256x128_S1x128_251_0 : ∀ a, (![251, 0] : Fin 2 → Nat) a + S1x128.size a ≤ S256x128.size a
  inb_S256x128_S1x128_252_0 : ∀ a, (![252, 0] : Fin 2 → Nat) a + S1x128.size a ≤ S256x128.size a
  inb_S256x128_S2x128_252_0 : ∀ a, (![252, 0] : Fin 2 → Nat) a + S2x128.size a ≤ S256x128.size a
  packedbf16_S256x128_S2x128_252_0 : (Rect.unit (s := S256x128) ![252, 0] S2x128.size inb_S256x128_S2x128_252_0).PackedRows (EltTy.packing .bf16)
  inb_S256x128_S1x128_253_0 : ∀ a, (![253, 0] : Fin 2 → Nat) a + S1x128.size a ≤ S256x128.size a
  inb_S256x128_S1x128_254_0 : ∀ a, (![254, 0] : Fin 2 → Nat) a + S1x128.size a ≤ S256x128.size a
  inb_S256x128_S2x128_254_0 : ∀ a, (![254, 0] : Fin 2 → Nat) a + S2x128.size a ≤ S256x128.size a
  packedbf16_S256x128_S2x128_254_0 : (Rect.unit (s := S256x128) ![254, 0] S2x128.size inb_S256x128_S2x128_254_0).PackedRows (EltTy.packing .bf16)
  inb_S256x128_S1x128_255_0 : ∀ a, (![255, 0] : Fin 2 → Nat) a + S1x128.size a ≤ S256x128.size a
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x2048_d1_w32 : S256x2048.Iotas .tc 32 [1]
  broadcasts_S256x1_S256x2048 : S256x1.Broadcasts S256x2048
  natLt_1_32 : 1 < 32
  inb_S256x128_S256x128_0_0 : ∀ a, (![0, 0] : Fin 2 → Nat) a + S256x128.size a ≤ S256x128.size a
  h_S256x128 : 0 < S256x128.numel
  slices_S2x2048x128_S1x2048x64_0_0_0 : S2x2048x128.Slices ![0, 0, 0] S1x2048x64
  shapeCasts_S1x2048x64_S2048x64 : S1x2048x64.ShapeCasts S2048x64
  slices_S2x2048x128_S1x2048x64_1_0_0 : S2x2048x128.Slices ![1, 0, 0] S1x2048x64
  slices_S2x2048x1_S1x2048x1_0_0_0 : S2x2048x1.Slices ![0, 0, 0] S1x2048x1
  slices_S2x2048x1_S1x2048x1_1_0_0 : S2x2048x1.Slices ![1, 0, 0] S1x2048x1
  bcast_S_S2048x1 : S_.BroadcastsInDim S2048x1 (![] : Fin 0 → Fin S2048x1.rank)
  bcast_S2048x1_S2048x64_0_1 : S2048x1.BroadcastsInDim S2048x64 (![0, 1] : Fin 2 → Fin S2048x64.rank)
  dot_S256x2048_S256x128_S2048x128_0_0_1_1_n_n_wf : DotDims.WF S256x2048 S256x128 S2048x128 [0] [0] [1] [1] [] []
  dot_S256x2048_S256x1_S2048x1_0_0_1_1_n_n_wf : DotDims.WF S256x2048 S256x1 S2048x1 [0] [0] [1] [1] [] []
  hcc0_scratch2 : 8 + S16.numel ≤ 24
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256.size a ≤ S1048576.size a
  hwx0_0 : ∀ i : grid0.Coords, EltTy.bits .i32 = 32 ∨ (Rect.block (s := S1048576) S256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S1048576x1.size a
  hwx0_1 : ∀ i : grid0.Coords, EltTy.bits .i32 = 32 ∨ (Rect.block (s := S1048576x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S1x2048x128.size a ≤ S2x2048x128.size a
  hwx0_2 : ∀ i : grid0.Coords, EltTy.bits .f32 = 32 ∨ (Rect.block (s := S2x2048x128) S1x2048x128.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S1x2048x1.size a ≤ S2x2048x1.size a
  hwx0_3 : ∀ i : grid0.Coords, EltTy.bits .f32 = 32 ∨ (Rect.block (s := S2x2048x1) S1x2048x1.size (cc0_transform_4 i) (hinb0_3 i)).WholeWords (EltTy.packing .f32)

variable [Facts₀]

abbrev cc0_scratch2 : DmaSems sig S16 := SemArray.consecutive 8 S16 hcc0_scratch2
def dot_S256x2048_S256x128_S2048x128_0_0_1_1_n_n : DotDims S256x2048 S256x128 S2048x128 where
  lhsContracting := [0]
  rhsContracting := [0]
  lhsNonContracting := [1]
  rhsNonContracting := [1]
  lhsBatch := []
  rhsBatch := []
  wf := dot_S256x2048_S256x128_S2048x128_0_0_1_1_n_n_wf
def dot_S256x2048_S256x1_S2048x1_0_0_1_1_n_n : DotDims S256x2048 S256x1 S2048x1 where
  lhsContracting := [0]
  rhsContracting := [0]
  lhsNonContracting := [1]
  rhsNonContracting := [1]
  lhsBatch := []
  rhsBatch := []
  wf := dot_S256x2048_S256x1_S2048x1_0_0_1_1_n_n_wf

abbrev win0_0 : Pipeline.Window sig grid0 :=
  Pipeline.Window.ofSpec (Memref.whole main_arg2) S256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x2048x128.size cc0_transform_3 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x2048x1.size cc0_transform_4 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S1048576 : Shape := ⟨1, ![1048576]⟩
abbrev S_ : Shape := ⟨0, ![]⟩
abbrev S1048576x1 : Shape := ⟨2, ![1048576, 1]⟩
abbrev S2048x64 : Shape := ⟨2, ![2048, 64]⟩
abbrev S2048 : Shape := ⟨1, ![2048]⟩
abbrev S2048x1 : Shape := ⟨2, ![2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576, .i32⟩
  | .hbm, ⟨2, _⟩ => ⟨S1048576, .i32⟩
  | .hbm, ⟨3, _⟩ => ⟨S_, .i32⟩
  | .hbm, ⟨4, _⟩ => ⟨S1048576, .i32⟩
  | .hbm, ⟨5, _⟩ => ⟨S1048576, .i1⟩
  | .hbm, ⟨6, _⟩ => ⟨S_, .i32⟩
  | .hbm, ⟨7, _⟩ => ⟨S1048576, .i32⟩
  | .hbm, ⟨8, _⟩ => ⟨S1048576, .i32⟩
  | .hbm, ⟨9, _⟩ => ⟨S1048576, .i32⟩
  | .hbm, ⟨10, _⟩ => ⟨S1048576x1, .i32⟩
  | .hbm, ⟨11, _⟩ => ⟨S1048576x64, .f32⟩
  | .hbm, ⟨12, _⟩ => ⟨S_, .f32⟩
  | .hbm, ⟨13, _⟩ => ⟨S2048x64, .f32⟩
  | .hbm, ⟨14, _⟩ => ⟨S1048576x1, .i32⟩
  | .hbm, ⟨15, _⟩ => ⟨S2048x64, .f32⟩
  | .hbm, ⟨16, _⟩ => ⟨S_, .f32⟩
  | .hbm, ⟨17, _⟩ => ⟨S1048576, .f32⟩
  | .hbm, ⟨18, _⟩ => ⟨S_, .f32⟩
  | .hbm, ⟨19, _⟩ => ⟨S2048, .f32⟩
  | .hbm, ⟨20, _⟩ => ⟨S1048576x1, .i32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048x1, .f32⟩
  | .hbm, ⟨26, _⟩ => ⟨S2048x64, .f32⟩
  | .hbm, ⟨27, _⟩ => ⟨S2048x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S2048x64 : S_.BroadcastsInDim S2048x64 (![] : Fin 0 → Fin S2048x64.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  gather_S1048576x64_S1048576x1_S1048576x64_1_0_n_n_0_1_164_wf : GatherDims.WF S1048576x64 S1048576x1 S1048576x64 [1] [0] [] [0] [] 1 ![1, 64]
  scatter_S2048x64_S1048576x1_S1048576x64_1_0_0_1_wf : ScatterDims.WF S2048x64 S1048576x1 S1048576x64 [1] [0] [0] 1
  scatter_S2048_S1048576x1_S1048576_n_0_0_1_wf : ScatterDims.WF S2048 S1048576x1 S1048576 [] [0] [0] 1

variable [Facts₀]

def gather_S1048576x64_S1048576x1_S1048576x64_1_0_n_n_0_1_164 : GatherDims S1048576x64 S1048576x1 S1048576x64 where
  offsetDims := [1]
  collapsedSliceDims := [0]
  operandBatchingDims := []
  startIndicesBatchingDims := []
  startIndexMap := [0]
  indexVectorDim := 1
  sliceSizes := ![1, 64]
  wf := gather_S1048576x64_S1048576x1_S1048576x64_1_0_n_n_0_1_164_wf
def scatter_S2048x64_S1048576x1_S1048576x64_1_0_0_1 : ScatterDims S2048x64 S1048576x1 S1048576x64 where
  updateWindowDims := [1]
  insertedWindowDims := [0]
  scatterDimsToOperandDims := [0]
  indexVectorDim := 1
  wf := scatter_S2048x64_S1048576x1_S1048576x64_1_0_0_1_wf
def scatter_S2048_S1048576x1_S1048576_n_0_0_1 : ScatterDims S2048 S1048576x1 S1048576 where
  updateWindowDims := []
  insertedWindowDims := [0]
  scatterDimsToOperandDims := [0]
  indexVectorDim := 1
  wf := scatter_S2048_S1048576x1_S1048576_n_0_0_1_wf

class Facts : Prop extends Facts₀ where

variable [Facts]
-- ==== Proof.KRun.lean ====
import proofs.«400161_j14499809591944_4_alg».proof.Proof.Gen.Kernel.Frame
import proofs.«400161_j14499809591944_4_alg».proof.Proof.Gen.Kernel.Skeleton
import Idealize.ShloMosaic.Lib.Transfers
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev hbM : Memref sig .tc .hbm S1048576x1x128 .f32 := Memref.whole main_v2
abbrev scM0 : Memref sig .tc .vmem S256x128 .bf16 := Memref.whole cc0_scratch0
abbrev scM1 : Memref sig .tc .vmem S16x1x128 .f32 := Memref.whole cc0_scratch1

abbrev hbPt (c : Dev nD) (f : Buf (Elt F) (hbM.view.loc (c : Thread nD τ))) : sProp 𝕄 :=
  hbM.view.loc (c : Thread nD τ) ↦{fullShare} f

/-- A word below 1048576 names a row: a one-row window at that row lies inside the table. -/
theorem chk_of_lt (v : BitVec 32) (h : v.toNat < 1048576) :
    ∀ a : Fin 3, (![v.toNat, 0, 0] : Fin 3 → Nat) a + S1x1x128.size a ≤ S1048576x1x128.size a := by
  intro a; fin_cases a <;> simp [Shape.size] <;> omega

theorem word_lt (arg2 : Memref sig .tc .smem S256 .i32) (harg2 : arg2.IsWhole) (x0 : Vec F S256 .i32)
    (hin : ∀ j, (x0 j : BitVec 32).toNat < 1048576) (r : LoadRect S256) (x : r.shape.Idx) :
    (arg2.view.readAt (Elt F) r (harg2.unread x0) x : BitVec 32).toNat < 1048576 := by
  rw [View.readAt_apply, harg2.read_unread]; exact hin _

set_option maxHeartbeats 8000000 in

/-- The body at one grid point, from the two input blocks x0 and x1, the accumulators at y5 and y6, the scratch and the slots at d0 and d1 and the table at fh: it runs to the end, keeps the inputs and the table, and returns the pieces written to each accumulator. -/
noncomputable def kernelRun (c : Dev nD) (i : grid0.Coords)
    (arg2 : Memref sig .tc .smem S256 .i32) (harg2 : arg2.IsWhole) (arg3 : Memref sig .tc .vmem S256x1 .i32) (harg3 : arg3.IsWhole)
    (arg5 : Memref sig .tc .vmem S1x2048x128 .f32) (harg5 : arg5.IsWhole) (arg6 : Memref sig .tc .vmem S1x2048x1 .f32) (harg6 : arg6.IsWhole)
    (x0 : Vec F S256 .i32) (x1 : Vec F S256x1 .i32) (y5 : Vec F S1x2048x128 .f32) (y6 : Vec F S1x2048x1 .f32)
    (d0 : Vec F S256x128 .bf16) (d1 : Vec F S16x1x128 .f32)
    (fh : Buf (Elt F) (hbM.view.loc (c : Thread nD τ)))
    (hin : ∀ j, (x0 j : BitVec 32).toNat < 1048576) :
    (L5 : List (View.Piece (Elt F) S1x2048x128 .f32)) ×' (L6 : List (View.Piece (Elt F) S1x2048x1 .f32)) ×'
      (∀ (W : Waits sig Unit) (K : PUnit → sProp 𝕄),
        iprop(owns (c : Thread nD τ) arg2 fullShare x0 ∗ owns (c : Thread nD τ) arg3 fullShare x1
            ∗ owns (c : Thread nD τ) arg5 fullShare y5 ∗ owns (c : Thread nD τ) arg6 fullShare y6
            ∗ owns (c : Thread nD τ) scM0 fullShare d0 ∗ owns (c : Thread nD τ) scM1 fullShare d1
            ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0
            ∗ hbPt c fh ∗ owes (c : Thread nD τ) 0 W
            ∗ (iprop(owns (c : Thread nD τ) arg2 fullShare x0 ∗ owns (c : Thread nD τ) arg3 fullShare x1
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ d, owns (c : Thread nD τ) scM0 fullShare d) ∗ (∃ d, owns (c : Thread nD τ) scM1 fullShare d)
                ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0
                ∗ hbPt c fh ∗ (∃ W', owes (c : Thread nD τ) 0 W')) -∗ K ⟨⟩))
          ⊢ wp frame (wpE (defs₀ (F := F)) Variants.none c none) Set.univ
              (cc0__kernel i arg2 harg2 arg3 harg3 hbM (Memref.isWhole_whole _) arg5 harg5 arg6 harg6 scM0 (Memref.isWhole_whole _) scM1 (Memref.isWhole_whole _) cc0_scratch2) K) := by
  refine ⟨?_, ?_, fun W K => ?run⟩
  case run =>
    simp only [cc0__kernel_eq_skeleton]; unfold cc0__kernel_skel
    unfold owns hbPt
    iintro ⟨⟨%f2, %hf2, H2⟩, ⟨%f3, %hf3, H3⟩, ⟨%f5, %hf5, H5⟩, ⟨%f6, %hf6, H6⟩, ⟨%fs0, %hfs0, HS0⟩, ⟨%fs1, %hfs1, HS1⟩, Hq8, Hq9, Hq10, Hq11, Hq12, Hq13, Hq14, Hq15, Hq16, Hq17, Hq18, Hq19, Hq20, Hq21, Hq22, Hq23, Hh, HW, Hk⟩
    obtain rfl := harg2.eq_unread hf2
    obtain rfl := harg3.eq_unread hf3
    obtain rfl := harg5.eq_unread hf5
    obtain rfl := harg6.eq_unread hf6
    obtain rfl := (Memref.isWhole_whole cc0_scratch0).eq_unread hfs0
    obtain rfl := (Memref.isWhole_whole cc0_scratch1).eq_unread hfs1

    ihave Hh' := ((Transfers.pointsTo_toks_range (Ix := Unit) (Name := ℕ) (U := Pipeline.UD sig nD τ) (Lvl := ℕ) fullShare 24).1.trans
      (show _ ⊢ iprop((hbM.view.loc (c : Thread nD τ) ↦{Transfers.shareDrop fullShare 24} fh) ∗ (hbM.view.loc (c : Thread nD τ) ↦{Transfers.shareTokN fullShare 0} fh) ∗ (hbM.view.loc (c : Thread nD τ) ↦{Transfers.shareTokN fullShare 1} fh) ∗ (hbM.view.loc (c : Thread nD τ) ↦{Transfers.shareTokN fullShare 2} fh) ∗ (hbM.view.loc (c : Thread nD τ) ↦{Transfers.shareTokN fullShare 3} fh) ∗ (hbM.view.loc (c : Thread nD τ) ↦{Transfers.shareTokN fullShare 4} fh) ∗ (hbM.view.loc (c : Thread nD τ) ↦{Transfers.shareTokN fullShare 5} fh) ∗ (hbM.view.loc (c : Thread nD τ) ↦{Transfers.shareTokN fullShare 6} fh) ∗ (hbM.view.loc (c : Thread nD τ) ↦{Transfers.shareTokN fullShare 7} fh) ∗ (hbM.view.loc (c : Thread nD τ) ↦{Transfers.shareTokN fullShare 8} fh) ∗ (hbM.view.loc (c : Thread nD τ) ↦{Transfers.shareTokN fullShare 9} fh) ∗ (hbM.view.loc (c : Thread nD τ) ↦{Transfers.shareTokN fullShare 10} fh) ∗ (hbM.view.loc (c : Thread nD τ) ↦{Transfers.shareTokN fullShare 11} fh) ∗ (hbM.view.loc (c : Thread nD τ) ↦{Transfers.shareTokN fullShare 12} fh) ∗ (hbM.view.loc (c : Thread nD τ) ↦{Transfers.shareTokN fullShare 13} fh) ∗ (hbM.view.loc (c : Thread nD τ) ↦{Transfers.shareTokN fullShare 14} fh) ∗ (hbM.view.loc (c : Thread nD τ) ↦{Transfers.shareTokN fullShare 15} fh) ∗ (hbM.view.loc (c : Thread nD τ) ↦{Transfers.shareTokN fullShare 16} fh) ∗ (hbM.view.loc (c : Thread nD τ) ↦{Transfers.shareTokN fullShare 17} fh) ∗ (hbM.view.loc (c : Thread nD τ) ↦{Transfers.shareTokN fullShare 18} fh) ∗ (hbM.view.loc (c : Thread nD τ) ↦{Transfers.shareTokN fullShare 19} fh) ∗ (hbM.view.loc (c : Thread nD τ) ↦{Transfers.shareTokN fullShare 20} fh) ∗ (hbM.view.loc (c : Thread nD τ) ↦{Transfers.shareTokN fullShare 21} fh) ∗ (hbM.view.loc (c : Thread nD τ) ↦{Transfers.shareTokN fullShare 22} fh) ∗ (hbM.view.loc (c : Thread nD τ) ↦{Transfers.shareTokN fullShare 23} fh))
        from Entails.of_eq (by rw [BI.bigSep_eq_bigSepL_of_eq ([0, 1, 2, 3, 4, 5, 6, 7, 8, 9, 10, 11, 12, 13, 14, 15, 16, 17, 18, 19, 20, 21, 22, 23] : List ℕ) (by decide) (by decide)]; rfl))) $$ Hh
    icases Hh' with ⟨Hhr, Ht0, Ht1, Ht2, Ht3, Ht4, Ht5, Ht6, Ht7, Ht8, Ht9, Ht10, Ht11, Ht12, Ht13, Ht14, Ht15, Ht16, Ht17, Ht18, Ht19, Ht20, Ht21, Ht22, Ht23⟩
    set_option sl_exec.dmaWindow true in
    set_option sl_exec.dmaWindowSet true in
    sl_exec_parts (disch := first | exact chk_of_lt _ (word_lt arg2 harg2 x0 hin _ _))
    sl_step
    iapply Hk
    isplitl [H2]
    · iexists _; isplitr; · ipureintro; exact harg2.read_unread _
      iexact H2
    isplitl [H3]
    · iexists _; isplitr; · ipureintro; exact harg3.read_unread _
      iexact H3
    isplitl [H5]; · iexists _; iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hhr Ht0 Ht1 Ht2 Ht3 Ht4 Ht5 Ht6 Ht7 Ht8 Ht9 Ht10 Ht11 Ht12 Ht13 Ht14 Ht15 Ht16 Ht17 Ht18 Ht19 Ht20 Ht21 Ht22 Ht23]
    · iapply ((show iprop((hbM.view.loc (c : Thread nD τ) ↦{Transfers.shareDrop fullShare 24} fh) ∗ (hbM.view.loc (c : Thread nD τ) ↦{Transfers.shareTokN fullShare 0} fh) ∗ (hbM.view.loc (c : Thread nD τ) ↦{Transfers.shareTokN fullShare 1} fh) ∗ (hbM.view.loc (c : Thread nD τ) ↦{Transfers.shareTokN fullShare 2} fh) ∗ (hbM.view.loc (c : Thread nD τ) ↦{Transfers.shareTokN fullShare 3} fh) ∗ (hbM.view.loc (c : Thread nD τ) ↦{Transfers.shareTokN fullShare 4} fh) ∗ (hbM.view.loc (c : Thread nD τ) ↦{Transfers.shareTokN fullShare 5} fh) ∗ (hbM.view.loc (c : Thread nD τ) ↦{Transfers.shareTokN fullShare 6} fh) ∗ (hbM.view.loc (c : Thread nD τ) ↦{Transfers.shareTokN fullShare 7} fh) ∗ (hbM.view.loc (c : Thread nD τ) ↦{Transfers.shareTokN fullShare 8} fh) ∗ (hbM.view.loc (c : Thread nD τ) ↦{Transfers.shareTokN fullShare 9} fh) ∗ (hbM.view.loc (c : Thread nD τ) ↦{Transfers.shareTokN fullShare 10} fh) ∗ (hbM.view.loc (c : Thread nD τ) ↦{Transfers.shareTokN fullShare 11} fh) ∗ (hbM.view.loc (c : Thread nD τ) ↦{Transfers.shareTokN fullShare 12} fh) ∗ (hbM.view.loc (c : Thread nD τ) ↦{Transfers.shareTokN fullShare 13} fh) ∗ (hbM.view.loc (c : Thread nD τ) ↦{Transfers.shareTokN fullShare 14} fh) ∗ (hbM.view.loc (c : Thread nD τ) ↦{Transfers.shareTokN fullShare 15} fh) ∗ (hbM.view.loc (c : Thread nD τ) ↦{Transfers.shareTokN fullShare 16} fh) ∗ (hbM.view.loc (c : Thread nD τ) ↦{Transfers.shareTokN fullShare 17} fh) ∗ (hbM.view.loc (c : Thread nD τ) ↦{Transfers.shareTokN fullShare 18} fh) ∗ (hbM.view.loc (c : Thread nD τ) ↦{Transfers.shareTokN fullShare 19} fh) ∗ (hbM.view.loc (c : Thread nD τ) ↦{Transfers.shareTokN fullShare 20} fh) ∗ (hbM.view.loc (c : Thread nD τ) ↦{Transfers.shareTokN fullShare 21} fh) ∗ (hbM.view.loc (c : Thread nD τ) ↦{Transfers.shareTokN fullShare 22} fh) ∗ (hbM.view.loc (c : Thread nD τ) ↦{Transfers.shareTokN fullShare 23} fh)) ⊢ _
          from Entails.of_eq (by rw [BI.bigSep_eq_bigSepL_of_eq ([0, 1, 2, 3, 4, 5, 6, 7, 8, 9, 10, 11, 12, 13, 14, 15, 16, 17, 18, 19, 20, 21, 22, 23] : List ℕ) (by decide) (by decide)]; rfl)).trans
        (Transfers.pointsTo_toks_range (Ix := Unit) (Name := ℕ) (U := Pipeline.UD sig nD τ) (Lvl := ℕ) fullShare 24).2)
      isplitl [Hhr]; · iexact Hhr
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      isplitl [Ht17]; · iexact Ht17
      isplitl [Ht18]; · iexact Ht18
      isplitl [Ht19]; · iexact Ht19
      isplitl [Ht20]; · iexact Ht20
      isplitl [Ht21]; · iexact Ht21
      isplitl [Ht22]; · iexact Ht22
      iexact Ht23
    iexists _; iexact HW

end Cert.Kernel.Hand

end
-- ==== Proof.KDefs.lean ====
import proofs.«400161_j14499809591944_4_alg».proof.Proof.KRun
import Idealize.ShloMosaic.Lib.ValueIdx
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.ValueIdx
open Idealize.SL Idealize.SL.Sem

variable {F : FTy → Type} [FloatOps F]

/-- The table's row under the word w, as the one-row window a copy moves. -/
def tblRow (c : Dev nD) (fh : Buf (Elt F) (hbM.view.loc (c : Thread nD τ))) (w : BitVec 32) (h : w.toNat < 1048576) :
    Vec F S1x1x128 .f32 :=
  fun y => hbM.view.read (Elt F) fh (ix3 (⟨w.toNat, h⟩ : Fin 1048576) (0 : Fin 1) (y 2 : Fin 128))

/-- A copied row in the scratch's format. -/
def narrow (v : Vec F S1x1x128 .f32) : FVec F S1x128 .bf16 :=
  shapeCast S1x128 (truncf .bf16 (shapeCast S128 v shapeCasts_S1x1x128_S128) bitsLt_bf16_f32) shapeCasts_S128_S1x128

/-- The gathered scratch: row t is the narrowed table row under word t of the block x0. -/
def feats (c : Dev nD) (x0 : Vec F S256 .i32) (hin : ∀ j, (x0 j : BitVec 32).toNat < 1048576)
    (fh : Buf (Elt F) (hbM.view.loc (c : Thread nD τ))) : Vec F S256x128 .bf16 :=
  fun j => narrow (tblRow c fh (x0 (ix1 (j 0 : Fin 256))) (hin _)) (ix2 (0 : Fin 1) (j 1 : Fin 128))

/-- The point is the first of its shard. -/
def isFirst (i : grid0.Coords) : Prop :=
  Scalar.cmpi .ne (Scalar.extui (Scalar.cmpi .eq (BitVec.ofNat 32 (i 1).val) 0#32)) 0#32 = 1#1

instance (i : grid0.Coords) : Decidable (isFirst i) := by unfold isFirst; infer_instance

def prev5 (i : grid0.Coords) (y5 : Vec F S1x2048x128 .f32) : Vec F S1x2048x128 .f32 := if isFirst i then k0_pay2 else y5
def prev6 (i : grid0.Coords) (y6 : Vec F S1x2048x1 .f32) : Vec F S1x2048x1 .f32 := if isFirst i then k0_pay3 else y6

/-- The sums accumulator after the point: what it held (zeros at a shard's first point) plus the one-hot product with the gathered rows. -/
def step5 (c : Dev nD) (i : grid0.Coords) (x0 : Vec F S256 .i32) (hin : ∀ j, (x0 j : BitVec 32).toNat < 1048576)
    (x1 : Vec F S256x1 .i32) (y5 : Vec F S1x2048x128 .f32) (fh : Buf (Elt F) (hbM.view.loc (c : Thread nD τ))) :
    Vec F S1x2048x128 .f32 :=
  k0_pay286 x1 (feats c x0 hin fh) (prev5 i y5)

/-- The counts accumulator after the point. -/
def step6 (i : grid0.Coords) (x1 : Vec F S256x1 .i32) (y6 : Vec F S1x2048x1 .f32) : Vec F S1x2048x1 .f32 :=
  k0_pay1 (k0_pay287 x1 (prev6 i y6))

theorem prev5_first (i : grid0.Coords) (h : isFirst i) (y y' : Vec F S1x2048x128 .f32) : prev5 i y = prev5 i y' := by
  unfold prev5; rw [if_pos h, if_pos h]
theorem prev6_first (i : grid0.Coords) (h : isFirst i) (y y' : Vec F S1x2048x1 .f32) : prev6 i y = prev6 i y' := by
  unfold prev6; rw [if_pos h, if_pos h]

theorem step5_first (c : Dev nD) (i : grid0.Coords) (h : isFirst i) (x0 : Vec F S256 .i32) (hin) (x1 : Vec F S256x1 .i32)
    (y y' : Vec F S1x2048x128 .f32) (fh : Buf (Elt F) (hbM.view.loc (c : Thread nD τ))) :
    step5 c i x0 hin x1 y fh = step5 c i x0 hin x1 y' fh := by
  unfold step5; rw [prev5_first i h y y']
theorem step6_first (i : grid0.Coords) (h : isFirst i) (x1 : Vec F S256x1 .i32) (y y' : Vec F S1x2048x1 .f32) :
    step6 i x1 y = step6 i x1 y' := by
  unfold step6; rw [prev6_first i h y y']

theorem val_of_dma (c : Dev nD) (fh : Buf (Elt F) (hbM.view.loc (c : Thread nD τ))) (w x : BitVec 32) (hwx : w = x)
    (hx : x.toNat < 1048576) (p : S1x128.Idx → Elt F .f32)
    (hp : p = fun y : S1x128.Idx => hbM.view.read (Elt F) fh (ix3 (⟨w.toNat, hwx ▸ hx⟩ : Fin 1048576) (0 : Fin 1) (y 1 : Fin 128))) :
    (fun y : S1x1x128.Idx => p (ix2 (0 : Fin 1) (y 2 : Fin 128))) = tblRow c fh x hx := by
  subst hwx; subst hp; rfl

end Cert.Kernel.Hand

end
-- ==== Proof.KSlots.lean ====
import proofs.«400161_j14499809591944_4_alg».proof.Proof.KRun
import Idealize.ShloMosaic.Lib.ValueIdx
import Idealize.ShloMosaic.Lib.ValueLayout
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.ValueIdx
open Idealize.SL Idealize.SL.Sem

variable {F : FTy → Type} [FloatOps F]

/-- A slot other than the one a copy lands in reads what it read before the copy. -/
theorem slot_read_ne (n n' : Nat) (hn : ∀ a, (![n, 0, 0] : Fin 3 → Nat) a + S1x1x128.size a ≤ S16x1x128.size a)
    (hn' : ∀ a, (![n', 0, 0] : Fin 3 → Nat) a + S1x1x128.size a ≤ S16x1x128.size a) (hp' : ∀ a, (Rect.unit (s := S16x1x128) ![n', 0, 0] S1x1x128.size hn').stride a = 1)
    (hne : n ≠ n') (f : scM1.view.ty.Contents (Elt F)) (p : S1x128.Idx → Elt F .f32) :
    View.readAt (Elt F) scM1.view (Rect.unit (s := S16x1x128) ![n, 0, 0] S1x1x128.size hn).toLoadRect
        (View.write (Elt F) ((scM1.slice (Rect.unit (s := S16x1x128) ![n', 0, 0] S1x1x128.size hn') hp').squeeze S1x128 squeezes_S1x1x128_S1x128).view f p Finset.univ)
      = View.readAt (Elt F) scM1.view (Rect.unit (s := S16x1x128) ![n, 0, 0] S1x1x128.size hn).toLoadRect f := by
  funext x
  rw [View.readAt_apply, View.readAt_apply]
  apply View.read_congr_at
  apply View.write_of_not_mem
  intro hm
  obtain ⟨y, _, hy⟩ := Finset.mem_map.mp hm

  have e : (((scM1.slice (Rect.unit (s := S16x1x128) ![n', 0, 0] S1x1x128.size hn') hp').squeeze S1x128 squeezes_S1x1x128_S1x128).view).emb y
      = scM1.view.emb ((Rect.unit (s := S16x1x128) ![n', 0, 0] S1x1x128.size hn').emb (Shape.reshapeEquiv squeezes_S1x1x128_S1x128.numel_eq y)) := rfl
  rw [e] at hy
  have h := scM1.view.emb.injective hy

  have h0 : n' + 1 * ((Shape.reshapeEquiv squeezes_S1x1x128_S1x128.numel_eq y (0 : Fin 3)).val) = n + 1 * (x (0 : Fin 3)).val :=
    congrArg (fun i : S16x1x128.Idx => (i 0 : ℕ)) h
  have hz : (Shape.reshapeEquiv squeezes_S1x1x128_S1x128.numel_eq y (0 : Fin 3)).val < 1 := (Shape.reshapeEquiv squeezes_S1x1x128_S1x128.numel_eq y (0 : Fin 3)).isLt
  have hx : (x (0 : Fin 3)).val < 1 := (x (0 : Fin 3)).isLt
  omega

/-- The slot a copy lands in reads the delivered row. -/
theorem slot_read_eq (n : Nat) (hn hn' : ∀ a, (![n, 0, 0] : Fin 3 → Nat) a + S1x1x128.size a ≤ S16x1x128.size a)
    (hp' : ∀ a, (Rect.unit (s := S16x1x128) ![n, 0, 0] S1x1x128.size hn').stride a = 1)
    (f : scM1.view.ty.Contents (Elt F)) (p : S1x128.Idx → Elt F .f32) :
    View.readAt (Elt F) scM1.view (Rect.unit (s := S16x1x128) ![n, 0, 0] S1x1x128.size hn).toLoadRect
        (View.write (Elt F) ((scM1.slice (Rect.unit (s := S16x1x128) ![n, 0, 0] S1x1x128.size hn') hp').squeeze S1x128 squeezes_S1x1x128_S1x128).view f p Finset.univ)
      = fun y => p (ix2 (0 : Fin 1) (y 2 : Fin 128)) := by
  funext y
  obtain ⟨a, b, l, rfl⟩ : ∃ (a : Fin 1) (b : Fin 1) (l : Fin 128), y = ix3 a b l :=
    ⟨y 0, y 1, y 2, eq_ix3 (n0 := 1) (n1 := 1) (n2 := 128) y⟩
  show scM1.view.read (Elt F) _ ((Rect.unit (s := S16x1x128) ![n, 0, 0] S1x1x128.size hn).toLoadRect.idx (ix3 a b l)) = p (ix2 (0 : Fin 1) l)

  have hr : Shape.reshapeEquiv squeezes_S1x1x128_S1x128.numel_eq (ix2 (0 : Fin 1) l) = ix3 (⟨0, Nat.one_pos⟩ : Fin 1) (0 : Fin 1) l :=
    reshapeEquiv_ix2_1ab (a := 1) (b := 128) squeezes_S1x1x128_S1x128.numel_eq (0 : Fin 1) l

  have hi : (((scM1.slice (Rect.unit (s := S16x1x128) ![n, 0, 0] S1x1x128.size hn') hp').squeeze S1x128 squeezes_S1x1x128_S1x128).view).emb (ix2 (0 : Fin 1) l)
      = scM1.view.emb ((Rect.unit (s := S16x1x128) ![n, 0, 0] S1x1x128.size hn).toLoadRect.idx (ix3 a b l)) := by
    show scM1.view.emb ((Rect.unit (s := S16x1x128) ![n, 0, 0] S1x1x128.size hn').emb
      (Shape.reshapeEquiv squeezes_S1x1x128_S1x128.numel_eq (ix2 (0 : Fin 1) l))) = _
    refine congrArg scM1.view.emb ?_
    refine (congrArg (fun z => (Rect.unit (s := S16x1x128) ![n, 0, 0] S1x1x128.size hn').emb z) hr).trans ?_
    have ha : a.val < 1 := a.isLt
    have hb : b.val < 1 := b.isLt
    funext d
    apply Fin.ext
    rw [Rect.emb_apply, LoadRect.idx_apply]
    match d with
    | ⟨0, _⟩ => show n + 1 * 0 = n + 1 * a.val; omega
    | ⟨1, _⟩ => show 0 + 1 * 0 = 0 + 1 * b.val; omega
    | ⟨2, _⟩ => rfl
  rw [View.read_apply, ← hi, ← View.read_apply, View.read_write_of_mem _ _ (Finset.mem_univ _)]

/-- A copy out of the table's row under the word w delivers that row's entries. -/
theorem dma_row (c : Dev nD) (fh : Buf (Elt F) (hbM.view.loc (c : Thread nD τ))) (w : BitVec 32) (hw : w.toNat < 1048576)
    (hoff : ∀ a, (![w.toNat, 0, 0] : Fin 3 → Nat) a + S1x1x128.size a ≤ S1048576x1x128.size a)
    (hp : ∀ a, (Rect.unit (s := S1048576x1x128) ![w.toNat, 0, 0] S1x1x128.size hoff).stride a = 1) :
    ReadAs.same.apply (View.read (Elt F) ((hbM.slice (Rect.unit (s := S1048576x1x128) ![w.toNat, 0, 0] S1x1x128.size hoff) hp).squeeze S1x128 squeezes_S1x1x128_S1x128).view fh)
      = fun y : S1x128.Idx => hbM.view.read (Elt F) fh (ix3 (⟨w.toNat, hw⟩ : Fin 1048576) (0 : Fin 1) (y 1 : Fin 128)) := by
  rw [ReadAs.apply_same]
  funext y
  obtain ⟨a, l, rfl⟩ : ∃ (a : Fin 1) (l : Fin 128), y = ix2 a l := ⟨y 0, y 1, eq_ix2 (n0 := 1) (n1 := 128) y⟩
  show _ = hbM.view.read (Elt F) fh (ix3 (⟨w.toNat, hw⟩ : Fin 1048576) (0 : Fin 1) l)

  have hr : Shape.reshapeEquiv squeezes_S1x1x128_S1x128.numel_eq (ix2 a l) = ix3 (⟨0, Nat.one_pos⟩ : Fin 1) a l :=
    reshapeEquiv_ix2_1ab (a := 1) (b := 128) squeezes_S1x1x128_S1x128.numel_eq a l
  have hi : (((hbM.slice (Rect.unit (s := S1048576x1x128) ![w.toNat, 0, 0] S1x1x128.size hoff) hp).squeeze S1x128 squeezes_S1x1x128_S1x128).view).emb (ix2 a l)
      = hbM.view.emb (ix3 (⟨w.toNat, hw⟩ : Fin 1048576) (0 : Fin 1) l) := by
    show hbM.view.emb ((Rect.unit (s := S1048576x1x128) ![w.toNat, 0, 0] S1x1x128.size hoff).emb
      (Shape.reshapeEquiv squeezes_S1x1x128_S1x128.numel_eq (ix2 a l))) = _
    refine congrArg hbM.view.emb ?_
    refine (congrArg (fun z => (Rect.unit (s := S1048576x1x128) ![w.toNat, 0, 0] S1x1x128.size hoff).emb z) hr).trans ?_
    have ha : a.val < 1 := a.isLt
    funext d
    apply Fin.ext
    rw [Rect.emb_apply]
    match d with
    | ⟨0, _⟩ => show w.toNat + 1 * 0 = w.toNat; omega
    | ⟨1, _⟩ => show 0 + 1 * a.val = 0; omega
    | ⟨2, _⟩ => show 0 + 1 * l.val = l.val; omega
  rw [View.read_apply, hi, ← View.read_apply]

end Cert.Kernel.Hand

end
-- ==== Proof.KRows.lean ====
import proofs.«400161_j14499809591944_4_alg».proof.Proof.KRun
import Idealize.ShloMosaic.Lib.ValueIdx
import Idealize.ShloMosaic.Lib.Pipeline.Value
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.ValueIdx
open Idealize.SL Idealize.SL.Sem

variable {F : FTy → Type} [FloatOps F]

theorem upd_hit (e : Nat) (he : e < 2) (sl : S2x128.Slices ![e, 0] S1x128)
    (old : S2x128.Idx → Elt F .bf16) (row : S1x128.Idx → Elt F .bf16) (col : Fin 128) :
    updateSlice old row ![e, 0] sl (ix2 (⟨e, he⟩ : Fin 2) col) = row (ix2 (0 : Fin 1) col) := by
  unfold updateSlice
  rw [dif_pos]
  · congr 1
    funext b
    match b with
    | ⟨0, _⟩ => apply Fin.ext; simp
    | ⟨1, _⟩ => apply Fin.ext; simp
  · intro a
    match a with
    | ⟨0, _⟩ => simp
    | ⟨1, _⟩ => simp

theorem upd_miss (e : Nat) (he : e = 1) (sl : S2x128.Slices ![e, 0] S1x128)
    (old : S2x128.Idx → Elt F .bf16) (row : S1x128.Idx → Elt F .bf16) (col : Fin 128) :
    updateSlice old row ![e, 0] sl (ix2 (0 : Fin 2) col) = old (ix2 (0 : Fin 2) col) := by
  subst he
  unfold updateSlice
  rw [dif_neg]
  intro h
  have := (h ⟨0, by decide⟩).1
  simp at this

/-- Row a + k of the scratch is local row k of the pair of rows starting at a. -/
theorem pair_emb (a : Nat) (inb : ∀ q, (![a, 0] : Fin 2 → Nat) q + S2x128.size q ≤ S256x128.size q)
    (k : Fin 2) (r : Nat) (hr : r < 256) (hk : r = a + k.val) (col : Fin 128) :
    (ix2 (⟨r, hr⟩ : Fin 256) col : S256x128.Idx) = (Rect.unit (s := S256x128) ![a, 0] S2x128.size inb).emb (ix2 k col) := by
  funext q
  match q with
  | ⟨0, _⟩ => apply Fin.ext; simp [Rect.emb_apply]; omega
  | ⟨1, _⟩ => apply Fin.ext; simp [Rect.emb_apply]

/-- Rows below n of the scratch, read off the stores L, are G's. -/
def Upto (G : S256x128.Idx → Elt F .bf16) (L : List (View.Piece (Elt F) S256x128 .bf16)) (n : Nat) : Prop :=
  ∀ (r : Fin 256) (col : Fin 128), r.val < n → View.canon L (ix2 r col) = G (ix2 r col)

/-- One more store keeps it: row n of the stored pair is the new row; the pair's other row, when it comes first, is as loaded. -/
theorem Upto.cons {G : S256x128.Idx → Elt F .bf16} {L : List (View.Piece (Elt F) S256x128 .bf16)} {n a e : Nat}
    (hn : n < 256 ∧ a = 2 * (n / 2) ∧ e = n % 2)
    (inb : ∀ q, (![a, 0] : Fin 2 → Nat) q + S2x128.size q ≤ S256x128.size q) (sl : S2x128.Slices ![e, 0] S1x128)
    (old : S2x128.Idx → Elt F .bf16) (row : S1x128.Idx → Elt F .bf16) (hT : Upto G L n)
    (hrow : ∀ col : Fin 128, row (ix2 (0 : Fin 1) col) = G (ix2 (⟨n, hn.1⟩ : Fin 256) col))
    (hold : e = 1 → ∀ col : Fin 128, old (ix2 (0 : Fin 2) col) = View.canon L (ix2 (⟨a, by omega⟩ : Fin 256) col)) :
    Upto G (⟨Rect.unit (s := S256x128) ![a, 0] S2x128.size inb, updateSlice old row ![e, 0] sl⟩ :: L) (n + 1) := by
  intro ⟨r, hr256⟩ col hr
  have hr : r < n + 1 := hr
  have he2 : e < 2 := by omega
  by_cases h1 : r = n
  · subst h1
    refine (congrArg (View.canon _) (pair_emb a inb ⟨e, he2⟩ r hr256 (by simp; omega) col)).trans ?_
    rw [View.canon_cons_emb, upd_hit e he2 sl old row col]
    exact hrow col
  · by_cases h2 : e = 1 ∧ r = a
    · obtain ⟨he1, rfl⟩ := h2
      refine (congrArg (View.canon _) (pair_emb _ inb (0 : Fin 2) _ hr256 (by simp) col)).trans ?_
      rw [View.canon_cons_emb, upd_miss e he1 sl old row col, hold he1 col]
      exact hT _ col (Nat.lt_of_le_of_ne (Nat.le_of_lt_succ hr) h1)
    · rw [View.canon_cons_of_not_mem]
      · exact hT _ col (Nat.lt_of_le_of_ne (Nat.le_of_lt_succ hr) h1)
      · rw [Rect.mem_set_unit]
        intro h
        have := h ⟨0, by decide⟩
        simp at this
        omega

/-- A pair of rows loaded after the stores L reads, at its first row, what the stores left there. -/
theorem pair_readCov (L : List (View.Piece (Elt F) S256x128 .bf16)) (a : Nat) (ha : a + 1 < 256)
    (inb : ∀ q, (![a, 0] : Fin 2 → Nat) q + S2x128.size q ≤ S256x128.size q) (col : Fin 128) :
    scM0.view.readCov L (Rect.unit (s := S256x128) ![a, 0] S2x128.size inb).toLoadRect (ix2 (0 : Fin 2) col)
      = View.canon L (ix2 (⟨a, by omega⟩ : Fin 256) col) := by
  rw [View.readCov_eq_canon']
  exact congrArg (View.canon L) (pair_emb a inb (0 : Fin 2) a (by omega) (by simp) col).symm

theorem whole_readCov (L : List (View.Piece (Elt F) S256x128 .bf16))
    (inb : ∀ q, (![0, 0] : Fin 2 → Nat) q + S256x128.size q ≤ S256x128.size q) (r : Fin 256) (col : Fin 128) :
    scM0.view.readCov L (Rect.unit (s := S256x128) ![0, 0] S256x128.size inb).toLoadRect (ix2 r col) = View.canon L (ix2 r col) := by
  rw [View.readCov_eq_canon']
  refine congrArg (View.canon L) ?_
  funext q
  match q with
  | ⟨0, _⟩ => apply Fin.ext; simp [LoadRect.idx_apply]
  | ⟨1, _⟩ => apply Fin.ext; simp [LoadRect.idx_apply]

/-- Word n of the block of row numbers, as the body reads it. -/
theorem word_eq (arg2 : Memref sig .tc .smem S256 .i32) (harg2 : arg2.IsWhole) (x0 : Vec F S256 .i32) (n : Nat) (hn : n < 256)
    (inb : ∀ q, (![n] : Fin 1 → Nat) q + S1.size q ≤ S256.size q) (j : (Rect.unit (s := S256) ![n] S1.size inb).toLoadRect.shape.Idx) :
    View.readAt (Elt F) arg2.view (Rect.unit (s := S256) ![n] S1.size inb).toLoadRect (harg2.unread x0) j = x0 (ix1 (⟨n, hn⟩ : Fin 256)) := by
  rw [View.readAt_apply, harg2.read_unread]
  refine congrArg x0 ?_
  funext q
  match q with
  | ⟨0, _⟩ =>
    have hj : (j ⟨0, Nat.zero_lt_one⟩).val < 1 := (j ⟨0, Nat.zero_lt_one⟩).isLt
    apply Fin.ext
    simp [LoadRect.idx_apply]
    omega

end Cert.Kernel.Hand

end
-- ==== Proof.KGood.lean ====
import proofs.«400161_j14499809591944_4_alg».proof.Proof.KDefs
import proofs.«400161_j14499809591944_4_alg».proof.Proof.KSlots
import proofs.«400161_j14499809591944_4_alg».proof.Proof.KRows
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.ValueIdx
open Idealize.SL Idealize.SL.Sem

variable {F : FTy → Type} [FloatOps F]

/-- A slot other than the one the last copy landed in reads as it did before that copy. -/
theorem slot_skip {n n' : Nat} {hn : ∀ a, (![n, 0, 0] : Fin 3 → Nat) a + S1x1x128.size a ≤ S16x1x128.size a}
    {hn' : ∀ a, (![n', 0, 0] : Fin 3 → Nat) a + S1x1x128.size a ≤ S16x1x128.size a}
    {hp' : ∀ a, (Rect.unit (s := S16x1x128) ![n', 0, 0] S1x1x128.size hn').stride a = 1}
    {f : scM1.view.ty.Contents (Elt F)} {p : S1x128.Idx → Elt F .f32} {q : Vec F S1x1x128 .f32} (hne : n ≠ n')
    (h : View.readAt (Elt F) scM1.view (Rect.unit (s := S16x1x128) ![n, 0, 0] S1x1x128.size hn).toLoadRect f = q) :
    View.readAt (Elt F) scM1.view (Rect.unit (s := S16x1x128) ![n, 0, 0] S1x1x128.size hn).toLoadRect
        (View.write (Elt F) ((scM1.slice (Rect.unit (s := S16x1x128) ![n', 0, 0] S1x1x128.size hn') hp').squeeze S1x128 squeezes_S1x1x128_S1x128).view f p Finset.univ) = q :=
  (slot_read_ne n n' hn hn' hp' hne f p).trans h

/-- The slot in which the copy of the row under word k of the block landed reads that row of the table. -/
theorem slot_hit {c : Dev nD} {arg2 : Memref sig .tc .smem S256 .i32} {harg2 : arg2.IsWhole} {x0 : Vec F S256 .i32}
    {fh : Buf (Elt F) (hbM.view.loc (c : Thread nD τ))} {hin : ∀ j, (x0 j : BitVec 32).toNat < 1048576} {n k : Nat} {hk : k < 256}
    {hn hn' : ∀ a, (![n, 0, 0] : Fin 3 → Nat) a + S1x1x128.size a ≤ S16x1x128.size a}
    {hp' : ∀ a, (Rect.unit (s := S16x1x128) ![n, 0, 0] S1x1x128.size hn').stride a = 1} {f : scM1.view.ty.Contents (Elt F)}
    {inb : ∀ q, (![k] : Fin 1 → Nat) q + S1.size q ≤ S256.size q} {j : (Rect.unit (s := S256) ![k] S1.size inb).toLoadRect.shape.Idx}
    {hoff : ∀ a, (![(View.readAt (Elt F) arg2.view (Rect.unit (s := S256) ![k] S1.size inb).toLoadRect (harg2.unread x0) j : BitVec 32).toNat, 0, 0] : Fin 3 → Nat) a + S1x1x128.size a ≤ S1048576x1x128.size a}
    {hp : ∀ a, (Rect.unit (s := S1048576x1x128) ![(View.readAt (Elt F) arg2.view (Rect.unit (s := S256) ![k] S1.size inb).toLoadRect (harg2.unread x0) j : BitVec 32).toNat, 0, 0] S1x1x128.size hoff).stride a = 1} :
    View.readAt (Elt F) scM1.view (Rect.unit (s := S16x1x128) ![n, 0, 0] S1x1x128.size hn).toLoadRect
        (View.write (Elt F) ((scM1.slice (Rect.unit (s := S16x1x128) ![n, 0, 0] S1x1x128.size hn') hp').squeeze S1x128 squeezes_S1x1x128_S1x128).view f
          (ReadAs.same.apply (View.read (Elt F) ((hbM.slice (Rect.unit (s := S1048576x1x128) ![(View.readAt (Elt F) arg2.view (Rect.unit (s := S256) ![k] S1.size inb).toLoadRect (harg2.unread x0) j : BitVec 32).toNat, 0, 0] S1x1x128.size hoff) hp).squeeze S1x128 squeezes_S1x1x128_S1x128).view fh))
          Finset.univ)
      = tblRow c fh (x0 (ix1 (⟨k, hk⟩ : Fin 256))) (hin _) :=
  (slot_read_eq n hn hn' hp' f _).trans
    (val_of_dma c fh _ _ (word_eq arg2 harg2 x0 k hk inb j) (hin _) _ (dma_row c fh _ (word_lt arg2 harg2 x0 hin _ _) hoff hp))

/-- Store n keeps the scratch at the gathered rows: the stored row is the table's row under word n, read off its slot. -/
theorem store_ok {c : Dev nD} {x0 : Vec F S256 .i32} {hin : ∀ j, (x0 j : BitVec 32).toNat < 1048576}
    {fh : Buf (Elt F) (hbM.view.loc (c : Thread nD τ))} {L : List (View.Piece (Elt F) S256x128 .bf16)} {n a e s : Nat}
    {inb : ∀ q, (![a, 0] : Fin 2 → Nat) q + S2x128.size q ≤ S256x128.size q} {sl : S2x128.Slices ![e, 0] S1x128}
    {hs : ∀ a, (![s, 0, 0] : Fin 3 → Nat) a + S1x1x128.size a ≤ S16x1x128.size a} {f : scM1.view.ty.Contents (Elt F)}
    {old : S2x128.Idx → Elt F .bf16}
    (hn : n < 256 ∧ a = 2 * (n / 2) ∧ e = n % 2) (hT : Upto (feats c x0 hin fh) L n)
    (hv : View.readAt (Elt F) scM1.view (Rect.unit (s := S16x1x128) ![s, 0, 0] S1x1x128.size hs).toLoadRect f
      = tblRow c fh (x0 (ix1 (⟨n, hn.1⟩ : Fin 256))) (hin _))
    (hold : e = 1 → ∀ col : Fin 128, old (ix2 (0 : Fin 2) col) = View.canon L (ix2 (⟨a, by omega⟩ : Fin 256) col)) :
    Upto (feats c x0 hin fh)
      (⟨Rect.unit (s := S256x128) ![a, 0] S2x128.size inb,
        updateSlice old (narrow (View.readAt (Elt F) scM1.view (Rect.unit (s := S16x1x128) ![s, 0, 0] S1x1x128.size hs).toLoadRect f)) ![e, 0] sl⟩ :: L)
      (n + 1) :=
  Upto.cons hn inb sl _ _ hT (fun col => by rw [hv]; rfl) hold

variable (c : Dev nD) (arg2 : Memref sig .tc .smem S256 .i32) (harg2 : arg2.IsWhole) (x0 : Vec F S256 .i32)
  (d0 : Vec F S256x128 .bf16) (d1 : Vec F S16x1x128 .f32) (fh : Buf (Elt F) (hbM.view.loc (c : Thread nD τ)))
  (hin : ∀ j, (x0 j : BitVec 32).toNat < 1048576)

theorem good_64 : Upto (feats c x0 hin fh) (kernelRun.sl.HS0_64 c arg2 harg2 x0 d0 d1 fh hin) 64 := by
  iterate 64
    refine store_ok (by decide) ?_ (by repeat first | refine slot_skip (by decide) ?_ | exact slot_hit)
      (fun h col => by first | exact absurd h (by decide) | exact pair_readCov _ _ (by omega) _ col)
  exact fun _ _ h => absurd h (Nat.not_lt_zero _)

theorem good_128 : Upto (feats c x0 hin fh) (kernelRun.sl.HS0_128 c arg2 harg2 x0 d0 d1 fh hin) 128 := by
  iterate 64
    refine store_ok (by decide) ?_ (by repeat first | refine slot_skip (by decide) ?_ | exact slot_hit)
      (fun h col => by first | exact absurd h (by decide) | exact pair_readCov _ _ (by omega) _ col)
  exact good_64 c arg2 harg2 x0 d0 d1 fh hin

theorem good_192 : Upto (feats c x0 hin fh) (kernelRun.sl.HS0_192 c arg2 harg2 x0 d0 d1 fh hin) 192 := by
  iterate 64
    refine store_ok (by decide) ?_ (by repeat first | refine slot_skip (by decide) ?_ | exact slot_hit)
      (fun h col => by first | exact absurd h (by decide) | exact pair_readCov _ _ (by omega) _ col)
  exact good_128 c arg2 harg2 x0 d0 d1 fh hin

theorem good_256 : Upto (feats c x0 hin fh) (kernelRun.sl.HS0_256 c arg2 harg2 x0 d0 d1 fh hin) 256 := by
  iterate 64
    refine store_ok (by decide) ?_ (by repeat first | refine slot_skip (by decide) ?_ | exact slot_hit)
      (fun h col => by first | exact absurd h (by decide) | exact pair_readCov _ _ (by omega) _ col)
  exact good_192 c arg2 harg2 x0 d0 d1 fh hin

end Cert.Kernel.Hand

end
-- ==== Proof.KOut.lean ====
import proofs.«400161_j14499809591944_4_alg».proof.Proof.KGood
import proofs.«400161_j14499809591944_4_alg».proof.Proof.KRows

set_option maxRecDepth 16384

noncomputable section

namespace Cert.Kernel.Hand

open Cert.Kernel Cert.Kernel.Gen
open Idealize.ShloMosaic Idealize.ShloMosaic.TcCoe Idealize.ShloMosaic.ValueIdx
open Idealize.SL Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

theorem readAt_whole_unread {sp : Space} {S : Shape} {e : EltTy} (M : Memref sig .tc sp S e) (hM : M.IsWhole)
    {off : Fin S.rank → Nat} (h : off = fun _ => 0) (inb : ∀ a, off a + S.size a ≤ S.size a) (X : S.Idx → Elt F e) :
    View.readAt (Elt F) M.view (Rect.unit off S.size inb).toLoadRect (hM.unread X) = X := by
  show View.ld (M.view.read (Elt F) (hM.unread X)) (Rect.unit off S.size inb) = X
  rw [hM.read_unread, View.ld_unit_zero h]

theorem read_writes_whole {sp : Space} {S : Shape} {e : EltTy} (M : Memref sig .tc sp S e)
    {off : Fin S.rank → Nat} (h : off = fun _ => 0) (inb : ∀ a, off a + S.size a ≤ S.size a)
    (f : M.view.ty.Contents (Elt F)) (w : S.Idx → Elt F e) :
    M.view.read (Elt F) (M.view.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

theorem readAt_writes_whole {sp : Space} {S : Shape} {e : EltTy} (M : Memref sig .tc sp S e)
    {off : Fin S.rank → Nat} (h : off = fun _ => 0) (inb : ∀ a, off a + S.size a ≤ S.size a)
    (f : M.view.ty.Contents (Elt F)) (w : S.Idx → Elt F e) :
    View.readAt (Elt F) M.view (Rect.unit off S.size inb).toLoadRect
      (M.view.writes (Elt F) f [(⟨Rect.unit off S.size inb, w⟩ : View.Piece (Elt F) S e)]) = w := by
  show View.ld (M.view.read (Elt F) (M.view.writes (Elt F) f [(⟨Rect.unit off S.size inb, w⟩ : View.Piece (Elt F) S e)]))
    (Rect.unit off S.size inb) = w
  rw [read_writes_whole M h inb, View.ld_unit_zero h]

variable (c : Dev nD) (i : grid0.Coords)
    (arg2 : Memref sig .tc .smem S256 .i32) (harg2 : arg2.IsWhole) (arg3 : Memref sig .tc .vmem S256x1 .i32) (harg3 : arg3.IsWhole)
    (arg5 : Memref sig .tc .vmem S1x2048x128 .f32) (harg5 : arg5.IsWhole) (arg6 : Memref sig .tc .vmem S1x2048x1 .f32) (harg6 : arg6.IsWhole)
    (x0 : Vec F S256 .i32) (x1 : Vec F S256x1 .i32) (y5 : Vec F S1x2048x128 .f32) (y6 : Vec F S1x2048x1 .f32)
    (d0 : Vec F S256x128 .bf16) (d1 : Vec F S16x1x128 .f32) (fh : Buf (Elt F) (hbM.view.loc (c : Thread nD τ)))
    (hin : ∀ j, (x0 j : BitVec 32).toNat < 1048576)

theorem v2_iff : kernelRun.sl.v2 i = 1#1 ↔ isFirst i := Iff.rfl

/-- The scratch as loaded after the 256 stores is the gathered rows. -/
theorem v4875_eq : kernelRun.sl.v4875 c arg2 harg2 x0 d0 d1 fh hin = feats c x0 hin fh := by
  funext j
  obtain ⟨r, col, rfl⟩ : ∃ (r : Fin 256) (col : Fin 128), j = ix2 r col := ⟨j 0, j 1, eq_ix2 j⟩
  unfold kernelRun.sl.v4875
  rw [whole_readCov]
  exact good_256 c arg2 harg2 x0 d0 d1 fh hin r col r.isLt

theorem v4879_eq : kernelRun.sl.v4879 c i arg5 harg5 y5 = prev5 i y5 := by
  unfold kernelRun.sl.v4879 prev5
  by_cases hc : isFirst i
  · rw [dif_pos ((v2_iff i).mpr hc), if_pos hc]
    exact readAt_writes_whole arg5 zeros3 _ _ _
  · rw [dif_neg (fun h => hc ((v2_iff i).mp h)), if_neg hc]
    exact readAt_whole_unread arg5 harg5 zeros3 _ _

theorem v4885_eq : kernelRun.sl.v4885 c i arg6 harg6 y6 = prev6 i y6 := by
  unfold kernelRun.sl.v4885 prev6
  by_cases hc : isFirst i
  · rw [dif_pos ((v2_iff i).mpr hc), if_pos hc]
    exact readAt_writes_whole arg6 zeros3 _ _ _
  · rw [dif_neg (fun h => hc ((v2_iff i).mp h)), if_neg hc]
    exact readAt_whole_unread arg6 harg6 zeros3 _ _

theorem run_pieces5 :
    (kernelRun c i arg2 harg2 arg3 harg3 arg5 harg5 arg6 harg6 x0 x1 y5 y6 d0 d1 fh hin).1
      = [⟨Rect.unit ![0, 0, 0] S1x2048x128.size inb_S1x2048x128_S1x2048x128_0_0_0,
          k0_pay286 (View.readAt (Elt F) arg3.view (Rect.unit ![0, 0] S256x1.size inb_S256x1_S256x1_0_0).toLoadRect (harg3.unread x1))
            (kernelRun.sl.v4875 c arg2 harg2 x0 d0 d1 fh hin) (kernelRun.sl.v4879 c i arg5 harg5 y5)⟩] := rfl

theorem run_pieces6 :
    (kernelRun c i arg2 harg2 arg3 harg3 arg5 harg5 arg6 harg6 x0 x1 y5 y6 d0 d1 fh hin).2.1
      = [⟨Rect.unit ![0, 0, 0] S1x2048x1.size inb_S1x2048x1_S1x2048x1_0_0_0,
          k0_pay1 (kernelRun.sl.r_281 c i arg3 harg3 arg6 harg6 x1 y6)⟩] := rfl

/-- The pieces written to the sums accumulator read back as step5, whatever the scratch and the slots held. -/
theorem out5_eq (f : arg5.view.ty.Contents (Elt F)) :
    arg5.view.read (Elt F) (arg5.view.writes (Elt F) f (kernelRun c i arg2 harg2 arg3 harg3 arg5 harg5 arg6 harg6 x0 x1 y5 y6 d0 d1 fh hin).1)
      = step5 c i x0 hin x1 y5 fh := by
  rw [run_pieces5, read_writes_whole arg5 zeros3, readAt_whole_unread arg3 harg3 zeros2, v4875_eq, v4879_eq]
  rfl

/-- The pieces written to the counts accumulator read back as step6. -/
theorem out6_eq (f : arg6.view.ty.Contents (Elt F)) :
    arg6.view.read (Elt F) (arg6.view.writes (Elt F) f (kernelRun c i arg2 harg2 arg3 harg3 arg5 harg5 arg6 harg6 x0 x1 y5 y6 d0 d1 fh hin).2.1)
      = step6 i x1 y6 := by
  rw [run_pieces6, read_writes_whole arg6 zeros3]
  unfold kernelRun.sl.r_281
  rw [readAt_whole_unread arg3 harg3 zeros2, v4885_eq]
  rfl

end Cert.Kernel.Hand

end
-- ==== Proof.KFrame.lean ====
import proofs.«400161_j14499809591944_4_alg».proof.Proof.KOut
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

abbrev ms0 (t : Fin cfg0.N) : Memref sig .tc .smem S256 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1 .f32 := win0_3.stage (cfg0.slots t 3)
abbrev hs3 (t : Fin cfg0.N) : (ms3 t).IsWhole := hstage0_3 ((cfg0.slots t 3).cast nbuf0_3)

abbrev blk0 (c : Dev nD) (t : Fin cfg0.N) : Vec F S256 .i32 := iblk m c 0 t
abbrev blk1 (c : Dev nD) (t : Fin cfg0.N) : Vec F S256x1 .i32 := iblk m c 1 t
abbrev tbl (c : Dev nD) : Buf (Elt F) (hbM.view.loc (c : Thread nD τ)) := V m c main_v2

/-- Every row number of every block names a row of the table. -/
def Hyps : Prop := ∀ (c : Dev nD) (t : Fin cfg0.N) (j : S256.Idx), (blk0 m c t j : BitVec 32).toNat < 1048576

abbrev osem : Fin 16 → SemLoc sig := fun j => (![SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23] : Fin 16 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) := by
  rw [Pipeline.ownSems0_eq_of_list c osem [0, 1, 2, 3, 4, 5, 6, 7, 8, 9, 10, 11, 12, 13, 14, 15] (by decide) (by decide)]; rfl
def H0 : Finset (Ref sig .tc) := {main_v2}
theorem H0_sub : H0 ⊆ Pipeline.restRefs sig spec0 := by decide
theorem hbmPts_eq (c : Dev nD) :
    (bigSep H0 (fun b => ((c : Thread nD τ).loc b) ↦{fullShare} V m c b) : sProp 𝕄) = iprop(hbPt c (tbl m c)) := by
  rw [BI.bigSep_eq_bigSepL_of_eq [main_v2] (by decide) (by decide)]; rfl

theorem PhiD_eq (c : Dev nD) :
    (Pipeline.ΦD osem spec0 H0 (V m) c : sProp 𝕄)
      = iprop(iprop((∃ d, owns (c : Thread nD τ) scM0 fullShare d) ∗ (∃ d, owns (c : Thread nD τ) scM1 fullShare d)) ∗ (∃ r, prngReg c r)
          ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) ∗ iprop(hbPt c (tbl m c))) := by
  rw [Pipeline.ΦD_eq, scopedRest0_eq, ownSems_eq, hbmPts_eq]; simp only [scM0, scM1, owns_whole]; try rfl

variable (hH : Hyps m)

/-- The two accumulators after point n: the step at n over what point n - 1 left. -/
def outs (c : Dev nD) : (n : ℕ) → n < cfg0.N → Vec F S1x2048x128 .f32 × Vec F S1x2048x1 .f32
  | 0, hn => (step5 c (grid0.coords ⟨0, hn⟩) (blk0 m c ⟨0, hn⟩) (hH c ⟨0, hn⟩) (blk1 m c ⟨0, hn⟩) k0_pay2 (tbl m c),
      step6 (grid0.coords ⟨0, hn⟩) (blk1 m c ⟨0, hn⟩) k0_pay3)
  | n + 1, hn =>
    (step5 c (grid0.coords ⟨n + 1, hn⟩) (blk0 m c ⟨n + 1, hn⟩) (hH c ⟨n + 1, hn⟩) (blk1 m c ⟨n + 1, hn⟩) (outs c n (Nat.lt_of_succ_lt hn)).1 (tbl m c),
      step6 (grid0.coords ⟨n + 1, hn⟩) (blk1 m c ⟨n + 1, hn⟩) (outs c n (Nat.lt_of_succ_lt hn)).2)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outs m hH c t.val t.isLt).1
    | ⟨3, _⟩ => (outs m hH c t.val t.isLt).2
  Φ _ := Pipeline.ΦD osem spec0 H0 (V m) c
  q _ := fullShare
  owed _ := 0

theorem A_eq (c : Dev nD) (w : Fin cfg0.W) : (dats m hH 0 c).A w = V m c (Pipeline.arrRef spec0 w) := by
  dsimp only [dats]

theorem after0 (c : Dev nD) (t : Fin cfg0.N) : (dats m hH 0 c).after 0 t = iblk m c 0 t := by dsimp only [dats]
theorem after1 (c : Dev nD) (t : Fin cfg0.N) : (dats m hH 0 c).after 1 t = iblk m c 1 t := by dsimp only [dats]
theorem after2 (c : Dev nD) (t : Fin cfg0.N) : (dats m hH 0 c).after 2 t = (outs m hH c t.val t.isLt).1 := by dsimp only [dats]
theorem after3 (c : Dev nD) (t : Fin cfg0.N) : (dats m hH 0 c).after 3 t = (outs m hH c t.val t.isLt).2 := by dsimp only [dats]

theorem before0 (c : Dev nD) (t : Fin cfg0.N) (d) : (dats m hH 0 c).before 0 t d = iblk m c 0 t :=
  ((dats m hH 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m hH 0 c).before 1 t d = iblk m c 1 t :=
  ((dats m hH 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

theorem first_iff : ∀ t : Fin cfg0.N, isFirst (grid0.coords t) ↔ t.val % 2048 = 0 :=
  (by decide +kernel : ∀ t : Fin grid0.N, isFirst (grid0.coords t) ↔ t.val % 2048 = 0)

theorem before2_kept (c : Dev nD) (t : Fin cfg0.N) (h0 : ¬t.val % 2048 = 0) (d) :
    (dats m hH 0 c).before 2 t d = (outs m hH c (t.val - 1) (Nat.lt_of_le_of_lt (Nat.sub_le _ _) t.isLt)).1 := by
  have hN : t.val < 4096 := lt_of_lt_of_eq t.isLt (show cfg0.N = 4096 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_kept (c : Dev nD) (t : Fin cfg0.N) (h0 : ¬t.val % 2048 = 0) (d) :
    (dats m hH 0 c).before 3 t d = (outs m hH c (t.val - 1) (Nat.lt_of_le_of_lt (Nat.sub_le _ _) t.isLt)).2 := by
  have hN : t.val < 4096 := lt_of_lt_of_eq t.isLt (show cfg0.N = 4096 from N_0)
  rw [Dat.before_out_kept _ 3 rfl t (by omega) (Bool.eq_false_iff.mpr fun h => by have := (flush0_3 _).mp h; dsimp only at this; omega)
    (fun _ => rfl) (fun _ _ => rfl)]
  dsimp only [dats]

theorem step5_after (c : Dev nD) (t : Fin cfg0.N) (d) :
    step5 c (grid0.coords t) (blk0 m c t) (hH c t) (blk1 m c t) ((dats m hH 0 c).before 2 t d) (tbl m c)
      = (outs m hH c t.val t.isLt).1 := by
  by_cases h0 : t.val % 2048 = 0
  · have hf := (first_iff t).mpr h0
    obtain ⟨n, hn⟩ := t
    cases n with
    | zero => exact step5_first c _ hf _ _ _ _ _ _
    | succ n => exact step5_first c _ hf _ _ _ _ _ _
  · rw [before2_kept m hH c t h0]
    obtain ⟨n, hn⟩ := t
    cases n with
    | zero => exact absurd (Nat.zero_mod _) h0
    | succ n => rfl
theorem step6_after (c : Dev nD) (t : Fin cfg0.N) (d) :
    step6 (grid0.coords t) (blk1 m c t) ((dats m hH 0 c).before 3 t d) = (outs m hH c t.val t.isLt).2 := by
  by_cases h0 : t.val % 2048 = 0
  · have hf := (first_iff t).mpr h0
    obtain ⟨n, hn⟩ := t
    cases n with
    | zero => exact step6_first _ hf _ _ _
    | succ n => exact step6_first _ hf _ _ _
  · rw [before3_kept m hH c t h0]
    obtain ⟨n, hn⟩ := t
    cases n with
    | zero => exact absurd (Nat.zero_mod _) h0
    | succ n => rfl

def bodyPre (c : Dev nD) (t : Fin cfg0.N) : sProp 𝕄 :=
  iprop((dats m hH 0 c).Φ t.castSucc ∗ (dats m hH 0 c).owesAt () t.castSucc
    ∗ (∃ d, owns (c : Thread nD τ) (ms0 t) fullShare ((dats m hH 0 c).before 0 t d))
    ∗ (∃ d, owns (c : Thread nD τ) (ms1 t) fullShare ((dats m hH 0 c).before 1 t d))
    ∗ (∃ d, owns (c : Thread nD τ) (ms2 t) fullShare ((dats m hH 0 c).before 2 t d))
    ∗ (∃ d, owns (c : Thread nD τ) (ms3 t) fullShare ((dats m hH 0 c).before 3 t d)))

def bodyPost (c : Dev nD) (t : Fin cfg0.N) : sProp 𝕄 :=
  iprop((dats m hH 0 c).Φ t.succ ∗ (dats m hH 0 c).owesAt () t.succ
    ∗ owns (c : Thread nD τ) (ms0 t) fullShare ((dats m hH 0 c).after 0 t)
    ∗ owns (c : Thread nD τ) (ms1 t) fullShare ((dats m hH 0 c).after 1 t)
    ∗ owns (c : Thread nD τ) (ms2 t) fullShare ((dats m hH 0 c).after 2 t)
    ∗ owns (c : Thread nD τ) (ms3 t) fullShare ((dats m hH 0 c).after 3 t))

set_option maxHeartbeats 1600000 in
/-- The body at point t takes what the windows hold before t to what they hold after t. -/
theorem sound_body (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0, before1]
  rw [show (dats m hH 0 c).Φ t.succ = (dats m hH 0 c).Φ t.castSucc from rfl, after0, after1, after2, after3]
  rw [show (dats m hH 0 c).Φ t.castSucc = Pipeline.ΦD osem spec0 H0 (V m) c from rfl, PhiD_eq]
  unfold Dat.owesAt Pipeline.owesWithin
  rw [show (dats m hH 0 c).owed t.castSucc = 0 from rfl, show (dats m hH 0 c).owed t.succ = 0 from rfl]
  iintro ⟨⟨⟨⟨%d0, HS0⟩, ⟨%d1, HS1⟩⟩, Hg, ⟨Hq8, Hq9, Hq10, Hq11, Hq12, Hq13, Hq14, Hq15, Hq16, Hq17, Hq18, Hq19, Hq20, Hq21, Hq22, Hq23⟩, Hh⟩, ⟨%W, -, HW⟩, ⟨%e0, H0⟩, ⟨%e1, H1⟩, ⟨%e2, H2⟩, ⟨%e3, H3⟩⟩
  iapply ((kernelRun c (grid0.coords t) (ms0 t) (hs0 t) (ms1 t) (hs1 t) (ms2 t) (hs2 t) (ms3 t) (hs3 t) (blk0 m c t) (blk1 m c t)
      ((dats m hH 0 c).before 2 t e2) ((dats m hH 0 c).before 3 t e3) d0 d1 (tbl m c) (hH c t)).2.2 W _)
  iframe H0 H1 H2 H3 HS0 HS1 Hq8 Hq9 Hq10 Hq11 Hq12 Hq13 Hq14 Hq15 Hq16 Hq17 Hq18 Hq19 Hq20 Hq21 Hq22 Hq23 Hh HW
  iintro ⟨H0, H1, ⟨%f5, H2⟩, ⟨%f6, H3⟩, HS0, HS1, Hq8, Hq9, Hq10, Hq11, Hq12, Hq13, Hq14, Hq15, Hq16, Hq17, Hq18, Hq19, Hq20, Hq21, Hq22, Hq23, Hh, ⟨%W', HW'⟩⟩
  iframe HS0 HS1 Hg Hq8 Hq9 Hq10 Hq11 Hq12 Hq13 Hq14 Hq15 Hq16 Hq17 Hq18 Hq19 Hq20 Hq21 Hq22 Hq23 Hh
  isplitl [HW']
  · iexists W'; isplitr; · ipureintro; exact fun _ _ => Or.inl trivial
    iexact HW'
  iframe H0 H1
  isplitl [H2]
  · unfold owns; iexists _; isplitr
    swap; · iexact H2
    ipureintro; exact (out5_eq c _ _ _ _ _ _ _ _ _ _ _ _ _ _ _ _ _ _).trans (step5_after m hH c t e2)
  unfold owns; iexists _; isplitr
  swap; · iexact H3
  ipureintro; exact (out6_eq c _ _ _ _ _ _ _ _ _ _ _ _ _ _ _ _ _ _).trans (step6_after m hH c t e3)

theorem body_obligation (c : Dev nD) : BodyObligation (dats (F := F) m hH 0 c) (defs₀ (F := F)) Variants.none () Set.univ := fun t => by
  rw [bigSep_W0, bigSep_W0]
  exact sound_body m hH c t

theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  intro b hb
  simp only [H0, Finset.mem_singleton] at hb
  subst hb
  simp only [hostOps1, List.mem_cons, List.mem_nil_iff, or_false] at hop
  rcases hop with rfl | rfl | rfl | rfl | rfl | rfl | rfl | rfl | rfl | rfl | rfl | rfl | rfl | rfl | rfl
  all_goals simp only [StableHlo.nullary_bufs, StableHlo.unary_bufs, StableHlo.binary_bufs, StableHlo.ternary_bufs, StableHlo.reshape_bufs, Finset.mem_insert, Finset.mem_singleton, not_or] <;> (repeat' constructor) <;> exact StableHlo.devRef_ne_of_ne (by decide)

set_option backward.isDefEq.respectTransparency.types false in
theorem run_main : θ_run defs (onTc (τ := τ) (main (F := F))) (s₀ m ρ)
    (Pipeline.FramePost cfgs (dats m hH) 0 (Pipeline.afterTail₀ cfgs (dats m hH) 0 (V0 m) [hostOps1])) :=
  Pipeline.θ_run_frame_dma_around cfgs (dats m hH) (0 : Fin 1) launch0 osem defs₀ Variants.none ownSemFacts H0 H0_sub m ρ main
    (hbody := fun c => (body_obligation m hH c).loose) (hshare := fun c => (dats m hH 0 c).share_full fun _ => rfl)
    (howed := fun _ _ => rfl) (V₀ := V0 m) (opss := [hostOps1]) (hsub := sfx_subD) (hfresh := sfx_fresh) (hkeep := sfx_keeps)
    (hmain := hmainD m Variants.none) (hA := A_eq m hH)
    (hin := fun _ => .rfl) (hout := fun _ => .rfl)

theorem W_arg0D (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_arg1D (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem args_kept (r) (h : Pipeline.FramePost cfgs (dats m hH) 0 (Pipeline.afterTail₀ cfgs (dats m hH) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(((h c).2 main_arg0 (Pipeline.mem_restRefs_of main_arg0 (by decide) (by decide))).trans (W_arg0D m (dats m hH) c)),
    (((h c).2 main_arg1 (Pipeline.mem_restRefs_of main_arg1 (by decide) (by decide))).trans (W_arg1D m (dats m hH) c)),
    ((h c).1 0).trans ((((dats m hH) 0 c).arrAt_in 0 rfl _).trans ((A_eq m hH c 0).trans (V_main_arg2 m c)))⟩

theorem result_kept (r) (h : Pipeline.FramePost cfgs (dats m hH) 0 (Pipeline.afterTail₀ cfgs (dats m hH) 0 (V0 m) [hostOps1]) r) (c : Dev nD) :
    r.2.mem ((c.tc : Thread nD τ).loc main_v17) = Pipeline.afterTail₀ cfgs (dats m hH) 0 (V0 m) [hostOps1] c main_v17 :=
  (h c).2 main_v17 (Pipeline.mem_restRefs_of main_v17 (by decide) (by decide))

include hH in

/-- The program runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_kept m hH r h c) (run_main m ρ hH)

end Cert.Kernel.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SX : Shape := ⟨2, ![1048576, 64]⟩
abbrev SP : Shape := ⟨1, ![1048576]⟩
abbrev SR : Shape := ⟨2, ![2048, 64]⟩

/-- Pixel p carries label k. -/
def hit (seg : SP.Idx → BitVec 32) (k : Fin 2048) (p : Fin 1048576) : Prop :=
  seg (ix1 p) = BitVec.ofNat 32 k.val

instance (seg : SP.Idx → BitVec 32) (k : Fin 2048) (p : Fin 1048576) : Decidable (hit seg k p) := by
  unfold hit; infer_instance

/-- Every row number names a row of the table. -/
def InRange (coor : SP.Idx → BitVec 32) : Prop :=
  ∀ p : Fin 1048576, (coor (ix1 p)).toNat < 1048576

def entry (X : SX.Idx → EReal) (w : BitVec 32) (c : Fin 64) : EReal :=
  if h : w.toNat < 1048576 then X (ix2 ⟨w.toNat, h⟩ c) else 0

/-- The sum over bin k's pixels of their rows' entries at channel c. -/
def num (X : SX.Idx → EReal) (seg coor : SP.Idx → BitVec 32) (k : Fin 2048) (c : Fin 64) : EReal :=
  ∑ p : Fin 1048576, if hit seg k p then entry X (coor (ix1 p)) c else 0

/-- The number of bin k's pixels. -/
def cnt (seg : SP.Idx → BitVec 32) (k : Fin 2048) : EReal :=
  ∑ p : Fin 1048576, if hit seg k p then (1 : EReal) else 0

/-- The result: each bin's mean, an empty bin's divisor one. -/
def G (X : SX.Idx → EReal) (seg coor : SP.Idx → BitVec 32) : SR.Idx → EReal :=
  fun j => Ideal.div (num X seg coor (j 0) (j 1)) (max (cnt seg (j 0)) 1)

theorem G_ix2 (X : SX.Idx → EReal) (seg coor : SP.Idx → BitVec 32) (k : Fin 2048) (c : Fin 64) :
    G X seg coor (ix2 k c) = Ideal.div (num X seg coor k c) (max (cnt seg k) 1) := rfl

end Cert.Spec

end
-- ==== Proof.KBlocks.lean ====
import proofs.«400161_j14499809591944_4_alg».proof.Proof.KFrame
import proofs.«400161_j14499809591944_4_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.ValueIdx
open Idealize.SL Idealize.SL.Sem

def pix (t : Fin cfg0.N) (it : Fin 256) : Fin 1048576 :=
  ⟨256 * t.val + it.val, by have := t.isLt; have h : cfg0.N = 4096 := N_0; omega⟩

theorem idx0 : ∀ t : Fin cfg0.N, win0_0.index t (0 : Fin 1) = t.val :=
  (by decide +kernel : ∀ t : Fin grid0.N, win0_0.index t (0 : Fin 1) = t.val)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

section HostReads
variable {F : FTy → Type} [FloatOps F] (m : (ℓ : Loc nD τ sig) → Buf (Elt F) ℓ)

theorem V_main_v0_apply (c : Dev nD) (p : Fin 1048576) :
    (V m c main_v0 : S1048576x1.Idx → BitVec 32) (ix2 p (0 : Fin 1)) = (m ((c : Thread nD τ).loc main_arg1) : Cert.Spec.SP.Idx → BitVec 32) (ix1 p) := by
  dsimp only [V, V0]
  simp only [hostOps0, hostOps0_1, hostOps0_2, List.flatten_cons, List.flatten_nil, List.append_nil, List.cons_append, List.nil_append]
  after_results
  show shapeCast S1048576x1 (m ((c : Thread nD τ).loc main_arg1) : S1048576.Idx → BitVec 32) _ (ix2 p (0 : Fin 1)) = _
  exact shapeCast_apply _ _ _ (ix1 p) (by rw [Shape.rowMajor_val_two, Shape.rowMajor_val_one]; show p.val = p.val * 1 + 0; omega)

end HostReads

section AnyInstance

variable {F : FTy → Type} [FloatOps F] (m : (ℓ : Loc nD τ sig) → Buf (Elt F) ℓ)

abbrev argSeg (c : Dev nD) : Cert.Spec.SP.Idx → BitVec 32 := m ((c : Thread nD τ).loc main_arg1)
abbrev argCoor (c : Dev nD) : Cert.Spec.SP.Idx → BitVec 32 := m ((c : Thread nD τ).loc main_arg2)

theorem blk0_apply (c : Dev nD) (t : Fin cfg0.N) (j : Fin 256) :
    (blk0 m c t (ix1 j) : BitVec 32) = argCoor m c (ix1 (pix t j)) := by
  show V m c main_arg2 (((cfg0.win 0).blk t).view.emb (ix1 j)) = m ((c : Thread nD τ).loc main_arg2) (ix1 (pix t j))
  rw [V_main_arg2]
  refine congrArg _ ?_
  funext a; apply Fin.ext
  match a with
  | ⟨0, _⟩ => show win0_0.index t (0 : Fin 1) * 256 + 1 * j.val = 256 * t.val + j.val; rw [idx0 t]; omega

theorem blk1_apply (c : Dev nD) (t : Fin cfg0.N) (j : Fin 256) :
    (blk1 m c t (ix2 j (0 : Fin 1)) : BitVec 32) = argSeg m c (ix1 (pix t j)) := by
  show V m c main_v0 (((cfg0.win 1).blk t).view.emb (ix2 j (0 : Fin 1))) = _
  have e : ((cfg0.win 1).blk t).view.emb (ix2 j (0 : Fin 1)) = ix2 (pix t j) (0 : Fin 1) := by
    funext a; apply Fin.ext
    match a with
    | ⟨0, _⟩ => show win0_1.index t (0 : Fin 2) * 256 + 1 * j.val = 256 * t.val + j.val; rw [(idx1 t).1]; omega
    | ⟨1, _⟩ => show win0_1.index t (1 : Fin 2) * 1 + 1 * 0 = 0; rw [(idx1 t).2]
  rw [e]
  exact V_main_v0_apply m c (pix t j)

/-- Row numbers in range of the table give the frame's hypothesis on every block. -/
theorem hyps_of_inRange (h : ∀ c : Dev nD, Cert.Spec.InRange (argCoor m c)) : Hyps m := by
  intro c t j
  obtain ⟨j0, rfl⟩ : ∃ j0 : Fin 256, j = ix1 j0 := ⟨j 0, eq_ix1 j⟩
  rw [blk0_apply]
  exact h c (pix t j0)

end AnyInstance

end Cert.Kernel.Hand

end
-- ==== Proof.KIRun.lean ====
import proofs.«400161_j14499809591944_4_alg».proof.Proof.Gen.KernelIdeal.Frame
import proofs.«400161_j14499809591944_4_alg».proof.Proof.Gen.KernelIdeal.Skeleton
import Idealize.ShloMosaic.Lib.Transfers
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev hbM : Memref sig .tc .hbm S1048576x1x128 .f32 := Memref.whole main_v2
abbrev scM0 : Memref sig .tc .vmem S256x128 .bf16 := Memref.whole cc0_scratch0
abbrev scM1 : Memref sig .tc .vmem S16x1x128 .f32 := Memref.whole cc0_scratch1

abbrev hbPt (c : Dev nD) (f : Buf (Elt F) (hbM.view.loc (c : Thread nD τ))) : sProp 𝕄 :=
  hbM.view.loc (c : Thread nD τ) ↦{fullShare} f

/-- A word below 1048576 names a row: a one-row window at that row lies inside the table. -/
theorem chk_of_lt (v : BitVec 32) (h : v.toNat < 1048576) :
    ∀ a : Fin 3, (![v.toNat, 0, 0] : Fin 3 → Nat) a + S1x1x128.size a ≤ S1048576x1x128.size a := by
  intro a; fin_cases a <;> simp [Shape.size] <;> omega

theorem word_lt (arg2 : Memref sig .tc .smem S256 .i32) (harg2 : arg2.IsWhole) (x0 : Vec F S256 .i32)
    (hin : ∀ j, (x0 j : BitVec 32).toNat < 1048576) (r : LoadRect S256) (x : r.shape.Idx) :
    (arg2.view.readAt (Elt F) r (harg2.unread x0) x : BitVec 32).toNat < 1048576 := by
  rw [View.readAt_apply, harg2.read_unread]; exact hin _

set_option maxHeartbeats 8000000 in

/-- The body at one grid point, from the two input blocks x0 and x1, the accumulators at y5 and y6, the scratch and the slots at d0 and d1 and the table at fh: it runs to the end, keeps the inputs and the table, and returns the pieces written to each accumulator. -/
noncomputable def kernelRun (c : Dev nD) (i : grid0.Coords)
    (arg2 : Memref sig .tc .smem S256 .i32) (harg2 : arg2.IsWhole) (arg3 : Memref sig .tc .vmem S256x1 .i32) (harg3 : arg3.IsWhole)
    (arg5 : Memref sig .tc .vmem S1x2048x128 .f32) (harg5 : arg5.IsWhole) (arg6 : Memref sig .tc .vmem S1x2048x1 .f32) (harg6 : arg6.IsWhole)
    (x0 : Vec F S256 .i32) (x1 : Vec F S256x1 .i32) (y5 : Vec F S1x2048x128 .f32) (y6 : Vec F S1x2048x1 .f32)
    (d0 : Vec F S256x128 .bf16) (d1 : Vec F S16x1x128 .f32)
    (fh : Buf (Elt F) (hbM.view.loc (c : Thread nD τ)))
    (hin : ∀ j, (x0 j : BitVec 32).toNat < 1048576) :
    (L5 : List (View.Piece (Elt F) S1x2048x128 .f32)) ×' (L6 : List (View.Piece (Elt F) S1x2048x1 .f32)) ×'
      (∀ (W : Waits sig Unit) (K : PUnit → sProp 𝕄),
        iprop(owns (c : Thread nD τ) arg2 fullShare x0 ∗ owns (c : Thread nD τ) arg3 fullShare x1
            ∗ owns (c : Thread nD τ) arg5 fullShare y5 ∗ owns (c : Thread nD τ) arg6 fullShare y6
            ∗ owns (c : Thread nD τ) scM0 fullShare d0 ∗ owns (c : Thread nD τ) scM1 fullShare d1
            ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0
            ∗ hbPt c fh ∗ owes (c : Thread nD τ) 0 W
            ∗ (iprop(owns (c : Thread nD τ) arg2 fullShare x0 ∗ owns (c : Thread nD τ) arg3 fullShare x1
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ d, owns (c : Thread nD τ) scM0 fullShare d) ∗ (∃ d, owns (c : Thread nD τ) scM1 fullShare d)
                ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0
                ∗ hbPt c fh ∗ (∃ W', owes (c : Thread nD τ) 0 W')) -∗ K ⟨⟩))
          ⊢ wp frame (wpE (defs₀ (F := F)) Variants.none c none) Set.univ
              (cc0__kernel i arg2 harg2 arg3 harg3 hbM (Memref.isWhole_whole _) arg5 harg5 arg6 harg6 scM0 (Memref.isWhole_whole _) scM1 (Memref.isWhole_whole _) cc0_scratch2) K) := by
  refine ⟨?_, ?_, fun W K => ?run⟩
  case run =>
    simp only [cc0__kernel_eq_skeleton]; unfold cc0__kernel_skel
    unfold owns hbPt
    iintro ⟨⟨%f2, %hf2, H2⟩, ⟨%f3, %hf3, H3⟩, ⟨%f5, %hf5, H5⟩, ⟨%f6, %hf6, H6⟩, ⟨%fs0, %hfs0, HS0⟩, ⟨%fs1, %hfs1, HS1⟩, Hq8, Hq9, Hq10, Hq11, Hq12, Hq13, Hq14, Hq15, Hq16, Hq17, Hq18, Hq19, Hq20, Hq21, Hq22, Hq23, Hh, HW, Hk⟩
    obtain rfl := harg2.eq_unread hf2
    obtain rfl := harg3.eq_unread hf3
    obtain rfl := harg5.eq_unread hf5
    obtain rfl := harg6.eq_unread hf6
    obtain rfl := (Memref.isWhole_whole cc0_scratch0).eq_unread hfs0
    obtain rfl := (Memref.isWhole_whole cc0_scratch1).eq_unread hfs1

    ihave Hh' := ((Transfers.pointsTo_toks_range (Ix := Unit) (Name := ℕ) (U := Pipeline.UD sig nD τ) (Lvl := ℕ) fullShare 24).1.trans
      (show _ ⊢ iprop((hbM.view.loc (c : Thread nD τ) ↦{Transfers.shareDrop fullShare 24} fh) ∗ (hbM.view.loc (c : Thread nD τ) ↦{Transfers.shareTokN fullShare 0} fh) ∗ (hbM.view.loc (c : Thread nD τ) ↦{Transfers.shareTokN fullShare 1} fh) ∗ (hbM.view.loc (c : Thread nD τ) ↦{Transfers.shareTokN fullShare 2} fh) ∗ (hbM.view.loc (c : Thread nD τ) ↦{Transfers.shareTokN fullShare 3} fh) ∗ (hbM.view.loc (c : Thread nD τ) ↦{Transfers.shareTokN fullShare 4} fh) ∗ (hbM.view.loc (c : Thread nD τ) ↦{Transfers.shareTokN fullShare 5} fh) ∗ (hbM.view.loc (c : Thread nD τ) ↦{Transfers.shareTokN fullShare 6} fh) ∗ (hbM.view.loc (c : Thread nD τ) ↦{Transfers.shareTokN fullShare 7} fh) ∗ (hbM.view.loc (c : Thread nD τ) ↦{Transfers.shareTokN fullShare 8} fh) ∗ (hbM.view.loc (c : Thread nD τ) ↦{Transfers.shareTokN fullShare 9} fh) ∗ (hbM.view.loc (c : Thread nD τ) ↦{Transfers.shareTokN fullShare 10} fh) ∗ (hbM.view.loc (c : Thread nD τ) ↦{Transfers.shareTokN fullShare 11} fh) ∗ (hbM.view.loc (c : Thread nD τ) ↦{Transfers.shareTokN fullShare 12} fh) ∗ (hbM.view.loc (c : Thread nD τ) ↦{Transfers.shareTokN fullShare 13} fh) ∗ (hbM.view.loc (c : Thread nD τ) ↦{Transfers.shareTokN fullShare 14} fh) ∗ (hbM.view.loc (c : Thread nD τ) ↦{Transfers.shareTokN fullShare 15} fh) ∗ (hbM.view.loc (c : Thread nD τ) ↦{Transfers.shareTokN fullShare 16} fh) ∗ (hbM.view.loc (c : Thread nD τ) ↦{Transfers.shareTokN fullShare 17} fh) ∗ (hbM.view.loc (c : Thread nD τ) ↦{Transfers.shareTokN fullShare 18} fh) ∗ (hbM.view.loc (c : Thread nD τ) ↦{Transfers.shareTokN fullShare 19} fh) ∗ (hbM.view.loc (c : Thread nD τ) ↦{Transfers.shareTokN fullShare 20} fh) ∗ (hbM.view.loc (c : Thread nD τ) ↦{Transfers.shareTokN fullShare 21} fh) ∗ (hbM.view.loc (c : Thread nD τ) ↦{Transfers.shareTokN fullShare 22} fh) ∗ (hbM.view.loc (c : Thread nD τ) ↦{Transfers.shareTokN fullShare 23} fh))
        from Entails.of_eq (by rw [BI.bigSep_eq_bigSepL_of_eq ([0, 1, 2, 3, 4, 5, 6, 7, 8, 9, 10, 11, 12, 13, 14, 15, 16, 17, 18, 19, 20, 21, 22, 23] : List ℕ) (by decide) (by decide)]; rfl))) $$ Hh
    icases Hh' with ⟨Hhr, Ht0, Ht1, Ht2, Ht3, Ht4, Ht5, Ht6, Ht7, Ht8, Ht9, Ht10, Ht11, Ht12, Ht13, Ht14, Ht15, Ht16, Ht17, Ht18, Ht19, Ht20, Ht21, Ht22, Ht23⟩
    set_option sl_exec.dmaWindow true in
    set_option sl_exec.dmaWindowSet true in
    sl_exec_parts (disch := first | exact chk_of_lt _ (word_lt arg2 harg2 x0 hin _ _))
    sl_step
    iapply Hk
    isplitl [H2]
    · iexists _; isplitr; · ipureintro; exact harg2.read_unread _
      iexact H2
    isplitl [H3]
    · iexists _; isplitr; · ipureintro; exact harg3.read_unread _
      iexact H3
    isplitl [H5]; · iexists _; iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hhr Ht0 Ht1 Ht2 Ht3 Ht4 Ht5 Ht6 Ht7 Ht8 Ht9 Ht10 Ht11 Ht12 Ht13 Ht14 Ht15 Ht16 Ht17 Ht18 Ht19 Ht20 Ht21 Ht22 Ht23]
    · iapply ((show iprop((hbM.view.loc (c : Thread nD τ) ↦{Transfers.shareDrop fullShare 24} fh) ∗ (hbM.view.loc (c : Thread nD τ) ↦{Transfers.shareTokN fullShare 0} fh) ∗ (hbM.view.loc (c : Thread nD τ) ↦{Transfers.shareTokN fullShare 1} fh) ∗ (hbM.view.loc (c : Thread nD τ) ↦{Transfers.shareTokN fullShare 2} fh) ∗ (hbM.view.loc (c : Thread nD τ) ↦{Transfers.shareTokN fullShare 3} fh) ∗ (hbM.view.loc (c : Thread nD τ) ↦{Transfers.shareTokN fullShare 4} fh) ∗ (hbM.view.loc (c : Thread nD τ) ↦{Transfers.shareTokN fullShare 5} fh) ∗ (hbM.view.loc (c : Thread nD τ) ↦{Transfers.shareTokN fullShare 6} fh) ∗ (hbM.view.loc (c : Thread nD τ) ↦{Transfers.shareTokN fullShare 7} fh) ∗ (hbM.view.loc (c : Thread nD τ) ↦{Transfers.shareTokN fullShare 8} fh) ∗ (hbM.view.loc (c : Thread nD τ) ↦{Transfers.shareTokN fullShare 9} fh) ∗ (hbM.view.loc (c : Thread nD τ) ↦{Transfers.shareTokN fullShare 10} fh) ∗ (hbM.view.loc (c : Thread nD τ) ↦{Transfers.shareTokN fullShare 11} fh) ∗ (hbM.view.loc (c : Thread nD τ) ↦{Transfers.shareTokN fullShare 12} fh) ∗ (hbM.view.loc (c : Thread nD τ) ↦{Transfers.shareTokN fullShare 13} fh) ∗ (hbM.view.loc (c : Thread nD τ) ↦{Transfers.shareTokN fullShare 14} fh) ∗ (hbM.view.loc (c : Thread nD τ) ↦{Transfers.shareTokN fullShare 15} fh) ∗ (hbM.view.loc (c : Thread nD τ) ↦{Transfers.shareTokN fullShare 16} fh) ∗ (hbM.view.loc (c : Thread nD τ) ↦{Transfers.shareTokN fullShare 17} fh) ∗ (hbM.view.loc (c : Thread nD τ) ↦{Transfers.shareTokN fullShare 18} fh) ∗ (hbM.view.loc (c : Thread nD τ) ↦{Transfers.shareTokN fullShare 19} fh) ∗ (hbM.view.loc (c : Thread nD τ) ↦{Transfers.shareTokN fullShare 20} fh) ∗ (hbM.view.loc (c : Thread nD τ) ↦{Transfers.shareTokN fullShare 21} fh) ∗ (hbM.view.loc (c : Thread nD τ) ↦{Transfers.shareTokN fullShare 22} fh) ∗ (hbM.view.loc (c : Thread nD τ) ↦{Transfers.shareTokN fullShare 23} fh)) ⊢ _
          from Entails.of_eq (by rw [BI.bigSep_eq_bigSepL_of_eq ([0, 1, 2, 3, 4, 5, 6, 7, 8, 9, 10, 11, 12, 13, 14, 15, 16, 17, 18, 19, 20, 21, 22, 23] : List ℕ) (by decide) (by decide)]; rfl)).trans
        (Transfers.pointsTo_toks_range (Ix := Unit) (Name := ℕ) (U := Pipeline.UD sig nD τ) (Lvl := ℕ) fullShare 24).2)
      isplitl [Hhr]; · iexact Hhr
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      isplitl [Ht17]; · iexact Ht17
      isplitl [Ht18]; · iexact Ht18
      isplitl [Ht19]; · iexact Ht19
      isplitl [Ht20]; · iexact Ht20
      isplitl [Ht21]; · iexact Ht21
      isplitl [Ht22]; · iexact Ht22
      iexact Ht23
    iexists _; iexact HW

end Cert.KernelIdeal.Hand

end
-- ==== Proof.KIDefs.lean ====
import proofs.«400161_j14499809591944_4_alg».proof.Proof.KIRun
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

/-- The table's row under the word w, as the one-row window a copy moves. -/
def tblRow (c : Dev nD) (fh : Buf (Elt F) (hbM.view.loc (c : Thread nD τ))) (w : BitVec 32) (h : w.toNat < 1048576) :
    Vec F S1x1x128 .f32 :=
  fun y => hbM.view.read (Elt F) fh (ix3 (⟨w.toNat, h⟩ : Fin 1048576) (0 : Fin 1) (y 2 : Fin 128))

/-- A copied row in the scratch's format. -/
def narrow (v : Vec F S1x1x128 .f32) : FVec F S1x128 .bf16 :=
  shapeCast S1x128 (truncf .bf16 (shapeCast S128 v shapeCasts_S1x1x128_S128) bitsLt_bf16_f32) shapeCasts_S128_S1x128

/-- The gathered scratch: row t is the narrowed table row under word t of the block x0. -/
def feats (c : Dev nD) (x0 : Vec F S256 .i32) (hin : ∀ j, (x0 j : BitVec 32).toNat < 1048576)
    (fh : Buf (Elt F) (hbM.view.loc (c : Thread nD τ))) : Vec F S256x128 .bf16 :=
  fun j => narrow (tblRow c fh (x0 (ix1 (j 0 : Fin 256))) (hin _)) (ix2 (0 : Fin 1) (j 1 : Fin 128))

/-- The point is the first of its shard. -/
def isFirst (i : grid0.Coords) : Prop :=
  Scalar.cmpi .ne (Scalar.extui (Scalar.cmpi .eq (BitVec.ofNat 32 (i 1).val) 0#32)) 0#32 = 1#1

instance (i : grid0.Coords) : Decidable (isFirst i) := by unfold isFirst; infer_instance

def prev5 (i : grid0.Coords) (y5 : Vec F S1x2048x128 .f32) : Vec F S1x2048x128 .f32 := if isFirst i then k0_pay2 else y5
def prev6 (i : grid0.Coords) (y6 : Vec F S1x2048x1 .f32) : Vec F S1x2048x1 .f32 := if isFirst i then k0_pay3 else y6

/-- The sums accumulator after the point: what it held (zeros at a shard's first point) plus the one-hot product with the gathered rows. -/
def step5 (c : Dev nD) (i : grid0.Coords) (x0 : Vec F S256 .i32) (hin : ∀ j, (x0 j : BitVec 32).toNat < 1048576)
    (x1 : Vec F S256x1 .i32) (y5 : Vec F S1x2048x128 .f32) (fh : Buf (Elt F) (hbM.view.loc (c : Thread nD τ))) :
    Vec F S1x2048x128 .f32 :=
  k0_pay286 x1 (feats c x0 hin fh) (prev5 i y5)

/-- The counts accumulator after the point. -/
def step6 (i : grid0.Coords) (x1 : Vec F S256x1 .i32) (y6 : Vec F S1x2048x1 .f32) : Vec F S1x2048x1 .f32 :=
  k0_pay1 (k0_pay287 x1 (prev6 i y6))

theorem prev5_first (i : grid0.Coords) (h : isFirst i) (y y' : Vec F S1x2048x128 .f32) : prev5 i y = prev5 i y' := by
  unfold prev5; rw [if_pos h, if_pos h]
theorem prev6_first (i : grid0.Coords) (h : isFirst i) (y y' : Vec F S1x2048x1 .f32) : prev6 i y = prev6 i y' := by
  unfold prev6; rw [if_pos h, if_pos h]

theorem step5_first (c : Dev nD) (i : grid0.Coords) (h : isFirst i) (x0 : Vec F S256 .i32) (hin) (x1 : Vec F S256x1 .i32)
    (y y' : Vec F S1x2048x128 .f32) (fh : Buf (Elt F) (hbM.view.loc (c : Thread nD τ))) :
    step5 c i x0 hin x1 y fh = step5 c i x0 hin x1 y' fh := by
  unfold step5; rw [prev5_first i h y y']
theorem step6_first (i : grid0.Coords) (h : isFirst i) (x1 : Vec F S256x1 .i32) (y y' : Vec F S1x2048x1 .f32) :
    step6 i x1 y = step6 i x1 y' := by
  unfold step6; rw [prev6_first i h y y']

theorem val_of_dma (c : Dev nD) (fh : Buf (Elt F) (hbM.view.loc (c : Thread nD τ))) (w x : BitVec 32) (hwx : w = x)
    (hx : x.toNat < 1048576) (p : S1x128.Idx → Elt F .f32)
    (hp : p = fun y : S1x128.Idx => hbM.view.read (Elt F) fh (ix3 (⟨w.toNat, hwx ▸ hx⟩ : Fin 1048576) (0 : Fin 1) (y 1 : Fin 128))) :
    (fun y : S1x1x128.Idx => p (ix2 (0 : Fin 1) (y 2 : Fin 128))) = tblRow c fh x hx := by
  subst hwx; subst hp; rfl

end Cert.KernelIdeal.Hand

end
-- ==== Proof.KISlots.lean ====
import proofs.«400161_j14499809591944_4_alg».proof.Proof.KIRun
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

/-- A slot other than the one a copy lands in reads what it read before the copy. -/
theorem slot_read_ne (n n' : Nat) (hn : ∀ a, (![n, 0, 0] : Fin 3 → Nat) a + S1x1x128.size a ≤ S16x1x128.size a)
    (hn' : ∀ a, (![n', 0, 0] : Fin 3 → Nat) a + S1x1x128.size a ≤ S16x1x128.size a) (hp' : ∀ a, (Rect.unit (s := S16x1x128) ![n', 0, 0] S1x1x128.size hn').stride a = 1)
    (hne : n ≠ n') (f : scM1.view.ty.Contents (Elt F)) (p : S1x128.Idx → Elt F .f32) :
    View.readAt (Elt F) scM1.view (Rect.unit (s := S16x1x128) ![n, 0, 0] S1x1x128.size hn).toLoadRect
        (View.write (Elt F) ((scM1.slice (Rect.unit (s := S16x1x128) ![n', 0, 0] S1x1x128.size hn') hp').squeeze S1x128 squeezes_S1x1x128_S1x128).view f p Finset.univ)
      = View.readAt (Elt F) scM1.view (Rect.unit (s := S16x1x128) ![n, 0, 0] S1x1x128.size hn).toLoadRect f := by
  funext x
  rw [View.readAt_apply, View.readAt_apply]
  apply View.read_congr_at
  apply View.write_of_not_mem
  intro hm
  obtain ⟨y, _, hy⟩ := Finset.mem_map.mp hm

  have e : (((scM1.slice (Rect.unit (s := S16x1x128) ![n', 0, 0] S1x1x128.size hn') hp').squeeze S1x128 squeezes_S1x1x128_S1x128).view).emb y
      = scM1.view.emb ((Rect.unit (s := S16x1x128) ![n', 0, 0] S1x1x128.size hn').emb (Shape.reshapeEquiv squeezes_S1x1x128_S1x128.numel_eq y)) := rfl
  rw [e] at hy
  have h := scM1.view.emb.injective hy

  have h0 : n' + 1 * ((Shape.reshapeEquiv squeezes_S1x1x128_S1x128.numel_eq y (0 : Fin 3)).val) = n + 1 * (x (0 : Fin 3)).val :=
    congrArg (fun i : S16x1x128.Idx => (i 0 : ℕ)) h
  have hz : (Shape.reshapeEquiv squeezes_S1x1x128_S1x128.numel_eq y (0 : Fin 3)).val < 1 := (Shape.reshapeEquiv squeezes_S1x1x128_S1x128.numel_eq y (0 : Fin 3)).isLt
  have hx : (x (0 : Fin 3)).val < 1 := (x (0 : Fin 3)).isLt
  omega

/-- The slot a copy lands in reads the delivered row. -/
theorem slot_read_eq (n : Nat) (hn hn' : ∀ a, (![n, 0, 0] : Fin 3 → Nat) a + S1x1x128.size a ≤ S16x1x128.size a)
    (hp' : ∀ a, (Rect.unit (s := S16x1x128) ![n, 0, 0] S1x1x128.size hn').stride a = 1)
    (f : scM1.view.ty.Contents (Elt F)) (p : S1x128.Idx → Elt F .f32) :
    View.readAt (Elt F) scM1.view (Rect.unit (s := S16x1x128) ![n, 0, 0] S1x1x128.size hn).toLoadRect
        (View.write (Elt F) ((scM1.slice (Rect.unit (s := S16x1x128) ![n, 0, 0] S1x1x128.size hn') hp').squeeze S1x128 squeezes_S1x1x128_S1x128).view f p Finset.univ)
      = fun y => p (ix2 (0 : Fin 1) (y 2 : Fin 128)) := by
  funext y
  obtain ⟨a, b, l, rfl⟩ : ∃ (a : Fin 1) (b : Fin 1) (l : Fin 128), y = ix3 a b l :=
    ⟨y 0, y 1, y 2, eq_ix3 (n0 := 1) (n1 := 1) (n2 := 128) y⟩
  show scM1.view.read (Elt F) _ ((Rect.unit (s := S16x1x128) ![n, 0, 0] S1x1x128.size hn).toLoadRect.idx (ix3 a b l)) = p (ix2 (0 : Fin 1) l)

  have hr : Shape.reshapeEquiv squeezes_S1x1x128_S1x128.numel_eq (ix2 (0 : Fin 1) l) = ix3 (⟨0, Nat.one_pos⟩ : Fin 1) (0 : Fin 1) l :=
    reshapeEquiv_ix2_1ab (a := 1) (b := 128) squeezes_S1x1x128_S1x128.numel_eq (0 : Fin 1) l

  have hi : (((scM1.slice (Rect.unit (s := S16x1x128) ![n, 0, 0] S1x1x128.size hn') hp').squeeze S1x128 squeezes_S1x1x128_S1x128).view).emb (ix2 (0 : Fin 1) l)
      = scM1.view.emb ((Rect.unit (s := S16x1x128) ![n, 0, 0] S1x1x128.size hn).toLoadRect.idx (ix3 a b l)) := by
    show scM1.view.emb ((Rect.unit (s := S16x1x128) ![n, 0, 0] S1x1x128.size hn').emb
      (Shape.reshapeEquiv squeezes_S1x1x128_S1x128.numel_eq (ix2 (0 : Fin 1) l))) = _
    refine congrArg scM1.view.emb ?_
    refine (congrArg (fun z => (Rect.unit (s := S16x1x128) ![n, 0, 0] S1x1x128.size hn').emb z) hr).trans ?_
    have ha : a.val < 1 := a.isLt
    have hb : b.val < 1 := b.isLt
    funext d
    apply Fin.ext
    rw [Rect.emb_apply, LoadRect.idx_apply]
    match d with
    | ⟨0, _⟩ => show n + 1 * 0 = n + 1 * a.val; omega
    | ⟨1, _⟩ => show 0 + 1 * 0 = 0 + 1 * b.val; omega
    | ⟨2, _⟩ => rfl
  rw [View.read_apply, ← hi, ← View.read_apply, View.read_write_of_mem _ _ (Finset.mem_univ _)]

/-- A copy out of the table's row under the word w delivers that row's entries. -/
theorem dma_row (c : Dev nD) (fh : Buf (Elt F) (hbM.view.loc (c : Thread nD τ))) (w : BitVec 32) (hw : w.toNat < 1048576)
    (hoff : ∀ a, (![w.toNat, 0, 0] : Fin 3 → Nat) a + S1x1x128.size a ≤ S1048576x1x128.size a)
    (hp : ∀ a, (Rect.unit (s := S1048576x1x128) ![w.toNat, 0, 0] S1x1x128.size hoff).stride a = 1) :
    ReadAs.same.apply (View.read (Elt F) ((hbM.slice (Rect.unit (s := S1048576x1x128) ![w.toNat, 0, 0] S1x1x128.size hoff) hp).squeeze S1x128 squeezes_S1x1x128_S1x128).view fh)
      = fun y : S1x128.Idx => hbM.view.read (Elt F) fh (ix3 (⟨w.toNat, hw⟩ : Fin 1048576) (0 : Fin 1) (y 1 : Fin 128)) := by
  rw [ReadAs.apply_same]
  funext y
  obtain ⟨a, l, rfl⟩ : ∃ (a : Fin 1) (l : Fin 128), y = ix2 a l := ⟨y 0, y 1, eq_ix2 (n0 := 1) (n1 := 128) y⟩
  show _ = hbM.view.read (Elt F) fh (ix3 (⟨w.toNat, hw⟩ : Fin 1048576) (0 : Fin 1) l)

  have hr : Shape.reshapeEquiv squeezes_S1x1x128_S1x128.numel_eq (ix2 a l) = ix3 (⟨0, Nat.one_pos⟩ : Fin 1) a l :=
    reshapeEquiv_ix2_1ab (a := 1) (b := 128) squeezes_S1x1x128_S1x128.numel_eq a l
  have hi : (((hbM.slice (Rect.unit (s := S1048576x1x128) ![w.toNat, 0, 0] S1x1x128.size hoff) hp).squeeze S1x128 squeezes_S1x1x128_S1x128).view).emb (ix2 a l)
      = hbM.view.emb (ix3 (⟨w.toNat, hw⟩ : Fin 1048576) (0 : Fin 1) l) := by
    show hbM.view.emb ((Rect.unit (s := S1048576x1x128) ![w.toNat, 0, 0] S1x1x128.size hoff).emb
      (Shape.reshapeEquiv squeezes_S1x1x128_S1x128.numel_eq (ix2 a l))) = _
    refine congrArg hbM.view.emb ?_
    refine (congrArg (fun z => (Rect.unit (s := S1048576x1x128) ![w.toNat, 0, 0] S1x1x128.size hoff).emb z) hr).trans ?_
    have ha : a.val < 1 := a.isLt
    funext d
    apply Fin.ext
    rw [Rect.emb_apply]
    match d with
    | ⟨0, _⟩ => show w.toNat + 1 * 0 = w.toNat; omega
    | ⟨1, _⟩ => show 0 + 1 * a.val = 0; omega
    | ⟨2, _⟩ => show 0 + 1 * l.val = l.val; omega
  rw [View.read_apply, hi, ← View.read_apply]

end Cert.KernelIdeal.Hand

end
-- ==== Proof.KIRows.lean ====
import proofs.«400161_j14499809591944_4_alg».proof.Proof.KIRun
import Idealize.ShloMosaic.Lib.ValueIdx
import Idealize.ShloMosaic.Lib.Pipeline.Value
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

theorem upd_hit (e : Nat) (he : e < 2) (sl : S2x128.Slices ![e, 0] S1x128)
    (old : S2x128.Idx → Elt F .bf16) (row : S1x128.Idx → Elt F .bf16) (col : Fin 128) :
    updateSlice old row ![e, 0] sl (ix2 (⟨e, he⟩ : Fin 2) col) = row (ix2 (0 : Fin 1) col) := by
  unfold updateSlice
  rw [dif_pos]
  · congr 1
    funext b
    match b with
    | ⟨0, _⟩ => apply Fin.ext; simp
    | ⟨1, _⟩ => apply Fin.ext; simp
  · intro a
    match a with
    | ⟨0, _⟩ => simp
    | ⟨1, _⟩ => simp

theorem upd_miss (e : Nat) (he : e = 1) (sl : S2x128.Slices ![e, 0] S1x128)
    (old : S2x128.Idx → Elt F .bf16) (row : S1x128.Idx → Elt F .bf16) (col : Fin 128) :
    updateSlice old row ![e, 0] sl (ix2 (0 : Fin 2) col) = old (ix2 (0 : Fin 2) col) := by
  subst he
  unfold updateSlice
  rw [dif_neg]
  intro h
  have := (h ⟨0, by decide⟩).1
  simp at this

/-- Row a + k of the scratch is local row k of the pair of rows starting at a. -/
theorem pair_emb (a : Nat) (inb : ∀ q, (![a, 0] : Fin 2 → Nat) q + S2x128.size q ≤ S256x128.size q)
    (k : Fin 2) (r : Nat) (hr : r < 256) (hk : r = a + k.val) (col : Fin 128) :
    (ix2 (⟨r, hr⟩ : Fin 256) col : S256x128.Idx) = (Rect.unit (s := S256x128) ![a, 0] S2x128.size inb).emb (ix2 k col) := by
  funext q
  match q with
  | ⟨0, _⟩ => apply Fin.ext; simp [Rect.emb_apply]; omega
  | ⟨1, _⟩ => apply Fin.ext; simp [Rect.emb_apply]

/-- Rows below n of the scratch, read off the stores L, are G's. -/
def Upto (G : S256x128.Idx → Elt F .bf16) (L : List (View.Piece (Elt F) S256x128 .bf16)) (n : Nat) : Prop :=
  ∀ (r : Fin 256) (col : Fin 128), r.val < n → View.canon L (ix2 r col) = G (ix2 r col)

/-- One more store keeps it: row n of the stored pair is the new row; the pair's other row, when it comes first, is as loaded. -/
theorem Upto.cons {G : S256x128.Idx → Elt F .bf16} {L : List (View.Piece (Elt F) S256x128 .bf16)} {n a e : Nat}
    (hn : n < 256 ∧ a = 2 * (n / 2) ∧ e = n % 2)
    (inb : ∀ q, (![a, 0] : Fin 2 → Nat) q + S2x128.size q ≤ S256x128.size q) (sl : S2x128.Slices ![e, 0] S1x128)
    (old : S2x128.Idx → Elt F .bf16) (row : S1x128.Idx → Elt F .bf16) (hT : Upto G L n)
    (hrow : ∀ col : Fin 128, row (ix2 (0 : Fin 1) col) = G (ix2 (⟨n, hn.1⟩ : Fin 256) col))
    (hold : e = 1 → ∀ col : Fin 128, old (ix2 (0 : Fin 2) col) = View.canon L (ix2 (⟨a, by omega⟩ : Fin 256) col)) :
    Upto G (⟨Rect.unit (s := S256x128) ![a, 0] S2x128.size inb, updateSlice old row ![e, 0] sl⟩ :: L) (n + 1) := by
  intro ⟨r, hr256⟩ col hr
  have hr : r < n + 1 := hr
  have he2 : e < 2 := by omega
  by_cases h1 : r = n
  · subst h1
    refine (congrArg (View.canon _) (pair_emb a inb ⟨e, he2⟩ r hr256 (by simp; omega) col)).trans ?_
    rw [View.canon_cons_emb, upd_hit e he2 sl old row col]
    exact hrow col
  · by_cases h2 : e = 1 ∧ r = a
    · obtain ⟨he1, rfl⟩ := h2
      refine (congrArg (View.canon _) (pair_emb _ inb (0 : Fin 2) _ hr256 (by simp) col)).trans ?_
      rw [View.canon_cons_emb, upd_miss e he1 sl old row col, hold he1 col]
      exact hT _ col (Nat.lt_of_le_of_ne (Nat.le_of_lt_succ hr) h1)
    · rw [View.canon_cons_of_not_mem]
      · exact hT _ col (Nat.lt_of_le_of_ne (Nat.le_of_lt_succ hr) h1)
      · rw [Rect.mem_set_unit]
        intro h
        have := h ⟨0, by decide⟩
        simp at this
        omega

/-- A pair of rows loaded after the stores L reads, at its first row, what the stores left there. -/
theorem pair_readCov (L : List (View.Piece (Elt F) S256x128 .bf16)) (a : Nat) (ha : a + 1 < 256)
    (inb : ∀ q, (![a, 0] : Fin 2 → Nat) q + S2x128.size q ≤ S256x128.size q) (col : Fin 128) :
    scM0.view.readCov L (Rect.unit (s := S256x128) ![a, 0] S2x128.size inb).toLoadRect (ix2 (0 : Fin 2) col)
      = View.canon L (ix2 (⟨a, by omega⟩ : Fin 256) col) := by
  rw [View.readCov_eq_canon']
  exact congrArg (View.canon L) (pair_emb a inb (0 : Fin 2) a (by omega) (by simp) col).symm

theorem whole_readCov (L : List (View.Piece (Elt F) S256x128 .bf16))
    (inb : ∀ q, (![0, 0] : Fin 2 → Nat) q + S256x128.size q ≤ S256x128.size q) (r : Fin 256) (col : Fin 128) :
    scM0.view.readCov L (Rect.unit (s := S256x128) ![0, 0] S256x128.size inb).toLoadRect (ix2 r col) = View.canon L (ix2 r col) := by
  rw [View.readCov_eq_canon']
  refine congrArg (View.canon L) ?_
  funext q
  match q with
  | ⟨0, _⟩ => apply Fin.ext; simp [LoadRect.idx_apply]
  | ⟨1, _⟩ => apply Fin.ext; simp [LoadRect.idx_apply]

/-- Word n of the block of row numbers, as the body reads it. -/
theorem word_eq (arg2 : Memref sig .tc .smem S256 .i32) (harg2 : arg2.IsWhole) (x0 : Vec F S256 .i32) (n : Nat) (hn : n < 256)
    (inb : ∀ q, (![n] : Fin 1 → Nat) q + S1.size q ≤ S256.size q) (j : (Rect.unit (s := S256) ![n] S1.size inb).toLoadRect.shape.Idx) :
    View.readAt (Elt F) arg2.view (Rect.unit (s := S256) ![n] S1.size inb).toLoadRect (harg2.unread x0) j = x0 (ix1 (⟨n, hn⟩ : Fin 256)) := by
  rw [View.readAt_apply, harg2.read_unread]
  refine congrArg x0 ?_
  funext q
  match q with
  | ⟨0, _⟩ =>
    have hj : (j ⟨0, Nat.zero_lt_one⟩).val < 1 := (j ⟨0, Nat.zero_lt_one⟩).isLt
    apply Fin.ext
    simp [LoadRect.idx_apply]
    omega

end Cert.KernelIdeal.Hand

end
-- ==== Proof.KIGood.lean ====
import proofs.«400161_j14499809591944_4_alg».proof.Proof.KIDefs
import proofs.«400161_j14499809591944_4_alg».proof.Proof.KISlots
import proofs.«400161_j14499809591944_4_alg».proof.Proof.KIRows
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

/-- A slot other than the one the last copy landed in reads as it did before that copy. -/
theorem slot_skip {n n' : Nat} {hn : ∀ a, (![n, 0, 0] : Fin 3 → Nat) a + S1x1x128.size a ≤ S16x1x128.size a}
    {hn' : ∀ a, (![n', 0, 0] : Fin 3 → Nat) a + S1x1x128.size a ≤ S16x1x128.size a}
    {hp' : ∀ a, (Rect.unit (s := S16x1x128) ![n', 0, 0] S1x1x128.size hn').stride a = 1}
    {f : scM1.view.ty.Contents (Elt F)} {p : S1x128.Idx → Elt F .f32} {q : Vec F S1x1x128 .f32} (hne : n ≠ n')
    (h : View.readAt (Elt F) scM1.view (Rect.unit (s := S16x1x128) ![n, 0, 0] S1x1x128.size hn).toLoadRect f = q) :
    View.readAt (Elt F) scM1.view (Rect.unit (s := S16x1x128) ![n, 0, 0] S1x1x128.size hn).toLoadRect
        (View.write (Elt F) ((scM1.slice (Rect.unit (s := S16x1x128) ![n', 0, 0] S1x1x128.size hn') hp').squeeze S1x128 squeezes_S1x1x128_S1x128).view f p Finset.univ) = q :=
  (slot_read_ne n n' hn hn' hp' hne f p).trans h

/-- The slot in which the copy of the row under word k of the block landed reads that row of the table. -/
theorem slot_hit {c : Dev nD} {arg2 : Memref sig .tc .smem S256 .i32} {harg2 : arg2.IsWhole} {x0 : Vec F S256 .i32}
    {fh : Buf (Elt F) (hbM.view.loc (c : Thread nD τ))} {hin : ∀ j, (x0 j : BitVec 32).toNat < 1048576} {n k : Nat} {hk : k < 256}
    {hn hn' : ∀ a, (![n, 0, 0] : Fin 3 → Nat) a + S1x1x128.size a ≤ S16x1x128.size a}
    {hp' : ∀ a, (Rect.unit (s := S16x1x128) ![n, 0, 0] S1x1x128.size hn').stride a = 1} {f : scM1.view.ty.Contents (Elt F)}
    {inb : ∀ q, (![k] : Fin 1 → Nat) q + S1.size q ≤ S256.size q} {j : (Rect.unit (s := S256) ![k] S1.size inb).toLoadRect.shape.Idx}
    {hoff : ∀ a, (![(View.readAt (Elt F) arg2.view (Rect.unit (s := S256) ![k] S1.size inb).toLoadRect (harg2.unread x0) j : BitVec 32).toNat, 0, 0] : Fin 3 → Nat) a + S1x1x128.size a ≤ S1048576x1x128.size a}
    {hp : ∀ a, (Rect.unit (s := S1048576x1x128) ![(View.readAt (Elt F) arg2.view (Rect.unit (s := S256) ![k] S1.size inb).toLoadRect (harg2.unread x0) j : BitVec 32).toNat, 0, 0] S1x1x128.size hoff).stride a = 1} :
    View.readAt (Elt F) scM1.view (Rect.unit (s := S16x1x128) ![n, 0, 0] S1x1x128.size hn).toLoadRect
        (View.write (Elt F) ((scM1.slice (Rect.unit (s := S16x1x128) ![n, 0, 0] S1x1x128.size hn') hp').squeeze S1x128 squeezes_S1x1x128_S1x128).view f
          (ReadAs.same.apply (View.read (Elt F) ((hbM.slice (Rect.unit (s := S1048576x1x128) ![(View.readAt (Elt F) arg2.view (Rect.unit (s := S256) ![k] S1.size inb).toLoadRect (harg2.unread x0) j : BitVec 32).toNat, 0, 0] S1x1x128.size hoff) hp).squeeze S1x128 squeezes_S1x1x128_S1x128).view fh))
          Finset.univ)
      = tblRow c fh (x0 (ix1 (⟨k, hk⟩ : Fin 256))) (hin _) :=
  (slot_read_eq n hn hn' hp' f _).trans
    (val_of_dma c fh _ _ (word_eq arg2 harg2 x0 k hk inb j) (hin _) _ (dma_row c fh _ (word_lt arg2 harg2 x0 hin _ _) hoff hp))

/-- Store n keeps the scratch at the gathered rows: the stored row is the table's row under word n, read off its slot. -/
theorem store_ok {c : Dev nD} {x0 : Vec F S256 .i32} {hin : ∀ j, (x0 j : BitVec 32).toNat < 1048576}
    {fh : Buf (Elt F) (hbM.view.loc (c : Thread nD τ))} {L : List (View.Piece (Elt F) S256x128 .bf16)} {n a e s : Nat}
    {inb : ∀ q, (![a, 0] : Fin 2 → Nat) q + S2x128.size q ≤ S256x128.size q} {sl : S2x128.Slices ![e, 0] S1x128}
    {hs : ∀ a, (![s, 0, 0] : Fin 3 → Nat) a + S1x1x128.size a ≤ S16x1x128.size a} {f : scM1.view.ty.Contents (Elt F)}
    {old : S2x128.Idx → Elt F .bf16}
    (hn : n < 256 ∧ a = 2 * (n / 2) ∧ e = n % 2) (hT : Upto (feats c x0 hin fh) L n)
    (hv : View.readAt (Elt F) scM1.view (Rect.unit (s := S16x1x128) ![s, 0, 0] S1x1x128.size hs).toLoadRect f
      = tblRow c fh (x0 (ix1 (⟨n, hn.1⟩ : Fin 256))) (hin _))
    (hold : e = 1 → ∀ col : Fin 128, old (ix2 (0 : Fin 2) col) = View.canon L (ix2 (⟨a, by omega⟩ : Fin 256) col)) :
    Upto (feats c x0 hin fh)
      (⟨Rect.unit (s := S256x128) ![a, 0] S2x128.size inb,
        updateSlice old (narrow (View.readAt (Elt F) scM1.view (Rect.unit (s := S16x1x128) ![s, 0, 0] S1x1x128.size hs).toLoadRect f)) ![e, 0] sl⟩ :: L)
      (n + 1) :=
  Upto.cons hn inb sl _ _ hT (fun col => by rw [hv]; rfl) hold

variable (c : Dev nD) (arg2 : Memref sig .tc .smem S256 .i32) (harg2 : arg2.IsWhole) (x0 : Vec F S256 .i32)
  (d0 : Vec F S256x128 .bf16) (d1 : Vec F S16x1x128 .f32) (fh : Buf (Elt F) (hbM.view.loc (c : Thread nD τ)))
  (hin : ∀ j, (x0 j : BitVec 32).toNat < 1048576)

theorem good_64 : Upto (feats c x0 hin fh) (kernelRun.sl.HS0_64 c arg2 harg2 x0 d0 d1 fh hin) 64 := by
  iterate 64
    refine store_ok (by decide) ?_ (by repeat first | refine slot_skip (by decide) ?_ | exact slot_hit)
      (fun h col => by first | exact absurd h (by decide) | exact pair_readCov _ _ (by omega) _ col)
  exact fun _ _ h => absurd h (Nat.not_lt_zero _)

theorem good_128 : Upto (feats c x0 hin fh) (kernelRun.sl.HS0_128 c arg2 harg2 x0 d0 d1 fh hin) 128 := by
  iterate 64
    refine store_ok (by decide) ?_ (by repeat first | refine slot_skip (by decide) ?_ | exact slot_hit)
      (fun h col => by first | exact absurd h (by decide) | exact pair_readCov _ _ (by omega) _ col)
  exact good_64 c arg2 harg2 x0 d0 d1 fh hin

theorem good_192 : Upto (feats c x0 hin fh) (kernelRun.sl.HS0_192 c arg2 harg2 x0 d0 d1 fh hin) 192 := by
  iterate 64
    refine store_ok (by decide) ?_ (by repeat first | refine slot_skip (by decide) ?_ | exact slot_hit)
      (fun h col => by first | exact absurd h (by decide) | exact pair_readCov _ _ (by omega) _ col)
  exact good_128 c arg2 harg2 x0 d0 d1 fh hin

theorem good_256 : Upto (feats c x0 hin fh) (kernelRun.sl.HS0_256 c arg2 harg2 x0 d0 d1 fh hin) 256 := by
  iterate 64
    refine store_ok (by decide) ?_ (by repeat first | refine slot_skip (by decide) ?_ | exact slot_hit)
      (fun h col => by first | exact absurd h (by decide) | exact pair_readCov _ _ (by omega) _ col)
  exact good_192 c arg2 harg2 x0 d0 d1 fh hin

end Cert.KernelIdeal.Hand

end
-- ==== Proof.KIOut.lean ====
import proofs.«400161_j14499809591944_4_alg».proof.Proof.KIGood
import proofs.«400161_j14499809591944_4_alg».proof.Proof.KIRows

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

theorem readAt_whole_unread {sp : Space} {S : Shape} {e : EltTy} (M : Memref sig .tc sp S e) (hM : M.IsWhole)
    {off : Fin S.rank → Nat} (h : off = fun _ => 0) (inb : ∀ a, off a + S.size a ≤ S.size a) (X : S.Idx → Elt F e) :
    View.readAt (Elt F) M.view (Rect.unit off S.size inb).toLoadRect (hM.unread X) = X := by
  show View.ld (M.view.read (Elt F) (hM.unread X)) (Rect.unit off S.size inb) = X
  rw [hM.read_unread, View.ld_unit_zero h]

theorem read_writes_whole {sp : Space} {S : Shape} {e : EltTy} (M : Memref sig .tc sp S e)
    {off : Fin S.rank → Nat} (h : off = fun _ => 0) (inb : ∀ a, off a + S.size a ≤ S.size a)
    (f : M.view.ty.Contents (Elt F)) (w : S.Idx → Elt F e) :
    M.view.read (Elt F) (M.view.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

theorem readAt_writes_whole {sp : Space} {S : Shape} {e : EltTy} (M : Memref sig .tc sp S e)
    {off : Fin S.rank → Nat} (h : off = fun _ => 0) (inb : ∀ a, off a + S.size a ≤ S.size a)
    (f : M.view.ty.Contents (Elt F)) (w : S.Idx → Elt F e) :
    View.readAt (Elt F) M.view (Rect.unit off S.size inb).toLoadRect
      (M.view.writes (Elt F) f [(⟨Rect.unit off S.size inb, w⟩ : View.Piece (Elt F) S e)]) = w := by
  show View.ld (M.view.read (Elt F) (M.view.writes (Elt F) f [(⟨Rect.unit off S.size inb, w⟩ : View.Piece (Elt F) S e)]))
    (Rect.unit off S.size inb) = w
  rw [read_writes_whole M h inb, View.ld_unit_zero h]

variable (c : Dev nD) (i : grid0.Coords)
    (arg2 : Memref sig .tc .smem S256 .i32) (harg2 : arg2.IsWhole) (arg3 : Memref sig .tc .vmem S256x1 .i32) (harg3 : arg3.IsWhole)
    (arg5 : Memref sig .tc .vmem S1x2048x128 .f32) (harg5 : arg5.IsWhole) (arg6 : Memref sig .tc .vmem S1x2048x1 .f32) (harg6 : arg6.IsWhole)
    (x0 : Vec F S256 .i32) (x1 : Vec F S256x1 .i32) (y5 : Vec F S1x2048x128 .f32) (y6 : Vec F S1x2048x1 .f32)
    (d0 : Vec F S256x128 .bf16) (d1 : Vec F S16x1x128 .f32) (fh : Buf (Elt F) (hbM.view.loc (c : Thread nD τ)))
    (hin : ∀ j, (x0 j : BitVec 32).toNat < 1048576)

theorem v2_iff : kernelRun.sl.v2 i = 1#1 ↔ isFirst i := Iff.rfl

/-- The scratch as loaded after the 256 stores is the gathered rows. -/
theorem v4875_eq : kernelRun.sl.v4875 c arg2 harg2 x0 d0 d1 fh hin = feats c x0 hin fh := by
  funext j
  obtain ⟨r, col, rfl⟩ : ∃ (r : Fin 256) (col : Fin 128), j = ix2 r col := ⟨j 0, j 1, eq_ix2 j⟩
  unfold kernelRun.sl.v4875
  rw [whole_readCov]
  exact good_256 c arg2 harg2 x0 d0 d1 fh hin r col r.isLt

theorem v4879_eq : kernelRun.sl.v4879 c i arg5 harg5 y5 = prev5 i y5 := by
  unfold kernelRun.sl.v4879 prev5
  by_cases hc : isFirst i
  · rw [dif_pos ((v2_iff i).mpr hc), if_pos hc]
    exact readAt_writes_whole arg5 zeros3 _ _ _
  · rw [dif_neg (fun h => hc ((v2_iff i).mp h)), if_neg hc]
    exact readAt_whole_unread arg5 harg5 zeros3 _ _

theorem v4885_eq : kernelRun.sl.v4885 c i arg6 harg6 y6 = prev6 i y6 := by
  unfold kernelRun.sl.v4885 prev6
  by_cases hc : isFirst i
  · rw [dif_pos ((v2_iff i).mpr hc), if_pos hc]
    exact readAt_writes_whole arg6 zeros3 _ _ _
  · rw [dif_neg (fun h => hc ((v2_iff i).mp h)), if_neg hc]
    exact readAt_whole_unread arg6 harg6 zeros3 _ _

theorem run_pieces5 :
    (kernelRun c i arg2 harg2 arg3 harg3 arg5 harg5 arg6 harg6 x0 x1 y5 y6 d0 d1 fh hin).1
      = [⟨Rect.unit ![0, 0, 0] S1x2048x128.size inb_S1x2048x128_S1x2048x128_0_0_0,
          k0_pay286 (View.readAt (Elt F) arg3.view (Rect.unit ![0, 0] S256x1.size inb_S256x1_S256x1_0_0).toLoadRect (harg3.unread x1))
            (kernelRun.sl.v4875 c arg2 harg2 x0 d0 d1 fh hin) (kernelRun.sl.v4879 c i arg5 harg5 y5)⟩] := rfl

theorem run_pieces6 :
    (kernelRun c i arg2 harg2 arg3 harg3 arg5 harg5 arg6 harg6 x0 x1 y5 y6 d0 d1 fh hin).2.1
      = [⟨Rect.unit ![0, 0, 0] S1x2048x1.size inb_S1x2048x1_S1x2048x1_0_0_0,
          k0_pay1 (kernelRun.sl.r_281 c i arg3 harg3 arg6 harg6 x1 y6)⟩] := rfl

/-- The pieces written to the sums accumulator read back as step5, whatever the scratch and the slots held. -/
theorem out5_eq (f : arg5.view.ty.Contents (Elt F)) :
    arg5.view.read (Elt F) (arg5.view.writes (Elt F) f (kernelRun c i arg2 harg2 arg3 harg3 arg5 harg5 arg6 harg6 x0 x1 y5 y6 d0 d1 fh hin).1)
      = step5 c i x0 hin x1 y5 fh := by
  rw [run_pieces5, read_writes_whole arg5 zeros3, readAt_whole_unread arg3 harg3 zeros2, v4875_eq, v4879_eq]
  rfl

/-- The pieces written to the counts accumulator read back as step6. -/
theorem out6_eq (f : arg6.view.ty.Contents (Elt F)) :
    arg6.view.read (Elt F) (arg6.view.writes (Elt F) f (kernelRun c i arg2 harg2 arg3 harg3 arg5 harg5 arg6 harg6 x0 x1 y5 y6 d0 d1 fh hin).2.1)
      = step6 i x1 y6 := by
  rw [run_pieces6, read_writes_whole arg6 zeros3]
  unfold kernelRun.sl.r_281
  rw [readAt_whole_unread arg3 harg3 zeros2, v4885_eq]
  rfl

end Cert.KernelIdeal.Hand

end
-- ==== Proof.KIFrame.lean ====
import proofs.«400161_j14499809591944_4_alg».proof.Proof.KIOut
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

abbrev ms0 (t : Fin cfg0.N) : Memref sig .tc .smem S256 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1 .f32 := win0_3.stage (cfg0.slots t 3)
abbrev hs3 (t : Fin cfg0.N) : (ms3 t).IsWhole := hstage0_3 ((cfg0.slots t 3).cast nbuf0_3)

abbrev blk0 (c : Dev nD) (t : Fin cfg0.N) : Vec F S256 .i32 := iblk m c 0 t
abbrev blk1 (c : Dev nD) (t : Fin cfg0.N) : Vec F S256x1 .i32 := iblk m c 1 t
abbrev tbl (c : Dev nD) : Buf (Elt F) (hbM.view.loc (c : Thread nD τ)) := V m c main_v2

/-- Every row number of every block names a row of the table. -/
def Hyps : Prop := ∀ (c : Dev nD) (t : Fin cfg0.N) (j : S256.Idx), (blk0 m c t j : BitVec 32).toNat < 1048576

abbrev osem : Fin 16 → SemLoc sig := fun j => (![SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23] : Fin 16 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) := by
  rw [Pipeline.ownSems0_eq_of_list c osem [0, 1, 2, 3, 4, 5, 6, 7, 8, 9, 10, 11, 12, 13, 14, 15] (by decide) (by decide)]; rfl
def H0 : Finset (Ref sig .tc) := {main_v2}
theorem H0_sub : H0 ⊆ Pipeline.restRefs sig spec0 := by decide
theorem hbmPts_eq (c : Dev nD) :
    (bigSep H0 (fun b => ((c : Thread nD τ).loc b) ↦{fullShare} V m c b) : sProp 𝕄) = iprop(hbPt c (tbl m c)) := by
  rw [BI.bigSep_eq_bigSepL_of_eq [main_v2] (by decide) (by decide)]; rfl

theorem PhiD_eq (c : Dev nD) :
    (Pipeline.ΦD osem spec0 H0 (V m) c : sProp 𝕄)
      = iprop(iprop((∃ d, owns (c : Thread nD τ) scM0 fullShare d) ∗ (∃ d, owns (c : Thread nD τ) scM1 fullShare d)) ∗ (∃ r, prngReg c r)
          ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) ∗ iprop(hbPt c (tbl m c))) := by
  rw [Pipeline.ΦD_eq, scopedRest0_eq, ownSems_eq, hbmPts_eq]; simp only [scM0, scM1, owns_whole]; try rfl

variable (hH : Hyps m)

/-- The two accumulators after point n: the step at n over what point n - 1 left. -/
def outs (c : Dev nD) : (n : ℕ) → n < cfg0.N → Vec F S1x2048x128 .f32 × Vec F S1x2048x1 .f32
  | 0, hn => (step5 c (grid0.coords ⟨0, hn⟩) (blk0 m c ⟨0, hn⟩) (hH c ⟨0, hn⟩) (blk1 m c ⟨0, hn⟩) k0_pay2 (tbl m c),
      step6 (grid0.coords ⟨0, hn⟩) (blk1 m c ⟨0, hn⟩) k0_pay3)
  | n + 1, hn =>
    (step5 c (grid0.coords ⟨n + 1, hn⟩) (blk0 m c ⟨n + 1, hn⟩) (hH c ⟨n + 1, hn⟩) (blk1 m c ⟨n + 1, hn⟩) (outs c n (Nat.lt_of_succ_lt hn)).1 (tbl m c),
      step6 (grid0.coords ⟨n + 1, hn⟩) (blk1 m c ⟨n + 1, hn⟩) (outs c n (Nat.lt_of_succ_lt hn)).2)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outs m hH c t.val t.isLt).1
    | ⟨3, _⟩ => (outs m hH c t.val t.isLt).2
  Φ _ := Pipeline.ΦD osem spec0 H0 (V m) c
  q _ := fullShare
  owed _ := 0

theorem A_eq (c : Dev nD) (w : Fin cfg0.W) : (dats m hH 0 c).A w = V m c (Pipeline.arrRef spec0 w) := by
  dsimp only [dats]

theorem after0 (c : Dev nD) (t : Fin cfg0.N) : (dats m hH 0 c).after 0 t = iblk m c 0 t := by dsimp only [dats]
theorem after1 (c : Dev nD) (t : Fin cfg0.N) : (dats m hH 0 c).after 1 t = iblk m c 1 t := by dsimp only [dats]
theorem after2 (c : Dev nD) (t : Fin cfg0.N) : (dats m hH 0 c).after 2 t = (outs m hH c t.val t.isLt).1 := by dsimp only [dats]
theorem after3 (c : Dev nD) (t : Fin cfg0.N) : (dats m hH 0 c).after 3 t = (outs m hH c t.val t.isLt).2 := by dsimp only [dats]

theorem before0 (c : Dev nD) (t : Fin cfg0.N) (d) : (dats m hH 0 c).before 0 t d = iblk m c 0 t :=
  ((dats m hH 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m hH 0 c).before 1 t d = iblk m c 1 t :=
  ((dats m hH 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

theorem first_iff : ∀ t : Fin cfg0.N, isFirst (grid0.coords t) ↔ t.val % 2048 = 0 :=
  (by decide +kernel : ∀ t : Fin grid0.N, isFirst (grid0.coords t) ↔ t.val % 2048 = 0)

theorem before2_kept (c : Dev nD) (t : Fin cfg0.N) (h0 : ¬t.val % 2048 = 0) (d) :
    (dats m hH 0 c).before 2 t d = (outs m hH c (t.val - 1) (Nat.lt_of_le_of_lt (Nat.sub_le _ _) t.isLt)).1 := by
  have hN : t.val < 4096 := lt_of_lt_of_eq t.isLt (show cfg0.N = 4096 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_kept (c : Dev nD) (t : Fin cfg0.N) (h0 : ¬t.val % 2048 = 0) (d) :
    (dats m hH 0 c).before 3 t d = (outs m hH c (t.val - 1) (Nat.lt_of_le_of_lt (Nat.sub_le _ _) t.isLt)).2 := by
  have hN : t.val < 4096 := lt_of_lt_of_eq t.isLt (show cfg0.N = 4096 from N_0)
  rw [Dat.before_out_kept _ 3 rfl t (by omega) (Bool.eq_false_iff.mpr fun h => by have := (flush0_3 _).mp h; dsimp only at this; omega)
    (fun _ => rfl) (fun _ _ => rfl)]
  dsimp only [dats]

theorem step5_after (c : Dev nD) (t : Fin cfg0.N) (d) :
    step5 c (grid0.coords t) (blk0 m c t) (hH c t) (blk1 m c t) ((dats m hH 0 c).before 2 t d) (tbl m c)
      = (outs m hH c t.val t.isLt).1 := by
  by_cases h0 : t.val % 2048 = 0
  · have hf := (first_iff t).mpr h0
    obtain ⟨n, hn⟩ := t
    cases n with
    | zero => exact step5_first c _ hf _ _ _ _ _ _
    | succ n => exact step5_first c _ hf _ _ _ _ _ _
  · rw [before2_kept m hH c t h0]
    obtain ⟨n, hn⟩ := t
    cases n with
    | zero => exact absurd (Nat.zero_mod _) h0
    | succ n => rfl
theorem step6_after (c : Dev nD) (t : Fin cfg0.N) (d) :
    step6 (grid0.coords t) (blk1 m c t) ((dats m hH 0 c).before 3 t d) = (outs m hH c t.val t.isLt).2 := by
  by_cases h0 : t.val % 2048 = 0
  · have hf := (first_iff t).mpr h0
    obtain ⟨n, hn⟩ := t
    cases n with
    | zero => exact step6_first _ hf _ _ _
    | succ n => exact step6_first _ hf _ _ _
  · rw [before3_kept m hH c t h0]
    obtain ⟨n, hn⟩ := t
    cases n with
    | zero => exact absurd (Nat.zero_mod _) h0
    | succ n => rfl

def bodyPre (c : Dev nD) (t : Fin cfg0.N) : sProp 𝕄 :=
  iprop((dats m hH 0 c).Φ t.castSucc ∗ (dats m hH 0 c).owesAt () t.castSucc
    ∗ (∃ d, owns (c : Thread nD τ) (ms0 t) fullShare ((dats m hH 0 c).before 0 t d))
    ∗ (∃ d, owns (c : Thread nD τ) (ms1 t) fullShare ((dats m hH 0 c).before 1 t d))
    ∗ (∃ d, owns (c : Thread nD τ) (ms2 t) fullShare ((dats m hH 0 c).before 2 t d))
    ∗ (∃ d, owns (c : Thread nD τ) (ms3 t) fullShare ((dats m hH 0 c).before 3 t d)))

def bodyPost (c : Dev nD) (t : Fin cfg0.N) : sProp 𝕄 :=
  iprop((dats m hH 0 c).Φ t.succ ∗ (dats m hH 0 c).owesAt () t.succ
    ∗ owns (c : Thread nD τ) (ms0 t) fullShare ((dats m hH 0 c).after 0 t)
    ∗ owns (c : Thread nD τ) (ms1 t) fullShare ((dats m hH 0 c).after 1 t)
    ∗ owns (c : Thread nD τ) (ms2 t) fullShare ((dats m hH 0 c).after 2 t)
    ∗ owns (c : Thread nD τ) (ms3 t) fullShare ((dats m hH 0 c).after 3 t))

set_option maxHeartbeats 1600000 in
/-- The body at point t takes what the windows hold before t to what they hold after t. -/
theorem sound_body (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0, before1]
  rw [show (dats m hH 0 c).Φ t.succ = (dats m hH 0 c).Φ t.castSucc from rfl, after0, after1, after2, after3]
  rw [show (dats m hH 0 c).Φ t.castSucc = Pipeline.ΦD osem spec0 H0 (V m) c from rfl, PhiD_eq]
  unfold Dat.owesAt Pipeline.owesWithin
  rw [show (dats m hH 0 c).owed t.castSucc = 0 from rfl, show (dats m hH 0 c).owed t.succ = 0 from rfl]
  iintro ⟨⟨⟨⟨%d0, HS0⟩, ⟨%d1, HS1⟩⟩, Hg, ⟨Hq8, Hq9, Hq10, Hq11, Hq12, Hq13, Hq14, Hq15, Hq16, Hq17, Hq18, Hq19, Hq20, Hq21, Hq22, Hq23⟩, Hh⟩, ⟨%W, -, HW⟩, ⟨%e0, H0⟩, ⟨%e1, H1⟩, ⟨%e2, H2⟩, ⟨%e3, H3⟩⟩
  iapply ((kernelRun c (grid0.coords t) (ms0 t) (hs0 t) (ms1 t) (hs1 t) (ms2 t) (hs2 t) (ms3 t) (hs3 t) (blk0 m c t) (blk1 m c t)
      ((dats m hH 0 c).before 2 t e2) ((dats m hH 0 c).before 3 t e3) d0 d1 (tbl m c) (hH c t)).2.2 W _)
  iframe H0 H1 H2 H3 HS0 HS1 Hq8 Hq9 Hq10 Hq11 Hq12 Hq13 Hq14 Hq15 Hq16 Hq17 Hq18 Hq19 Hq20 Hq21 Hq22 Hq23 Hh HW
  iintro ⟨H0, H1, ⟨%f5, H2⟩, ⟨%f6, H3⟩, HS0, HS1, Hq8, Hq9, Hq10, Hq11, Hq12, Hq13, Hq14, Hq15, Hq16, Hq17, Hq18, Hq19, Hq20, Hq21, Hq22, Hq23, Hh, ⟨%W', HW'⟩⟩
  iframe HS0 HS1 Hg Hq8 Hq9 Hq10 Hq11 Hq12 Hq13 Hq14 Hq15 Hq16 Hq17 Hq18 Hq19 Hq20 Hq21 Hq22 Hq23 Hh
  isplitl [HW']
  · iexists W'; isplitr; · ipureintro; exact fun _ _ => Or.inl trivial
    iexact HW'
  iframe H0 H1
  isplitl [H2]
  · unfold owns; iexists _; isplitr
    swap; · iexact H2
    ipureintro; exact (out5_eq c _ _ _ _ _ _ _ _ _ _ _ _ _ _ _ _ _ _).trans (step5_after m hH c t e2)
  unfold owns; iexists _; isplitr
  swap; · iexact H3
  ipureintro; exact (out6_eq c _ _ _ _ _ _ _ _ _ _ _ _ _ _ _ _ _ _).trans (step6_after m hH c t e3)

theorem body_obligation (c : Dev nD) : BodyObligation (dats (F := F) m hH 0 c) (defs₀ (F := F)) Variants.none () Set.univ := fun t => by
  rw [bigSep_W0, bigSep_W0]
  exact sound_body m hH c t

theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  intro b hb
  simp only [H0, Finset.mem_singleton] at hb
  subst hb
  simp only [hostOps1, List.mem_cons, List.mem_nil_iff, or_false] at hop
  rcases hop with rfl | rfl | rfl | rfl | rfl | rfl | rfl | rfl | rfl | rfl | rfl | rfl | rfl | rfl | rfl
  all_goals simp only [StableHlo.nullary_bufs, StableHlo.unary_bufs, StableHlo.binary_bufs, StableHlo.ternary_bufs, StableHlo.reshape_bufs, Finset.mem_insert, Finset.mem_singleton, not_or] <;> (repeat' constructor) <;> exact StableHlo.devRef_ne_of_ne (by decide)

set_option backward.isDefEq.respectTransparency.types false in
theorem run_main : θ_run defs (onTc (τ := τ) (main (F := F))) (s₀ m ρ)
    (Pipeline.FramePost cfgs (dats m hH) 0 (Pipeline.afterTail₀ cfgs (dats m hH) 0 (V0 m) [hostOps1])) :=
  Pipeline.θ_run_frame_dma_around cfgs (dats m hH) (0 : Fin 1) launch0 osem defs₀ Variants.none ownSemFacts H0 H0_sub m ρ main
    (hbody := fun c => (body_obligation m hH c).loose) (hshare := fun c => (dats m hH 0 c).share_full fun _ => rfl)
    (howed := fun _ _ => rfl) (V₀ := V0 m) (opss := [hostOps1]) (hsub := sfx_subD) (hfresh := sfx_fresh) (hkeep := sfx_keeps)
    (hmain := hmainD m Variants.none) (hA := A_eq m hH)
    (hin := fun _ => .rfl) (hout := fun _ => .rfl)

theorem W_arg0D (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_arg1D (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem args_kept (r) (h : Pipeline.FramePost cfgs (dats m hH) 0 (Pipeline.afterTail₀ cfgs (dats m hH) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(((h c).2 main_arg0 (Pipeline.mem_restRefs_of main_arg0 (by decide) (by decide))).trans (W_arg0D m (dats m hH) c)),
    (((h c).2 main_arg1 (Pipeline.mem_restRefs_of main_arg1 (by decide) (by decide))).trans (W_arg1D m (dats m hH) c)),
    ((h c).1 0).trans ((((dats m hH) 0 c).arrAt_in 0 rfl _).trans ((A_eq m hH c 0).trans (V_main_arg2 m c)))⟩

theorem result_kept (r) (h : Pipeline.FramePost cfgs (dats m hH) 0 (Pipeline.afterTail₀ cfgs (dats m hH) 0 (V0 m) [hostOps1]) r) (c : Dev nD) :
    r.2.mem ((c.tc : Thread nD τ).loc main_v17) = Pipeline.afterTail₀ cfgs (dats m hH) 0 (V0 m) [hostOps1] c main_v17 :=
  (h c).2 main_v17 (Pipeline.mem_restRefs_of main_v17 (by decide) (by decide))

include hH in

/-- The program runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_kept m hH r h c) (run_main m ρ hH)

end Cert.KernelIdeal.Hand

end
-- ==== Proof.KIBlocks.lean ====
import proofs.«400161_j14499809591944_4_alg».proof.Proof.KIFrame
import proofs.«400161_j14499809591944_4_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

def pix (t : Fin cfg0.N) (it : Fin 256) : Fin 1048576 :=
  ⟨256 * t.val + it.val, by have := t.isLt; have h : cfg0.N = 4096 := N_0; omega⟩

theorem idx0 : ∀ t : Fin cfg0.N, win0_0.index t (0 : Fin 1) = t.val :=
  (by decide +kernel : ∀ t : Fin grid0.N, win0_0.index t (0 : Fin 1) = t.val)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

section HostReads
variable {F : FTy → Type} [FloatOps F] (m : (ℓ : Loc nD τ sig) → Buf (Elt F) ℓ)

theorem V_main_v0_apply (c : Dev nD) (p : Fin 1048576) :
    (V m c main_v0 : S1048576x1.Idx → BitVec 32) (ix2 p (0 : Fin 1)) = (m ((c : Thread nD τ).loc main_arg1) : Cert.Spec.SP.Idx → BitVec 32) (ix1 p) := by
  dsimp only [V, V0]
  simp only [hostOps0, hostOps0_1, hostOps0_2, List.flatten_cons, List.flatten_nil, List.append_nil, List.cons_append, List.nil_append]
  after_results
  show shapeCast S1048576x1 (m ((c : Thread nD τ).loc main_arg1) : S1048576.Idx → BitVec 32) _ (ix2 p (0 : Fin 1)) = _
  exact shapeCast_apply _ _ _ (ix1 p) (by rw [Shape.rowMajor_val_two, Shape.rowMajor_val_one]; show p.val = p.val * 1 + 0; omega)

theorem V_main_v2_apply (c : Dev nD) (r : Fin 1048576) (cc : Fin 128) :
    (V m c main_v2 : S1048576x1x128.Idx → Elt F .f32) (ix3 r (0 : Fin 1) cc)
      = pad S1048576x128 ![0, 0] ![0, 64] ![0, 0] (m ((c : Thread nD τ).loc main_arg0) : S1048576x64.Idx → Elt F .f32)
          (sitofp (F := F) .f32 (constantI S_ 32 0#32)) pads_S1048576x64_S1048576x128_000_0640 h_S_ (ix2 r cc) := by
  dsimp only [V, V0]
  simp only [hostOps0, hostOps0_1, hostOps0_2, List.flatten_cons, List.flatten_nil, List.append_nil, List.cons_append, List.nil_append]
  after_results
  show shapeCast S1048576x1x128 (pad S1048576x128 ![0, 0] ![0, 64] ![0, 0] (m ((c : Thread nD τ).loc main_arg0) : S1048576x64.Idx → Elt F .f32)
      (sitofp (F := F) .f32 (constantI S_ 32 0#32)) pads_S1048576x64_S1048576x128_000_0640 h_S_) _ (ix3 r (0 : Fin 1) cc) = _
  exact shapeCast_apply _ _ _ (ix2 r cc) (by
    rw [Shape.rowMajor_val_two, Shape.rowMajor_val_three]
    show r.val * 128 + cc.val = (r.val * 1 + 0) * 128 + cc.val
    omega)
end HostReads

section AnyInstance

variable {F : FTy → Type} [FloatOps F] (m : (ℓ : Loc nD τ sig) → Buf (Elt F) ℓ)

abbrev argSeg (c : Dev nD) : Cert.Spec.SP.Idx → BitVec 32 := m ((c : Thread nD τ).loc main_arg1)
abbrev argCoor (c : Dev nD) : Cert.Spec.SP.Idx → BitVec 32 := m ((c : Thread nD τ).loc main_arg2)

theorem blk0_apply (c : Dev nD) (t : Fin cfg0.N) (j : Fin 256) :
    (blk0 m c t (ix1 j) : BitVec 32) = argCoor m c (ix1 (pix t j)) := by
  show V m c main_arg2 (((cfg0.win 0).blk t).view.emb (ix1 j)) = m ((c : Thread nD τ).loc main_arg2) (ix1 (pix t j))
  rw [V_main_arg2]
  refine congrArg _ ?_
  funext a; apply Fin.ext
  match a with
  | ⟨0, _⟩ => show win0_0.index t (0 : Fin 1) * 256 + 1 * j.val = 256 * t.val + j.val; rw [idx0 t]; omega

theorem blk1_apply (c : Dev nD) (t : Fin cfg0.N) (j : Fin 256) :
    (blk1 m c t (ix2 j (0 : Fin 1)) : BitVec 32) = argSeg m c (ix1 (pix t j)) := by
  show V m c main_v0 (((cfg0.win 1).blk t).view.emb (ix2 j (0 : Fin 1))) = _
  have e : ((cfg0.win 1).blk t).view.emb (ix2 j (0 : Fin 1)) = ix2 (pix t j) (0 : Fin 1) := by
    funext a; apply Fin.ext
    match a with
    | ⟨0, _⟩ => show win0_1.index t (0 : Fin 2) * 256 + 1 * j.val = 256 * t.val + j.val; rw [(idx1 t).1]; omega
    | ⟨1, _⟩ => show win0_1.index t (1 : Fin 2) * 1 + 1 * 0 = 0; rw [(idx1 t).2]
  rw [e]
  exact V_main_v0_apply m c (pix t j)

/-- Row numbers in range of the table give the frame's hypothesis on every block. -/
theorem hyps_of_inRange (h : ∀ c : Dev nD, Cert.Spec.InRange (argCoor m c)) : Hyps m := by
  intro c t j
  obtain ⟨j0, rfl⟩ : ∃ j0 : Fin 256, j = ix1 j0 := ⟨j 0, eq_ix1 j⟩
  rw [blk0_apply]
  exact h c (pix t j0)

end AnyInstance

section IdealInstance

variable (m : (ℓ : Loc nD τ sig) → Buf (Elt Ideal) ℓ)

abbrev argX (c : Dev nD) : Cert.Spec.SX.Idx → EReal := m ((c : Thread nD τ).loc main_arg0)

/-- The padded table at row r, column cc: the table's entry for cc < 64, zero in the padding. -/
theorem tbl_apply (c : Dev nD) (r : Fin 1048576) (cc : Fin 128) :
    (hbM.view.read (Elt Ideal) (tbl m c) (ix3 r (0 : Fin 1) cc) : EReal)
      = if h : cc.val < 64 then argX m c (ix2 r ⟨cc.val, h⟩) else 0 := by
  show (V m c main_v2 : S1048576x1x128.Idx → EReal) (ix3 r (0 : Fin 1) cc) = _
  rw [V_main_v2_apply]
  by_cases h : cc.val < 64
  · rw [dif_pos h]
    exact pad_apply_of_inside _ _ _ _ _ _ _ (ix2 r cc) (ix2 r (⟨cc.val, h⟩ : Fin 64)) (fun a => match a with
      | ⟨0, _⟩ => by show r.val = 0 + r.val * (0 + 1); omega
      | ⟨1, _⟩ => by show cc.val = 0 + cc.val * (0 + 1); omega)
  · rw [dif_neg h]
    refine (pad_apply_of_not_inside _ _ _ _ _ _ _ (ix2 r cc) (1 : Fin 2) (by
      show ¬(0 ≤ cc.val ∧ (cc.val - 0) % (0 + 1) = 0 ∧ (cc.val - 0) / (0 + 1) < 64)
      omega)).trans ?_
    show (((0#32 : BitVec 32).toInt : ℝ) : EReal) = 0
    simp

end IdealInstance

end Cert.KernelIdeal.Hand

end
-- ==== Proof.KIStepValue.lean ====
import proofs.«400161_j14499809591944_4_alg».proof.Proof.KIBlocks
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

theorem dot5_lhs_0 (i : S2048x128.Idx) (q : dot_S256x2048_S256x128_S2048x128_0_0_1_1_n_n.contr.Idx) :
    (dot_S256x2048_S256x128_S2048x128_0_0_1_1_n_n.lhsIdx i q 0).val = (q ⟨0, Nat.zero_lt_one⟩).val :=
  dot_S256x2048_S256x128_S2048x128_0_0_1_1_n_n.lhsIdx_val_of_single rfl i q
theorem dot5_lhs_1 (i : S2048x128.Idx) (q : dot_S256x2048_S256x128_S2048x128_0_0_1_1_n_n.contr.Idx) :
    (dot_S256x2048_S256x128_S2048x128_0_0_1_1_n_n.lhsIdx i q 1).val = (i 0).val := by
  unfold DotDims.lhsIdx
  rw [dif_neg (show ¬(1 : Fin S256x2048.rank) ∈ dot_S256x2048_S256x128_S2048x128_0_0_1_1_n_n.lhsBatch from List.not_mem_nil),
    dif_pos (show (1 : Fin S256x2048.rank) ∈ dot_S256x2048_S256x128_S2048x128_0_0_1_1_n_n.lhsNonContracting from List.mem_singleton.mpr rfl)]
  rfl
theorem dot5_rhs_0 (i : S2048x128.Idx) (q : dot_S256x2048_S256x128_S2048x128_0_0_1_1_n_n.contr.Idx) :
    (dot_S256x2048_S256x128_S2048x128_0_0_1_1_n_n.rhsIdx i q 0).val = (q ⟨0, Nat.zero_lt_one⟩).val :=
  dot_S256x2048_S256x128_S2048x128_0_0_1_1_n_n.rhsIdx_val_of_single rfl i q
theorem dot5_rhs_1 (i : S2048x128.Idx) (q : dot_S256x2048_S256x128_S2048x128_0_0_1_1_n_n.contr.Idx) :
    (dot_S256x2048_S256x128_S2048x128_0_0_1_1_n_n.rhsIdx i q 1).val = (i 1).val := by
  unfold DotDims.rhsIdx
  rw [dif_neg (show ¬(1 : Fin S256x128.rank) ∈ dot_S256x2048_S256x128_S2048x128_0_0_1_1_n_n.rhsBatch from List.not_mem_nil),
    dif_pos (show (1 : Fin S256x128.rank) ∈ dot_S256x2048_S256x128_S2048x128_0_0_1_1_n_n.rhsNonContracting from List.mem_singleton.mpr rfl)]
  rfl

theorem matmul5_ix2 (lhs : FVec Ideal S256x2048 .bf16) (rhs : FVec Ideal S256x128 .bf16) (k : Fin 2048) (cc : Fin 128) :
    FloatOps.matmul dot_S256x2048_S256x128_S2048x128_0_0_1_1_n_n none lhs rhs (constant (F := Ideal) S2048x128 .f32 0x00000000#32) (ix2 k cc)
      = ∑ it : Fin 256, (lhs (ix2 it k) : EReal) * (rhs (ix2 it cc) : EReal) := by
  rw [Ideal.matmul_constant_zero_apply,
    ← Equiv.sum_comp (contrEquiv1 dot_S256x2048_S256x128_S2048x128_0_0_1_1_n_n 256 rfl rfl).symm]
  refine Finset.sum_congr rfl fun it _ => ?_
  have hk := contrEquiv1_symm_val dot_S256x2048_S256x128_S2048x128_0_0_1_1_n_n 256 rfl rfl it
  have el : dot_S256x2048_S256x128_S2048x128_0_0_1_1_n_n.lhsIdx (ix2 k cc)
      ((contrEquiv1 dot_S256x2048_S256x128_S2048x128_0_0_1_1_n_n 256 rfl rfl).symm it) = ix2 it k :=
    funext fun a => Fin.ext (by
      match a with
      | ⟨0, _⟩ => exact (dot5_lhs_0 _ _).trans hk
      | ⟨1, _⟩ => exact dot5_lhs_1 _ _)
  have er : dot_S256x2048_S256x128_S2048x128_0_0_1_1_n_n.rhsIdx (ix2 k cc)
      ((contrEquiv1 dot_S256x2048_S256x128_S2048x128_0_0_1_1_n_n 256 rfl rfl).symm it) = ix2 it cc :=
    funext fun a => Fin.ext (by
      match a with
      | ⟨0, _⟩ => exact (dot5_rhs_0 _ _).trans hk
      | ⟨1, _⟩ => exact dot5_rhs_1 _ _)
  exact congrArg₂ (fun a b : EReal => a * b) (congrArg lhs el) (congrArg rhs er)

theorem dot6_lhs_0 (i : S2048x1.Idx) (q : dot_S256x2048_S256x1_S2048x1_0_0_1_1_n_n.contr.Idx) :
    (dot_S256x2048_S256x1_S2048x1_0_0_1_1_n_n.lhsIdx i q 0).val = (q ⟨0, Nat.zero_lt_one⟩).val :=
  dot_S256x2048_S256x1_S2048x1_0_0_1_1_n_n.lhsIdx_val_of_single rfl i q
theorem dot6_lhs_1 (i : S2048x1.Idx) (q : dot_S256x2048_S256x1_S2048x1_0_0_1_1_n_n.contr.Idx) :
    (dot_S256x2048_S256x1_S2048x1_0_0_1_1_n_n.lhsIdx i q 1).val = (i 0).val := by
  unfold DotDims.lhsIdx
  rw [dif_neg (show ¬(1 : Fin S256x2048.rank) ∈ dot_S256x2048_S256x1_S2048x1_0_0_1_1_n_n.lhsBatch from List.not_mem_nil),
    dif_pos (show (1 : Fin S256x2048.rank) ∈ dot_S256x2048_S256x1_S2048x1_0_0_1_1_n_n.lhsNonContracting from List.mem_singleton.mpr rfl)]
  rfl
theorem dot6_rhs_0 (i : S2048x1.Idx) (q : dot_S256x2048_S256x1_S2048x1_0_0_1_1_n_n.contr.Idx) :
    (dot_S256x2048_S256x1_S2048x1_0_0_1_1_n_n.rhsIdx i q 0).val = (q ⟨0, Nat.zero_lt_one⟩).val :=
  dot_S256x2048_S256x1_S2048x1_0_0_1_1_n_n.rhsIdx_val_of_single rfl i q
theorem dot6_rhs_1 (i : S2048x1.Idx) (q : dot_S256x2048_S256x1_S2048x1_0_0_1_1_n_n.contr.Idx) :
    (dot_S256x2048_S256x1_S2048x1_0_0_1_1_n_n.rhsIdx i q 1).val = (i 1).val := by
  unfold DotDims.rhsIdx
  rw [dif_neg (show ¬(1 : Fin S256x1.rank) ∈ dot_S256x2048_S256x1_S2048x1_0_0_1_1_n_n.rhsBatch from List.not_mem_nil),
    dif_pos (show (1 : Fin S256x1.rank) ∈ dot_S256x2048_S256x1_S2048x1_0_0_1_1_n_n.rhsNonContracting from List.mem_singleton.mpr rfl)]
  rfl

theorem matmul6_ix2 (lhs : FVec Ideal S256x2048 .bf16) (rhs : FVec Ideal S256x1 .bf16) (k : Fin 2048) :
    FloatOps.matmul dot_S256x2048_S256x1_S2048x1_0_0_1_1_n_n none lhs rhs (constant (F := Ideal) S2048x1 .f32 0x00000000#32) (ix2 k (0 : Fin 1))
      = ∑ it : Fin 256, (lhs (ix2 it k) : EReal) * (rhs (ix2 it (0 : Fin 1)) : EReal) := by
  rw [Ideal.matmul_constant_zero_apply,
    ← Equiv.sum_comp (contrEquiv1 dot_S256x2048_S256x1_S2048x1_0_0_1_1_n_n 256 rfl rfl).symm]
  refine Finset.sum_congr rfl fun it _ => ?_
  have hk := contrEquiv1_symm_val dot_S256x2048_S256x1_S2048x1_0_0_1_1_n_n 256 rfl rfl it
  have el : dot_S256x2048_S256x1_S2048x1_0_0_1_1_n_n.lhsIdx (ix2 k (0 : Fin 1))
      ((contrEquiv1 dot_S256x2048_S256x1_S2048x1_0_0_1_1_n_n 256 rfl rfl).symm it) = ix2 it k :=
    funext fun a => Fin.ext (by
      match a with
      | ⟨0, _⟩ => exact (dot6_lhs_0 _ _).trans hk
      | ⟨1, _⟩ => exact dot6_lhs_1 _ _)
  have er : dot_S256x2048_S256x1_S2048x1_0_0_1_1_n_n.rhsIdx (ix2 k (0 : Fin 1))
      ((contrEquiv1 dot_S256x2048_S256x1_S2048x1_0_0_1_1_n_n 256 rfl rfl).symm it) = ix2 it (0 : Fin 1) :=
    funext fun a => Fin.ext (by
      match a with
      | ⟨0, _⟩ => exact (dot6_rhs_0 _ _).trans hk
      | ⟨1, _⟩ => exact dot6_rhs_1 _ _)
  exact congrArg₂ (fun a b : EReal => a * b) (congrArg lhs el) (congrArg rhs er)

/-- One where the label word is the bin's, zero elsewhere. -/
def oh (w : BitVec 32) (k : Fin 2048) : EReal := if w = BitVec.ofNat 32 k.val then 1 else 0

theorem sitofp_cmpi_eq (w v : BitVec 32) :
    (FloatOps.sitofp (F := Ideal) .f32 ((IntOp.cmpi .eq w v).setWidth 32) : EReal) = if w = v then 1 else 0 := by
  by_cases h : w = v
  · rw [if_pos h, StableHlo.Predicate.cmpi_eq_iff.mpr h]
    show (((1#1 : BitVec 1).setWidth 32).toInt : ℝ) = (1 : EReal)
    have : ((1#1 : BitVec 1).setWidth 32).toInt = 1 := by decide
    rw [this]; norm_num
  · rw [if_neg h, eq_zero_of_ne_one (fun hc => h (StableHlo.Predicate.cmpi_eq_iff.mp hc))]
    show (((0#1 : BitVec 1).setWidth 32).toInt : ℝ) = (0 : EReal)
    have : ((0#1 : BitVec 1).setWidth 32).toInt = 0 := by decide
    rw [this]; norm_num

theorem onehot_apply (x1 : Vec Ideal S256x1 .i32) (it : Fin 256) (k : Fin 2048) :
    (k0_pay285 (F := Ideal) x1 (ix2 it k) : EReal) = oh (x1 (ix2 it (0 : Fin 1))) k := by
  unfold k0_pay285 oh
  show FloatOps.truncf (F := Ideal) .bf16 bitsLt_bf16_f32 (FloatOps.sitofp (F := Ideal) .f32
    ((IntOp.cmpi .eq (broadcastTo S256x2048 (shapeCast S256x1 x1 shapeCasts_S256x1_S256x1) broadcasts_S256x1_S256x2048 (ix2 it k))
      (iota .tc S256x2048 32 [1] iota_S256x2048_d1_w32 (ix2 it k))).setWidth 32)) = _
  rw [Ideal.truncf_def, sitofp_cmpi_eq, shapeCast_self, iota_single_apply,
    broadcastTo_apply x1 broadcasts_S256x1_S256x2048 (ix2 it k) (ix2 it (0 : Fin 1)) (fun a => by
      match a with
      | ⟨0, _⟩ => rfl
      | ⟨1, _⟩ => rfl)]

theorem feats_apply (c : Dev nD) (x0 : Vec Ideal S256 .i32) (hin : ∀ j, (x0 j : BitVec 32).toNat < 1048576)
    (fh : Buf (Elt Ideal) (hbM.view.loc (c : Thread nD τ))) (it : Fin 256) (cc : Fin 128) :
    (feats c x0 hin fh (ix2 it cc) : EReal)
      = hbM.view.read (Elt Ideal) fh (ix3 (⟨(x0 (ix1 it) : BitVec 32).toNat, hin (ix1 it)⟩ : Fin 1048576) (0 : Fin 1) cc) := by
  unfold feats narrow
  rw [shapeCast_a_1a_apply]
  show FloatOps.truncf (F := Ideal) .bf16 bitsLt_bf16_f32
    (shapeCast S128 (tblRow c fh (x0 (ix1 it)) (hin (ix1 it))) shapeCasts_S1x1x128_S128 (ix1 cc)) = _
  rw [Ideal.truncf_def, shapeCast_apply _ shapeCasts_S1x1x128_S128 (ix1 cc) (ix3 (0 : Fin 1) (0 : Fin 1) cc) (by
    rw [Shape.rowMajor_val_three, Shape.rowMajor_val_one]
    show (0 * 1 + 0) * 128 + cc.val = cc.val
    omega)]
  rfl

theorem pay2_apply (k : Fin 2048) (cc : Fin 128) : (k0_pay2 (F := Ideal) (ix3 (0 : Fin 1) k cc) : EReal) = 0 := by
  unfold k0_pay2
  show (shapeCast S1x2048x128 (broadcast S2048x128 (Scalar.ofBits (F := Ideal) .f32 0x00000000#32)) shapeCasts_S2048x128_S1x2048x128
    (ix3 (0 : Fin 1) k cc) : EReal) = 0
  rw [shapeCast_ab_1ab_apply, broadcast_apply]
  exact Ideal.ofBits_zero_f32

theorem pay286_apply (x1 : Vec Ideal S256x1 .i32) (fe : FVec Ideal S256x128 .bf16) (p5 : FVec Ideal S1x2048x128 .f32)
    (k : Fin 2048) (cc : Fin 128) :
    (k0_pay286 (F := Ideal) x1 fe p5 (ix3 (0 : Fin 1) k cc) : EReal)
      = p5 (ix3 (0 : Fin 1) k cc) + ∑ it : Fin 256, oh (x1 (ix2 it (0 : Fin 1))) k * (fe (ix2 it cc) : EReal) := by
  unfold k0_pay286
  show (shapeCast S1x2048x128 (addf (shapeCast S2048x128 p5 shapeCasts_S1x2048x128_S2048x128)
      (FloatOps.matmul dot_S256x2048_S256x128_S2048x128_0_0_1_1_n_n none (k0_pay285 (F := Ideal) x1) fe
        (constant (F := Ideal) S2048x128 .f32 0x00000000#32))) shapeCasts_S2048x128_S1x2048x128 (ix3 (0 : Fin 1) k cc) : EReal) = _
  rw [shapeCast_ab_1ab_apply, addf_apply, shapeCast_1ab_ab_apply, matmul5_ix2]
  exact congrArg (p5 (ix3 (0 : Fin 1) k cc) + ·) (Finset.sum_congr rfl fun it _ => by rw [onehot_apply])

theorem entry_of_lt (X : Cert.Spec.SX.Idx → EReal) (w : BitVec 32) (h : w.toNat < 1048576) (c : Fin 64) :
    Cert.Spec.entry X w c = X (ix2 (⟨w.toNat, h⟩ : Fin 1048576) c) := by
  unfold Cert.Spec.entry; rw [dif_pos h]

theorem pay3_apply (k : Fin 2048) : (k0_pay3 (F := Ideal) (ix3 (0 : Fin 1) k (0 : Fin 1)) : EReal) = 0 := by
  unfold k0_pay3
  show (shapeCast S1x2048x1 (broadcast S2048x1 (Scalar.ofBits (F := Ideal) .f32 0x00000000#32)) shapeCasts_S2048x1_S1x2048x1
    (ix3 (0 : Fin 1) k (0 : Fin 1)) : EReal) = 0
  rw [shapeCast_ab_1ab_apply, broadcast_apply]
  exact Ideal.ofBits_zero_f32

theorem pay287_apply (x1 : Vec Ideal S256x1 .i32) (p6 : FVec Ideal S1x2048x1 .f32) (k : Fin 2048) :
    (k0_pay1 (F := Ideal) (k0_pay287 (F := Ideal) x1 p6) (ix3 (0 : Fin 1) k (0 : Fin 1)) : EReal)
      = p6 (ix3 (0 : Fin 1) k (0 : Fin 1)) + ∑ it : Fin 256, oh (x1 (ix2 it (0 : Fin 1))) k * 1 := by
  unfold k0_pay1 k0_pay287
  show (shapeCast S1x2048x1 (addf (shapeCast S2048x1 p6 shapeCasts_S1x2048x1_S2048x1)
      (FloatOps.matmul dot_S256x2048_S256x1_S2048x1_0_0_1_1_n_n none (k0_pay285 (F := Ideal) x1)
        (broadcast S256x1 (Scalar.ofBits (F := Ideal) .bf16 0x3F80#16))
        (constant (F := Ideal) S2048x1 .f32 0x00000000#32))) shapeCasts_S2048x1_S1x2048x1 (ix3 (0 : Fin 1) k (0 : Fin 1)) : EReal) = _
  rw [shapeCast_ab_1ab_apply, addf_apply, shapeCast_1ab_ab_apply, matmul6_ix2]
  exact congrArg (p6 (ix3 (0 : Fin 1) k (0 : Fin 1)) + ·) (Finset.sum_congr rfl fun it _ => by
    rw [onehot_apply, broadcast_apply]
    exact congrArg (oh (x1 (ix2 it (0 : Fin 1))) k * ·) Ideal.ofBits_one_bf16)

variable (m : (ℓ : Loc nD τ sig) → Buf (Elt Ideal) ℓ)

/-- The sum over the pixels of block t that carry label k of their rows' entries at column cc. -/
def Bsum5 (X : Cert.Spec.SX.Idx → EReal) (seg coor : Cert.Spec.SP.Idx → BitVec 32) (t : Fin cfg0.N) (k : Fin 2048) (cc : Fin 128) : EReal :=
  ∑ it : Fin 256, oh (seg (ix1 (pix t it))) k * (if h : cc.val < 64 then Cert.Spec.entry X (coor (ix1 (pix t it))) ⟨cc.val, h⟩ else 0)

/-- The number of pixels of block t that carry label k. -/
def Bsum6 (seg : Cert.Spec.SP.Idx → BitVec 32) (t : Fin cfg0.N) (k : Fin 2048) : EReal :=
  ∑ it : Fin 256, oh (seg (ix1 (pix t it))) k * 1

variable (hH : Hyps m)

/-- The sums step at an index: what was held (zero at a shard's first point) plus the block's sum. -/
theorem step5_apply (c : Dev nD) (t : Fin cfg0.N) (y5 : Vec Ideal S1x2048x128 .f32) (k : Fin 2048) (cc : Fin 128) :
    step5 c (grid0.coords t) (blk0 m c t) (hH c t) (blk1 m c t) y5 (tbl m c) (ix3 (0 : Fin 1) k cc)
      = (if t.val % 2048 = 0 then 0 else y5 (ix3 (0 : Fin 1) k cc)) + Bsum5 (argX m c) (argSeg m c) (argCoor m c) t k cc := by
  unfold step5
  rw [pay286_apply]
  have hp : (prev5 (grid0.coords t) y5 (ix3 (0 : Fin 1) k cc) : EReal) = if t.val % 2048 = 0 then 0 else y5 (ix3 (0 : Fin 1) k cc) := by
    unfold prev5
    by_cases h : t.val % 2048 = 0
    · rw [if_pos h, if_pos ((first_iff t).mpr h)]; exact pay2_apply k cc
    · rw [if_neg h, if_neg (fun hf => h ((first_iff t).mp hf))]
  rw [hp]
  refine congrArg ((if t.val % 2048 = 0 then (0 : EReal) else y5 (ix3 (0 : Fin 1) k cc)) + ·) ?_
  unfold Bsum5
  refine Finset.sum_congr rfl fun it _ => ?_
  rw [blk1_apply, feats_apply, tbl_apply]
  by_cases hc : cc.val < 64
  · rw [dif_pos hc, dif_pos hc, ← blk0_apply m c t it, entry_of_lt _ _ (hH c t (ix1 it))]
  · rw [dif_neg hc, dif_neg hc]

/-- The counts step at an index. -/
theorem step6_apply (c : Dev nD) (t : Fin cfg0.N) (y6 : Vec Ideal S1x2048x1 .f32) (k : Fin 2048) :
    step6 (grid0.coords t) (blk1 m c t) y6 (ix3 (0 : Fin 1) k (0 : Fin 1))
      = (if t.val % 2048 = 0 then 0 else y6 (ix3 (0 : Fin 1) k (0 : Fin 1))) + Bsum6 (argSeg m c) t k := by
  unfold step6
  rw [pay287_apply]
  have hp : (prev6 (grid0.coords t) y6 (ix3 (0 : Fin 1) k (0 : Fin 1)) : EReal)
      = if t.val % 2048 = 0 then 0 else y6 (ix3 (0 : Fin 1) k (0 : Fin 1)) := by
    unfold prev6
    by_cases h : t.val % 2048 = 0
    · rw [if_pos h, if_pos ((first_iff t).mpr h)]; exact pay3_apply k
    · rw [if_neg h, if_neg (fun hf => h ((first_iff t).mp hf))]
  rw [hp]
  refine congrArg ((if t.val % 2048 = 0 then (0 : EReal) else y6 (ix3 (0 : Fin 1) k (0 : Fin 1))) + ·) ?_
  unfold Bsum6
  exact Finset.sum_congr rfl fun it _ => by rw [blk1_apply]

end Cert.KernelIdeal.Hand

end
-- ==== Proof.KIArrays.lean ====
import proofs.«400161_j14499809591944_4_alg».proof.Proof.KIFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]
variable (m : (ℓ : Loc nD τ sig) → Buf (Elt F) ℓ) (hH : Hyps m)

theorem last_lt (s : Fin 2) : 2048 * s.val + 2047 < cfg0.N := by
  have h : cfg0.N = 4096 := N_0
  have := s.isLt
  omega

/-- The sums array after the run: shard s holds the accumulator after the shard's last point. -/
def G2 (c : Dev nD) : Vec F S2x2048x128 .f32 :=
  fun i => (outs m hH c (2048 * (i 0).val + 2047) (last_lt ⟨(i 0).val, (i 0).isLt⟩)).1 (ix3 (0 : Fin 1) ⟨(i 1).val, (i 1).isLt⟩ ⟨(i 2).val, (i 2).isLt⟩)

/-- The counts array after the run, likewise. -/
def G3 (c : Dev nD) : Vec F S2x2048x1 .f32 :=
  fun i => (outs m hH c (2048 * (i 0).val + 2047) (last_lt ⟨(i 0).val, (i 0).isLt⟩)).2 (ix3 (0 : Fin 1) ⟨(i 1).val, (i 1).isLt⟩ ⟨(i 2).val, (i 2).isLt⟩)

theorem index2 : ∀ t : Fin cfg0.N, win0_2.index t 0 = t.val / 2048 ∧ win0_2.index t 1 = 0 ∧ win0_2.index t 2 = 0 :=
  (by decide +kernel : ∀ t : Fin grid0.N, win0_2.index t 0 = t.val / 2048 ∧ win0_2.index t 1 = 0 ∧ win0_2.index t 2 = 0)

theorem index3 : ∀ t : Fin cfg0.N, win0_3.index t 0 = t.val / 2048 ∧ win0_3.index t 1 = 0 ∧ win0_3.index t 2 = 0 :=
  (by decide +kernel : ∀ t : Fin grid0.N, win0_3.index t 0 = t.val / 2048 ∧ win0_3.index t 1 = 0 ∧ win0_3.index t 2 = 0)

theorem outs_congr (c : Dev nD) {n n' : ℕ} (h : n = n') (hn : n < cfg0.N) (hn' : n' < cfg0.N) :
    outs m hH c n hn = outs m hH c n' hn' := by subst h; rfl

theorem flushed_eq2 (c : Dev nD) (t : Fin cfg0.N) (hf : (cfg0.win 2).flush t = true) :
    (dats m hH 0 c).flushed 2 t = ((cfg0.win 2).blk t).view.read (Elt F) (G2 m hH c) := by
  have ht : t.val % 2048 = 2047 := (flush0_2 t).mp hf
  obtain ⟨i0, i1, i2⟩ := index2 t
  show (cfg0.win 2).cut (grid0.coords t) ((dats m hH 0 c).after 2 t) = _
  rw [after2]
  funext j
  rw [View.read_apply]
  show (outs m hH c t.val t.isLt).1 (win0_2.xinj (grid0.coords t) j) = G2 m hH c ((win0_2.rect t).emb j)
  unfold G2
  have hj0 : (j 0).val < 1 := (j 0).isLt

  have e0 : (((win0_2.rect t).emb j (0 : Fin 3) : Fin _) : ℕ) = t.val / 2048 := by
    show win0_2.index t 0 * 1 + 1 * (j 0).val = _
    rw [i0]; omega
  have e1 : (((win0_2.rect t).emb j (1 : Fin 3) : Fin _) : ℕ) = (j 1).val := by
    show win0_2.index t 1 * 2048 + 1 * (j 1).val = _
    rw [i1]; omega
  have e2 : (((win0_2.rect t).emb j (2 : Fin 3) : Fin _) : ℕ) = (j 2).val := by
    show win0_2.index t 2 * 128 + 1 * (j 2).val = _
    rw [i2]; omega

  rw [outs_congr m hH c (show 2048 * (((win0_2.rect t).emb j (0 : Fin 3) : Fin _) : ℕ) + 2047 = t.val by rw [e0]; omega) _ t.isLt]
  refine congrArg _ ?_
  funext a
  apply Fin.ext
  match a with
  | ⟨0, _⟩ => show (j 0).val = 0; omega
  | ⟨1, _⟩ => exact e1.symm
  | ⟨2, _⟩ => exact e2.symm

theorem final2 (c : Dev nD) : (dats m hH 0 c).arrAt 2 cfg0.N = G2 m hH c :=
  (dats m hH 0 c).arrAt_eq_of_cover 2 (G2 m hH c) (flushed_eq2 m hH c) fun i => by
    have h0 : (i 0 : ℕ) < 2 := (i 0).isLt
    have h1 : (i 1 : ℕ) < 2048 := (i 1).isLt
    have h2 : (i 2 : ℕ) < 128 := (i 2).isLt
    have hN : cfg0.N = 4096 := N_0

    have hlt : 2048 * (i 0 : ℕ) + 2047 < cfg0.N := by omega
    refine ⟨⟨2048 * (i 0 : ℕ) + 2047, hlt⟩, (flush0_2 _).mpr (by show (2048 * (i 0 : ℕ) + 2047) % 2048 = 2047; omega), ?_⟩
    obtain ⟨i0, i1, i2⟩ := index2 ⟨2048 * (i 0 : ℕ) + 2047, hlt⟩
    have hq : (2048 * (i 0 : ℕ) + 2047) / 2048 = (i 0 : ℕ) := by omega
    show i ∈ ((View.whole main_v3_0).slice (win0_2.rect ⟨2048 * (i 0 : ℕ) + 2047, hlt⟩)).set
    rw [View.set_slice_whole, Rect.mem_set_unit]
    intro a
    match a with
    | ⟨0, _⟩ =>
      show win0_2.index ⟨2048 * (i 0 : ℕ) + 2047, hlt⟩ 0 * 1 ≤ (i 0 : ℕ) ∧ (i 0 : ℕ) < win0_2.index ⟨2048 * (i 0 : ℕ) + 2047, hlt⟩ 0 * 1 + 1
      rw [i0]; dsimp only; omega
    | ⟨1, _⟩ =>
      show win0_2.index ⟨2048 * (i 0 : ℕ) + 2047, hlt⟩ 1 * 2048 ≤ (i 1 : ℕ) ∧ (i 1 : ℕ) < win0_2.index ⟨2048 * (i 0 : ℕ) + 2047, hlt⟩ 1 * 2048 + 2048
      rw [i1]; omega
    | ⟨2, _⟩ =>
      show win0_2.index ⟨2048 * (i 0 : ℕ) + 2047, hlt⟩ 2 * 128 ≤ (i 2 : ℕ) ∧ (i 2 : ℕ) < win0_2.index ⟨2048 * (i 0 : ℕ) + 2047, hlt⟩ 2 * 128 + 128
      rw [i2]; omega

theorem flushed_eq3 (c : Dev nD) (t : Fin cfg0.N) (hf : (cfg0.win 3).flush t = true) :
    (dats m hH 0 c).flushed 3 t = ((cfg0.win 3).blk t).view.read (Elt F) (G3 m hH c) := by
  have ht : t.val % 2048 = 2047 := (flush0_3 t).mp hf
  obtain ⟨i0, i1, i2⟩ := index3 t
  show (cfg0.win 3).cut (grid0.coords t) ((dats m hH 0 c).after 3 t) = _
  rw [after3]
  funext j
  rw [View.read_apply]
  show (outs m hH c t.val t.isLt).2 (win0_3.xinj (grid0.coords t) j) = G3 m hH c ((win0_3.rect t).emb j)
  unfold G3
  have hj0 : (j 0).val < 1 := (j 0).isLt

  have e0 : (((win0_3.rect t).emb j (0 : Fin 3) : Fin _) : ℕ) = t.val / 2048 := by
    show win0_3.index t 0 * 1 + 1 * (j 0).val = _
    rw [i0]; omega
  have e1 : (((win0_3.rect t).emb j (1 : Fin 3) : Fin _) : ℕ) = (j 1).val := by
    show win0_3.index t 1 * 2048 + 1 * (j 1).val = _
    rw [i1]; omega
  have e2 : (((win0_3.rect t).emb j (2 : Fin 3) : Fin _) : ℕ) = (j 2).val := by
    show win0_3.index t 2 * 1 + 1 * (j 2).val = _
    rw [i2]; omega

  rw [outs_congr m hH c (show 2048 * (((win0_3.rect t).emb j (0 : Fin 3) : Fin _) : ℕ) + 2047 = t.val by rw [e0]; omega) _ t.isLt]
  refine congrArg _ ?_
  funext a
  apply Fin.ext
  match a with
  | ⟨0, _⟩ => show (j 0).val = 0; omega
  | ⟨1, _⟩ => exact e1.symm
  | ⟨2, _⟩ => exact e2.symm

theorem final3 (c : Dev nD) : (dats m hH 0 c).arrAt 3 cfg0.N = G3 m hH c :=
  (dats m hH 0 c).arrAt_eq_of_cover 3 (G3 m hH c) (flushed_eq3 m hH c) fun i => by
    have h0 : (i 0 : ℕ) < 2 := (i 0).isLt
    have h1 : (i 1 : ℕ) < 2048 := (i 1).isLt
    have h2 : (i 2 : ℕ) < 1 := (i 2).isLt
    have hN : cfg0.N = 4096 := N_0

    have hlt : 2048 * (i 0 : ℕ) + 2047 < cfg0.N := by omega
    refine ⟨⟨2048 * (i 0 : ℕ) + 2047, hlt⟩, (flush0_3 _).mpr (by show (2048 * (i 0 : ℕ) + 2047) % 2048 = 2047; omega), ?_⟩
    obtain ⟨i0, i1, i2⟩ := index3 ⟨2048 * (i 0 : ℕ) + 2047, hlt⟩
    have hq : (2048 * (i 0 : ℕ) + 2047) / 2048 = (i 0 : ℕ) := by omega
    show i ∈ ((View.whole main_v3_1).slice (win0_3.rect ⟨2048 * (i 0 : ℕ) + 2047, hlt⟩)).set
    rw [View.set_slice_whole, Rect.mem_set_unit]
    intro a
    match a with
    | ⟨0, _⟩ =>
      show win0_3.index ⟨2048 * (i 0 : ℕ) + 2047, hlt⟩ 0 * 1 ≤ (i 0 : ℕ) ∧ (i 0 : ℕ) < win0_3.index ⟨2048 * (i 0 : ℕ) + 2047, hlt⟩ 0 * 1 + 1
      rw [i0]; dsimp only; omega
    | ⟨1, _⟩ =>
      show win0_3.index ⟨2048 * (i 0 : ℕ) + 2047, hlt⟩ 1 * 2048 ≤ (i 1 : ℕ) ∧ (i 1 : ℕ) < win0_3.index ⟨2048 * (i 0 : ℕ) + 2047, hlt⟩ 1 * 2048 + 2048
      rw [i1]; omega
    | ⟨2, _⟩ =>
      show win0_3.index ⟨2048 * (i 0 : ℕ) + 2047, hlt⟩ 2 * 1 ≤ (i 2 : ℕ) ∧ (i 2 : ℕ) < win0_3.index ⟨2048 * (i 0 : ℕ) + 2047, hlt⟩ 2 * 1 + 1
      rw [i2]; omega

end Cert.KernelIdeal.Hand

end
-- ==== Proof.KIFinal.lean ====
import proofs.«400161_j14499809591944_4_alg».proof.Proof.KIStepValue
import proofs.«400161_j14499809591944_4_alg».proof.Proof.KIArrays
import Idealize.ShloMosaic.Lib.IdealHost
import Idealize.ShloMosaic.Lib.ValueLayout
import Mathlib.Algebra.BigOperators.Fin
import Mathlib.Algebra.BigOperators.Intervals
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (hH : Hyps m)

open scoped BigOperators

def add5 (c : Dev nD) (k : Fin 2048) (cc : Fin 128) (u : ℕ) : EReal :=
  if h : u < cfg0.N then Bsum5 (argX m c) (argSeg m c) (argCoor m c) ⟨u, h⟩ k cc else 0

def add6 (c : Dev nD) (k : Fin 2048) (u : ℕ) : EReal :=
  if h : u < cfg0.N then Bsum6 (argSeg m c) ⟨u, h⟩ k else 0

theorem outs1_eq (c : Dev nD) (k : Fin 2048) (cc : Fin 128) : ∀ (n : ℕ) (hn : n < cfg0.N),
    (outs m hH c n hn).1 (ix3 (0 : Fin 1) k cc) = ∑ u ∈ Finset.Ico (n / 2048 * 2048) (n + 1), add5 m c k cc u
  | 0, hn => by
    show step5 c (grid0.coords ⟨0, hn⟩) (blk0 m c ⟨0, hn⟩) (hH c ⟨0, hn⟩) (blk1 m c ⟨0, hn⟩) (k0_pay2 (F := Ideal)) (tbl m c) (ix3 (0 : Fin 1) k cc) = _
    rw [step5_apply m hH c ⟨0, hn⟩ (k0_pay2 (F := Ideal)) k cc]
    dsimp only
    rw [if_pos (Nat.zero_mod 2048), zero_add]
    show _ = ∑ u ∈ Finset.Ico 0 1, add5 m c k cc u
    rw [Nat.Ico_succ_singleton, Finset.sum_singleton]
    rw [add5, dif_pos hn]
  | n + 1, hn => by
    show step5 c (grid0.coords ⟨n + 1, hn⟩) (blk0 m c ⟨n + 1, hn⟩) (hH c ⟨n + 1, hn⟩) (blk1 m c ⟨n + 1, hn⟩)
      (outs m hH c n (Nat.lt_of_succ_lt hn)).1 (tbl m c) (ix3 (0 : Fin 1) k cc) = _
    rw [step5_apply m hH c ⟨n + 1, hn⟩ _ k cc]
    dsimp only
    have e : add5 m c k cc (n + 1) = Bsum5 (argX m c) (argSeg m c) (argCoor m c) ⟨n + 1, hn⟩ k cc := by
      rw [add5, dif_pos hn]
    by_cases h0 : (n + 1) % 2048 = 0
    · rw [if_pos h0, zero_add, show (n + 1) / 2048 * 2048 = n + 1 by omega, Nat.Ico_succ_singleton, Finset.sum_singleton, e]
    · rw [if_neg h0, outs1_eq c k cc n (Nat.lt_of_succ_lt hn), show (n + 1) / 2048 * 2048 = n / 2048 * 2048 by omega,
        Finset.sum_Ico_succ_top (show n / 2048 * 2048 ≤ n + 1 by omega), e]

theorem outs2_eq (c : Dev nD) (k : Fin 2048) : ∀ (n : ℕ) (hn : n < cfg0.N),
    (outs m hH c n hn).2 (ix3 (0 : Fin 1) k (0 : Fin 1)) = ∑ u ∈ Finset.Ico (n / 2048 * 2048) (n + 1), add6 m c k u
  | 0, hn => by
    show step6 (grid0.coords ⟨0, hn⟩) (blk1 m c ⟨0, hn⟩) (k0_pay3 (F := Ideal)) (ix3 (0 : Fin 1) k (0 : Fin 1)) = _
    rw [step6_apply m c ⟨0, hn⟩ (k0_pay3 (F := Ideal)) k]
    dsimp only
    rw [if_pos (Nat.zero_mod 2048), zero_add]
    show _ = ∑ u ∈ Finset.Ico 0 1, add6 m c k u
    rw [Nat.Ico_succ_singleton, Finset.sum_singleton]
    rw [add6, dif_pos hn]
  | n + 1, hn => by
    show step6 (grid0.coords ⟨n + 1, hn⟩) (blk1 m c ⟨n + 1, hn⟩)
      (outs m hH c n (Nat.lt_of_succ_lt hn)).2 (ix3 (0 : Fin 1) k (0 : Fin 1)) = _
    rw [step6_apply m c ⟨n + 1, hn⟩ _ k]
    dsimp only
    have e : add6 m c k (n + 1) = Bsum6 (argSeg m c) ⟨n + 1, hn⟩ k := by
      rw [add6, dif_pos hn]
    by_cases h0 : (n + 1) % 2048 = 0
    · rw [if_pos h0, zero_add, show (n + 1) / 2048 * 2048 = n + 1 by omega, Nat.Ico_succ_singleton, Finset.sum_singleton, e]
    · rw [if_neg h0, outs2_eq c k n (Nat.lt_of_succ_lt hn), show (n + 1) / 2048 * 2048 = n / 2048 * 2048 by omega,
        Finset.sum_Ico_succ_top (show n / 2048 * 2048 ≤ n + 1 by omega), e]

theorem slice_cast_sums (A2 : FVec Ideal S2x2048x128 .f32) (s : Fin 2) (off : Fin 3 → ℕ) (hoff : off = ![s.val, 0, 0])
    (hs : S2x2048x128.Slices off S1x2048x64) (hc : S1x2048x64.ShapeCasts S2048x64) (k : Fin 2048) (q : Fin 64) :
    shapeCast S2048x64 (extractStridedSlice S1x2048x64 off A2 hs) hc (ix2 k q)
      = A2 (ix3 s k ⟨q.val, by have := q.isLt; omega⟩) := by
  subst hoff
  rw [shapeCast_1ab_ab_apply]
  exact extractStridedSlice_apply _ A2 hs _ _ (fun a => match a with
    | ⟨0, _⟩ => (Nat.add_zero _).symm
    | ⟨1, _⟩ => (Nat.zero_add _).symm
    | ⟨2, _⟩ => (Nat.zero_add _).symm)

theorem slice_cast_counts (A3 : FVec Ideal S2x2048x1 .f32) (s : Fin 2) (off : Fin 3 → ℕ) (hoff : off = ![s.val, 0, 0])
    (hs : S2x2048x1.Slices off S1x2048x1) (hc : S1x2048x1.ShapeCasts S2048x1) (k : Fin 2048) :
    shapeCast S2048x1 (extractStridedSlice S1x2048x1 off A3 hs) hc (ix2 k (0 : Fin 1))
      = A3 (ix3 s k (0 : Fin 1)) := by
  subst hoff
  rw [shapeCast_1ab_ab_apply]
  exact extractStridedSlice_apply _ A3 hs _ _ (fun a => match a with
    | ⟨0, _⟩ => (Nat.add_zero _).symm
    | ⟨1, _⟩ => (Nat.zero_add _).symm
    | ⟨2, _⟩ => (Nat.zero_add _).symm)

theorem tail_apply (A2 : FVec Ideal S2x2048x128 .f32) (A3 : FVec Ideal S2x2048x1 .f32)
    (hs0 : S2x2048x128.Slices ![0, 0, 0] S1x2048x64) (hs1 : S2x2048x128.Slices ![1, 0, 0] S1x2048x64)
    (hc : S1x2048x64.ShapeCasts S2048x64)
    (ht0 : S2x2048x1.Slices ![0, 0, 0] S1x2048x1) (ht1 : S2x2048x1.Slices ![1, 0, 0] S1x2048x1)
    (hd : S1x2048x1.ShapeCasts S2048x1)
    (hb1 : S_.BroadcastsInDim S2048x1 (![] : Fin 0 → Fin S2048x1.rank))
    (hb2 : S2048x1.BroadcastsInDim S2048x64 (![0, 1] : Fin 2 → Fin S2048x64.rank))
    (k : Fin 2048) (q : Fin 64) :
    Host.divf (F := Ideal)
      (addf (F := Ideal) (shapeCast S2048x64 (extractStridedSlice S1x2048x64 ![0, 0, 0] A2 hs0) hc)
            (shapeCast S2048x64 (extractStridedSlice S1x2048x64 ![1, 0, 0] A2 hs1) hc))
      (broadcastInDim S2048x64 ![0, 1] hb2
        (maximumf (F := Ideal)
          (addf (F := Ideal) (shapeCast S2048x1 (extractStridedSlice S1x2048x1 ![0, 0, 0] A3 ht0) hd)
                (shapeCast S2048x1 (extractStridedSlice S1x2048x1 ![1, 0, 0] A3 ht1) hd))
          (broadcastInDim S2048x1 ![] hb1 (constant (F := Ideal) S_ .f32 0x3F800000#32))))
      (ix2 k q)
    = Ideal.div (A2 (ix3 (0 : Fin 2) k ⟨q.val, by have := q.isLt; omega⟩) + A2 (ix3 (1 : Fin 2) k ⟨q.val, by have := q.isLt; omega⟩))
        (max (A3 (ix3 (0 : Fin 2) k (0 : Fin 1)) + A3 (ix3 (1 : Fin 2) k (0 : Fin 1))) 1) := by
  rw [hostDivf_apply]
  refine congrArg₂ Ideal.div ?_ ?_
  · rw [addf_apply, slice_cast_sums A2 0 ![0, 0, 0] rfl hs0 hc k q, slice_cast_sums A2 1 ![1, 0, 0] rfl hs1 hc k q]
  · rw [broadcastInDim_apply _ hb2 _ _ (ix2 k (0 : Fin 1)) (fun a => match a with
        | ⟨0, _⟩ => by show k.val = if (2048 : ℕ) = 1 then 0 else k.val; rw [if_neg (by decide)]
        | ⟨1, _⟩ => by show 0 = if (1 : ℕ) = 1 then 0 else q.val; rw [if_pos rfl]),
      maximumf_apply, addf_apply, slice_cast_counts A3 0 ![0, 0, 0] rfl ht0 hd k, slice_cast_counts A3 1 ![1, 0, 0] rfl ht1 hd k,
      broadcastInDim_scalar_apply, constant_apply, Ideal.ofBits_one_f32]

theorem sum_points_pixels (f : Fin 1048576 → EReal) :
    ∑ u : Fin 4096, ∑ it : Fin 256, f ⟨256 * u.val + it.val, by have := u.isLt; have := it.isLt; omega⟩
      = ∑ p : Fin 1048576, f p := by
  have e : ∑ p : Fin 1048576, f p = ∑ x : Fin 4096 × Fin 256, f (finProdFinEquiv x) :=
    (Equiv.sum_comp (finProdFinEquiv : Fin 4096 × Fin 256 ≃ Fin (4096 * 256)) f).symm
  rw [e, Fintype.sum_prod_type]
  refine Finset.sum_congr rfl fun u _ => Finset.sum_congr rfl fun it _ => ?_
  refine congrArg f (Fin.ext ?_)
  show 256 * u.val + it.val = it.val + 256 * u.val
  omega

theorem sum_two_shards (g : ℕ → EReal) :
    ∑ u ∈ Finset.Ico 0 2048, g u + ∑ u ∈ Finset.Ico 2048 4096, g u = ∑ u : Fin 4096, g u.val := by
  rw [Finset.sum_Ico_consecutive g (by omega) (by omega), Fin.sum_univ_eq_sum_range, Finset.range_eq_Ico]

theorem oh_mul (seg : Cert.Spec.SP.Idx → BitVec 32) (k : Fin 2048) (p : Fin 1048576) (x : EReal) :
    oh (seg (ix1 p)) k * x = if Cert.Spec.hit seg k p then x else 0 := by
  unfold oh
  by_cases hp : Cert.Spec.hit seg k p
  · rw [if_pos hp, if_pos (show seg (ix1 p) = BitVec.ofNat 32 k.val from hp), one_mul]
  · rw [if_neg hp, if_neg (show ¬ seg (ix1 p) = BitVec.ofNat 32 k.val from hp), zero_mul]

/-- The two shards' sums at (k, q) add up to the specification's sum over all pixels. -/
theorem num_eq (c : Dev nD) (k : Fin 2048) (q : Fin 64) (h0 : 2047 < cfg0.N) (h1 : 4095 < cfg0.N) :
    (outs m hH c 2047 h0).1 (ix3 (0 : Fin 1) k ⟨q.val, by have := q.isLt; omega⟩)
        + (outs m hH c 4095 h1).1 (ix3 (0 : Fin 1) k ⟨q.val, by have := q.isLt; omega⟩)
      = Cert.Spec.num (argX m c) (argSeg m c) (argCoor m c) k q := by
  rw [outs1_eq, outs1_eq]
  show ∑ u ∈ Finset.Ico 0 2048, _ + ∑ u ∈ Finset.Ico 2048 4096, _ = _
  rw [sum_two_shards]
  unfold Cert.Spec.num
  rw [← sum_points_pixels]
  refine Finset.sum_congr rfl fun u _ => ?_
  have hu : u.val < cfg0.N := by rw [show cfg0.N = 4096 from N_0]; exact u.isLt
  rw [add5, dif_pos hu]
  unfold Bsum5
  refine Finset.sum_congr rfl fun it _ => ?_
  rw [dif_pos (show (⟨q.val, by have := q.isLt; omega⟩ : Fin 128).val < 64 from q.isLt)]
  exact oh_mul (argSeg m c) k (pix ⟨u.val, hu⟩ it) _

/-- The two shards' counts at k add up to the specification's count. -/
theorem cnt_eq (c : Dev nD) (k : Fin 2048) (h0 : 2047 < cfg0.N) (h1 : 4095 < cfg0.N) :
    (outs m hH c 2047 h0).2 (ix3 (0 : Fin 1) k (0 : Fin 1)) + (outs m hH c 4095 h1).2 (ix3 (0 : Fin 1) k (0 : Fin 1))
      = Cert.Spec.cnt (argSeg m c) k := by
  rw [outs2_eq, outs2_eq]
  show ∑ u ∈ Finset.Ico 0 2048, _ + ∑ u ∈ Finset.Ico 2048 4096, _ = _
  rw [sum_two_shards]
  unfold Cert.Spec.cnt
  rw [← sum_points_pixels]
  refine Finset.sum_congr rfl fun u _ => ?_
  have hu : u.val < cfg0.N := by rw [show cfg0.N = 4096 from N_0]; exact u.isLt
  rw [add6, dif_pos hu]
  unfold Bsum6
  refine Finset.sum_congr rfl fun it _ => ?_
  exact oh_mul (argSeg m c) k (pix ⟨u.val, hu⟩ it) 1

/-- The result buffer is the specification's mean. -/
theorem result_eq (c : Dev nD) :
    (Pipeline.afterTail₀ cfgs (dats m hH) 0 (V0 m) [hostOps1] c main_v17 : S2048x64.Idx → EReal)
      = Cert.Spec.G (argX m c) (argSeg m c) (argCoor m c) := by
  have e2 : Pipeline.withArrays (cfgs 0).spec c (V0 m c) (fun w => (dats m hH 0 c).arrAt w (cfgs 0).N)
      (Proc.devRef .tc main_v3_0) = G2 m hH c :=
    (Pipeline.withArrays_arr spec0 launch0.win.arr_inj c _ _ 2).trans (final2 m hH c)
  have e3 : Pipeline.withArrays (cfgs 0).spec c (V0 m c) (fun w => (dats m hH 0 c).arrAt w (cfgs 0).N)
      (Proc.devRef .tc main_v3_1) = G3 m hH c :=
    (Pipeline.withArrays_arr spec0 launch0.win.arr_inj c _ _ 3).trans (final3 m hH c)
  unfold Pipeline.afterTail₀
  show StableHlo.after hostOps1 _ (Proc.devRef .tc main_v17) = _
  after_results
  rw [e2, e3]
  funext j
  obtain ⟨k, q, rfl⟩ : ∃ (k : Fin 2048) (q : Fin 64), j = ix2 k q := ⟨j 0, j 1, eq_ix2 j⟩
  refine (tail_apply (G2 m hH c) (G3 m hH c) _ _ _ _ _ _ _ _ k q).trans ?_
  rw [Cert.Spec.G_ix2]
  refine congrArg₂ Ideal.div ?_ ?_
  · exact num_eq m hH c k q _ _
  · exact congrArg (max · 1) (cnt_eq m hH c k _ _)

end Cert.KernelIdeal.Hand

end
-- ==== Proof.RefValue.lean ====
import proofs.«400161_j14499809591944_4_alg».proof.Proof.Gen.ReferenceIdeal.Read
import proofs.«400161_j14499809591944_4_alg».proof.Proof.Spec
import Idealize.ShloMosaic.Lib.IdealHost
import Idealize.ShloMosaic.Lib.StableHlo.Predicate
import Idealize.ShloMosaic.Lib.ValueIdxRank1

noncomputable section

namespace Cert.ReferenceIdeal.RefValue

open Cert.ReferenceIdeal Cert.ReferenceIdeal.Gen Cert.ReferenceIdeal.Read Idealize.ShloMosaic Idealize.ShloMosaic.ValueIdx
open Idealize.ShloMosaic.StableHlo.Predicate (slt_iff_toNat)
open scoped BigOperators

abbrev gd := gather_S1048576x64_S1048576x1_S1048576x64_1_0_n_n_0_1_164

abbrev sd2 := scatter_S2048x64_S1048576x1_S1048576x64_1_0_0_1

abbrev sd1 := scatter_S2048_S1048576x1_S1048576_n_0_0_1

theorem gather_row {α : Type} (x : S1048576x64.Idx → α) (idx : IVec S1048576x1 32) (p : Fin 1048576) (c : Fin 64) :
    Host.gather gd x idx (ix2 p c)
      = x (ix2 ⟨min (idx (ix2 p (0 : Fin 1))).toInt.toNat (1048576 - 1), by omega⟩ c) := by
  unfold Host.gather
  congr 1
  funext a
  refine Fin.ext ?_
  match a with
  | ⟨0, _⟩ =>
    show gd.start (ix2 p c) idx 0 + gd.batchCoord (ix2 p c) 0 + gd.offCoord (ix2 p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix2 p c) ⟨List.idxOf (0 : Fin 2) gd.startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show gd.start (ix2 p c) idx 1 + gd.batchCoord (ix2 p c) 1 + gd.offCoord (ix2 p c) 1 = c.val
    rw [GatherDims.batchCoord_eq_zero _ _ _ List.not_mem_nil]
    unfold GatherDims.start
    rw [dif_neg (show (1 : Fin 2) ∉ gd.startIndexMap by decide)]
    have h1 : (1 : Fin 2) ∈ gd.sKept := by decide
    unfold GatherDims.offCoord
    rw [dif_pos h1]
    simp only [Nat.zero_add]
    rfl

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro e a
      rw [← e]
      exact (Int.toNat_of_nonneg (h a).1).symm
    · intro hall
      funext a
      refine Fin.ext ?_
      show (d.start j idx a + (d.window j a : Int)).toNat = (i a).val
      rw [hall a]; rfl
  · rename_i h
    constructor
    · intro e; cases e
    · intro hall
      refine absurd (fun a => ⟨?_, ?_⟩) h
      · rw [hall a]; exact Int.natCast_nonneg _
      · rw [hall a]; exact_mod_cast (i a).isLt

theorem sd2_start0 (idx : IVec S1048576x1 32) (p : Fin 1048576) (c : Fin 64) :
    sd2.start (ix2 p c) idx 0 = (idx (ix2 p (0 : Fin 1))).toInt := by
  unfold ScatterDims.start
  rw [dif_pos (show (0 : Fin 2) ∈ sd2.scatterDimsToOperandDims from List.mem_singleton.mpr rfl)]
  have hsi : sd2.siIdx (ix2 p c) ⟨List.idxOf (0 : Fin 2) sd2.scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

theorem sd2_start1 (idx : IVec S1048576x1 32) (p : Fin 1048576) (c : Fin 64) :
    sd2.start (ix2 p c) idx 1 = 0 := by
  unfold ScatterDims.start
  rw [dif_neg (show (1 : Fin 2) ∉ sd2.scatterDimsToOperandDims by decide)]

theorem sd2_window0 (p : Fin 1048576) (c : Fin 64) : sd2.window (ix2 p c) 0 = 0 := by
  unfold ScatterDims.window
  rw [dif_neg (show (0 : Fin 2) ∉ sd2.sKept by decide)]

theorem sd2_window1 (p : Fin 1048576) (c : Fin 64) : sd2.window (ix2 p c) 1 = c.val := by
  unfold ScatterDims.window
  rw [dif_pos (show (1 : Fin 2) ∈ sd2.sKept by decide)]
  rfl

theorem sd1_start0 (idx : IVec S1048576x1 32) (p : Fin 1048576) :
    sd1.start (ix1 p) idx 0 = (idx (ix2 p (0 : Fin 1))).toInt := by
  unfold ScatterDims.start
  rw [dif_pos (show (0 : Fin 1) ∈ sd1.scatterDimsToOperandDims from List.mem_singleton.mpr rfl)]
  have hsi : sd1.siIdx (ix1 p) ⟨List.idxOf (0 : Fin 1) sd1.scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

theorem sd1_window0 (p : Fin 1048576) : sd1.window (ix1 p) 0 = 0 := by
  unfold ScatterDims.window
  rw [dif_neg (show (0 : Fin 1) ∉ sd1.sKept by decide)]

theorem toInt_eq_iff (w : BitVec 32) (k : Nat) (hk : k < 2048) :
    w.toInt = (k : Int) ↔ w = BitVec.ofNat 32 k := by
  have hw := w.isLt
  constructor
  · intro h
    apply BitVec.eq_of_toNat_eq
    rw [BitVec.toNat_ofNat]
    rw [BitVec.toInt_eq_toNat_cond] at h
    split at h <;> omega
  · intro h
    subst h
    rw [BitVec.toInt_eq_toNat_cond, BitVec.toNat_ofNat]
    split <;> omega

theorem toInt_toNat_min (w : BitVec 32) (h : w.toNat < 1048576) :
    min w.toInt.toNat (1048576 - 1) = w.toNat := by
  rw [BitVec.toInt_eq_toNat_of_lt (by omega)]
  simp only [Int.toNat_natCast]
  omega

theorem v4_of_lt (x2 : (⟨S1048576, .i32⟩ : BufTy).Contents (Elt Ideal)) (p : Fin 1048576)
    (h : (x2 (ix1 p)).toNat < 1048576) :
    val_main_v4 (F := Ideal) x2 (ix1 p) = x2 (ix1 p) := by
  rw [val_main_v4_apply, val_main_v1_apply, val_main_v0_apply, val_main_c_apply]
  have hn : ¬ IntOp.cmpi .slt (x2 (ix1 p)) 0#32 = 1#1 := by
    rw [slt_iff_toNat (by omega) (by decide)]
    simp
  rw [eq_zero_of_ne_one hn, select_zero]

theorem v5_of_lt (x2 : (⟨S1048576, .i32⟩ : BufTy).Contents (Elt Ideal)) (p : Fin 1048576)
    (h : (x2 (ix1 p)).toNat < 1048576) :
    val_main_v5 (F := Ideal) x2 (ix2 p (0 : Fin 1)) = x2 (ix1 p) := by
  rw [val_main_v5_apply]
  have e : idx_main_v5 (ix2 p (0 : Fin 1)) = ix1 p := by
    funext a; match a with | ⟨0, _⟩ => rfl
  rw [e, v4_of_lt x2 p h]

theorem v8_read (x1 : (⟨S1048576, .i32⟩ : BufTy).Contents (Elt Ideal)) (p : Fin 1048576) :
    val_main_v8 (F := Ideal) x1 (ix2 p (0 : Fin 1)) = x1 (ix1 p) := by
  rw [val_main_v8_apply]
  have e : idx_main_v8 (ix2 p (0 : Fin 1)) = ix1 p := by
    funext a; match a with | ⟨0, _⟩ => rfl
  rw [e]

theorem v12_read (x1 : (⟨S1048576, .i32⟩ : BufTy).Contents (Elt Ideal)) (p : Fin 1048576) :
    val_main_v12 (F := Ideal) x1 (ix2 p (0 : Fin 1)) = x1 (ix1 p) := by
  rw [val_main_v12_apply]
  have e : idx_main_v12 (ix2 p (0 : Fin 1)) = ix1 p := by
    funext a; match a with | ⟨0, _⟩ => rfl
  rw [e]

theorem v6_of_lt (x0 : (⟨S1048576x64, .f32⟩ : BufTy).Contents (Elt Ideal))
    (x2 : (⟨S1048576, .i32⟩ : BufTy).Contents (Elt Ideal)) (p : Fin 1048576) (c : Fin 64)
    (h : (x2 (ix1 p)).toNat < 1048576) :
    val_main_v6 (F := Ideal) x0 x2 (ix2 p c) = x0 (ix2 ⟨(x2 (ix1 p)).toNat, h⟩ c) := by
  unfold val_main_v6
  rw [gather_row]
  congr 2
  refine Fin.ext ?_
  show min (val_main_v5 (F := Ideal) x2 (ix2 p (0 : Fin 1))).toInt.toNat (1048576 - 1) = (x2 (ix1 p)).toNat
  rw [v5_of_lt x2 p h, toInt_toNat_min _ h]

theorem sd2_lands_iff (idx : IVec S1048576x1 32) (p : Fin 1048576) (c' : Fin 64) (k : Fin 2048) (c : Fin 64) :
    sd2.resultIdx? (ix2 p c') idx = some (ix2 k c) ↔ (idx (ix2 p (0 : Fin 1))).toInt = (k.val : Int) ∧ c' = c := by
  rw [resultIdx?_eq_some_iff]
  constructor
  · intro h
    have h0 := h 0
    have h1 := h 1
    rw [sd2_start0, sd2_window0] at h0
    rw [sd2_start1, sd2_window1] at h1
    refine ⟨?_, Fin.ext ?_⟩
    · have e : (((ix2 k c : S2048x64.Idx) 0).val : Int) = (k.val : Int) := rfl
      rw [e] at h0
      simpa using h0
    · have e : (((ix2 k c : S2048x64.Idx) 1).val : Int) = (c.val : Int) := rfl
      rw [e] at h1
      have : (c'.val : Int) = (c.val : Int) := by simpa using h1
      exact_mod_cast this
  · rintro ⟨h0, rfl⟩ a
    match a with
    | ⟨0, _⟩ =>
      show sd2.start (ix2 p c') idx 0 + (sd2.window (ix2 p c') 0 : Int) = (k.val : Int)
      rw [sd2_start0, sd2_window0, h0]; simp
    | ⟨1, _⟩ =>
      show sd2.start (ix2 p c') idx 1 + (sd2.window (ix2 p c') 1 : Int) = (c'.val : Int)
      rw [sd2_start1, sd2_window1]; simp

theorem sd1_lands_iff (idx : IVec S1048576x1 32) (p : Fin 1048576) (k : Fin 2048) :
    sd1.resultIdx? (ix1 p) idx = some (ix1 k) ↔ (idx (ix2 p (0 : Fin 1))).toInt = (k.val : Int) := by
  rw [resultIdx?_eq_some_iff]
  constructor
  · intro h
    have h0 := h 0
    rw [sd1_start0, sd1_window0] at h0
    have e : (((ix1 k : S2048.Idx) 0).val : Int) = (k.val : Int) := rfl
    rw [e] at h0
    simpa using h0
  · intro h0 a
    match a with
    | ⟨0, _⟩ =>
      show sd1.start (ix1 p) idx 0 + (sd1.window (ix1 p) 0 : Int) = (k.val : Int)
      rw [sd1_start0, sd1_window0, h0]; simp

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem sd2_sum (idx : IVec S1048576x1 32) (upd : S1048576x64.Idx → EReal) (k : Fin 2048) (c : Fin 64) :
    ∑ j ∈ Finset.univ.filter (fun j => sd2.resultIdx? j idx = some (ix2 k c)), upd j
      = ∑ p : Fin 1048576, if (idx (ix2 p (0 : Fin 1))).toInt = (k.val : Int) then upd (ix2 p c) else 0 := by
  rw [Finset.sum_filter, sum_idx2]
  refine Finset.sum_congr rfl fun p _ => ?_
  simp only [sd2_lands_iff]
  by_cases h : (idx (ix2 p (0 : Fin 1))).toInt = (k.val : Int)
  · simp only [h, true_and, if_true]
    rw [Finset.sum_ite_eq' Finset.univ c (fun c' => upd (ix2 p c')), if_pos (Finset.mem_univ c)]
  · simp only [h, false_and, if_false]
    exact Finset.sum_const_zero

theorem sd1_sum (idx : IVec S1048576x1 32) (upd : S1048576.Idx → EReal) (k : Fin 2048) :
    ∑ j ∈ Finset.univ.filter (fun j => sd1.resultIdx? j idx = some (ix1 k)), upd j
      = ∑ p : Fin 1048576, if (idx (ix2 p (0 : Fin 1))).toInt = (k.val : Int) then upd (ix1 p) else 0 := by
  rw [Finset.sum_filter, sum_idx1]
  refine Finset.sum_congr rfl fun p _ => ?_
  simp only [sd1_lands_iff]

/-- A scatter-add at an index: the operand there plus the updates that land there. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j ∈ Finset.univ.filter (fun j => d.resultIdx? j idx = some i), upd j := rfl

theorem v13_eq (x1 : (⟨S1048576, .i32⟩ : BufTy).Contents (Elt Ideal)) :
    val_main_v13 (F := Ideal) x1
      = Ideal.hostScatterAdd sd1 (val_main_v11 (F := Ideal)) (val_main_v12 (F := Ideal) x1) (val_main_v10 (F := Ideal)) := by
  unfold val_main_v13
  exact Ideal.hostScatterAdd_def _ _ _ _ _

theorem v13_read (x1 : (⟨S1048576, .i32⟩ : BufTy).Contents (Elt Ideal)) (k : Fin 2048) :
    val_main_v13 (F := Ideal) x1 (ix1 k)
      = ∑ p : Fin 1048576, if x1 (ix1 p) = BitVec.ofNat 32 k.val then (1 : EReal) else 0 := by
  rw [v13_eq, hostScatterAdd_apply, sd1_sum, val_main_v11_apply, val_main_cst_2_apply, Ideal.ofBits_def,
    Ideal.ofBits_zero_f32, zero_add]
  refine Finset.sum_congr rfl fun p _ => ?_
  rw [v12_read, val_main_v10_apply, val_main_cst_1_apply, Ideal.ofBits_def, Ideal.ofBits_one_f32]
  simp only [toInt_eq_iff _ _ k.isLt]

theorem v9_eq (x0 : (⟨S1048576x64, .f32⟩ : BufTy).Contents (Elt Ideal))
    (x1 x2 : (⟨S1048576, .i32⟩ : BufTy).Contents (Elt Ideal)) :
    val_main_v9 (F := Ideal) x0 x1 x2
      = Ideal.hostScatterAdd sd2 (val_main_v7 (F := Ideal)) (val_main_v8 (F := Ideal) x1) (val_main_v6 (F := Ideal) x0 x2) := by
  unfold val_main_v9
  exact Ideal.hostScatterAdd_def _ _ _ _ _

theorem v9_read (x0 : (⟨S1048576x64, .f32⟩ : BufTy).Contents (Elt Ideal))
    (x1 x2 : (⟨S1048576, .i32⟩ : BufTy).Contents (Elt Ideal))
    (h : ∀ p : Fin 1048576, (x2 (ix1 p)).toNat < 1048576) (k : Fin 2048) (c : Fin 64) :
    val_main_v9 (F := Ideal) x0 x1 x2 (ix2 k c)
      = ∑ p : Fin 1048576, if x1 (ix1 p) = BitVec.ofNat 32 k.val then x0 (ix2 ⟨(x2 (ix1 p)).toNat, h p⟩ c) else 0 := by
  rw [v9_eq, hostScatterAdd_apply, sd2_sum, val_main_v7_apply, val_main_cst_apply, Ideal.ofBits_def,
    Ideal.ofBits_zero_f32, zero_add]
  refine Finset.sum_congr rfl fun p _ => ?_
  rw [v8_read, v6_of_lt x0 x2 p c (h p)]
  simp only [toInt_eq_iff _ _ k.isLt]

theorem v17_read (x1 : (⟨S1048576, .i32⟩ : BufTy).Contents (Elt Ideal)) (k : Fin 2048) (c : Fin 64) :
    val_main_v17 (F := Ideal) x1 (ix2 k c) = max (val_main_v13 (F := Ideal) x1 (ix1 k)) 1 := by
  rw [val_main_v17_apply, val_main_v16_apply]
  have e : idx_main_v16 (idx_main_v17 (ix2 k c : S2048x64.Idx)) = ix1 k := by
    funext a; match a with | ⟨0, _⟩ => rfl
  rw [e, val_main_v15_apply, Ideal.maximumf_def, val_main_v14_apply, val_main_cst_3_apply, Ideal.ofBits_def,
    Ideal.ofBits_one_f32]

/-- With the row numbers in range, the reference's term is the specification's mean. -/
theorem ref_eq (x0 : (⟨Cert.ReferenceIdeal.S1048576x64, .f32⟩ : BufTy).Contents (Elt Ideal))
    (x1 x2 : (⟨Cert.ReferenceIdeal.S1048576, .i32⟩ : BufTy).Contents (Elt Ideal))
    (h : Cert.Spec.InRange x2) :
    Cert.ReferenceIdeal.Read.val_main_v18 (F := Ideal) x0 x1 x2 = Cert.Spec.G x0 x1 x2 := by
  funext j
  obtain ⟨k, c, rfl⟩ : ∃ (k : Fin 2048) (c : Fin 64), j = ix2 k c := ⟨j 0, j 1, eq_ix2 j⟩
  rw [Cert.Spec.G_ix2, val_main_v18_apply, Ideal.hostDivf_def, v17_read, v13_read, v9_read x0 x1 x2 h k c]
  have hnum : (∑ p : Fin 1048576, if x1 (ix1 p) = BitVec.ofNat 32 k.val then x0 (ix2 ⟨(x2 (ix1 p)).toNat, h p⟩ c) else 0)
      = Cert.Spec.num x0 x1 x2 k c := by
    unfold Cert.Spec.num
    refine Finset.sum_congr rfl fun p _ => ?_
    by_cases hp : Cert.Spec.hit x1 k p
    · rw [if_pos hp, if_pos (show x1 (ix1 p) = BitVec.ofNat 32 k.val from hp)]
      unfold Cert.Spec.entry
      rw [dif_pos (h p)]
    · rw [if_neg hp, if_neg (show ¬ x1 (ix1 p) = BitVec.ofNat 32 k.val from hp)]
  have hcnt : (∑ p : Fin 1048576, if x1 (ix1 p) = BitVec.ofNat 32 k.val then (1 : EReal) else 0)
      = Cert.Spec.cnt x1 k := by
    unfold Cert.Spec.cnt
    refine Finset.sum_congr rfl fun p _ => ?_
    by_cases hp : Cert.Spec.hit x1 k p
    · rw [if_pos hp, if_pos (show x1 (ix1 p) = BitVec.ofNat 32 k.val from hp)]
    · rw [if_neg hp, if_neg (show ¬ x1 (ix1 p) = BitVec.ofNat 32 k.val from hp)]
  rw [hnum, hcnt]

end Cert.ReferenceIdeal.RefValue

end
-- ==== Proof.PreDecode.lean ====
import proofs.«400161_j14499809591944_4_alg».proof.Pre_finite_inputs
import proofs.«400161_j14499809591944_4_alg».proof.Proof.Gen.Pre_finite_inputs
import proofs.«400161_j14499809591944_4_alg».proof.Proof.Spec
import Idealize.ShloMosaic.Lib.ReduceAll
import Idealize.ShloMosaic.Lib.Affine

namespace Cert.PreDecode

open Idealize.ShloMosaic Idealize.ShloMosaic.ValueIdx

instance subsingleton_scalarIdx : Subsingleton Cert.Pre_finite_inputs.S_.Idx :=
  ⟨fun _ _ => funext fun d => d.elim0⟩

/-- A word whose signed value lies in [0, 1048576) has an unsigned value below 1048576. -/
theorem toNat_lt_of_signed_range {w : BitVec 32} (h0 : (0#32 : BitVec 32).toInt ≤ w.toInt)
    (h1 : w.toInt < (1048576#32 : BitVec 32).toInt) : w.toNat < 1048576 := by
  have e0 : (0#32 : BitVec 32).toInt = 0 := by decide
  have e1 : (1048576#32 : BitVec 32).toInt = 1048576 := by decide
  rw [e0] at h0
  rw [e1] at h1
  rw [BitVec.toInt_eq_toNat_cond] at h0 h1
  have hw := w.isLt
  split at h0 <;> omega

theorem word_inRange_of_tests {w : BitVec 32}
    (h : IntOp.andi (IntOp.cmpi .sge w 0#32) (IntOp.cmpi .slt w 1048576#32) = 1#1) : w.toNat < 1048576 := by
  obtain ⟨hge, hlt⟩ := IntOp.andi_eq_one.1 h
  exact toNat_lt_of_signed_range (IntOp.cmpi_sge.1 hge) (IntOp.cmpi_slt.1 hlt)

/-- The precondition's second conjunct puts every row number in range. -/
theorem inRange_of_pre {F : FTy → Type} [FloatOps F] [Cert.Pre_finite_inputs.Facts]
    (a0 : FVec F Cert.Pre_finite_inputs.S1048576x64 .f32) (a1 a2 : IVec Cert.Pre_finite_inputs.S1048576 32)
    (hpre : Cert.Pre_finite_inputs.fn (F := F) a0 a1 a2 = fun _ => 1#1) :
    Cert.Spec.InRange a2 := by
  intro p

  have j : Cert.Pre_finite_inputs.S_.Idx := fun d => d.elim0
  have h : IntOp.andi _ _ = 1#1 := congrFun hpre j

  have h2 := (IntOp.andi_eq_one.1 h).2

  have hp := Host.reduce_andi_all _ _ _ _ j h2 (ix1 p)
  exact word_inRange_of_tests hp

end Cert.PreDecode
-- ==== Proof.lean ====
import proofs.«400161_j14499809591944_4_alg».proof.Defs
import proofs.«400161_j14499809591944_4_alg».proof.Proof.Gen.Kernel
import proofs.«400161_j14499809591944_4_alg».proof.Proof.Gen.Kernel.Skeleton
import proofs.«400161_j14499809591944_4_alg».proof.Proof.Gen.Kernel.Launch
import proofs.«400161_j14499809591944_4_alg».proof.Proof.Gen.Kernel.Points
import proofs.«400161_j14499809591944_4_alg».proof.Proof.Gen.Kernel.Frame
import proofs.«400161_j14499809591944_4_alg».proof.Proof.Gen.KernelIdeal
import proofs.«400161_j14499809591944_4_alg».proof.Proof.Gen.KernelIdeal.Skeleton
import proofs.«400161_j14499809591944_4_alg».proof.Proof.Gen.KernelIdeal.Launch
import proofs.«400161_j14499809591944_4_alg».proof.Proof.Gen.KernelIdeal.Points
import proofs.«400161_j14499809591944_4_alg».proof.Proof.Gen.KernelIdeal.Frame
import proofs.«400161_j14499809591944_4_alg».proof.Proof.Gen.ReferenceIdeal
import proofs.«400161_j14499809591944_4_alg».proof.Proof.Gen.ReferenceIdeal.Run
import proofs.«400161_j14499809591944_4_alg».proof.Proof.Gen.Pre_finite_inputs
import proofs.«400161_j14499809591944_4_alg».proof.Proof.KFrame
import proofs.«400161_j14499809591944_4_alg».proof.Proof.KBlocks
import proofs.«400161_j14499809591944_4_alg».proof.Proof.KIFinal
import proofs.«400161_j14499809591944_4_alg».proof.Proof.RefValue
import proofs.«400161_j14499809591944_4_alg».proof.Proof.PreDecode
import Idealize.ShloMosaic.Adequacy
import Idealize.ShloMosaic.Init

noncomputable section

namespace Cert.Proof

open Idealize.ShloMosaic Idealize.ShloMosaic.TcCoe Idealize.SL.Sem

theorem inRange_k (m : (ℓ : Loc Cert.Kernel.nD Cert.Kernel.τ Cert.Kernel.sig) → Buf (Elt Bits) ℓ) (hpre : Cert.Pre_Kernel m)
    (c : Dev Cert.Kernel.nD) : Cert.Spec.InRange (Cert.Kernel.Hand.argCoor m c) :=
  Cert.PreDecode.inRange_of_pre (F := Bits) _ _ _ (hpre c)

theorem inRange_ki (m : (ℓ : Loc Cert.KernelIdeal.nD Cert.KernelIdeal.τ Cert.KernelIdeal.sig) → Buf (Elt Ideal) ℓ)
    (hpre : Cert.Pre_KernelIdeal m) (c : Dev Cert.KernelIdeal.nD) : Cert.Spec.InRange (Cert.KernelIdeal.Hand.argCoor m c) :=
  Cert.PreDecode.inRange_of_pre (F := Ideal) _ _ _ (hpre c)

theorem frame_k : Cert.frame_Kernel := fun m ρ hpre =>
  Cert.Kernel.Hand.frame (F := Bits) m ρ (Cert.Kernel.Hand.hyps_of_inRange m (inRange_k m hpre))

theorem frame_ki : Cert.frame_KernelIdeal := fun m ρ hpre =>
  Cert.KernelIdeal.Hand.frame (F := Ideal) m ρ (Cert.KernelIdeal.Hand.hyps_of_inRange m (inRange_ki m hpre))

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's mean of the argument arrays; the arguments agree, so the two means are one. -/
theorem algebraic : Cert.algebraic_KernelIdeal_ReferenceIdeal := by
  intro m ρ m' ρ' hpre hagree
  have hR := inRange_ki m hpre
  have hH := Cert.KernelIdeal.Hand.hyps_of_inRange m hR
  refine ⟨fun c => Cert.Spec.G (Cert.KernelIdeal.Hand.argX m c) (Cert.KernelIdeal.Hand.argSeg m c) (Cert.KernelIdeal.Hand.argCoor m c), ?_, ?_⟩
  · exact (θ_run Cert.KernelIdeal.defs _ _).mono (fun r h c =>
      ⟨(Cert.KernelIdeal.Hand.result_kept m hH r h c).trans (Cert.KernelIdeal.Hand.result_eq m hH c),
        Cert.KernelIdeal.Hand.args_kept m hH r h c⟩) (Cert.KernelIdeal.Hand.run_main (F := Ideal) m ρ hH)
  · refine (θ_run Cert.ReferenceIdeal.defs _ _).mono (fun _ h c => ⟨?_, (h c).2⟩)
      (Cert.ReferenceIdeal.Value.run (F := Ideal) m' ρ')
    have hR' : Cert.Spec.InRange (m' ((c.tc : Thread Cert.ReferenceIdeal.nD Cert.ReferenceIdeal.τ).loc Cert.ReferenceIdeal.main_arg2)) := by
      rw [(hagree c).2.2]; exact hR c
    rw [(h c).1, Cert.ReferenceIdeal.Read.val_main_v18_eq, Cert.ReferenceIdeal.RefValue.ref_eq _ _ _ hR',
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
